-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x19x512x512 .f32) (main_arg1 : IVec S8x512x512 32) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  let main_c_0 : IVec S_ 32 := constantI S_ 32 0#32
  let main_v4 : IVec S8x512x512 32 := broadcastInDim S8x512x512 ![] bcast_S_S8x512x512 main_c_0
  let main_v5 : IVec S8x512x512 1 := cmpi .sge main_arg1 main_v4
  let main_c_1 : IVec S_ 32 := constantI S_ 32 18#32
  let main_v6 : IVec S8x512x512 32 := broadcastInDim S8x512x512 ![] bcast_S_S8x512x512 main_c_1
  let main_v7 : IVec S8x512x512 1 := cmpi .sle main_arg1 main_v6
  let main_v8 : IVec S8x512x512 1 := andi main_v5 main_v7
  let main_c_2 : IVec S_ 1 := constantI S_ 1 1#1
  let main_v9 : IVec S_ 1 := (fun x v => Host.reduce IntOp.andi x v reducesTo_S8x512x512_S_d0_1_2 h_S_) main_v8 main_c_2
  let main_v10 : IVec S_ 1 := andi main_v3 main_v9
  main_v10
-- ==== Kernel.lean ====
abbrev S8x19x512x512 : Shape := ⟨4, ![8, 19, 512, 512]⟩
abbrev S8x512x512 : Shape := ⟨3, ![8, 512, 512]⟩
abbrev S61440 : Shape := ⟨1, ![61440]⟩
abbrev S32x512 : Shape := ⟨2, ![32, 512]⟩
abbrev S16x512 : Shape := ⟨2, ![16, 512]⟩
abbrev S1920 : Shape := ⟨1, ![1920]⟩
abbrev S_ : Shape := ⟨0, ![]⟩
abbrev S1x16x512 : Shape := ⟨3, ![1, 16, 512]⟩
abbrev S1x1x16x512 : Shape := ⟨4, ![1, 1, 16, 512]⟩
abbrev S16 : Shape := ⟨1, ![16]⟩
abbrev S1x16 : Shape := ⟨2, ![1, 16]⟩
abbrev S6x1x128 : Shape := ⟨3, ![6, 1, 128]⟩
abbrev S1x19x256x512 : Shape := ⟨4, ![1, 19, 256, 512]⟩
abbrev S1x256x512 : Shape := ⟨3, ![1, 256, 512]⟩
abbrev S1x1x128 : Shape := ⟨3, ![1, 1, 128]⟩
abbrev S19x8x512 : Shape := ⟨3, ![19, 8, 512]⟩
abbrev S256x512 : Shape := ⟨2, ![256, 512]⟩
abbrev S1x1x256x512 : Shape := ⟨4, ![1, 1, 256, 512]⟩
abbrev S32x8x512 : Shape := ⟨3, ![32, 8, 512]⟩
abbrev S8x512 : Shape := ⟨2, ![8, 512]⟩
abbrev S1x8x512 : Shape := ⟨3, ![1, 8, 512]⟩
abbrev S19 : Shape := ⟨1, ![19]⟩
abbrev S1x19 : Shape := ⟨2, ![1, 19]⟩
abbrev S1 : Shape := ⟨1, ![1]⟩
abbrev S1x1 : Shape := ⟨2, ![1, 1]⟩
abbrev S128 : Shape := ⟨1, ![128]⟩
abbrev S6x1x1 : Shape := ⟨3, ![6, 1, 1]⟩
abbrev S6 : Shape := ⟨1, ![6]⟩
abbrev S32x3x40x16 : Shape := ⟨4, ![32, 3, 40, 16]⟩
abbrev S3x40 : Shape := ⟨2, ![3, 40]⟩
abbrev S1x38 : Shape := ⟨2, ![1, 38]⟩
abbrev S38 : Shape := ⟨1, ![38]⟩
abbrev S2x19 : Shape := ⟨2, ![2, 19]⟩
abbrev S2 : Shape := ⟨1, ![2]⟩
abbrev S8 : Shape := ⟨1, ![8]⟩

abbrev nBuf : Table → Nat
  | .hbm => 36
  | .local .tc .vmem => 9
  | .local .scVector .vmem => 4
  | _ => 0

abbrev bufTy : (tb : Table) → Fin (nBuf tb) → BufTy
  | .hbm, ⟨0, _⟩ => ⟨S8x19x512x512, .f32⟩
  | .hbm, ⟨1, _⟩ => ⟨S8x512x512, .i32⟩
  | .hbm, ⟨2, _⟩ => ⟨S61440, .f32⟩
  | .hbm, ⟨3, _⟩ => ⟨S6x1x128, .f32⟩
  | .hbm, ⟨4, _⟩ => ⟨S6x1x1, .f32⟩
  | .hbm, ⟨5, _⟩ => ⟨S6, .f32⟩
  | .hbm, ⟨6, _⟩ => ⟨S32x3x40x16, .f32⟩
  | .hbm, ⟨7, _⟩ => ⟨S_, .f32⟩
  | .hbm, ⟨8, _⟩ => ⟨S3x40, .f32⟩
  | .hbm, ⟨9, _⟩ => ⟨S1x38, .f32⟩
  | .hbm, ⟨10, _⟩ => ⟨S38, .f32⟩
  | .hbm, ⟨11, _⟩ => ⟨S2x19, .f32⟩
  | .hbm, ⟨12, _⟩ => ⟨S1x38, .f32⟩
  | .hbm, ⟨13, _⟩ => ⟨S38, .f32⟩
  | .hbm, ⟨14, _⟩ => ⟨S2x19, .f32⟩
  | .hbm, ⟨15, _⟩ => ⟨S1x38, .f32⟩
  | .hbm, ⟨16, _⟩ => ⟨S38, .f32⟩
  | .hbm, ⟨17, _⟩ => ⟨S2x19, .f32⟩
  | .hbm, ⟨18, _⟩ => ⟨S_, .f32⟩
  | .hbm, ⟨19, _⟩ => ⟨S2x19, .f32⟩
  | .hbm, ⟨20, _⟩ => ⟨S2x19, .f32⟩
  | .hbm, ⟨21, _⟩ => ⟨S_, .f32⟩
  | .hbm, ⟨22, _⟩ => ⟨S2x19, .f32⟩
  | .hbm, ⟨23, _⟩ => ⟨S2x19, .f32⟩
  | .hbm, ⟨24, _⟩ => ⟨S2x19, .f32⟩
  | .hbm, ⟨25, _⟩ => ⟨S_, .f32⟩
  | .hbm, ⟨26, _⟩ => ⟨S2x19, .f32⟩
  | .hbm, ⟨27, _⟩ => ⟨S2x19, .f32⟩
  | .hbm, ⟨28, _⟩ => ⟨S2x19, .f32⟩
  | .hbm, ⟨29, _⟩ => ⟨S_, .f32⟩
  | .hbm, ⟨30, _⟩ => ⟨S2, .f32⟩
  | .hbm, ⟨31, _⟩ => ⟨S_, .f32⟩
  | .hbm, ⟨32, _⟩ => ⟨S2, .f32⟩
  | .hbm, ⟨33, _⟩ => ⟨S2, .f32⟩
  | .hbm, ⟨34, _⟩ => ⟨S2, .f32⟩
  | .hbm, ⟨35, _⟩ => ⟨S8, .f32⟩
  | .local .tc .vmem, ⟨0, _⟩ => ⟨S1x19x256x512, .f32⟩
  | .local .tc .vmem, ⟨1, _⟩ => ⟨S1x19x256x512, .f32⟩
  | .local .tc .vmem, ⟨2, _⟩ => ⟨S1x256x512, .i32⟩
  | .local .tc .vmem, ⟨3, _⟩ => ⟨S1x256x512, .i32⟩
  | .local .tc .vmem, ⟨4, _⟩ => ⟨S1x1x128, .f32⟩
  | .local .tc .vmem, ⟨5, _⟩ => ⟨S1x1x128, .f32⟩
  | .local .tc .vmem, ⟨6, _⟩ => ⟨S19x8x512, .f32⟩
  | .local .tc .vmem, ⟨7, _⟩ => ⟨S19x8x512, .f32⟩
  | .local .tc .vmem, ⟨8, _⟩ => ⟨S19x8x512, .f32⟩
  | .local .scVector .vmem, ⟨0, _⟩ => ⟨S32x512, .i32⟩
  | .local .scVector .vmem, ⟨1, _⟩ => ⟨S16x512, .f32⟩
  | .local .scVector .vmem, ⟨2, _⟩ => ⟨S16x512, .f32⟩
  | .local .scVector .vmem, ⟨3, _⟩ => ⟨S1920, .f32⟩
  | _, _ => ⟨S8x19x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_scratch0 : Ref sig .tc := ⟨.vmem, 6, rfl⟩
abbrev cc1_scratch1 : Ref sig .tc := ⟨.vmem, 7, rfl⟩
abbrev cc1_scratch2 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_1 : BitVec 32 := 0#32
  ![6, v2.toNat, 0]
def k0_off2 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_7 : BitVec 32 := 0#32
  ![7, v2.toNat, 0]
def k0_off3 (i : grid0.Coords) : Fin 4 → Nat :=
  let c6_i32_11 : BitVec 32 := 6#32
  let c0_i32_12 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_13 : BitVec 32 := 0#32
  ![6, 0, v2.toNat, 0]
def k0_off4 (i : grid0.Coords) : Fin 4 → Nat :=
  let c6_i32_29 : BitVec 32 := 6#32
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_30 : BitVec 32 := 0#32
  ![6, 1, v2.toNat, 0]
@[reducible] def k0_t1_loop : Scf.Loop 32 :=
  let c0_i32_36 : BitVec 32 := 0#32
  let c256_i32 : BitVec 32 := 256#32
  let v40 : BitVec 32 := Scalar.addi c0_i32_36 c256_i32
  let c1_i32_37 : BitVec 32 := 1#32
  ⟨c0_i32_36, v40, c1_i32_37⟩
def k0_off5 (k0_t1 : Fin k0_t1_loop.trips) : Fin 2 → Nat :=
  let c0_i32_36 : BitVec 32 := 0#32
  let c1_i32_37 : BitVec 32 := 1#32
  let arg13 : BitVec 32 := Scf.iv c0_i32_36 c1_i32_37 k0_t1
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off6 (k0_t1 : Fin k0_t1_loop.trips) : Fin 2 → Nat :=
  let c0_i32_468 : BitVec 32 := 0#32
  let c0_i32_36 : BitVec 32 := 0#32
  let c1_i32_37 : BitVec 32 := 1#32
  let arg13 : BitVec 32 := Scf.iv c0_i32_36 c1_i32_37 k0_t1
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off7 (k0_t1 : Fin k0_t1_loop.trips) : Fin 2 → Nat :=
  let c0_i32_36 : BitVec 32 := 0#32
  let c1_i32_37 : BitVec 32 := 1#32
  let arg13 : BitVec 32 := Scf.iv c0_i32_36 c1_i32_37 k0_t1
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off8 (k0_t1 : Fin k0_t1_loop.trips) : Fin 2 → Nat :=
  let c0_i32_470 : BitVec 32 := 0#32
  let c0_i32_36 : BitVec 32 := 0#32
  let c1_i32_37 : BitVec 32 := 1#32
  let arg13 : BitVec 32 := Scf.iv c0_i32_36 c1_i32_37 k0_t1
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off9 (i : grid0.Coords) : Fin 4 → Nat :=
  let c6_i32_39 : BitVec 32 := 6#32
  let c2_i32_40 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_41 : BitVec 32 := 0#32
  ![6, 2, v2.toNat, 0]
@[reducible] def k0_t2_loop : Scf.Loop 32 :=
  let c0_i32_47 : BitVec 32 := 0#32
  let c256_i32_48 : BitVec 32 := 256#32
  let v62 : BitVec 32 := Scalar.addi c0_i32_47 c256_i32_48
  let c1_i32_49 : BitVec 32 := 1#32
  ⟨c0_i32_47, v62, c1_i32_49⟩
def k0_off10 (k0_t2 : Fin k0_t2_loop.trips) : Fin 2 → Nat :=
  let c0_i32_47 : BitVec 32 := 0#32
  let c1_i32_49 : BitVec 32 := 1#32
  let arg13 : BitVec 32 := Scf.iv c0_i32_47 c1_i32_49 k0_t2
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off11 (k0_t2 : Fin k0_t2_loop.trips) : Fin 2 → Nat :=
  let c0_i32_468 : BitVec 32 := 0#32
  let c0_i32_47 : BitVec 32 := 0#32
  let c1_i32_49 : BitVec 32 := 1#32
  let arg13 : BitVec 32 := Scf.iv c0_i32_47 c1_i32_49 k0_t2
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off12 (k0_t2 : Fin k0_t2_loop.trips) : Fin 2 → Nat :=
  let c0_i32_47 : BitVec 32 := 0#32
  let c1_i32_49 : BitVec 32 := 1#32
  let arg13 : BitVec 32 := Scf.iv c0_i32_47 c1_i32_49 k0_t2
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off13 (k0_t2 : Fin k0_t2_loop.trips) : Fin 2 → Nat :=
  let c0_i32_470 : BitVec 32 := 0#32
  let c0_i32_47 : BitVec 32 := 0#32
  let c1_i32_49 : BitVec 32 := 1#32
  let arg13 : BitVec 32 := Scf.iv c0_i32_47 c1_i32_49 k0_t2
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off14 (i : grid0.Coords) : Fin 4 → Nat :=
  let c6_i32_51 : BitVec 32 := 6#32
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_52 : BitVec 32 := 0#32
  ![6, 3, v2.toNat, 0]
@[reducible] def k0_t3_loop : Scf.Loop 32 :=
  let c0_i32_58 : BitVec 32 := 0#32
  let c256_i32_59 : BitVec 32 := 256#32
  let v84 : BitVec 32 := Scalar.addi c0_i32_58 c256_i32_59
  let c1_i32_60 : BitVec 32 := 1#32
  ⟨c0_i32_58, v84, c1_i32_60⟩
def k0_off15 (k0_t3 : Fin k0_t3_loop.trips) : Fin 2 → Nat :=
  let c0_i32_58 : BitVec 32 := 0#32
  let c1_i32_60 : BitVec 32 := 1#32
  let arg13 : BitVec 32 := Scf.iv c0_i32_58 c1_i32_60 k0_t3
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off16 (k0_t3 : Fin k0_t3_loop.trips) : Fin 2 → Nat :=
  let c0_i32_468 : BitVec 32 := 0#32
  let c0_i32_58 : BitVec 32 := 0#32
  let c1_i32_60 : BitVec 32 := 1#32
  let arg13 : BitVec 32 := Scf.iv c0_i32_58 c1_i32_60 k0_t3
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off17 (k0_t3 : Fin k0_t3_loop.trips) : Fin 2 → Nat :=
  let c0_i32_58 : BitVec 32 := 0#32
  let c1_i32_60 : BitVec 32 := 1#32
  let arg13 : BitVec 32 := Scf.iv c0_i32_58 c1_i32_60 k0_t3
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off18 (k0_t3 : Fin k0_t3_loop.trips) : Fin 2 → Nat :=
  let c0_i32_470 : BitVec 32 := 0#32
  let c0_i32_58 : BitVec 32 := 0#32
  let c1_i32_60 : BitVec 32 := 1#32
  let arg13 : BitVec 32 := Scf.iv c0_i32_58 c1_i32_60 k0_t3
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off19 (i : grid0.Coords) : Fin 4 → Nat :=
  let c6_i32_62 : BitVec 32 := 6#32
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_63 : BitVec 32 := 0#32
  ![6, 4, v2.toNat, 0]
@[reducible] def k0_t4_loop : Scf.Loop 32 :=
  let c0_i32_69 : BitVec 32 := 0#32
  let c256_i32_70 : BitVec 32 := 256#32
  let v106 : BitVec 32 := Scalar.addi c0_i32_69 c256_i32_70
  let c1_i32_71 : BitVec 32 := 1#32
  ⟨c0_i32_69, v106, c1_i32_71⟩
def k0_off20 (k0_t4 : Fin k0_t4_loop.trips) : Fin 2 → Nat :=
  let c0_i32_69 : BitVec 32 := 0#32
  let c1_i32_71 : BitVec 32 := 1#32
  let arg13 : BitVec 32 := Scf.iv c0_i32_69 c1_i32_71 k0_t4
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off21 (k0_t4 : Fin k0_t4_loop.trips) : Fin 2 → Nat :=
  let c0_i32_468 : BitVec 32 := 0#32
  let c0_i32_69 : BitVec 32 := 0#32
  let c1_i32_71 : BitVec 32 := 1#32
  let arg13 : BitVec 32 := Scf.iv c0_i32_69 c1_i32_71 k0_t4
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off22 (k0_t4 : Fin k0_t4_loop.trips) : Fin 2 → Nat :=
  let c0_i32_69 : BitVec 32 := 0#32
  let c1_i32_71 : BitVec 32 := 1#32
  let arg13 : BitVec 32 := Scf.iv c0_i32_69 c1_i32_71 k0_t4
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off23 (k0_t4 : Fin k0_t4_loop.trips) : Fin 2 → Nat :=
  let c0_i32_470 : BitVec 32 := 0#32
  let c0_i32_69 : BitVec 32 := 0#32
  let c1_i32_71 : BitVec 32 := 1#32
  let arg13 : BitVec 32 := Scf.iv c0_i32_69 c1_i32_71 k0_t4
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off24 (i : grid0.Coords) : Fin 4 → Nat :=
  let c6_i32_73 : BitVec 32 := 6#32
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_74 : BitVec 32 := 0#32
  ![6, 5, v2.toNat, 0]
@[reducible] def k0_t5_loop : Scf.Loop 32 :=
  let c0_i32_80 : BitVec 32 := 0#32
  let c256_i32_81 : BitVec 32 := 256#32
  let v128 : BitVec 32 := Scalar.addi c0_i32_80 c256_i32_81
  let c1_i32_82 : BitVec 32 := 1#32
  ⟨c0_i32_80, v128, c1_i32_82⟩
def k0_off25 (k0_t5 : Fin k0_t5_loop.trips) : Fin 2 → Nat :=
  let c0_i32_80 : BitVec 32 := 0#32
  let c1_i32_82 : BitVec 32 := 1#32
  let arg13 : BitVec 32 := Scf.iv c0_i32_80 c1_i32_82 k0_t5
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off26 (k0_t5 : Fin k0_t5_loop.trips) : Fin 2 → Nat :=
  let c0_i32_468 : BitVec 32 := 0#32
  let c0_i32_80 : BitVec 32 := 0#32
  let c1_i32_82 : BitVec 32 := 1#32
  let arg13 : BitVec 32 := Scf.iv c0_i32_80 c1_i32_82 k0_t5
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off27 (k0_t5 : Fin k0_t5_loop.trips) : Fin 2 → Nat :=
  let c0_i32_80 : BitVec 32 := 0#32
  let c1_i32_82 : BitVec 32 := 1#32
  let arg13 : BitVec 32 := Scf.iv c0_i32_80 c1_i32_82 k0_t5
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off28 (k0_t5 : Fin k0_t5_loop.trips) : Fin 2 → Nat :=
  let c0_i32_470 : BitVec 32 := 0#32
  let c0_i32_80 : BitVec 32 := 0#32
  let c1_i32_82 : BitVec 32 := 1#32
  let arg13 : BitVec 32 := Scf.iv c0_i32_80 c1_i32_82 k0_t5
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off29 (i : grid0.Coords) : Fin 4 → Nat :=
  let c6_i32_84 : BitVec 32 := 6#32
  let c6_i32_85 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_86 : BitVec 32 := 0#32
  ![6, 6, v2.toNat, 0]
@[reducible] def k0_t6_loop : Scf.Loop 32 :=
  let c0_i32_92 : BitVec 32 := 0#32
  let c256_i32_93 : BitVec 32 := 256#32
  let v150 : BitVec 32 := Scalar.addi c0_i32_92 c256_i32_93
  let c1_i32_94 : BitVec 32 := 1#32
  ⟨c0_i32_92, v150, c1_i32_94⟩
def k0_off30 (k0_t6 : Fin k0_t6_loop.trips) : Fin 2 → Nat :=
  let c0_i32_92 : BitVec 32 := 0#32
  let c1_i32_94 : BitVec 32 := 1#32
  let arg13 : BitVec 32 := Scf.iv c0_i32_92 c1_i32_94 k0_t6
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off31 (k0_t6 : Fin k0_t6_loop.trips) : Fin 2 → Nat :=
  let c0_i32_468 : BitVec 32 := 0#32
  let c0_i32_92 : BitVec 32 := 0#32
  let c1_i32_94 : BitVec 32 := 1#32
  let arg13 : BitVec 32 := Scf.iv c0_i32_92 c1_i32_94 k0_t6
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off32 (k0_t6 : Fin k0_t6_loop.trips) : Fin 2 → Nat :=
  let c0_i32_92 : BitVec 32 := 0#32
  let c1_i32_94 : BitVec 32 := 1#32
  let arg13 : BitVec 32 := Scf.iv c0_i32_92 c1_i32_94 k0_t6
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off33 (k0_t6 : Fin k0_t6_loop.trips) : Fin 2 → Nat :=
  let c0_i32_470 : BitVec 32 := 0#32
  let c0_i32_92 : BitVec 32 := 0#32
  let c1_i32_94 : BitVec 32 := 1#32
  let arg13 : BitVec 32 := Scf.iv c0_i32_92 c1_i32_94 k0_t6
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off34 (i : grid0.Coords) : Fin 4 → Nat :=
  let c6_i32_96 : BitVec 32 := 6#32
  let c7_i32_97 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_98 : BitVec 32 := 0#32
  ![6, 7, v2.toNat, 0]
@[reducible] def k0_t7_loop : Scf.Loop 32 :=
  let c0_i32_104 : BitVec 32 := 0#32
  let c256_i32_105 : BitVec 32 := 256#32
  let v172 : BitVec 32 := Scalar.addi c0_i32_104 c256_i32_105
  let c1_i32_106 : BitVec 32 := 1#32
  ⟨c0_i32_104, v172, c1_i32_106⟩
def k0_off35 (k0_t7 : Fin k0_t7_loop.trips) : Fin 2 → Nat :=
  let c0_i32_104 : BitVec 32 := 0#32
  let c1_i32_106 : BitVec 32 := 1#32
  let arg13 : BitVec 32 := Scf.iv c0_i32_104 c1_i32_106 k0_t7
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off36 (k0_t7 : Fin k0_t7_loop.trips) : Fin 2 → Nat :=
  let c0_i32_468 : BitVec 32 := 0#32
  let c0_i32_104 : BitVec 32 := 0#32
  let c1_i32_106 : BitVec 32 := 1#32
  let arg13 : BitVec 32 := Scf.iv c0_i32_104 c1_i32_106 k0_t7
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off37 (k0_t7 : Fin k0_t7_loop.trips) : Fin 2 → Nat :=
  let c0_i32_104 : BitVec 32 := 0#32
  let c1_i32_106 : BitVec 32 := 1#32
  let arg13 : BitVec 32 := Scf.iv c0_i32_104 c1_i32_106 k0_t7
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off38 (k0_t7 : Fin k0_t7_loop.trips) : Fin 2 → Nat :=
  let c0_i32_470 : BitVec 32 := 0#32
  let c0_i32_104 : BitVec 32 := 0#32
  let c1_i32_106 : BitVec 32 := 1#32
  let arg13 : BitVec 32 := Scf.iv c0_i32_104 c1_i32_106 k0_t7
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off39 (i : grid0.Coords) : Fin 4 → Nat :=
  let c6_i32_108 : BitVec 32 := 6#32
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_109 : BitVec 32 := 0#32
  ![6, 8, v2.toNat, 0]
@[reducible] def k0_t8_loop : Scf.Loop 32 :=
  let c0_i32_115 : BitVec 32 := 0#32
  let c256_i32_116 : BitVec 32 := 256#32
  let v194 : BitVec 32 := Scalar.addi c0_i32_115 c256_i32_116
  let c1_i32_117 : BitVec 32 := 1#32
  ⟨c0_i32_115, v194, c1_i32_117⟩
def k0_off40 (k0_t8 : Fin k0_t8_loop.trips) : Fin 2 → Nat :=
  let c0_i32_115 : BitVec 32 := 0#32
  let c1_i32_117 : BitVec 32 := 1#32
  let arg13 : BitVec 32 := Scf.iv c0_i32_115 c1_i32_117 k0_t8
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off41 (k0_t8 : Fin k0_t8_loop.trips) : Fin 2 → Nat :=
  let c0_i32_468 : BitVec 32 := 0#32
  let c0_i32_115 : BitVec 32 := 0#32
  let c1_i32_117 : BitVec 32 := 1#32
  let arg13 : BitVec 32 := Scf.iv c0_i32_115 c1_i32_117 k0_t8
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off42 (k0_t8 : Fin k0_t8_loop.trips) : Fin 2 → Nat :=
  let c0_i32_115 : BitVec 32 := 0#32
  let c1_i32_117 : BitVec 32 := 1#32
  let arg13 : BitVec 32 := Scf.iv c0_i32_115 c1_i32_117 k0_t8
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off43 (k0_t8 : Fin k0_t8_loop.trips) : Fin 2 → Nat :=
  let c0_i32_470 : BitVec 32 := 0#32
  let c0_i32_115 : BitVec 32 := 0#32
  let c1_i32_117 : BitVec 32 := 1#32
  let arg13 : BitVec 32 := Scf.iv c0_i32_115 c1_i32_117 k0_t8
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off44 (i : grid0.Coords) : Fin 4 → Nat :=
  let c6_i32_119 : BitVec 32 := 6#32
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_120 : BitVec 32 := 0#32
  ![6, 9, v2.toNat, 0]
@[reducible] def k0_t9_loop : Scf.Loop 32 :=
  let c0_i32_126 : BitVec 32 := 0#32
  let c256_i32_127 : BitVec 32 := 256#32
  let v216 : BitVec 32 := Scalar.addi c0_i32_126 c256_i32_127
  let c1_i32_128 : BitVec 32 := 1#32
  ⟨c0_i32_126, v216, c1_i32_128⟩
def k0_off45 (k0_t9 : Fin k0_t9_loop.trips) : Fin 2 → Nat :=
  let c0_i32_126 : BitVec 32 := 0#32
  let c1_i32_128 : BitVec 32 := 1#32
  let arg13 : BitVec 32 := Scf.iv c0_i32_126 c1_i32_128 k0_t9
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off46 (k0_t9 : Fin k0_t9_loop.trips) : Fin 2 → Nat :=
  let c0_i32_468 : BitVec 32 := 0#32
  let c0_i32_126 : BitVec 32 := 0#32
  let c1_i32_128 : BitVec 32 := 1#32
  let arg13 : BitVec 32 := Scf.iv c0_i32_126 c1_i32_128 k0_t9
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off47 (k0_t9 : Fin k0_t9_loop.trips) : Fin 2 → Nat :=
  let c0_i32_126 : BitVec 32 := 0#32
  let c1_i32_128 : BitVec 32 := 1#32
  let arg13 : BitVec 32 := Scf.iv c0_i32_126 c1_i32_128 k0_t9
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off48 (k0_t9 : Fin k0_t9_loop.trips) : Fin 2 → Nat :=
  let c0_i32_470 : BitVec 32 := 0#32
  let c0_i32_126 : BitVec 32 := 0#32
  let c1_i32_128 : BitVec 32 := 1#32
  let arg13 : BitVec 32 := Scf.iv c0_i32_126 c1_i32_128 k0_t9
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off49 (i : grid0.Coords) : Fin 4 → Nat :=
  let c6_i32_130 : BitVec 32 := 6#32
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_131 : BitVec 32 := 0#32
  ![6, 10, v2.toNat, 0]
@[reducible] def k0_t10_loop : Scf.Loop 32 :=
  let c0_i32_137 : BitVec 32 := 0#32
  let c256_i32_138 : BitVec 32 := 256#32
  let v238 : BitVec 32 := Scalar.addi c0_i32_137 c256_i32_138
  let c1_i32_139 : BitVec 32 := 1#32
  ⟨c0_i32_137, v238, c1_i32_139⟩
def k0_off50 (k0_t10 : Fin k0_t10_loop.trips) : Fin 2 → Nat :=
  let c0_i32_137 : BitVec 32 := 0#32
  let c1_i32_139 : BitVec 32 := 1#32
  let arg13 : BitVec 32 := Scf.iv c0_i32_137 c1_i32_139 k0_t10
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off51 (k0_t10 : Fin k0_t10_loop.trips) : Fin 2 → Nat :=
  let c0_i32_468 : BitVec 32 := 0#32
  let c0_i32_137 : BitVec 32 := 0#32
  let c1_i32_139 : BitVec 32 := 1#32
  let arg13 : BitVec 32 := Scf.iv c0_i32_137 c1_i32_139 k0_t10
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off52 (k0_t10 : Fin k0_t10_loop.trips) : Fin 2 → Nat :=
  let c0_i32_137 : BitVec 32 := 0#32
  let c1_i32_139 : BitVec 32 := 1#32
  let arg13 : BitVec 32 := Scf.iv c0_i32_137 c1_i32_139 k0_t10
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off53 (k0_t10 : Fin k0_t10_loop.trips) : Fin 2 → Nat :=
  let c0_i32_470 : BitVec 32 := 0#32
  let c0_i32_137 : BitVec 32 := 0#32
  let c1_i32_139 : BitVec 32 := 1#32
  let arg13 : BitVec 32 := Scf.iv c0_i32_137 c1_i32_139 k0_t10
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off54 (i : grid0.Coords) : Fin 4 → Nat :=
  let c6_i32_141 : BitVec 32 := 6#32
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_142 : BitVec 32 := 0#32
  ![6, 11, v2.toNat, 0]
@[reducible] def k0_t11_loop : Scf.Loop 32 :=
  let c0_i32_148 : BitVec 32 := 0#32
  let c256_i32_149 : BitVec 32 := 256#32
  let v260 : BitVec 32 := Scalar.addi c0_i32_148 c256_i32_149
  let c1_i32_150 : BitVec 32 := 1#32
  ⟨c0_i32_148, v260, c1_i32_150⟩
def k0_off55 (k0_t11 : Fin k0_t11_loop.trips) : Fin 2 → Nat :=
  let c0_i32_148 : BitVec 32 := 0#32
  let c1_i32_150 : BitVec 32 := 1#32
  let arg13 : BitVec 32 := Scf.iv c0_i32_148 c1_i32_150 k0_t11
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off56 (k0_t11 : Fin k0_t11_loop.trips) : Fin 2 → Nat :=
  let c0_i32_468 : BitVec 32 := 0#32
  let c0_i32_148 : BitVec 32 := 0#32
  let c1_i32_150 : BitVec 32 := 1#32
  let arg13 : BitVec 32 := Scf.iv c0_i32_148 c1_i32_150 k0_t11
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off57 (k0_t11 : Fin k0_t11_loop.trips) : Fin 2 → Nat :=
  let c0_i32_148 : BitVec 32 := 0#32
  let c1_i32_150 : BitVec 32 := 1#32
  let arg13 : BitVec 32 := Scf.iv c0_i32_148 c1_i32_150 k0_t11
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off58 (k0_t11 : Fin k0_t11_loop.trips) : Fin 2 → Nat :=
  let c0_i32_470 : BitVec 32 := 0#32
  let c0_i32_148 : BitVec 32 := 0#32
  let c1_i32_150 : BitVec 32 := 1#32
  let arg13 : BitVec 32 := Scf.iv c0_i32_148 c1_i32_150 k0_t11
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off59 (i : grid0.Coords) : Fin 4 → Nat :=
  let c6_i32_152 : BitVec 32 := 6#32
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_153 : BitVec 32 := 0#32
  ![6, 12, v2.toNat, 0]
@[reducible] def k0_t12_loop : Scf.Loop 32 :=
  let c0_i32_159 : BitVec 32 := 0#32
  let c256_i32_160 : BitVec 32 := 256#32
  let v282 : BitVec 32 := Scalar.addi c0_i32_159 c256_i32_160
  let c1_i32_161 : BitVec 32 := 1#32
  ⟨c0_i32_159, v282, c1_i32_161⟩
def k0_off60 (k0_t12 : Fin k0_t12_loop.trips) : Fin 2 → Nat :=
  let c0_i32_159 : BitVec 32 := 0#32
  let c1_i32_161 : BitVec 32 := 1#32
  let arg13 : BitVec 32 := Scf.iv c0_i32_159 c1_i32_161 k0_t12
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off61 (k0_t12 : Fin k0_t12_loop.trips) : Fin 2 → Nat :=
  let c0_i32_468 : BitVec 32 := 0#32
  let c0_i32_159 : BitVec 32 := 0#32
  let c1_i32_161 : BitVec 32 := 1#32
  let arg13 : BitVec 32 := Scf.iv c0_i32_159 c1_i32_161 k0_t12
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off62 (k0_t12 : Fin k0_t12_loop.trips) : Fin 2 → Nat :=
  let c0_i32_159 : BitVec 32 := 0#32
  let c1_i32_161 : BitVec 32 := 1#32
  let arg13 : BitVec 32 := Scf.iv c0_i32_159 c1_i32_161 k0_t12
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off63 (k0_t12 : Fin k0_t12_loop.trips) : Fin 2 → Nat :=
  let c0_i32_470 : BitVec 32 := 0#32
  let c0_i32_159 : BitVec 32 := 0#32
  let c1_i32_161 : BitVec 32 := 1#32
  let arg13 : BitVec 32 := Scf.iv c0_i32_159 c1_i32_161 k0_t12
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off64 (i : grid0.Coords) : Fin 4 → Nat :=
  let c6_i32_163 : BitVec 32 := 6#32
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_164 : BitVec 32 := 0#32
  ![6, 13, v2.toNat, 0]
@[reducible] def k0_t13_loop : Scf.Loop 32 :=
  let c0_i32_170 : BitVec 32 := 0#32
  let c256_i32_171 : BitVec 32 := 256#32
  let v304 : BitVec 32 := Scalar.addi c0_i32_170 c256_i32_171
  let c1_i32_172 : BitVec 32 := 1#32
  ⟨c0_i32_170, v304, c1_i32_172⟩
def k0_off65 (k0_t13 : Fin k0_t13_loop.trips) : Fin 2 → Nat :=
  let c0_i32_170 : BitVec 32 := 0#32
  let c1_i32_172 : BitVec 32 := 1#32
  let arg13 : BitVec 32 := Scf.iv c0_i32_170 c1_i32_172 k0_t13
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off66 (k0_t13 : Fin k0_t13_loop.trips) : Fin 2 → Nat :=
  let c0_i32_468 : BitVec 32 := 0#32
  let c0_i32_170 : BitVec 32 := 0#32
  let c1_i32_172 : BitVec 32 := 1#32
  let arg13 : BitVec 32 := Scf.iv c0_i32_170 c1_i32_172 k0_t13
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off67 (k0_t13 : Fin k0_t13_loop.trips) : Fin 2 → Nat :=
  let c0_i32_170 : BitVec 32 := 0#32
  let c1_i32_172 : BitVec 32 := 1#32
  let arg13 : BitVec 32 := Scf.iv c0_i32_170 c1_i32_172 k0_t13
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off68 (k0_t13 : Fin k0_t13_loop.trips) : Fin 2 → Nat :=
  let c0_i32_470 : BitVec 32 := 0#32
  let c0_i32_170 : BitVec 32 := 0#32
  let c1_i32_172 : BitVec 32 := 1#32
  let arg13 : BitVec 32 := Scf.iv c0_i32_170 c1_i32_172 k0_t13
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off69 (i : grid0.Coords) : Fin 4 → Nat :=
  let c6_i32_174 : BitVec 32 := 6#32
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_175 : BitVec 32 := 0#32
  ![6, 14, v2.toNat, 0]
@[reducible] def k0_t14_loop : Scf.Loop 32 :=
  let c0_i32_181 : BitVec 32 := 0#32
  let c256_i32_182 : BitVec 32 := 256#32
  let v326 : BitVec 32 := Scalar.addi c0_i32_181 c256_i32_182
  let c1_i32_183 : BitVec 32 := 1#32
  ⟨c0_i32_181, v326, c1_i32_183⟩
def k0_off70 (k0_t14 : Fin k0_t14_loop.trips) : Fin 2 → Nat :=
  let c0_i32_181 : BitVec 32 := 0#32
  let c1_i32_183 : BitVec 32 := 1#32
  let arg13 : BitVec 32 := Scf.iv c0_i32_181 c1_i32_183 k0_t14
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off71 (k0_t14 : Fin k0_t14_loop.trips) : Fin 2 → Nat :=
  let c0_i32_468 : BitVec 32 := 0#32
  let c0_i32_181 : BitVec 32 := 0#32
  let c1_i32_183 : BitVec 32 := 1#32
  let arg13 : BitVec 32 := Scf.iv c0_i32_181 c1_i32_183 k0_t14
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off72 (k0_t14 : Fin k0_t14_loop.trips) : Fin 2 → Nat :=
  let c0_i32_181 : BitVec 32 := 0#32
  let c1_i32_183 : BitVec 32 := 1#32
  let arg13 : BitVec 32 := Scf.iv c0_i32_181 c1_i32_183 k0_t14
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off73 (k0_t14 : Fin k0_t14_loop.trips) : Fin 2 → Nat :=
  let c0_i32_470 : BitVec 32 := 0#32
  let c0_i32_181 : BitVec 32 := 0#32
  let c1_i32_183 : BitVec 32 := 1#32
  let arg13 : BitVec 32 := Scf.iv c0_i32_181 c1_i32_183 k0_t14
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off74 (i : grid0.Coords) : Fin 4 → Nat :=
  let c6_i32_185 : BitVec 32 := 6#32
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_186 : BitVec 32 := 0#32
  ![6, 15, v2.toNat, 0]
@[reducible] def k0_t15_loop : Scf.Loop 32 :=
  let c0_i32_192 : BitVec 32 := 0#32
  let c256_i32_193 : BitVec 32 := 256#32
  let v348 : BitVec 32 := Scalar.addi c0_i32_192 c256_i32_193
  let c1_i32_194 : BitVec 32 := 1#32
  ⟨c0_i32_192, v348, c1_i32_194⟩
def k0_off75 (k0_t15 : Fin k0_t15_loop.trips) : Fin 2 → Nat :=
  let c0_i32_192 : BitVec 32 := 0#32
  let c1_i32_194 : BitVec 32 := 1#32
  let arg13 : BitVec 32 := Scf.iv c0_i32_192 c1_i32_194 k0_t15
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off76 (k0_t15 : Fin k0_t15_loop.trips) : Fin 2 → Nat :=
  let c0_i32_468 : BitVec 32 := 0#32
  let c0_i32_192 : BitVec 32 := 0#32
  let c1_i32_194 : BitVec 32 := 1#32
  let arg13 : BitVec 32 := Scf.iv c0_i32_192 c1_i32_194 k0_t15
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off77 (k0_t15 : Fin k0_t15_loop.trips) : Fin 2 → Nat :=
  let c0_i32_192 : BitVec 32 := 0#32
  let c1_i32_194 : BitVec 32 := 1#32
  let arg13 : BitVec 32 := Scf.iv c0_i32_192 c1_i32_194 k0_t15
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off78 (k0_t15 : Fin k0_t15_loop.trips) : Fin 2 → Nat :=
  let c0_i32_470 : BitVec 32 := 0#32
  let c0_i32_192 : BitVec 32 := 0#32
  let c1_i32_194 : BitVec 32 := 1#32
  let arg13 : BitVec 32 := Scf.iv c0_i32_192 c1_i32_194 k0_t15
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off79 (i : grid0.Coords) : Fin 4 → Nat :=
  let c6_i32_196 : BitVec 32 := 6#32
  let c16_i32_197 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_198 : BitVec 32 := 0#32
  ![6, 16, v2.toNat, 0]
@[reducible] def k0_t16_loop : Scf.Loop 32 :=
  let c0_i32_204 : BitVec 32 := 0#32
  let c256_i32_205 : BitVec 32 := 256#32
  let v370 : BitVec 32 := Scalar.addi c0_i32_204 c256_i32_205
  let c1_i32_206 : BitVec 32 := 1#32
  ⟨c0_i32_204, v370, c1_i32_206⟩
def k0_off80 (k0_t16 : Fin k0_t16_loop.trips) : Fin 2 → Nat :=
  let c0_i32_204 : BitVec 32 := 0#32
  let c1_i32_206 : BitVec 32 := 1#32
  let arg13 : BitVec 32 := Scf.iv c0_i32_204 c1_i32_206 k0_t16
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off81 (k0_t16 : Fin k0_t16_loop.trips) : Fin 2 → Nat :=
  let c0_i32_468 : BitVec 32 := 0#32
  let c0_i32_204 : BitVec 32 := 0#32
  let c1_i32_206 : BitVec 32 := 1#32
  let arg13 : BitVec 32 := Scf.iv c0_i32_204 c1_i32_206 k0_t16
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off82 (k0_t16 : Fin k0_t16_loop.trips) : Fin 2 → Nat :=
  let c0_i32_204 : BitVec 32 := 0#32
  let c1_i32_206 : BitVec 32 := 1#32
  let arg13 : BitVec 32 := Scf.iv c0_i32_204 c1_i32_206 k0_t16
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off83 (k0_t16 : Fin k0_t16_loop.trips) : Fin 2 → Nat :=
  let c0_i32_470 : BitVec 32 := 0#32
  let c0_i32_204 : BitVec 32 := 0#32
  let c1_i32_206 : BitVec 32 := 1#32
  let arg13 : BitVec 32 := Scf.iv c0_i32_204 c1_i32_206 k0_t16
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off84 (i : grid0.Coords) : Fin 4 → Nat :=
  let c6_i32_208 : BitVec 32 := 6#32
  let c17_i32 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_209 : BitVec 32 := 0#32
  ![6, 17, v2.toNat, 0]
@[reducible] def k0_t17_loop : Scf.Loop 32 :=
  let c0_i32_215 : BitVec 32 := 0#32
  let c256_i32_216 : BitVec 32 := 256#32
  let v392 : BitVec 32 := Scalar.addi c0_i32_215 c256_i32_216
  let c1_i32_217 : BitVec 32 := 1#32
  ⟨c0_i32_215, v392, c1_i32_217⟩
def k0_off85 (k0_t17 : Fin k0_t17_loop.trips) : Fin 2 → Nat :=
  let c0_i32_215 : BitVec 32 := 0#32
  let c1_i32_217 : BitVec 32 := 1#32
  let arg13 : BitVec 32 := Scf.iv c0_i32_215 c1_i32_217 k0_t17
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off86 (k0_t17 : Fin k0_t17_loop.trips) : Fin 2 → Nat :=
  let c0_i32_468 : BitVec 32 := 0#32
  let c0_i32_215 : BitVec 32 := 0#32
  let c1_i32_217 : BitVec 32 := 1#32
  let arg13 : BitVec 32 := Scf.iv c0_i32_215 c1_i32_217 k0_t17
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off87 (k0_t17 : Fin k0_t17_loop.trips) : Fin 2 → Nat :=
  let c0_i32_215 : BitVec 32 := 0#32
  let c1_i32_217 : BitVec 32 := 1#32
  let arg13 : BitVec 32 := Scf.iv c0_i32_215 c1_i32_217 k0_t17
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off88 (k0_t17 : Fin k0_t17_loop.trips) : Fin 2 → Nat :=
  let c0_i32_470 : BitVec 32 := 0#32
  let c0_i32_215 : BitVec 32 := 0#32
  let c1_i32_217 : BitVec 32 := 1#32
  let arg13 : BitVec 32 := Scf.iv c0_i32_215 c1_i32_217 k0_t17
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off89 (i : grid0.Coords) : Fin 4 → Nat :=
  let c6_i32_219 : BitVec 32 := 6#32
  let c18_i32 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_220 : BitVec 32 := 0#32
  ![6, 18, v2.toNat, 0]
@[reducible] def k0_t18_loop : Scf.Loop 32 :=
  let c0_i32_226 : BitVec 32 := 0#32
  let c256_i32_227 : BitVec 32 := 256#32
  let v414 : BitVec 32 := Scalar.addi c0_i32_226 c256_i32_227
  let c1_i32_228 : BitVec 32 := 1#32
  ⟨c0_i32_226, v414, c1_i32_228⟩
def k0_off90 (k0_t18 : Fin k0_t18_loop.trips) : Fin 2 → Nat :=
  let c0_i32_226 : BitVec 32 := 0#32
  let c1_i32_228 : BitVec 32 := 1#32
  let arg13 : BitVec 32 := Scf.iv c0_i32_226 c1_i32_228 k0_t18
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off91 (k0_t18 : Fin k0_t18_loop.trips) : Fin 2 → Nat :=
  let c0_i32_468 : BitVec 32 := 0#32
  let c0_i32_226 : BitVec 32 := 0#32
  let c1_i32_228 : BitVec 32 := 1#32
  let arg13 : BitVec 32 := Scf.iv c0_i32_226 c1_i32_228 k0_t18
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off92 (k0_t18 : Fin k0_t18_loop.trips) : Fin 2 → Nat :=
  let c0_i32_226 : BitVec 32 := 0#32
  let c1_i32_228 : BitVec 32 := 1#32
  let arg13 : BitVec 32 := Scf.iv c0_i32_226 c1_i32_228 k0_t18
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off93 (k0_t18 : Fin k0_t18_loop.trips) : Fin 2 → Nat :=
  let c0_i32_470 : BitVec 32 := 0#32
  let c0_i32_226 : BitVec 32 := 0#32
  let c1_i32_228 : BitVec 32 := 1#32
  let arg13 : BitVec 32 := Scf.iv c0_i32_226 c1_i32_228 k0_t18
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off94 (i : grid0.Coords) : Fin 4 → Nat :=
  let c7_i32_230 : BitVec 32 := 7#32
  let c0_i32_231 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_232 : BitVec 32 := 0#32
  ![7, 0, v2.toNat, 0]
@[reducible] def k0_t19_loop : Scf.Loop 32 :=
  let c0_i32_238 : BitVec 32 := 0#32
  let c256_i32_239 : BitVec 32 := 256#32
  let v436 : BitVec 32 := Scalar.addi c0_i32_238 c256_i32_239
  let c1_i32_240 : BitVec 32 := 1#32
  ⟨c0_i32_238, v436, c1_i32_240⟩
def k0_off95 (k0_t19 : Fin k0_t19_loop.trips) : Fin 2 → Nat :=
  let c0_i32_238 : BitVec 32 := 0#32
  let c1_i32_240 : BitVec 32 := 1#32
  let arg13 : BitVec 32 := Scf.iv c0_i32_238 c1_i32_240 k0_t19
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off96 (k0_t19 : Fin k0_t19_loop.trips) : Fin 2 → Nat :=
  let c0_i32_468 : BitVec 32 := 0#32
  let c0_i32_238 : BitVec 32 := 0#32
  let c1_i32_240 : BitVec 32 := 1#32
  let arg13 : BitVec 32 := Scf.iv c0_i32_238 c1_i32_240 k0_t19
  let c4_i32_466 : BitVec 32 := 4#32
  let v869 : BitVec 32 := Scalar.shrsi arg13 c4_i32_466
  let v876 : BitVec 32 := Scalar.addi c0_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off97 (k0_t19 : Fin k0_t19_loop.trips) : Fin 2 → Nat :=
  let c0_i32_238 : BitVec 32 := 0#32
  let c1_i32_240 : BitVec 32 := 1#32
  let arg13 : BitVec 32 := Scf.iv c0_i32_238 c1_i32_240 k0_t19
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off98 (k0_t19 : Fin k0_t19_loop.trips) : Fin 2 → Nat :=
  let c0_i32_470 : BitVec 32 := 0#32
  let c0_i32_238 : BitVec 32 := 0#32
  let c1_i32_240 : BitVec 32 := 1#32
  let arg13 : BitVec 32 := Scf.iv c0_i32_238 c1_i32_240 k0_t19
  let c4_i32_466 : BitVec 32 := 4#32
  let v869 : BitVec 32 := Scalar.shrsi arg13 c4_i32_466
  let v886 : BitVec 32 := Scalar.addi c0_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off99 (i : grid0.Coords) : Fin 4 → Nat :=
  let c7_i32_242 : BitVec 32 := 7#32
  let c1_i32_243 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_244 : BitVec 32 := 0#32
  ![7, 1, v2.toNat, 0]
@[reducible] def k0_t20_loop : Scf.Loop 32 :=
  let c0_i32_250 : BitVec 32 := 0#32
  let c256_i32_251 : BitVec 32 := 256#32
  let v458 : BitVec 32 := Scalar.addi c0_i32_250 c256_i32_251
  let c1_i32_252 : BitVec 32 := 1#32
  ⟨c0_i32_250, v458, c1_i32_252⟩
def k0_off100 (k0_t20 : Fin k0_t20_loop.trips) : Fin 2 → Nat :=
  let c0_i32_250 : BitVec 32 := 0#32
  let c1_i32_252 : BitVec 32 := 1#32
  let arg13 : BitVec 32 := Scf.iv c0_i32_250 c1_i32_252 k0_t20
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off101 (k0_t20 : Fin k0_t20_loop.trips) : Fin 2 → Nat :=
  let c16_i32_468 : BitVec 32 := 16#32
  let c0_i32_250 : BitVec 32 := 0#32
  let c1_i32_252 : BitVec 32 := 1#32
  let arg13 : BitVec 32 := Scf.iv c0_i32_250 c1_i32_252 k0_t20
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off102 (k0_t20 : Fin k0_t20_loop.trips) : Fin 2 → Nat :=
  let c0_i32_250 : BitVec 32 := 0#32
  let c1_i32_252 : BitVec 32 := 1#32
  let arg13 : BitVec 32 := Scf.iv c0_i32_250 c1_i32_252 k0_t20
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off103 (k0_t20 : Fin k0_t20_loop.trips) : Fin 2 → Nat :=
  let c16_i32_470 : BitVec 32 := 16#32
  let c0_i32_250 : BitVec 32 := 0#32
  let c1_i32_252 : BitVec 32 := 1#32
  let arg13 : BitVec 32 := Scf.iv c0_i32_250 c1_i32_252 k0_t20
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off104 (i : grid0.Coords) : Fin 4 → Nat :=
  let c7_i32_254 : BitVec 32 := 7#32
  let c2_i32_255 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_256 : BitVec 32 := 0#32
  ![7, 2, v2.toNat, 0]
@[reducible] def k0_t21_loop : Scf.Loop 32 :=
  let c0_i32_262 : BitVec 32 := 0#32
  let c256_i32_263 : BitVec 32 := 256#32
  let v480 : BitVec 32 := Scalar.addi c0_i32_262 c256_i32_263
  let c1_i32_264 : BitVec 32 := 1#32
  ⟨c0_i32_262, v480, c1_i32_264⟩
def k0_off105 (k0_t21 : Fin k0_t21_loop.trips) : Fin 2 → Nat :=
  let c0_i32_262 : BitVec 32 := 0#32
  let c1_i32_264 : BitVec 32 := 1#32
  let arg13 : BitVec 32 := Scf.iv c0_i32_262 c1_i32_264 k0_t21
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off106 (k0_t21 : Fin k0_t21_loop.trips) : Fin 2 → Nat :=
  let c16_i32_468 : BitVec 32 := 16#32
  let c0_i32_262 : BitVec 32 := 0#32
  let c1_i32_264 : BitVec 32 := 1#32
  let arg13 : BitVec 32 := Scf.iv c0_i32_262 c1_i32_264 k0_t21
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off107 (k0_t21 : Fin k0_t21_loop.trips) : Fin 2 → Nat :=
  let c0_i32_262 : BitVec 32 := 0#32
  let c1_i32_264 : BitVec 32 := 1#32
  let arg13 : BitVec 32 := Scf.iv c0_i32_262 c1_i32_264 k0_t21
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off108 (k0_t21 : Fin k0_t21_loop.trips) : Fin 2 → Nat :=
  let c16_i32_470 : BitVec 32 := 16#32
  let c0_i32_262 : BitVec 32 := 0#32
  let c1_i32_264 : BitVec 32 := 1#32
  let arg13 : BitVec 32 := Scf.iv c0_i32_262 c1_i32_264 k0_t21
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off109 (i : grid0.Coords) : Fin 4 → Nat :=
  let c7_i32_266 : BitVec 32 := 7#32
  let c3_i32_267 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_268 : BitVec 32 := 0#32
  ![7, 3, v2.toNat, 0]
@[reducible] def k0_t22_loop : Scf.Loop 32 :=
  let c0_i32_274 : BitVec 32 := 0#32
  let c256_i32_275 : BitVec 32 := 256#32
  let v502 : BitVec 32 := Scalar.addi c0_i32_274 c256_i32_275
  let c1_i32_276 : BitVec 32 := 1#32
  ⟨c0_i32_274, v502, c1_i32_276⟩
def k0_off110 (k0_t22 : Fin k0_t22_loop.trips) : Fin 2 → Nat :=
  let c0_i32_274 : BitVec 32 := 0#32
  let c1_i32_276 : BitVec 32 := 1#32
  let arg13 : BitVec 32 := Scf.iv c0_i32_274 c1_i32_276 k0_t22
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off111 (k0_t22 : Fin k0_t22_loop.trips) : Fin 2 → Nat :=
  let c16_i32_468 : BitVec 32 := 16#32
  let c0_i32_274 : BitVec 32 := 0#32
  let c1_i32_276 : BitVec 32 := 1#32
  let arg13 : BitVec 32 := Scf.iv c0_i32_274 c1_i32_276 k0_t22
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off112 (k0_t22 : Fin k0_t22_loop.trips) : Fin 2 → Nat :=
  let c0_i32_274 : BitVec 32 := 0#32
  let c1_i32_276 : BitVec 32 := 1#32
  let arg13 : BitVec 32 := Scf.iv c0_i32_274 c1_i32_276 k0_t22
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off113 (k0_t22 : Fin k0_t22_loop.trips) : Fin 2 → Nat :=
  let c16_i32_470 : BitVec 32 := 16#32
  let c0_i32_274 : BitVec 32 := 0#32
  let c1_i32_276 : BitVec 32 := 1#32
  let arg13 : BitVec 32 := Scf.iv c0_i32_274 c1_i32_276 k0_t22
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off114 (i : grid0.Coords) : Fin 4 → Nat :=
  let c7_i32_278 : BitVec 32 := 7#32
  let c4_i32_279 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_280 : BitVec 32 := 0#32
  ![7, 4, v2.toNat, 0]
@[reducible] def k0_t23_loop : Scf.Loop 32 :=
  let c0_i32_286 : BitVec 32 := 0#32
  let c256_i32_287 : BitVec 32 := 256#32
  let v524 : BitVec 32 := Scalar.addi c0_i32_286 c256_i32_287
  let c1_i32_288 : BitVec 32 := 1#32
  ⟨c0_i32_286, v524, c1_i32_288⟩
def k0_off115 (k0_t23 : Fin k0_t23_loop.trips) : Fin 2 → Nat :=
  let c0_i32_286 : BitVec 32 := 0#32
  let c1_i32_288 : BitVec 32 := 1#32
  let arg13 : BitVec 32 := Scf.iv c0_i32_286 c1_i32_288 k0_t23
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off116 (k0_t23 : Fin k0_t23_loop.trips) : Fin 2 → Nat :=
  let c16_i32_468 : BitVec 32 := 16#32
  let c0_i32_286 : BitVec 32 := 0#32
  let c1_i32_288 : BitVec 32 := 1#32
  let arg13 : BitVec 32 := Scf.iv c0_i32_286 c1_i32_288 k0_t23
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off117 (k0_t23 : Fin k0_t23_loop.trips) : Fin 2 → Nat :=
  let c0_i32_286 : BitVec 32 := 0#32
  let c1_i32_288 : BitVec 32 := 1#32
  let arg13 : BitVec 32 := Scf.iv c0_i32_286 c1_i32_288 k0_t23
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off118 (k0_t23 : Fin k0_t23_loop.trips) : Fin 2 → Nat :=
  let c16_i32_470 : BitVec 32 := 16#32
  let c0_i32_286 : BitVec 32 := 0#32
  let c1_i32_288 : BitVec 32 := 1#32
  let arg13 : BitVec 32 := Scf.iv c0_i32_286 c1_i32_288 k0_t23
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off119 (i : grid0.Coords) : Fin 4 → Nat :=
  let c7_i32_290 : BitVec 32 := 7#32
  let c5_i32_291 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_292 : BitVec 32 := 0#32
  ![7, 5, v2.toNat, 0]
@[reducible] def k0_t24_loop : Scf.Loop 32 :=
  let c0_i32_298 : BitVec 32 := 0#32
  let c256_i32_299 : BitVec 32 := 256#32
  let v546 : BitVec 32 := Scalar.addi c0_i32_298 c256_i32_299
  let c1_i32_300 : BitVec 32 := 1#32
  ⟨c0_i32_298, v546, c1_i32_300⟩
def k0_off120 (k0_t24 : Fin k0_t24_loop.trips) : Fin 2 → Nat :=
  let c0_i32_298 : BitVec 32 := 0#32
  let c1_i32_300 : BitVec 32 := 1#32
  let arg13 : BitVec 32 := Scf.iv c0_i32_298 c1_i32_300 k0_t24
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off121 (k0_t24 : Fin k0_t24_loop.trips) : Fin 2 → Nat :=
  let c16_i32_468 : BitVec 32 := 16#32
  let c0_i32_298 : BitVec 32 := 0#32
  let c1_i32_300 : BitVec 32 := 1#32
  let arg13 : BitVec 32 := Scf.iv c0_i32_298 c1_i32_300 k0_t24
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off122 (k0_t24 : Fin k0_t24_loop.trips) : Fin 2 → Nat :=
  let c0_i32_298 : BitVec 32 := 0#32
  let c1_i32_300 : BitVec 32 := 1#32
  let arg13 : BitVec 32 := Scf.iv c0_i32_298 c1_i32_300 k0_t24
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off123 (k0_t24 : Fin k0_t24_loop.trips) : Fin 2 → Nat :=
  let c16_i32_470 : BitVec 32 := 16#32
  let c0_i32_298 : BitVec 32 := 0#32
  let c1_i32_300 : BitVec 32 := 1#32
  let arg13 : BitVec 32 := Scf.iv c0_i32_298 c1_i32_300 k0_t24
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off124 (i : grid0.Coords) : Fin 4 → Nat :=
  let c7_i32_302 : BitVec 32 := 7#32
  let c6_i32_303 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_304 : BitVec 32 := 0#32
  ![7, 6, v2.toNat, 0]
@[reducible] def k0_t25_loop : Scf.Loop 32 :=
  let c0_i32_310 : BitVec 32 := 0#32
  let c256_i32_311 : BitVec 32 := 256#32
  let v568 : BitVec 32 := Scalar.addi c0_i32_310 c256_i32_311
  let c1_i32_312 : BitVec 32 := 1#32
  ⟨c0_i32_310, v568, c1_i32_312⟩
def k0_off125 (k0_t25 : Fin k0_t25_loop.trips) : Fin 2 → Nat :=
  let c0_i32_310 : BitVec 32 := 0#32
  let c1_i32_312 : BitVec 32 := 1#32
  let arg13 : BitVec 32 := Scf.iv c0_i32_310 c1_i32_312 k0_t25
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off126 (k0_t25 : Fin k0_t25_loop.trips) : Fin 2 → Nat :=
  let c16_i32_468 : BitVec 32 := 16#32
  let c0_i32_310 : BitVec 32 := 0#32
  let c1_i32_312 : BitVec 32 := 1#32
  let arg13 : BitVec 32 := Scf.iv c0_i32_310 c1_i32_312 k0_t25
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off127 (k0_t25 : Fin k0_t25_loop.trips) : Fin 2 → Nat :=
  let c0_i32_310 : BitVec 32 := 0#32
  let c1_i32_312 : BitVec 32 := 1#32
  let arg13 : BitVec 32 := Scf.iv c0_i32_310 c1_i32_312 k0_t25
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off128 (k0_t25 : Fin k0_t25_loop.trips) : Fin 2 → Nat :=
  let c16_i32_470 : BitVec 32 := 16#32
  let c0_i32_310 : BitVec 32 := 0#32
  let c1_i32_312 : BitVec 32 := 1#32
  let arg13 : BitVec 32 := Scf.iv c0_i32_310 c1_i32_312 k0_t25
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off129 (i : grid0.Coords) : Fin 4 → Nat :=
  let c7_i32_314 : BitVec 32 := 7#32
  let c7_i32_315 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_316 : BitVec 32 := 0#32
  ![7, 7, v2.toNat, 0]
@[reducible] def k0_t26_loop : Scf.Loop 32 :=
  let c0_i32_322 : BitVec 32 := 0#32
  let c256_i32_323 : BitVec 32 := 256#32
  let v590 : BitVec 32 := Scalar.addi c0_i32_322 c256_i32_323
  let c1_i32_324 : BitVec 32 := 1#32
  ⟨c0_i32_322, v590, c1_i32_324⟩
def k0_off130 (k0_t26 : Fin k0_t26_loop.trips) : Fin 2 → Nat :=
  let c0_i32_322 : BitVec 32 := 0#32
  let c1_i32_324 : BitVec 32 := 1#32
  let arg13 : BitVec 32 := Scf.iv c0_i32_322 c1_i32_324 k0_t26
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off131 (k0_t26 : Fin k0_t26_loop.trips) : Fin 2 → Nat :=
  let c16_i32_468 : BitVec 32 := 16#32
  let c0_i32_322 : BitVec 32 := 0#32
  let c1_i32_324 : BitVec 32 := 1#32
  let arg13 : BitVec 32 := Scf.iv c0_i32_322 c1_i32_324 k0_t26
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off132 (k0_t26 : Fin k0_t26_loop.trips) : Fin 2 → Nat :=
  let c0_i32_322 : BitVec 32 := 0#32
  let c1_i32_324 : BitVec 32 := 1#32
  let arg13 : BitVec 32 := Scf.iv c0_i32_322 c1_i32_324 k0_t26
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off133 (k0_t26 : Fin k0_t26_loop.trips) : Fin 2 → Nat :=
  let c16_i32_470 : BitVec 32 := 16#32
  let c0_i32_322 : BitVec 32 := 0#32
  let c1_i32_324 : BitVec 32 := 1#32
  let arg13 : BitVec 32 := Scf.iv c0_i32_322 c1_i32_324 k0_t26
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off134 (i : grid0.Coords) : Fin 4 → Nat :=
  let c7_i32_326 : BitVec 32 := 7#32
  let c8_i32_327 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_328 : BitVec 32 := 0#32
  ![7, 8, v2.toNat, 0]
@[reducible] def k0_t27_loop : Scf.Loop 32 :=
  let c0_i32_334 : BitVec 32 := 0#32
  let c256_i32_335 : BitVec 32 := 256#32
  let v612 : BitVec 32 := Scalar.addi c0_i32_334 c256_i32_335
  let c1_i32_336 : BitVec 32 := 1#32
  ⟨c0_i32_334, v612, c1_i32_336⟩
def k0_off135 (k0_t27 : Fin k0_t27_loop.trips) : Fin 2 → Nat :=
  let c0_i32_334 : BitVec 32 := 0#32
  let c1_i32_336 : BitVec 32 := 1#32
  let arg13 : BitVec 32 := Scf.iv c0_i32_334 c1_i32_336 k0_t27
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off136 (k0_t27 : Fin k0_t27_loop.trips) : Fin 2 → Nat :=
  let c16_i32_468 : BitVec 32 := 16#32
  let c0_i32_334 : BitVec 32 := 0#32
  let c1_i32_336 : BitVec 32 := 1#32
  let arg13 : BitVec 32 := Scf.iv c0_i32_334 c1_i32_336 k0_t27
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off137 (k0_t27 : Fin k0_t27_loop.trips) : Fin 2 → Nat :=
  let c0_i32_334 : BitVec 32 := 0#32
  let c1_i32_336 : BitVec 32 := 1#32
  let arg13 : BitVec 32 := Scf.iv c0_i32_334 c1_i32_336 k0_t27
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off138 (k0_t27 : Fin k0_t27_loop.trips) : Fin 2 → Nat :=
  let c16_i32_470 : BitVec 32 := 16#32
  let c0_i32_334 : BitVec 32 := 0#32
  let c1_i32_336 : BitVec 32 := 1#32
  let arg13 : BitVec 32 := Scf.iv c0_i32_334 c1_i32_336 k0_t27
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off139 (i : grid0.Coords) : Fin 4 → Nat :=
  let c7_i32_338 : BitVec 32 := 7#32
  let c9_i32_339 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_340 : BitVec 32 := 0#32
  ![7, 9, v2.toNat, 0]
@[reducible] def k0_t28_loop : Scf.Loop 32 :=
  let c0_i32_346 : BitVec 32 := 0#32
  let c256_i32_347 : BitVec 32 := 256#32
  let v634 : BitVec 32 := Scalar.addi c0_i32_346 c256_i32_347
  let c1_i32_348 : BitVec 32 := 1#32
  ⟨c0_i32_346, v634, c1_i32_348⟩
def k0_off140 (k0_t28 : Fin k0_t28_loop.trips) : Fin 2 → Nat :=
  let c0_i32_346 : BitVec 32 := 0#32
  let c1_i32_348 : BitVec 32 := 1#32
  let arg13 : BitVec 32 := Scf.iv c0_i32_346 c1_i32_348 k0_t28
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off141 (k0_t28 : Fin k0_t28_loop.trips) : Fin 2 → Nat :=
  let c16_i32_468 : BitVec 32 := 16#32
  let c0_i32_346 : BitVec 32 := 0#32
  let c1_i32_348 : BitVec 32 := 1#32
  let arg13 : BitVec 32 := Scf.iv c0_i32_346 c1_i32_348 k0_t28
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off142 (k0_t28 : Fin k0_t28_loop.trips) : Fin 2 → Nat :=
  let c0_i32_346 : BitVec 32 := 0#32
  let c1_i32_348 : BitVec 32 := 1#32
  let arg13 : BitVec 32 := Scf.iv c0_i32_346 c1_i32_348 k0_t28
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off143 (k0_t28 : Fin k0_t28_loop.trips) : Fin 2 → Nat :=
  let c16_i32_470 : BitVec 32 := 16#32
  let c0_i32_346 : BitVec 32 := 0#32
  let c1_i32_348 : BitVec 32 := 1#32
  let arg13 : BitVec 32 := Scf.iv c0_i32_346 c1_i32_348 k0_t28
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off144 (i : grid0.Coords) : Fin 4 → Nat :=
  let c7_i32_350 : BitVec 32 := 7#32
  let c10_i32_351 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_352 : BitVec 32 := 0#32
  ![7, 10, v2.toNat, 0]
@[reducible] def k0_t29_loop : Scf.Loop 32 :=
  let c0_i32_358 : BitVec 32 := 0#32
  let c256_i32_359 : BitVec 32 := 256#32
  let v656 : BitVec 32 := Scalar.addi c0_i32_358 c256_i32_359
  let c1_i32_360 : BitVec 32 := 1#32
  ⟨c0_i32_358, v656, c1_i32_360⟩
def k0_off145 (k0_t29 : Fin k0_t29_loop.trips) : Fin 2 → Nat :=
  let c0_i32_358 : BitVec 32 := 0#32
  let c1_i32_360 : BitVec 32 := 1#32
  let arg13 : BitVec 32 := Scf.iv c0_i32_358 c1_i32_360 k0_t29
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off146 (k0_t29 : Fin k0_t29_loop.trips) : Fin 2 → Nat :=
  let c16_i32_468 : BitVec 32 := 16#32
  let c0_i32_358 : BitVec 32 := 0#32
  let c1_i32_360 : BitVec 32 := 1#32
  let arg13 : BitVec 32 := Scf.iv c0_i32_358 c1_i32_360 k0_t29
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off147 (k0_t29 : Fin k0_t29_loop.trips) : Fin 2 → Nat :=
  let c0_i32_358 : BitVec 32 := 0#32
  let c1_i32_360 : BitVec 32 := 1#32
  let arg13 : BitVec 32 := Scf.iv c0_i32_358 c1_i32_360 k0_t29
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off148 (k0_t29 : Fin k0_t29_loop.trips) : Fin 2 → Nat :=
  let c16_i32_470 : BitVec 32 := 16#32
  let c0_i32_358 : BitVec 32 := 0#32
  let c1_i32_360 : BitVec 32 := 1#32
  let arg13 : BitVec 32 := Scf.iv c0_i32_358 c1_i32_360 k0_t29
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off149 (i : grid0.Coords) : Fin 4 → Nat :=
  let c7_i32_362 : BitVec 32 := 7#32
  let c11_i32_363 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_364 : BitVec 32 := 0#32
  ![7, 11, v2.toNat, 0]
@[reducible] def k0_t30_loop : Scf.Loop 32 :=
  let c0_i32_370 : BitVec 32 := 0#32
  let c256_i32_371 : BitVec 32 := 256#32
  let v678 : BitVec 32 := Scalar.addi c0_i32_370 c256_i32_371
  let c1_i32_372 : BitVec 32 := 1#32
  ⟨c0_i32_370, v678, c1_i32_372⟩
def k0_off150 (k0_t30 : Fin k0_t30_loop.trips) : Fin 2 → Nat :=
  let c0_i32_370 : BitVec 32 := 0#32
  let c1_i32_372 : BitVec 32 := 1#32
  let arg13 : BitVec 32 := Scf.iv c0_i32_370 c1_i32_372 k0_t30
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off151 (k0_t30 : Fin k0_t30_loop.trips) : Fin 2 → Nat :=
  let c16_i32_468 : BitVec 32 := 16#32
  let c0_i32_370 : BitVec 32 := 0#32
  let c1_i32_372 : BitVec 32 := 1#32
  let arg13 : BitVec 32 := Scf.iv c0_i32_370 c1_i32_372 k0_t30
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off152 (k0_t30 : Fin k0_t30_loop.trips) : Fin 2 → Nat :=
  let c0_i32_370 : BitVec 32 := 0#32
  let c1_i32_372 : BitVec 32 := 1#32
  let arg13 : BitVec 32 := Scf.iv c0_i32_370 c1_i32_372 k0_t30
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off153 (k0_t30 : Fin k0_t30_loop.trips) : Fin 2 → Nat :=
  let c16_i32_470 : BitVec 32 := 16#32
  let c0_i32_370 : BitVec 32 := 0#32
  let c1_i32_372 : BitVec 32 := 1#32
  let arg13 : BitVec 32 := Scf.iv c0_i32_370 c1_i32_372 k0_t30
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off154 (i : grid0.Coords) : Fin 4 → Nat :=
  let c7_i32_374 : BitVec 32 := 7#32
  let c12_i32_375 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_376 : BitVec 32 := 0#32
  ![7, 12, v2.toNat, 0]
@[reducible] def k0_t31_loop : Scf.Loop 32 :=
  let c0_i32_382 : BitVec 32 := 0#32
  let c256_i32_383 : BitVec 32 := 256#32
  let v700 : BitVec 32 := Scalar.addi c0_i32_382 c256_i32_383
  let c1_i32_384 : BitVec 32 := 1#32
  ⟨c0_i32_382, v700, c1_i32_384⟩
def k0_off155 (k0_t31 : Fin k0_t31_loop.trips) : Fin 2 → Nat :=
  let c0_i32_382 : BitVec 32 := 0#32
  let c1_i32_384 : BitVec 32 := 1#32
  let arg13 : BitVec 32 := Scf.iv c0_i32_382 c1_i32_384 k0_t31
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off156 (k0_t31 : Fin k0_t31_loop.trips) : Fin 2 → Nat :=
  let c16_i32_468 : BitVec 32 := 16#32
  let c0_i32_382 : BitVec 32 := 0#32
  let c1_i32_384 : BitVec 32 := 1#32
  let arg13 : BitVec 32 := Scf.iv c0_i32_382 c1_i32_384 k0_t31
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off157 (k0_t31 : Fin k0_t31_loop.trips) : Fin 2 → Nat :=
  let c0_i32_382 : BitVec 32 := 0#32
  let c1_i32_384 : BitVec 32 := 1#32
  let arg13 : BitVec 32 := Scf.iv c0_i32_382 c1_i32_384 k0_t31
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off158 (k0_t31 : Fin k0_t31_loop.trips) : Fin 2 → Nat :=
  let c16_i32_470 : BitVec 32 := 16#32
  let c0_i32_382 : BitVec 32 := 0#32
  let c1_i32_384 : BitVec 32 := 1#32
  let arg13 : BitVec 32 := Scf.iv c0_i32_382 c1_i32_384 k0_t31
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off159 (i : grid0.Coords) : Fin 4 → Nat :=
  let c7_i32_386 : BitVec 32 := 7#32
  let c13_i32_387 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_388 : BitVec 32 := 0#32
  ![7, 13, v2.toNat, 0]
@[reducible] def k0_t32_loop : Scf.Loop 32 :=
  let c0_i32_394 : BitVec 32 := 0#32
  let c256_i32_395 : BitVec 32 := 256#32
  let v722 : BitVec 32 := Scalar.addi c0_i32_394 c256_i32_395
  let c1_i32_396 : BitVec 32 := 1#32
  ⟨c0_i32_394, v722, c1_i32_396⟩
def k0_off160 (k0_t32 : Fin k0_t32_loop.trips) : Fin 2 → Nat :=
  let c0_i32_394 : BitVec 32 := 0#32
  let c1_i32_396 : BitVec 32 := 1#32
  let arg13 : BitVec 32 := Scf.iv c0_i32_394 c1_i32_396 k0_t32
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off161 (k0_t32 : Fin k0_t32_loop.trips) : Fin 2 → Nat :=
  let c16_i32_468 : BitVec 32 := 16#32
  let c0_i32_394 : BitVec 32 := 0#32
  let c1_i32_396 : BitVec 32 := 1#32
  let arg13 : BitVec 32 := Scf.iv c0_i32_394 c1_i32_396 k0_t32
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off162 (k0_t32 : Fin k0_t32_loop.trips) : Fin 2 → Nat :=
  let c0_i32_394 : BitVec 32 := 0#32
  let c1_i32_396 : BitVec 32 := 1#32
  let arg13 : BitVec 32 := Scf.iv c0_i32_394 c1_i32_396 k0_t32
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off163 (k0_t32 : Fin k0_t32_loop.trips) : Fin 2 → Nat :=
  let c16_i32_470 : BitVec 32 := 16#32
  let c0_i32_394 : BitVec 32 := 0#32
  let c1_i32_396 : BitVec 32 := 1#32
  let arg13 : BitVec 32 := Scf.iv c0_i32_394 c1_i32_396 k0_t32
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off164 (i : grid0.Coords) : Fin 4 → Nat :=
  let c7_i32_398 : BitVec 32 := 7#32
  let c14_i32_399 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_400 : BitVec 32 := 0#32
  ![7, 14, v2.toNat, 0]
@[reducible] def k0_t33_loop : Scf.Loop 32 :=
  let c0_i32_406 : BitVec 32 := 0#32
  let c256_i32_407 : BitVec 32 := 256#32
  let v744 : BitVec 32 := Scalar.addi c0_i32_406 c256_i32_407
  let c1_i32_408 : BitVec 32 := 1#32
  ⟨c0_i32_406, v744, c1_i32_408⟩
def k0_off165 (k0_t33 : Fin k0_t33_loop.trips) : Fin 2 → Nat :=
  let c0_i32_406 : BitVec 32 := 0#32
  let c1_i32_408 : BitVec 32 := 1#32
  let arg13 : BitVec 32 := Scf.iv c0_i32_406 c1_i32_408 k0_t33
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off166 (k0_t33 : Fin k0_t33_loop.trips) : Fin 2 → Nat :=
  let c16_i32_468 : BitVec 32 := 16#32
  let c0_i32_406 : BitVec 32 := 0#32
  let c1_i32_408 : BitVec 32 := 1#32
  let arg13 : BitVec 32 := Scf.iv c0_i32_406 c1_i32_408 k0_t33
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off167 (k0_t33 : Fin k0_t33_loop.trips) : Fin 2 → Nat :=
  let c0_i32_406 : BitVec 32 := 0#32
  let c1_i32_408 : BitVec 32 := 1#32
  let arg13 : BitVec 32 := Scf.iv c0_i32_406 c1_i32_408 k0_t33
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off168 (k0_t33 : Fin k0_t33_loop.trips) : Fin 2 → Nat :=
  let c16_i32_470 : BitVec 32 := 16#32
  let c0_i32_406 : BitVec 32 := 0#32
  let c1_i32_408 : BitVec 32 := 1#32
  let arg13 : BitVec 32 := Scf.iv c0_i32_406 c1_i32_408 k0_t33
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off169 (i : grid0.Coords) : Fin 4 → Nat :=
  let c7_i32_410 : BitVec 32 := 7#32
  let c15_i32_411 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_412 : BitVec 32 := 0#32
  ![7, 15, v2.toNat, 0]
@[reducible] def k0_t34_loop : Scf.Loop 32 :=
  let c0_i32_418 : BitVec 32 := 0#32
  let c256_i32_419 : BitVec 32 := 256#32
  let v766 : BitVec 32 := Scalar.addi c0_i32_418 c256_i32_419
  let c1_i32_420 : BitVec 32 := 1#32
  ⟨c0_i32_418, v766, c1_i32_420⟩
def k0_off170 (k0_t34 : Fin k0_t34_loop.trips) : Fin 2 → Nat :=
  let c0_i32_418 : BitVec 32 := 0#32
  let c1_i32_420 : BitVec 32 := 1#32
  let arg13 : BitVec 32 := Scf.iv c0_i32_418 c1_i32_420 k0_t34
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off171 (k0_t34 : Fin k0_t34_loop.trips) : Fin 2 → Nat :=
  let c16_i32_468 : BitVec 32 := 16#32
  let c0_i32_418 : BitVec 32 := 0#32
  let c1_i32_420 : BitVec 32 := 1#32
  let arg13 : BitVec 32 := Scf.iv c0_i32_418 c1_i32_420 k0_t34
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off172 (k0_t34 : Fin k0_t34_loop.trips) : Fin 2 → Nat :=
  let c0_i32_418 : BitVec 32 := 0#32
  let c1_i32_420 : BitVec 32 := 1#32
  let arg13 : BitVec 32 := Scf.iv c0_i32_418 c1_i32_420 k0_t34
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off173 (k0_t34 : Fin k0_t34_loop.trips) : Fin 2 → Nat :=
  let c16_i32_470 : BitVec 32 := 16#32
  let c0_i32_418 : BitVec 32 := 0#32
  let c1_i32_420 : BitVec 32 := 1#32
  let arg13 : BitVec 32 := Scf.iv c0_i32_418 c1_i32_420 k0_t34
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off174 (i : grid0.Coords) : Fin 4 → Nat :=
  let c7_i32_422 : BitVec 32 := 7#32
  let c16_i32_423 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_424 : BitVec 32 := 0#32
  ![7, 16, v2.toNat, 0]
@[reducible] def k0_t35_loop : Scf.Loop 32 :=
  let c0_i32_430 : BitVec 32 := 0#32
  let c256_i32_431 : BitVec 32 := 256#32
  let v788 : BitVec 32 := Scalar.addi c0_i32_430 c256_i32_431
  let c1_i32_432 : BitVec 32 := 1#32
  ⟨c0_i32_430, v788, c1_i32_432⟩
def k0_off175 (k0_t35 : Fin k0_t35_loop.trips) : Fin 2 → Nat :=
  let c0_i32_430 : BitVec 32 := 0#32
  let c1_i32_432 : BitVec 32 := 1#32
  let arg13 : BitVec 32 := Scf.iv c0_i32_430 c1_i32_432 k0_t35
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off176 (k0_t35 : Fin k0_t35_loop.trips) : Fin 2 → Nat :=
  let c16_i32_468 : BitVec 32 := 16#32
  let c0_i32_430 : BitVec 32 := 0#32
  let c1_i32_432 : BitVec 32 := 1#32
  let arg13 : BitVec 32 := Scf.iv c0_i32_430 c1_i32_432 k0_t35
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off177 (k0_t35 : Fin k0_t35_loop.trips) : Fin 2 → Nat :=
  let c0_i32_430 : BitVec 32 := 0#32
  let c1_i32_432 : BitVec 32 := 1#32
  let arg13 : BitVec 32 := Scf.iv c0_i32_430 c1_i32_432 k0_t35
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off178 (k0_t35 : Fin k0_t35_loop.trips) : Fin 2 → Nat :=
  let c16_i32_470 : BitVec 32 := 16#32
  let c0_i32_430 : BitVec 32 := 0#32
  let c1_i32_432 : BitVec 32 := 1#32
  let arg13 : BitVec 32 := Scf.iv c0_i32_430 c1_i32_432 k0_t35
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off179 (i : grid0.Coords) : Fin 4 → Nat :=
  let c7_i32_434 : BitVec 32 := 7#32
  let c17_i32_435 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_436 : BitVec 32 := 0#32
  ![7, 17, v2.toNat, 0]
@[reducible] def k0_t36_loop : Scf.Loop 32 :=
  let c0_i32_442 : BitVec 32 := 0#32
  let c256_i32_443 : BitVec 32 := 256#32
  let v810 : BitVec 32 := Scalar.addi c0_i32_442 c256_i32_443
  let c1_i32_444 : BitVec 32 := 1#32
  ⟨c0_i32_442, v810, c1_i32_444⟩
def k0_off180 (k0_t36 : Fin k0_t36_loop.trips) : Fin 2 → Nat :=
  let c0_i32_442 : BitVec 32 := 0#32
  let c1_i32_444 : BitVec 32 := 1#32
  let arg13 : BitVec 32 := Scf.iv c0_i32_442 c1_i32_444 k0_t36
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off181 (k0_t36 : Fin k0_t36_loop.trips) : Fin 2 → Nat :=
  let c16_i32_468 : BitVec 32 := 16#32
  let c0_i32_442 : BitVec 32 := 0#32
  let c1_i32_444 : BitVec 32 := 1#32
  let arg13 : BitVec 32 := Scf.iv c0_i32_442 c1_i32_444 k0_t36
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off182 (k0_t36 : Fin k0_t36_loop.trips) : Fin 2 → Nat :=
  let c0_i32_442 : BitVec 32 := 0#32
  let c1_i32_444 : BitVec 32 := 1#32
  let arg13 : BitVec 32 := Scf.iv c0_i32_442 c1_i32_444 k0_t36
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off183 (k0_t36 : Fin k0_t36_loop.trips) : Fin 2 → Nat :=
  let c16_i32_470 : BitVec 32 := 16#32
  let c0_i32_442 : BitVec 32 := 0#32
  let c1_i32_444 : BitVec 32 := 1#32
  let arg13 : BitVec 32 := Scf.iv c0_i32_442 c1_i32_444 k0_t36
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off184 (i : grid0.Coords) : Fin 4 → Nat :=
  let c7_i32_446 : BitVec 32 := 7#32
  let c18_i32_447 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_448 : BitVec 32 := 0#32
  ![7, 18, v2.toNat, 0]
@[reducible] def k0_t37_loop : Scf.Loop 32 :=
  let c0_i32_454 : BitVec 32 := 0#32
  let c256_i32_455 : BitVec 32 := 256#32
  let v832 : BitVec 32 := Scalar.addi c0_i32_454 c256_i32_455
  let c1_i32_456 : BitVec 32 := 1#32
  ⟨c0_i32_454, v832, c1_i32_456⟩
def k0_off185 (k0_t37 : Fin k0_t37_loop.trips) : Fin 2 → Nat :=
  let c0_i32_454 : BitVec 32 := 0#32
  let c1_i32_456 : BitVec 32 := 1#32
  let arg13 : BitVec 32 := Scf.iv c0_i32_454 c1_i32_456 k0_t37
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off186 (k0_t37 : Fin k0_t37_loop.trips) : Fin 2 → Nat :=
  let c16_i32_468 : BitVec 32 := 16#32
  let c0_i32_454 : BitVec 32 := 0#32
  let c1_i32_456 : BitVec 32 := 1#32
  let arg13 : BitVec 32 := Scf.iv c0_i32_454 c1_i32_456 k0_t37
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off187 (k0_t37 : Fin k0_t37_loop.trips) : Fin 2 → Nat :=
  let c0_i32_454 : BitVec 32 := 0#32
  let c1_i32_456 : BitVec 32 := 1#32
  let arg13 : BitVec 32 := Scf.iv c0_i32_454 c1_i32_456 k0_t37
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off188 (k0_t37 : Fin k0_t37_loop.trips) : Fin 2 → Nat :=
  let c16_i32_470 : BitVec 32 := 16#32
  let c0_i32_454 : BitVec 32 := 0#32
  let c1_i32_456 : BitVec 32 := 1#32
  let arg13 : BitVec 32 := Scf.iv c0_i32_454 c1_i32_456 k0_t37
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
@[reducible] def k0_t38_loop : Scf.Loop 32 :=
  let c0_i32_462 : BitVec 32 := 0#32
  let c256_i32_463 : BitVec 32 := 256#32
  let v850 : BitVec 32 := Scalar.addi c0_i32_462 c256_i32_463
  let c1_i32_464 : BitVec 32 := 1#32
  ⟨c0_i32_462, v850, c1_i32_464⟩
def k0_off189 (k0_t38 : Fin k0_t38_loop.trips) : Fin 2 → Nat :=
  let c0_i32_462 : BitVec 32 := 0#32
  let c1_i32_464 : BitVec 32 := 1#32
  let arg13 : BitVec 32 := Scf.iv c0_i32_462 c1_i32_464 k0_t38
  let c4_i32_466 : BitVec 32 := 4#32
  let v869 : BitVec 32 := Scalar.shrsi arg13 c4_i32_466
  let v872 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let v873 : Index := Scalar.indexCast v871
  ![v872.toNat, v873.toNat]
def k0_off190 (k0_t38 : Fin k0_t38_loop.trips) : Fin 2 → Nat :=
  let c16_i32_468 : BitVec 32 := 16#32
  let c0_i32_462 : BitVec 32 := 0#32
  let c1_i32_464 : BitVec 32 := 1#32
  let arg13 : BitVec 32 := Scf.iv c0_i32_462 c1_i32_464 k0_t38
  let c4_i32_466 : BitVec 32 := 4#32
  let v869 : BitVec 32 := Scalar.shrsi arg13 c4_i32_466
  let v876 : BitVec 32 := Scalar.addi c16_i32_468 v869
  let v877 : Index := Scalar.indexCast v876
  let c15_i32_467 : BitVec 32 := 15#32
  let v870 : BitVec 32 := Scalar.andi arg13 c15_i32_467
  let c32_i32 : BitVec 32 := 32#32
  let v871 : BitVec 32 := Scalar.muli v870 c32_i32
  let v878 : Index := Scalar.indexCast v871
  ![v877.toNat, v878.toNat]
def k0_off191 (k0_t38 : Fin k0_t38_loop.trips) : Fin 2 → Nat :=
  let c0_i32_462 : BitVec 32 := 0#32
  let c1_i32_464 : BitVec 32 := 1#32
  let arg13 : BitVec 32 := Scf.iv c0_i32_462 c1_i32_464 k0_t38
  let c4_i32_466 : BitVec 32 := 4#32
  let v869 : BitVec 32 := Scalar.shrsi arg13 c4_i32_466
  let v882 : Index := Scalar.indexCast v869
  let c15_i32_467 : BitVec 32 := 15#32
  let v870 : BitVec 32 := Scalar.andi arg13 c15_i32_467
  let c32_i32 : BitVec 32 := 32#32
  let v871 : BitVec 32 := Scalar.muli v870 c32_i32
  let c16_i32_469 : BitVec 32 := 16#32
  let v881 : BitVec 32 := Scalar.addi v871 c16_i32_469
  let v883 : Index := Scalar.indexCast v881
  ![v882.toNat, v883.toNat]
def k0_off192 (k0_t38 : Fin k0_t38_loop.trips) : Fin 2 → Nat :=
  let c16_i32_470 : BitVec 32 := 16#32
  let c0_i32_462 : BitVec 32 := 0#32
  let c1_i32_464 : BitVec 32 := 1#32
  let arg13 : BitVec 32 := Scf.iv c0_i32_462 c1_i32_464 k0_t38
  let c4_i32_466 : BitVec 32 := 4#32
  let v869 : BitVec 32 := Scalar.shrsi arg13 c4_i32_466
  let v886 : BitVec 32 := Scalar.addi c16_i32_470 v869
  let v888 : Index := Scalar.indexCast v886
  let c15_i32_467 : BitVec 32 := 15#32
  let v870 : BitVec 32 := Scalar.andi arg13 c15_i32_467
  let c32_i32 : BitVec 32 := 32#32
  let v871 : BitVec 32 := Scalar.muli v870 c32_i32
  let c16_i32_471 : BitVec 32 := 16#32
  let v887 : BitVec 32 := Scalar.addi v871 c16_i32_471
  let v889 : Index := Scalar.indexCast v887
  ![v888.toNat, v889.toNat]
def k0_off193 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1920_i32 : BitVec 32 := 1920#32
  let v864 : BitVec 32 := Scalar.muli v1 c1920_i32
  ![v864.toNat]
abbrev grid1 : Pipeline.Grid := ⟨2, ![6, 2], ![false, false]⟩

def k1_cond2 (i : grid1.Coords) : BitVec 1 :=
  let arg1 : BitVec 32 := BitVec.ofNat 32 (i 1).val
  let c1_i32_517 : BitVec 32 := 1#32
  let v632 : BitVec 1 := Scalar.cmpi .eq arg1 c1_i32_517
  let v633 : BitVec 32 := Scalar.extui v632
  let c0_i32_518 : BitVec 32 := 0#32
  let v634 : BitVec 1 := Scalar.cmpi .ne v633 c0_i32_518
  v634

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x19x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S32x512_S16x512_0_0 : ∀ a, (![0, 0] : Fin 2 → Nat) a + S16x512.size a ≤ S32x512.size a
  squeezes_S1x16x512_S16x512 : S1x16x512.Squeezes S16x512
  inb_S32x512_S16x512_16_0 : ∀ a, (![16, 0] : Fin 2 → Nat) a + S16x512.size a ≤ S32x512.size a
  squeezes_S1x1x16x512_S16x512 : S1x1x16x512.Squeezes S16x512
  h_S1x16 : 0 < S1x16.numel
  shapeCasts_S1x16_S16 : S1x16.ShapeCasts S16
  inb_S1920_S16_0 : ∀ a, (![0] : Fin 1 → Nat) a + S16.size a ≤ S1920.size a
  h_S16 : 0 < S16.numel
  shapeCasts_S16_S16 : S16.ShapeCasts S16
  inb_S1920_S16_640 : ∀ a, (![640] : Fin 1 → Nat) a + S16.size a ≤ S1920.size a
  inb_S1920_S16_1280 : ∀ a, (![1280] : Fin 1 → Nat) a + S16.size a ≤ S1920.size a
  inb_S1920_S16_16 : ∀ a, (![16] : Fin 1 → Nat) a + S16.size a ≤ S1920.size a
  inb_S1920_S16_656 : ∀ a, (![656] : Fin 1 → Nat) a + S16.size a ≤ S1920.size a
  inb_S1920_S16_1296 : ∀ a, (![1296] : Fin 1 → Nat) a + S16.size a ≤ S1920.size a
  inb_S1920_S16_32 : ∀ a, (![32] : Fin 1 → Nat) a + S16.size a ≤ S1920.size a
  inb_S1920_S16_672 : ∀ a, (![672] : Fin 1 → Nat) a + S16.size a ≤ S1920.size a
  inb_S1920_S16_1312 : ∀ a, (![1312] : Fin 1 → Nat) a + S16.size a ≤ S1920.size a
  inb_S1920_S16_48 : ∀ a, (![48] : Fin 1 → Nat) a + S16.size a ≤ S1920.size a
  inb_S1920_S16_688 : ∀ a, (![688] : Fin 1 → Nat) a + S16.size a ≤ S1920.size a
  inb_S1920_S16_1328 : ∀ a, (![1328] : Fin 1 → Nat) a + S16.size a ≤ S1920.size a
  inb_S1920_S16_64 : ∀ a, (![64] : Fin 1 → Nat) a + S16.size a ≤ S1920.size a
  inb_S1920_S16_704 : ∀ a, (![704] : Fin 1 → Nat) a + S16.size a ≤ S1920.size a
  inb_S1920_S16_1344 : ∀ a, (![1344] : Fin 1 → Nat) a + S16.size a ≤ S1920.size a
  inb_S1920_S16_80 : ∀ a, (![80] : Fin 1 → Nat) a + S16.size a ≤ S1920.size a
  inb_S1920_S16_720 : ∀ a, (![720] : Fin 1 → Nat) a + S16.size a ≤ S1920.size a
  inb_S1920_S16_1360 : ∀ a, (![1360] : Fin 1 → Nat) a + S16.size a ≤ S1920.size a
  inb_S1920_S16_96 : ∀ a, (![96] : Fin 1 → Nat) a + S16.size a ≤ S1920.size a
  inb_S1920_S16_736 : ∀ a, (![736] : Fin 1 → Nat) a + S16.size a ≤ S1920.size a
  inb_S1920_S16_1376 : ∀ a, (![1376] : Fin 1 → Nat) a + S16.size a ≤ S1920.size a
  inb_S1920_S16_112 : ∀ a, (![112] : Fin 1 → Nat) a + S16.size a ≤ S1920.size a
  inb_S1920_S16_752 : ∀ a, (![752] : Fin 1 → Nat) a + S16.size a ≤ S1920.size a
  inb_S1920_S16_1392 : ∀ a, (![1392] : Fin 1 → Nat) a + S16.size a ≤ S1920.size a
  inb_S1920_S16_128 : ∀ a, (![128] : Fin 1 → Nat) a + S16.size a ≤ S1920.size a
  inb_S1920_S16_768 : ∀ a, (![768] : Fin 1 → Nat) a + S16.size a ≤ S1920.size a
  inb_S1920_S16_1408 : ∀ a, (![1408] : Fin 1 → Nat) a + S16.size a ≤ S1920.size a
  inb_S1920_S16_144 : ∀ a, (![144] : Fin 1 → Nat) a + S16.size a ≤ S1920.size a
  inb_S1920_S16_784 : ∀ a, (![784] : Fin 1 → Nat) a + S16.size a ≤ S1920.size a
  inb_S1920_S16_1424 : ∀ a, (![1424] : Fin 1 → Nat) a + S16.size a ≤ S1920.size a
  inb_S1920_S16_160 : ∀ a, (![160] : Fin 1 → Nat) a + S16.size a ≤ S1920.size a
  inb_S1920_S16_800 : ∀ a, (![800] : Fin 1 → Nat) a + S16.size a ≤ S1920.size a
  inb_S1920_S16_1440 : ∀ a, (![1440] : Fin 1 → Nat) a + S16.size a ≤ S1920.size a
  inb_S1920_S16_176 : ∀ a, (![176] : Fin 1 → Nat) a + S16.size a ≤ S1920.size a
  inb_S1920_S16_816 : ∀ a, (![816] : Fin 1 → Nat) a + S16.size a ≤ S1920.size a
  inb_S1920_S16_1456 : ∀ a, (![1456] : Fin 1 → Nat) a + S16.size a ≤ S1920.size a
  inb_S1920_S16_192 : ∀ a, (![192] : Fin 1 → Nat) a + S16.size a ≤ S1920.size a
  inb_S1920_S16_832 : ∀ a, (![832] : Fin 1 → Nat) a + S16.size a ≤ S1920.size a
  inb_S1920_S16_1472 : ∀ a, (![1472] : Fin 1 → Nat) a + S16.size a ≤ S1920.size a
  inb_S1920_S16_208 : ∀ a, (![208] : Fin 1 → Nat) a + S16.size a ≤ S1920.size a
  inb_S1920_S16_848 : ∀ a, (![848] : Fin 1 → Nat) a + S16.size a ≤ S1920.size a
  inb_S1920_S16_1488 : ∀ a, (![1488] : Fin 1 → Nat) a + S16.size a ≤ S1920.size a
  inb_S1920_S16_224 : ∀ a, (![224] : Fin 1 → Nat) a + S16.size a ≤ S1920.size a
  inb_S1920_S16_864 : ∀ a, (![864] : Fin 1 → Nat) a + S16.size a ≤ S1920.size a
  inb_S1920_S16_1504 : ∀ a, (![1504] : Fin 1 → Nat) a + S16.size a ≤ S1920.size a
  inb_S1920_S16_240 : ∀ a, (![240] : Fin 1 → Nat) a + S16.size a ≤ S1920.size a
  inb_S1920_S16_880 : ∀ a, (![880] : Fin 1 → Nat) a + S16.size a ≤ S1920.size a
  inb_S1920_S16_1520 : ∀ a, (![1520] : Fin 1 → Nat) a + S16.size a ≤ S1920.size a
  inb_S1920_S16_256 : ∀ a, (![256] : Fin 1 → Nat) a + S16.size a ≤ S1920.size a
  inb_S1920_S16_896 : ∀ a, (![896] : Fin 1 → Nat) a + S16.size a ≤ S1920.size a
  inb_S1920_S16_1536 : ∀ a, (![1536] : Fin 1 → Nat) a + S16.size a ≤ S1920.size a
  inb_S1920_S16_272 : ∀ a, (![272] : Fin 1 → Nat) a + S16.size a ≤ S1920.size a
  inb_S1920_S16_912 : ∀ a, (![912] : Fin 1 → Nat) a + S16.size a ≤ S1920.size a
  inb_S1920_S16_1552 : ∀ a, (![1552] : Fin 1 → Nat) a + S16.size a ≤ S1920.size a
  inb_S1920_S16_288 : ∀ a, (![288] : Fin 1 → Nat) a + S16.size a ≤ S1920.size a
  inb_S1920_S16_928 : ∀ a, (![928] : Fin 1 → Nat) a + S16.size a ≤ S1920.size a
  inb_S1920_S16_1568 : ∀ a, (![1568] : Fin 1 → Nat) a + S16.size a ≤ S1920.size a
  inb_S1920_S16_304 : ∀ a, (![304] : Fin 1 → Nat) a + S16.size a ≤ S1920.size a
  inb_S1920_S16_944 : ∀ a, (![944] : Fin 1 → Nat) a + S16.size a ≤ S1920.size a
  inb_S1920_S16_1584 : ∀ a, (![1584] : Fin 1 → Nat) a + S16.size a ≤ S1920.size a
  inb_S1920_S16_320 : ∀ a, (![320] : Fin 1 → Nat) a + S16.size a ≤ S1920.size a
  inb_S1920_S16_960 : ∀ a, (![960] : Fin 1 → Nat) a + S16.size a ≤ S1920.size a
  inb_S1920_S16_1600 : ∀ a, (![1600] : Fin 1 → Nat) a + S16.size a ≤ S1920.size a
  inb_S1920_S16_336 : ∀ a, (![336] : Fin 1 → Nat) a + S16.size a ≤ S1920.size a
  inb_S1920_S16_976 : ∀ a, (![976] : Fin 1 → Nat) a + S16.size a ≤ S1920.size a
  inb_S1920_S16_1616 : ∀ a, (![1616] : Fin 1 → Nat) a + S16.size a ≤ S1920.size a
  inb_S1920_S16_352 : ∀ a, (![352] : Fin 1 → Nat) a + S16.size a ≤ S1920.size a
  inb_S1920_S16_992 : ∀ a, (![992] : Fin 1 → Nat) a + S16.size a ≤ S1920.size a
  inb_S1920_S16_1632 : ∀ a, (![1632] : Fin 1 → Nat) a + S16.size a ≤ S1920.size a
  inb_S1920_S16_368 : ∀ a, (![368] : Fin 1 → Nat) a + S16.size a ≤ S1920.size a
  inb_S1920_S16_1008 : ∀ a, (![1008] : Fin 1 → Nat) a + S16.size a ≤ S1920.size a
  inb_S1920_S16_1648 : ∀ a, (![1648] : Fin 1 → Nat) a + S16.size a ≤ S1920.size a
  inb_S1920_S16_384 : ∀ a, (![384] : Fin 1 → Nat) a + S16.size a ≤ S1920.size a
  inb_S1920_S16_1024 : ∀ a, (![1024] : Fin 1 → Nat) a + S16.size a ≤ S1920.size a
  inb_S1920_S16_1664 : ∀ a, (![1664] : Fin 1 → Nat) a + S16.size a ≤ S1920.size a
  inb_S1920_S16_400 : ∀ a, (![400] : Fin 1 → Nat) a + S16.size a ≤ S1920.size a
  inb_S1920_S16_1040 : ∀ a, (![1040] : Fin 1 → Nat) a + S16.size a ≤ S1920.size a
  inb_S1920_S16_1680 : ∀ a, (![1680] : Fin 1 → Nat) a + S16.size a ≤ S1920.size a
  inb_S1920_S16_416 : ∀ a, (![416] : Fin 1 → Nat) a + S16.size a ≤ S1920.size a
  inb_S1920_S16_1056 : ∀ a, (![1056] : Fin 1 → Nat) a + S16.size a ≤ S1920.size a
  inb_S1920_S16_1696 : ∀ a, (![1696] : Fin 1 → Nat) a + S16.size a ≤ S1920.size a
  inb_S1920_S16_432 : ∀ a, (![432] : Fin 1 → Nat) a + S16.size a ≤ S1920.size a
  inb_S1920_S16_1072 : ∀ a, (![1072] : Fin 1 → Nat) a + S16.size a ≤ S1920.size a
  inb_S1920_S16_1712 : ∀ a, (![1712] : Fin 1 → Nat) a + S16.size a ≤ S1920.size a
  inb_S1920_S16_448 : ∀ a, (![448] : Fin 1 → Nat) a + S16.size a ≤ S1920.size a
  inb_S1920_S16_1088 : ∀ a, (![1088] : Fin 1 → Nat) a + S16.size a ≤ S1920.size a
  inb_S1920_S16_1728 : ∀ a, (![1728] : Fin 1 → Nat) a + S16.size a ≤ S1920.size a
  inb_S1920_S16_464 : ∀ a, (![464] : Fin 1 → Nat) a + S16.size a ≤ S1920.size a
  inb_S1920_S16_1104 : ∀ a, (![1104] : Fin 1 → Nat) a + S16.size a ≤ S1920.size a
  inb_S1920_S16_1744 : ∀ a, (![1744] : Fin 1 → Nat) a + S16.size a ≤ S1920.size a
  inb_S1920_S16_480 : ∀ a, (![480] : Fin 1 → Nat) a + S16.size a ≤ S1920.size a
  inb_S1920_S16_1120 : ∀ a, (![1120] : Fin 1 → Nat) a + S16.size a ≤ S1920.size a
  inb_S1920_S16_1760 : ∀ a, (![1760] : Fin 1 → Nat) a + S16.size a ≤ S1920.size a
  inb_S1920_S16_496 : ∀ a, (![496] : Fin 1 → Nat) a + S16.size a ≤ S1920.size a
  inb_S1920_S16_1136 : ∀ a, (![1136] : Fin 1 → Nat) a + S16.size a ≤ S1920.size a
  inb_S1920_S16_1776 : ∀ a, (![1776] : Fin 1 → Nat) a + S16.size a ≤ S1920.size a
  inb_S1920_S16_512 : ∀ a, (![512] : Fin 1 → Nat) a + S16.size a ≤ S1920.size a
  inb_S1920_S16_1152 : ∀ a, (![1152] : Fin 1 → Nat) a + S16.size a ≤ S1920.size a
  inb_S1920_S16_1792 : ∀ a, (![1792] : Fin 1 → Nat) a + S16.size a ≤ S1920.size a
  inb_S1920_S16_528 : ∀ a, (![528] : Fin 1 → Nat) a + S16.size a ≤ S1920.size a
  inb_S1920_S16_1168 : ∀ a, (![1168] : Fin 1 → Nat) a + S16.size a ≤ S1920.size a
  inb_S1920_S16_1808 : ∀ a, (![1808] : Fin 1 → Nat) a + S16.size a ≤ S1920.size a
  inb_S1920_S16_544 : ∀ a, (![544] : Fin 1 → Nat) a + S16.size a ≤ S1920.size a
  inb_S1920_S16_1184 : ∀ a, (![1184] : Fin 1 → Nat) a + S16.size a ≤ S1920.size a
  inb_S1920_S16_1824 : ∀ a, (![1824] : Fin 1 → Nat) a + S16.size a ≤ S1920.size a
  inb_S1920_S16_560 : ∀ a, (![560] : Fin 1 → Nat) a + S16.size a ≤ S1920.size a
  inb_S1920_S16_1200 : ∀ a, (![1200] : Fin 1 → Nat) a + S16.size a ≤ S1920.size a
  inb_S1920_S16_1840 : ∀ a, (![1840] : Fin 1 → Nat) a + S16.size a ≤ S1920.size a
  inb_S1920_S16_576 : ∀ a, (![576] : Fin 1 → Nat) a + S16.size a ≤ S1920.size a
  inb_S1920_S16_1216 : ∀ a, (![1216] : Fin 1 → Nat) a + S16.size a ≤ S1920.size a
  inb_S1920_S16_1856 : ∀ a, (![1856] : Fin 1 → Nat) a + S16.size a ≤ S1920.size a
  inb_S1920_S16_592 : ∀ a, (![592] : Fin 1 → Nat) a + S16.size a ≤ S1920.size a
  inb_S1920_S16_1232 : ∀ a, (![1232] : Fin 1 → Nat) a + S16.size a ≤ S1920.size a
  inb_S1920_S16_1872 : ∀ a, (![1872] : Fin 1 → Nat) a + S16.size a ≤ S1920.size a
  inb_S19x8x512_S19x8x512_0_0_0 : ∀ a, (![0, 0, 0] : Fin 3 → Nat) a + S19x8x512.size a ≤ S19x8x512.size a
  h_S19x8x512 : 0 < S19x8x512.numel
  shapeCasts_S19x8x512_S19x8x512 : S19x8x512.ShapeCasts S19x8x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x19x256x512_S1x1x256x512_0_0_0_0 : ∀ a, (![0, 0, 0, 0] : Fin 4 → Nat) a + S1x1x256x512.size a ≤ S1x19x256x512.size a
  h_S1x1x256x512 : 0 < S1x1x256x512.numel
  shapeCasts_S1x1x256x512_S256x512 : S1x1x256x512.ShapeCasts S256x512
  shapeCasts_S256x512_S32x8x512 : S256x512.ShapeCasts S32x8x512
  reduces_S32x8x512_S8x512 : S32x8x512.Reduces [0] S8x512
  inb_S19x8x512_S1x8x512_0_0_0 : ∀ a, (![0, 0, 0] : Fin 3 → Nat) a + S1x8x512.size a ≤ S19x8x512.size a
  h_S1x8x512 : 0 < S1x8x512.numel
  shapeCasts_S1x8x512_S8x512 : S1x8x512.ShapeCasts S8x512
  shapeCasts_S8x512_S1x8x512 : S8x512.ShapeCasts S1x8x512
  inb_S1x19x256x512_S1x1x256x512_0_1_0_0 : ∀ a, (![0, 1, 0, 0] : Fin 4 → Nat) a + S1x1x256x512.size a ≤ S1x19x256x512.size a
  inb_S19x8x512_S1x8x512_1_0_0 : ∀ a, (![1, 0, 0] : Fin 3 → Nat) a + S1x8x512.size a ≤ S19x8x512.size a
  inb_S1x19x256x512_S1x1x256x512_0_2_0_0 : ∀ a, (![0, 2, 0, 0] : Fin 4 → Nat) a + S1x1x256x512.size a ≤ S1x19x256x512.size a
  inb_S19x8x512_S1x8x512_2_0_0 : ∀ a, (![2, 0, 0] : Fin 3 → Nat) a + S1x8x512.size a ≤ S19x8x512.size a
  inb_S1x19x256x512_S1x1x256x512_0_3_0_0 : ∀ a, (![0, 3, 0, 0] : Fin 4 → Nat) a + S1x1x256x512.size a ≤ S1x19x256x512.size a
  inb_S19x8x512_S1x8x512_3_0_0 : ∀ a, (![3, 0, 0] : Fin 3 → Nat) a + S1x8x512.size a ≤ S19x8x512.size a
  inb_S1x19x256x512_S1x1x256x512_0_4_0_0 : ∀ a, (![0, 4, 0, 0] : Fin 4 → Nat) a + S1x1x256x512.size a ≤ S1x19x256x512.size a
  inb_S19x8x512_S1x8x512_4_0_0 : ∀ a, (![4, 0, 0] : Fin 3 → Nat) a + S1x8x512.size a ≤ S19x8x512.size a
  inb_S1x19x256x512_S1x1x256x512_0_5_0_0 : ∀ a, (![0, 5, 0, 0] : Fin 4 → Nat) a + S1x1x256x512.size a ≤ S1x19x256x512.size a
  inb_S19x8x512_S1x8x512_5_0_0 : ∀ a, (![5, 0, 0] : Fin 3 → Nat) a + S1x8x512.size a ≤ S19x8x512.size a
  inb_S1x19x256x512_S1x1x256x512_0_6_0_0 : ∀ a, (![0, 6, 0, 0] : Fin 4 → Nat) a + S1x1x256x512.size a ≤ S1x19x256x512.size a
  inb_S19x8x512_S1x8x512_6_0_0 : ∀ a, (![6, 0, 0] : Fin 3 → Nat) a + S1x8x512.size a ≤ S19x8x512.size a
  inb_S1x19x256x512_S1x1x256x512_0_7_0_0 : ∀ a, (![0, 7, 0, 0] : Fin 4 → Nat) a + S1x1x256x512.size a ≤ S1x19x256x512.size a
  inb_S19x8x512_S1x8x512_7_0_0 : ∀ a, (![7, 0, 0] : Fin 3 → Nat) a + S1x8x512.size a ≤ S19x8x512.size a
  inb_S1x19x256x512_S1x1x256x512_0_8_0_0 : ∀ a, (![0, 8, 0, 0] : Fin 4 → Nat) a + S1x1x256x512.size a ≤ S1x19x256x512.size a
  inb_S19x8x512_S1x8x512_8_0_0 : ∀ a, (![8, 0, 0] : Fin 3 → Nat) a + S1x8x512.size a ≤ S19x8x512.size a
  inb_S1x19x256x512_S1x1x256x512_0_9_0_0 : ∀ a, (![0, 9, 0, 0] : Fin 4 → Nat) a + S1x1x256x512.size a ≤ S1x19x256x512.size a
  inb_S19x8x512_S1x8x512_9_0_0 : ∀ a, (![9, 0, 0] : Fin 3 → Nat) a + S1x8x512.size a ≤ S19x8x512.size a
  inb_S1x19x256x512_S1x1x256x512_0_10_0_0 : ∀ a, (![0, 10, 0, 0] : Fin 4 → Nat) a + S1x1x256x512.size a ≤ S1x19x256x512.size a
  inb_S19x8x512_S1x8x512_10_0_0 : ∀ a, (![10, 0, 0] : Fin 3 → Nat) a + S1x8x512.size a ≤ S19x8x512.size a
  inb_S1x19x256x512_S1x1x256x512_0_11_0_0 : ∀ a, (![0, 11, 0, 0] : Fin 4 → Nat) a + S1x1x256x512.size a ≤ S1x19x256x512.size a
  inb_S19x8x512_S1x8x512_11_0_0 : ∀ a, (![11, 0, 0] : Fin 3 → Nat) a + S1x8x512.size a ≤ S19x8x512.size a
  inb_S1x19x256x512_S1x1x256x512_0_12_0_0 : ∀ a, (![0, 12, 0, 0] : Fin 4 → Nat) a + S1x1x256x512.size a ≤ S1x19x256x512.size a
  inb_S19x8x512_S1x8x512_12_0_0 : ∀ a, (![12, 0, 0] : Fin 3 → Nat) a + S1x8x512.size a ≤ S19x8x512.size a
  inb_S1x19x256x512_S1x1x256x512_0_13_0_0 : ∀ a, (![0, 13, 0, 0] : Fin 4 → Nat) a + S1x1x256x512.size a ≤ S1x19x256x512.size a
  inb_S19x8x512_S1x8x512_13_0_0 : ∀ a, (![13, 0, 0] : Fin 3 → Nat) a + S1x8x512.size a ≤ S19x8x512.size a
  inb_S1x19x256x512_S1x1x256x512_0_14_0_0 : ∀ a, (![0, 14, 0, 0] : Fin 4 → Nat) a + S1x1x256x512.size a ≤ S1x19x256x512.size a
  inb_S19x8x512_S1x8x512_14_0_0 : ∀ a, (![14, 0, 0] : Fin 3 → Nat) a + S1x8x512.size a ≤ S19x8x512.size a
  inb_S1x19x256x512_S1x1x256x512_0_15_0_0 : ∀ a, (![0, 15, 0, 0] : Fin 4 → Nat) a + S1x1x256x512.size a ≤ S1x19x256x512.size a
  inb_S19x8x512_S1x8x512_15_0_0 : ∀ a, (![15, 0, 0] : Fin 3 → Nat) a + S1x8x512.size a ≤ S19x8x512.size a
  inb_S1x19x256x512_S1x1x256x512_0_16_0_0 : ∀ a, (![0, 16, 0, 0] : Fin 4 → Nat) a + S1x1x256x512.size a ≤ S1x19x256x512.size a
  inb_S19x8x512_S1x8x512_16_0_0 : ∀ a, (![16, 0, 0] : Fin 3 → Nat) a + S1x8x512.size a ≤ S19x8x512.size a
  inb_S1x19x256x512_S1x1x256x512_0_17_0_0 : ∀ a, (![0, 17, 0, 0] : Fin 4 → Nat) a + S1x1x256x512.size a ≤ S1x19x256x512.size a
  inb_S19x8x512_S1x8x512_17_0_0 : ∀ a, (![17, 0, 0] : Fin 3 → Nat) a + S1x8x512.size a ≤ S19x8x512.size a
  inb_S1x19x256x512_S1x1x256x512_0_18_0_0 : ∀ a, (![0, 18, 0, 0] : Fin 4 → Nat) a + S1x1x256x512.size a ≤ S1x19x256x512.size a
  inb_S19x8x512_S1x8x512_18_0_0 : ∀ a, (![18, 0, 0] : Fin 3 → Nat) a + S1x8x512.size a ≤ S19x8x512.size a
  reduces_S19x8x512_S19 : S19x8x512.Reduces [1, 2] S19
  shapeCasts_S19_S1x19 : S19.ShapeCasts S1x19
  reduces_S1x19_S1 : S1x19.Reduces [1] S1
  shapeCasts_S1_S1x1 : S1.ShapeCasts S1x1
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  shapeCasts_S128_S1x1x128 : S128.ShapeCasts S1x1x128
  slices_S6x1x128_S6x1x1_0_0_0 : S6x1x128.Slices ![0, 0, 0] S6x1x1
  shapeCasts_S6x1x1_S6 : S6x1x1.ShapeCasts S6
  shapeCasts_S61440_S32x3x40x16 : S61440.ShapeCasts S32x3x40x16
  reducesTo_S32x3x40x16_S3x40_d0_3 : S32x3x40x16.ReducesTo [0, 3] S3x40
  h_S_ : 0 < S_.numel
  slices_S3x40_S1x38_0_0 : S3x40.Slices ![0, 0] S1x38
  shapeCasts_S1x38_S38 : S1x38.ShapeCasts S38
  shapeCasts_S38_S2x19 : S38.ShapeCasts S2x19
  slices_S3x40_S1x38_1_0 : S3x40.Slices ![1, 0] S1x38
  slices_S3x40_S1x38_2_0 : S3x40.Slices ![2, 0] S1x38
  bcast_S_S2x19 : S_.BroadcastsInDim S2x19 (![] : Fin 0 → Fin S2x19.rank)
  reducesTo_S2x19_S2_d1 : S2x19.ReducesTo [1] S2
  bcast_S_S2 : S_.BroadcastsInDim S2 (![] : Fin 0 → Fin S2.rank)
  concatenates_S6_S2_S8_d0 : Shape.Concatenates [S6, S2] S8 0
  hcc0_scratch4 : 0 + S_.numel ≤ 10
  hcc0_scratch5 : 1 + S_.numel ≤ 10
  hcc0_scratch6 : 2 + S_.numel ≤ 10
  hcc0_scratch7 : 3 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x16x512.size a ≤ S8x512x512.size a
  k0_off2_inb : ∀ i : grid0.Coords, ∀ a, (k0_off2 i) a + S1x16x512.size a ≤ S8x512x512.size a
  k0_off3_inb : ∀ i : grid0.Coords, ∀ a, (k0_off3 i) a + S1x1x16x512.size a ≤ S8x19x512x512.size a
  k0_off4_inb : ∀ i : grid0.Coords, ∀ a, (k0_off4 i) a + S1x1x16x512.size a ≤ S8x19x512x512.size a
  k0_t1_ok : k0_t1_loop.OK
  k0_off5_inb : ∀ k0_t1 : Fin k0_t1_loop.trips, ∀ a, (k0_off5 k0_t1) a + S1x16.size a ≤ S16x512.size a
  k0_off6_inb : ∀ k0_t1 : Fin k0_t1_loop.trips, ∀ a, (k0_off6 k0_t1) a + S1x16.size a ≤ S32x512.size a
  k0_off7_inb : ∀ k0_t1 : Fin k0_t1_loop.trips, ∀ a, (k0_off7 k0_t1) a + S1x16.size a ≤ S16x512.size a
  k0_off8_inb : ∀ k0_t1 : Fin k0_t1_loop.trips, ∀ a, (k0_off8 k0_t1) a + S1x16.size a ≤ S32x512.size a
  k0_off9_inb : ∀ i : grid0.Coords, ∀ a, (k0_off9 i) a + S1x1x16x512.size a ≤ S8x19x512x512.size a
  k0_t2_ok : k0_t2_loop.OK
  k0_off10_inb : ∀ k0_t2 : Fin k0_t2_loop.trips, ∀ a, (k0_off10 k0_t2) a + S1x16.size a ≤ S16x512.size a
  k0_off11_inb : ∀ k0_t2 : Fin k0_t2_loop.trips, ∀ a, (k0_off11 k0_t2) a + S1x16.size a ≤ S32x512.size a
  k0_off12_inb : ∀ k0_t2 : Fin k0_t2_loop.trips, ∀ a, (k0_off12 k0_t2) a + S1x16.size a ≤ S16x512.size a
  k0_off13_inb : ∀ k0_t2 : Fin k0_t2_loop.trips, ∀ a, (k0_off13 k0_t2) a + S1x16.size a ≤ S32x512.size a
  k0_off14_inb : ∀ i : grid0.Coords, ∀ a, (k0_off14 i) a + S1x1x16x512.size a ≤ S8x19x512x512.size a
  k0_t3_ok : k0_t3_loop.OK
  k0_off15_inb : ∀ k0_t3 : Fin k0_t3_loop.trips, ∀ a, (k0_off15 k0_t3) a + S1x16.size a ≤ S16x512.size a
  k0_off16_inb : ∀ k0_t3 : Fin k0_t3_loop.trips, ∀ a, (k0_off16 k0_t3) a + S1x16.size a ≤ S32x512.size a
  k0_off17_inb : ∀ k0_t3 : Fin k0_t3_loop.trips, ∀ a, (k0_off17 k0_t3) a + S1x16.size a ≤ S16x512.size a
  k0_off18_inb : ∀ k0_t3 : Fin k0_t3_loop.trips, ∀ a, (k0_off18 k0_t3) a + S1x16.size a ≤ S32x512.size a
  k0_off19_inb : ∀ i : grid0.Coords, ∀ a, (k0_off19 i) a + S1x1x16x512.size a ≤ S8x19x512x512.size a
  k0_t4_ok : k0_t4_loop.OK
  k0_off20_inb : ∀ k0_t4 : Fin k0_t4_loop.trips, ∀ a, (k0_off20 k0_t4) a + S1x16.size a ≤ S16x512.size a
  k0_off21_inb : ∀ k0_t4 : Fin k0_t4_loop.trips, ∀ a, (k0_off21 k0_t4) a + S1x16.size a ≤ S32x512.size a
  k0_off22_inb : ∀ k0_t4 : Fin k0_t4_loop.trips, ∀ a, (k0_off22 k0_t4) a + S1x16.size a ≤ S16x512.size a
  k0_off23_inb : ∀ k0_t4 : Fin k0_t4_loop.trips, ∀ a, (k0_off23 k0_t4) a + S1x16.size a ≤ S32x512.size a
  k0_off24_inb : ∀ i : grid0.Coords, ∀ a, (k0_off24 i) a + S1x1x16x512.size a ≤ S8x19x512x512.size a
  k0_t5_ok : k0_t5_loop.OK
  k0_off25_inb : ∀ k0_t5 : Fin k0_t5_loop.trips, ∀ a, (k0_off25 k0_t5) a + S1x16.size a ≤ S16x512.size a
  k0_off26_inb : ∀ k0_t5 : Fin k0_t5_loop.trips, ∀ a, (k0_off26 k0_t5) a + S1x16.size a ≤ S32x512.size a
  k0_off27_inb : ∀ k0_t5 : Fin k0_t5_loop.trips, ∀ a, (k0_off27 k0_t5) a + S1x16.size a ≤ S16x512.size a
  k0_off28_inb : ∀ k0_t5 : Fin k0_t5_loop.trips, ∀ a, (k0_off28 k0_t5) a + S1x16.size a ≤ S32x512.size a
  k0_off29_inb : ∀ i : grid0.Coords, ∀ a, (k0_off29 i) a + S1x1x16x512.size a ≤ S8x19x512x512.size a
  k0_t6_ok : k0_t6_loop.OK
  k0_off30_inb : ∀ k0_t6 : Fin k0_t6_loop.trips, ∀ a, (k0_off30 k0_t6) a + S1x16.size a ≤ S16x512.size a
  k0_off31_inb : ∀ k0_t6 : Fin k0_t6_loop.trips, ∀ a, (k0_off31 k0_t6) a + S1x16.size a ≤ S32x512.size a
  k0_off32_inb : ∀ k0_t6 : Fin k0_t6_loop.trips, ∀ a, (k0_off32 k0_t6) a + S1x16.size a ≤ S16x512.size a
  k0_off33_inb : ∀ k0_t6 : Fin k0_t6_loop.trips, ∀ a, (k0_off33 k0_t6) a + S1x16.size a ≤ S32x512.size a
  k0_off34_inb : ∀ i : grid0.Coords, ∀ a, (k0_off34 i) a + S1x1x16x512.size a ≤ S8x19x512x512.size a
  k0_t7_ok : k0_t7_loop.OK
  k0_off35_inb : ∀ k0_t7 : Fin k0_t7_loop.trips, ∀ a, (k0_off35 k0_t7) a + S1x16.size a ≤ S16x512.size a
  k0_off36_inb : ∀ k0_t7 : Fin k0_t7_loop.trips, ∀ a, (k0_off36 k0_t7) a + S1x16.size a ≤ S32x512.size a
  k0_off37_inb : ∀ k0_t7 : Fin k0_t7_loop.trips, ∀ a, (k0_off37 k0_t7) a + S1x16.size a ≤ S16x512.size a
  k0_off38_inb : ∀ k0_t7 : Fin k0_t7_loop.trips, ∀ a, (k0_off38 k0_t7) a + S1x16.size a ≤ S32x512.size a
  k0_off39_inb : ∀ i : grid0.Coords, ∀ a, (k0_off39 i) a + S1x1x16x512.size a ≤ S8x19x512x512.size a
  k0_t8_ok : k0_t8_loop.OK
  k0_off40_inb : ∀ k0_t8 : Fin k0_t8_loop.trips, ∀ a, (k0_off40 k0_t8) a + S1x16.size a ≤ S16x512.size a
  k0_off41_inb : ∀ k0_t8 : Fin k0_t8_loop.trips, ∀ a, (k0_off41 k0_t8) a + S1x16.size a ≤ S32x512.size a
  k0_off42_inb : ∀ k0_t8 : Fin k0_t8_loop.trips, ∀ a, (k0_off42 k0_t8) a + S1x16.size a ≤ S16x512.size a
  k0_off43_inb : ∀ k0_t8 : Fin k0_t8_loop.trips, ∀ a, (k0_off43 k0_t8) a + S1x16.size a ≤ S32x512.size a
  k0_off44_inb : ∀ i : grid0.Coords, ∀ a, (k0_off44 i) a + S1x1x16x512.size a ≤ S8x19x512x512.size a
  k0_t9_ok : k0_t9_loop.OK
  k0_off45_inb : ∀ k0_t9 : Fin k0_t9_loop.trips, ∀ a, (k0_off45 k0_t9) a + S1x16.size a ≤ S16x512.size a
  k0_off46_inb : ∀ k0_t9 : Fin k0_t9_loop.trips, ∀ a, (k0_off46 k0_t9) a + S1x16.size a ≤ S32x512.size a
  k0_off47_inb : ∀ k0_t9 : Fin k0_t9_loop.trips, ∀ a, (k0_off47 k0_t9) a + S1x16.size a ≤ S16x512.size a
  k0_off48_inb : ∀ k0_t9 : Fin k0_t9_loop.trips, ∀ a, (k0_off48 k0_t9) a + S1x16.size a ≤ S32x512.size a
  k0_off49_inb : ∀ i : grid0.Coords, ∀ a, (k0_off49 i) a + S1x1x16x512.size a ≤ S8x19x512x512.size a
  k0_t10_ok : k0_t10_loop.OK
  k0_off50_inb : ∀ k0_t10 : Fin k0_t10_loop.trips, ∀ a, (k0_off50 k0_t10) a + S1x16.size a ≤ S16x512.size a
  k0_off51_inb : ∀ k0_t10 : Fin k0_t10_loop.trips, ∀ a, (k0_off51 k0_t10) a + S1x16.size a ≤ S32x512.size a
  k0_off52_inb : ∀ k0_t10 : Fin k0_t10_loop.trips, ∀ a, (k0_off52 k0_t10) a + S1x16.size a ≤ S16x512.size a
  k0_off53_inb : ∀ k0_t10 : Fin k0_t10_loop.trips, ∀ a, (k0_off53 k0_t10) a + S1x16.size a ≤ S32x512.size a
  k0_off54_inb : ∀ i : grid0.Coords, ∀ a, (k0_off54 i) a + S1x1x16x512.size a ≤ S8x19x512x512.size a
  k0_t11_ok : k0_t11_loop.OK
  k0_off55_inb : ∀ k0_t11 : Fin k0_t11_loop.trips, ∀ a, (k0_off55 k0_t11) a + S1x16.size a ≤ S16x512.size a
  k0_off56_inb : ∀ k0_t11 : Fin k0_t11_loop.trips, ∀ a, (k0_off56 k0_t11) a + S1x16.size a ≤ S32x512.size a
  k0_off57_inb : ∀ k0_t11 : Fin k0_t11_loop.trips, ∀ a, (k0_off57 k0_t11) a + S1x16.size a ≤ S16x512.size a
  k0_off58_inb : ∀ k0_t11 : Fin k0_t11_loop.trips, ∀ a, (k0_off58 k0_t11) a + S1x16.size a ≤ S32x512.size a
  k0_off59_inb : ∀ i : grid0.Coords, ∀ a, (k0_off59 i) a + S1x1x16x512.size a ≤ S8x19x512x512.size a
  k0_t12_ok : k0_t12_loop.OK
  k0_off60_inb : ∀ k0_t12 : Fin k0_t12_loop.trips, ∀ a, (k0_off60 k0_t12) a + S1x16.size a ≤ S16x512.size a
  k0_off61_inb : ∀ k0_t12 : Fin k0_t12_loop.trips, ∀ a, (k0_off61 k0_t12) a + S1x16.size a ≤ S32x512.size a
  k0_off62_inb : ∀ k0_t12 : Fin k0_t12_loop.trips, ∀ a, (k0_off62 k0_t12) a + S1x16.size a ≤ S16x512.size a
  k0_off63_inb : ∀ k0_t12 : Fin k0_t12_loop.trips, ∀ a, (k0_off63 k0_t12) a + S1x16.size a ≤ S32x512.size a
  k0_off64_inb : ∀ i : grid0.Coords, ∀ a, (k0_off64 i) a + S1x1x16x512.size a ≤ S8x19x512x512.size a
  k0_t13_ok : k0_t13_loop.OK
  k0_off65_inb : ∀ k0_t13 : Fin k0_t13_loop.trips, ∀ a, (k0_off65 k0_t13) a + S1x16.size a ≤ S16x512.size a
  k0_off66_inb : ∀ k0_t13 : Fin k0_t13_loop.trips, ∀ a, (k0_off66 k0_t13) a + S1x16.size a ≤ S32x512.size a
  k0_off67_inb : ∀ k0_t13 : Fin k0_t13_loop.trips, ∀ a, (k0_off67 k0_t13) a + S1x16.size a ≤ S16x512.size a
  k0_off68_inb : ∀ k0_t13 : Fin k0_t13_loop.trips, ∀ a, (k0_off68 k0_t13) a + S1x16.size a ≤ S32x512.size a
  k0_off69_inb : ∀ i : grid0.Coords, ∀ a, (k0_off69 i) a + S1x1x16x512.size a ≤ S8x19x512x512.size a
  k0_t14_ok : k0_t14_loop.OK
  k0_off70_inb : ∀ k0_t14 : Fin k0_t14_loop.trips, ∀ a, (k0_off70 k0_t14) a + S1x16.size a ≤ S16x512.size a
  k0_off71_inb : ∀ k0_t14 : Fin k0_t14_loop.trips, ∀ a, (k0_off71 k0_t14) a + S1x16.size a ≤ S32x512.size a
  k0_off72_inb : ∀ k0_t14 : Fin k0_t14_loop.trips, ∀ a, (k0_off72 k0_t14) a + S1x16.size a ≤ S16x512.size a
  k0_off73_inb : ∀ k0_t14 : Fin k0_t14_loop.trips, ∀ a, (k0_off73 k0_t14) a + S1x16.size a ≤ S32x512.size a
  k0_off74_inb : ∀ i : grid0.Coords, ∀ a, (k0_off74 i) a + S1x1x16x512.size a ≤ S8x19x512x512.size a
  k0_t15_ok : k0_t15_loop.OK
  k0_off75_inb : ∀ k0_t15 : Fin k0_t15_loop.trips, ∀ a, (k0_off75 k0_t15) a + S1x16.size a ≤ S16x512.size a
  k0_off76_inb : ∀ k0_t15 : Fin k0_t15_loop.trips, ∀ a, (k0_off76 k0_t15) a + S1x16.size a ≤ S32x512.size a
  k0_off77_inb : ∀ k0_t15 : Fin k0_t15_loop.trips, ∀ a, (k0_off77 k0_t15) a + S1x16.size a ≤ S16x512.size a
  k0_off78_inb : ∀ k0_t15 : Fin k0_t15_loop.trips, ∀ a, (k0_off78 k0_t15) a + S1x16.size a ≤ S32x512.size a
  k0_off79_inb : ∀ i : grid0.Coords, ∀ a, (k0_off79 i) a + S1x1x16x512.size a ≤ S8x19x512x512.size a
  k0_t16_ok : k0_t16_loop.OK
  k0_off80_inb : ∀ k0_t16 : Fin k0_t16_loop.trips, ∀ a, (k0_off80 k0_t16) a + S1x16.size a ≤ S16x512.size a
  k0_off81_inb : ∀ k0_t16 : Fin k0_t16_loop.trips, ∀ a, (k0_off81 k0_t16) a + S1x16.size a ≤ S32x512.size a
  k0_off82_inb : ∀ k0_t16 : Fin k0_t16_loop.trips, ∀ a, (k0_off82 k0_t16) a + S1x16.size a ≤ S16x512.size a
  k0_off83_inb : ∀ k0_t16 : Fin k0_t16_loop.trips, ∀ a, (k0_off83 k0_t16) a + S1x16.size a ≤ S32x512.size a
  k0_off84_inb : ∀ i : grid0.Coords, ∀ a, (k0_off84 i) a + S1x1x16x512.size a ≤ S8x19x512x512.size a
  k0_t17_ok : k0_t17_loop.OK
  k0_off85_inb : ∀ k0_t17 : Fin k0_t17_loop.trips, ∀ a, (k0_off85 k0_t17) a + S1x16.size a ≤ S16x512.size a
  k0_off86_inb : ∀ k0_t17 : Fin k0_t17_loop.trips, ∀ a, (k0_off86 k0_t17) a + S1x16.size a ≤ S32x512.size a
  k0_off87_inb : ∀ k0_t17 : Fin k0_t17_loop.trips, ∀ a, (k0_off87 k0_t17) a + S1x16.size a ≤ S16x512.size a
  k0_off88_inb : ∀ k0_t17 : Fin k0_t17_loop.trips, ∀ a, (k0_off88 k0_t17) a + S1x16.size a ≤ S32x512.size a
  k0_off89_inb : ∀ i : grid0.Coords, ∀ a, (k0_off89 i) a + S1x1x16x512.size a ≤ S8x19x512x512.size a
  k0_t18_ok : k0_t18_loop.OK
  k0_off90_inb : ∀ k0_t18 : Fin k0_t18_loop.trips, ∀ a, (k0_off90 k0_t18) a + S1x16.size a ≤ S16x512.size a
  k0_off91_inb : ∀ k0_t18 : Fin k0_t18_loop.trips, ∀ a, (k0_off91 k0_t18) a + S1x16.size a ≤ S32x512.size a
  k0_off92_inb : ∀ k0_t18 : Fin k0_t18_loop.trips, ∀ a, (k0_off92 k0_t18) a + S1x16.size a ≤ S16x512.size a
  k0_off93_inb : ∀ k0_t18 : Fin k0_t18_loop.trips, ∀ a, (k0_off93 k0_t18) a + S1x16.size a ≤ S32x512.size a
  k0_off94_inb : ∀ i : grid0.Coords, ∀ a, (k0_off94 i) a + S1x1x16x512.size a ≤ S8x19x512x512.size a
  k0_t19_ok : k0_t19_loop.OK
  k0_off95_inb : ∀ k0_t19 : Fin k0_t19_loop.trips, ∀ a, (k0_off95 k0_t19) a + S1x16.size a ≤ S16x512.size a
  k0_off96_inb : ∀ k0_t19 : Fin k0_t19_loop.trips, ∀ a, (k0_off96 k0_t19) a + S1x16.size a ≤ S32x512.size a
  k0_off97_inb : ∀ k0_t19 : Fin k0_t19_loop.trips, ∀ a, (k0_off97 k0_t19) a + S1x16.size a ≤ S16x512.size a
  k0_off98_inb : ∀ k0_t19 : Fin k0_t19_loop.trips, ∀ a, (k0_off98 k0_t19) a + S1x16.size a ≤ S32x512.size a
  k0_off99_inb : ∀ i : grid0.Coords, ∀ a, (k0_off99 i) a + S1x1x16x512.size a ≤ S8x19x512x512.size a
  k0_t20_ok : k0_t20_loop.OK
  k0_off100_inb : ∀ k0_t20 : Fin k0_t20_loop.trips, ∀ a, (k0_off100 k0_t20) a + S1x16.size a ≤ S16x512.size a
  k0_off101_inb : ∀ k0_t20 : Fin k0_t20_loop.trips, ∀ a, (k0_off101 k0_t20) a + S1x16.size a ≤ S32x512.size a
  k0_off102_inb : ∀ k0_t20 : Fin k0_t20_loop.trips, ∀ a, (k0_off102 k0_t20) a + S1x16.size a ≤ S16x512.size a
  k0_off103_inb : ∀ k0_t20 : Fin k0_t20_loop.trips, ∀ a, (k0_off103 k0_t20) a + S1x16.size a ≤ S32x512.size a
  k0_off104_inb : ∀ i : grid0.Coords, ∀ a, (k0_off104 i) a + S1x1x16x512.size a ≤ S8x19x512x512.size a
  k0_t21_ok : k0_t21_loop.OK
  k0_off105_inb : ∀ k0_t21 : Fin k0_t21_loop.trips, ∀ a, (k0_off105 k0_t21) a + S1x16.size a ≤ S16x512.size a
  k0_off106_inb : ∀ k0_t21 : Fin k0_t21_loop.trips, ∀ a, (k0_off106 k0_t21) a + S1x16.size a ≤ S32x512.size a
  k0_off107_inb : ∀ k0_t21 : Fin k0_t21_loop.trips, ∀ a, (k0_off107 k0_t21) a + S1x16.size a ≤ S16x512.size a
  k0_off108_inb : ∀ k0_t21 : Fin k0_t21_loop.trips, ∀ a, (k0_off108 k0_t21) a + S1x16.size a ≤ S32x512.size a
  k0_off109_inb : ∀ i : grid0.Coords, ∀ a, (k0_off109 i) a + S1x1x16x512.size a ≤ S8x19x512x512.size a
  k0_t22_ok : k0_t22_loop.OK
  k0_off110_inb : ∀ k0_t22 : Fin k0_t22_loop.trips, ∀ a, (k0_off110 k0_t22) a + S1x16.size a ≤ S16x512.size a
  k0_off111_inb : ∀ k0_t22 : Fin k0_t22_loop.trips, ∀ a, (k0_off111 k0_t22) a + S1x16.size a ≤ S32x512.size a
  k0_off112_inb : ∀ k0_t22 : Fin k0_t22_loop.trips, ∀ a, (k0_off112 k0_t22) a + S1x16.size a ≤ S16x512.size a
  k0_off113_inb : ∀ k0_t22 : Fin k0_t22_loop.trips, ∀ a, (k0_off113 k0_t22) a + S1x16.size a ≤ S32x512.size a
  k0_off114_inb : ∀ i : grid0.Coords, ∀ a, (k0_off114 i) a + S1x1x16x512.size a ≤ S8x19x512x512.size a
  k0_t23_ok : k0_t23_loop.OK
  k0_off115_inb : ∀ k0_t23 : Fin k0_t23_loop.trips, ∀ a, (k0_off115 k0_t23) a + S1x16.size a ≤ S16x512.size a
  k0_off116_inb : ∀ k0_t23 : Fin k0_t23_loop.trips, ∀ a, (k0_off116 k0_t23) a + S1x16.size a ≤ S32x512.size a
  k0_off117_inb : ∀ k0_t23 : Fin k0_t23_loop.trips, ∀ a, (k0_off117 k0_t23) a + S1x16.size a ≤ S16x512.size a
  k0_off118_inb : ∀ k0_t23 : Fin k0_t23_loop.trips, ∀ a, (k0_off118 k0_t23) a + S1x16.size a ≤ S32x512.size a
  k0_off119_inb : ∀ i : grid0.Coords, ∀ a, (k0_off119 i) a + S1x1x16x512.size a ≤ S8x19x512x512.size a
  k0_t24_ok : k0_t24_loop.OK
  k0_off120_inb : ∀ k0_t24 : Fin k0_t24_loop.trips, ∀ a, (k0_off120 k0_t24) a + S1x16.size a ≤ S16x512.size a
  k0_off121_inb : ∀ k0_t24 : Fin k0_t24_loop.trips, ∀ a, (k0_off121 k0_t24) a + S1x16.size a ≤ S32x512.size a
  k0_off122_inb : ∀ k0_t24 : Fin k0_t24_loop.trips, ∀ a, (k0_off122 k0_t24) a + S1x16.size a ≤ S16x512.size a
  k0_off123_inb : ∀ k0_t24 : Fin k0_t24_loop.trips, ∀ a, (k0_off123 k0_t24) a + S1x16.size a ≤ S32x512.size a
  k0_off124_inb : ∀ i : grid0.Coords, ∀ a, (k0_off124 i) a + S1x1x16x512.size a ≤ S8x19x512x512.size a
  k0_t25_ok : k0_t25_loop.OK
  k0_off125_inb : ∀ k0_t25 : Fin k0_t25_loop.trips, ∀ a, (k0_off125 k0_t25) a + S1x16.size a ≤ S16x512.size a
  k0_off126_inb : ∀ k0_t25 : Fin k0_t25_loop.trips, ∀ a, (k0_off126 k0_t25) a + S1x16.size a ≤ S32x512.size a
  k0_off127_inb : ∀ k0_t25 : Fin k0_t25_loop.trips, ∀ a, (k0_off127 k0_t25) a + S1x16.size a ≤ S16x512.size a
  k0_off128_inb : ∀ k0_t25 : Fin k0_t25_loop.trips, ∀ a, (k0_off128 k0_t25) a + S1x16.size a ≤ S32x512.size a
  k0_off129_inb : ∀ i : grid0.Coords, ∀ a, (k0_off129 i) a + S1x1x16x512.size a ≤ S8x19x512x512.size a
  k0_t26_ok : k0_t26_loop.OK
  k0_off130_inb : ∀ k0_t26 : Fin k0_t26_loop.trips, ∀ a, (k0_off130 k0_t26) a + S1x16.size a ≤ S16x512.size a
  k0_off131_inb : ∀ k0_t26 : Fin k0_t26_loop.trips, ∀ a, (k0_off131 k0_t26) a + S1x16.size a ≤ S32x512.size a
  k0_off132_inb : ∀ k0_t26 : Fin k0_t26_loop.trips, ∀ a, (k0_off132 k0_t26) a + S1x16.size a ≤ S16x512.size a
  k0_off133_inb : ∀ k0_t26 : Fin k0_t26_loop.trips, ∀ a, (k0_off133 k0_t26) a + S1x16.size a ≤ S32x512.size a
  k0_off134_inb : ∀ i : grid0.Coords, ∀ a, (k0_off134 i) a + S1x1x16x512.size a ≤ S8x19x512x512.size a
  k0_t27_ok : k0_t27_loop.OK
  k0_off135_inb : ∀ k0_t27 : Fin k0_t27_loop.trips, ∀ a, (k0_off135 k0_t27) a + S1x16.size a ≤ S16x512.size a
  k0_off136_inb : ∀ k0_t27 : Fin k0_t27_loop.trips, ∀ a, (k0_off136 k0_t27) a + S1x16.size a ≤ S32x512.size a
  k0_off137_inb : ∀ k0_t27 : Fin k0_t27_loop.trips, ∀ a, (k0_off137 k0_t27) a + S1x16.size a ≤ S16x512.size a
  k0_off138_inb : ∀ k0_t27 : Fin k0_t27_loop.trips, ∀ a, (k0_off138 k0_t27) a + S1x16.size a ≤ S32x512.size a
  k0_off139_inb : ∀ i : grid0.Coords, ∀ a, (k0_off139 i) a + S1x1x16x512.size a ≤ S8x19x512x512.size a
  k0_t28_ok : k0_t28_loop.OK
  k0_off140_inb : ∀ k0_t28 : Fin k0_t28_loop.trips, ∀ a, (k0_off140 k0_t28) a + S1x16.size a ≤ S16x512.size a
  k0_off141_inb : ∀ k0_t28 : Fin k0_t28_loop.trips, ∀ a, (k0_off141 k0_t28) a + S1x16.size a ≤ S32x512.size a
  k0_off142_inb : ∀ k0_t28 : Fin k0_t28_loop.trips, ∀ a, (k0_off142 k0_t28) a + S1x16.size a ≤ S16x512.size a
  k0_off143_inb : ∀ k0_t28 : Fin k0_t28_loop.trips, ∀ a, (k0_off143 k0_t28) a + S1x16.size a ≤ S32x512.size a
  k0_off144_inb : ∀ i : grid0.Coords, ∀ a, (k0_off144 i) a + S1x1x16x512.size a ≤ S8x19x512x512.size a
  k0_t29_ok : k0_t29_loop.OK
  k0_off145_inb : ∀ k0_t29 : Fin k0_t29_loop.trips, ∀ a, (k0_off145 k0_t29) a + S1x16.size a ≤ S16x512.size a
  k0_off146_inb : ∀ k0_t29 : Fin k0_t29_loop.trips, ∀ a, (k0_off146 k0_t29) a + S1x16.size a ≤ S32x512.size a
  k0_off147_inb : ∀ k0_t29 : Fin k0_t29_loop.trips, ∀ a, (k0_off147 k0_t29) a + S1x16.size a ≤ S16x512.size a
  k0_off148_inb : ∀ k0_t29 : Fin k0_t29_loop.trips, ∀ a, (k0_off148 k0_t29) a + S1x16.size a ≤ S32x512.size a
  k0_off149_inb : ∀ i : grid0.Coords, ∀ a, (k0_off149 i) a + S1x1x16x512.size a ≤ S8x19x512x512.size a
  k0_t30_ok : k0_t30_loop.OK
  k0_off150_inb : ∀ k0_t30 : Fin k0_t30_loop.trips, ∀ a, (k0_off150 k0_t30) a + S1x16.size a ≤ S16x512.size a
  k0_off151_inb : ∀ k0_t30 : Fin k0_t30_loop.trips, ∀ a, (k0_off151 k0_t30) a + S1x16.size a ≤ S32x512.size a
  k0_off152_inb : ∀ k0_t30 : Fin k0_t30_loop.trips, ∀ a, (k0_off152 k0_t30) a + S1x16.size a ≤ S16x512.size a
  k0_off153_inb : ∀ k0_t30 : Fin k0_t30_loop.trips, ∀ a, (k0_off153 k0_t30) a + S1x16.size a ≤ S32x512.size a
  k0_off154_inb : ∀ i : grid0.Coords, ∀ a, (k0_off154 i) a + S1x1x16x512.size a ≤ S8x19x512x512.size a
  k0_t31_ok : k0_t31_loop.OK
  k0_off155_inb : ∀ k0_t31 : Fin k0_t31_loop.trips, ∀ a, (k0_off155 k0_t31) a + S1x16.size a ≤ S16x512.size a
  k0_off156_inb : ∀ k0_t31 : Fin k0_t31_loop.trips, ∀ a, (k0_off156 k0_t31) a + S1x16.size a ≤ S32x512.size a
  k0_off157_inb : ∀ k0_t31 : Fin k0_t31_loop.trips, ∀ a, (k0_off157 k0_t31) a + S1x16.size a ≤ S16x512.size a
  k0_off158_inb : ∀ k0_t31 : Fin k0_t31_loop.trips, ∀ a, (k0_off158 k0_t31) a + S1x16.size a ≤ S32x512.size a
  k0_off159_inb : ∀ i : grid0.Coords, ∀ a, (k0_off159 i) a + S1x1x16x512.size a ≤ S8x19x512x512.size a
  k0_t32_ok : k0_t32_loop.OK
  k0_off160_inb : ∀ k0_t32 : Fin k0_t32_loop.trips, ∀ a, (k0_off160 k0_t32) a + S1x16.size a ≤ S16x512.size a
  k0_off161_inb : ∀ k0_t32 : Fin k0_t32_loop.trips, ∀ a, (k0_off161 k0_t32) a + S1x16.size a ≤ S32x512.size a
  k0_off162_inb : ∀ k0_t32 : Fin k0_t32_loop.trips, ∀ a, (k0_off162 k0_t32) a + S1x16.size a ≤ S16x512.size a
  k0_off163_inb : ∀ k0_t32 : Fin k0_t32_loop.trips, ∀ a, (k0_off163 k0_t32) a + S1x16.size a ≤ S32x512.size a
  k0_off164_inb : ∀ i : grid0.Coords, ∀ a, (k0_off164 i) a + S1x1x16x512.size a ≤ S8x19x512x512.size a
  k0_t33_ok : k0_t33_loop.OK
  k0_off165_inb : ∀ k0_t33 : Fin k0_t33_loop.trips, ∀ a, (k0_off165 k0_t33) a + S1x16.size a ≤ S16x512.size a
  k0_off166_inb : ∀ k0_t33 : Fin k0_t33_loop.trips, ∀ a, (k0_off166 k0_t33) a + S1x16.size a ≤ S32x512.size a
  k0_off167_inb : ∀ k0_t33 : Fin k0_t33_loop.trips, ∀ a, (k0_off167 k0_t33) a + S1x16.size a ≤ S16x512.size a
  k0_off168_inb : ∀ k0_t33 : Fin k0_t33_loop.trips, ∀ a, (k0_off168 k0_t33) a + S1x16.size a ≤ S32x512.size a
  k0_off169_inb : ∀ i : grid0.Coords, ∀ a, (k0_off169 i) a + S1x1x16x512.size a ≤ S8x19x512x512.size a
  k0_t34_ok : k0_t34_loop.OK
  k0_off170_inb : ∀ k0_t34 : Fin k0_t34_loop.trips, ∀ a, (k0_off170 k0_t34) a + S1x16.size a ≤ S16x512.size a
  k0_off171_inb : ∀ k0_t34 : Fin k0_t34_loop.trips, ∀ a, (k0_off171 k0_t34) a + S1x16.size a ≤ S32x512.size a
  k0_off172_inb : ∀ k0_t34 : Fin k0_t34_loop.trips, ∀ a, (k0_off172 k0_t34) a + S1x16.size a ≤ S16x512.size a
  k0_off173_inb : ∀ k0_t34 : Fin k0_t34_loop.trips, ∀ a, (k0_off173 k0_t34) a + S1x16.size a ≤ S32x512.size a
  k0_off174_inb : ∀ i : grid0.Coords, ∀ a, (k0_off174 i) a + S1x1x16x512.size a ≤ S8x19x512x512.size a
  k0_t35_ok : k0_t35_loop.OK
  k0_off175_inb : ∀ k0_t35 : Fin k0_t35_loop.trips, ∀ a, (k0_off175 k0_t35) a + S1x16.size a ≤ S16x512.size a
  k0_off176_inb : ∀ k0_t35 : Fin k0_t35_loop.trips, ∀ a, (k0_off176 k0_t35) a + S1x16.size a ≤ S32x512.size a
  k0_off177_inb : ∀ k0_t35 : Fin k0_t35_loop.trips, ∀ a, (k0_off177 k0_t35) a + S1x16.size a ≤ S16x512.size a
  k0_off178_inb : ∀ k0_t35 : Fin k0_t35_loop.trips, ∀ a, (k0_off178 k0_t35) a + S1x16.size a ≤ S32x512.size a
  k0_off179_inb : ∀ i : grid0.Coords, ∀ a, (k0_off179 i) a + S1x1x16x512.size a ≤ S8x19x512x512.size a
  k0_t36_ok : k0_t36_loop.OK
  k0_off180_inb : ∀ k0_t36 : Fin k0_t36_loop.trips, ∀ a, (k0_off180 k0_t36) a + S1x16.size a ≤ S16x512.size a
  k0_off181_inb : ∀ k0_t36 : Fin k0_t36_loop.trips, ∀ a, (k0_off181 k0_t36) a + S1x16.size a ≤ S32x512.size a
  k0_off182_inb : ∀ k0_t36 : Fin k0_t36_loop.trips, ∀ a, (k0_off182 k0_t36) a + S1x16.size a ≤ S16x512.size a
  k0_off183_inb : ∀ k0_t36 : Fin k0_t36_loop.trips, ∀ a, (k0_off183 k0_t36) a + S1x16.size a ≤ S32x512.size a
  k0_off184_inb : ∀ i : grid0.Coords, ∀ a, (k0_off184 i) a + S1x1x16x512.size a ≤ S8x19x512x512.size a
  k0_t37_ok : k0_t37_loop.OK
  k0_off185_inb : ∀ k0_t37 : Fin k0_t37_loop.trips, ∀ a, (k0_off185 k0_t37) a + S1x16.size a ≤ S16x512.size a
  k0_off186_inb : ∀ k0_t37 : Fin k0_t37_loop.trips, ∀ a, (k0_off186 k0_t37) a + S1x16.size a ≤ S32x512.size a
  k0_off187_inb : ∀ k0_t37 : Fin k0_t37_loop.trips, ∀ a, (k0_off187 k0_t37) a + S1x16.size a ≤ S16x512.size a
  k0_off188_inb : ∀ k0_t37 : Fin k0_t37_loop.trips, ∀ a, (k0_off188 k0_t37) a + S1x16.size a ≤ S32x512.size a
  k0_t38_ok : k0_t38_loop.OK
  k0_off189_inb : ∀ k0_t38 : Fin k0_t38_loop.trips, ∀ a, (k0_off189 k0_t38) a + S1x16.size a ≤ S16x512.size a
  k0_off190_inb : ∀ k0_t38 : Fin k0_t38_loop.trips, ∀ a, (k0_off190 k0_t38) a + S1x16.size a ≤ S32x512.size a
  k0_off191_inb : ∀ k0_t38 : Fin k0_t38_loop.trips, ∀ a, (k0_off191 k0_t38) a + S1x16.size a ≤ S16x512.size a
  k0_off192_inb : ∀ k0_t38 : Fin k0_t38_loop.trips, ∀ a, (k0_off192 k0_t38) a + S1x16.size a ≤ S32x512.size a
  k0_off193_inb : ∀ i : grid0.Coords, ∀ a, (k0_off193 i) a + S1920.size a ≤ S61440.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x19x256x512.size a ≤ S8x19x512x512.size a
  hwx1_0 : ∀ i : grid1.Coords, EltTy.bits .f32 = 32 ∨ (Rect.block (s := S8x19x512x512) S1x19x256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x512.size a ≤ S8x512x512.size a
  hwx1_1 : ∀ i : grid1.Coords, EltTy.bits .i32 = 32 ∨ (Rect.block (s := S8x512x512) S1x256x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S6x1x128.size a
  hwx1_2 : ∀ i : grid1.Coords, EltTy.bits .f32 = 32 ∨ (Rect.block (s := S6x1x128) S1x1x128.size (cc1_transform_2 i) (hinb1_2 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7

abbrev win1_0 : Pipeline.Window sig grid1 :=
  Pipeline.Window.ofSpec (Memref.whole main_arg0) S1x19x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x19x512x512 : Shape := ⟨4, ![8, 19, 512, 512]⟩
abbrev S8x512x512 : Shape := ⟨3, ![8, 512, 512]⟩
abbrev S8x1x512x512 : Shape := ⟨4, ![8, 1, 512, 512]⟩
abbrev S1x19x1x1 : Shape := ⟨4, ![1, 19, 1, 1]⟩
abbrev S_ : Shape := ⟨0, ![]⟩
abbrev S8x19 : Shape := ⟨2, ![8, 19]⟩
abbrev S8 : Shape := ⟨1, ![8]⟩

abbrev nBuf : Space → Nat
  | .hbm => 32
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x1x512x512, .i32⟩
  | .hbm, ⟨3, _⟩ => ⟨S1x19x1x1, .i32⟩
  | .hbm, ⟨4, _⟩ => ⟨S8x19x512x512, .i32⟩
  | .hbm, ⟨5, _⟩ => ⟨S8x19x512x512, .i32⟩
  | .hbm, ⟨6, _⟩ => ⟨S8x19x512x512, .i1⟩
  | .hbm, ⟨7, _⟩ => ⟨S8x19x512x512, .f32⟩
  | .hbm, ⟨8, _⟩ => ⟨S8x19x512x512, .f32⟩
  | .hbm, ⟨9, _⟩ => ⟨S_, .f32⟩
  | .hbm, ⟨10, _⟩ => ⟨S8x19, .f32⟩
  | .hbm, ⟨11, _⟩ => ⟨S_, .f32⟩
  | .hbm, ⟨12, _⟩ => ⟨S8x19, .f32⟩
  | .hbm, ⟨13, _⟩ => ⟨S8x19, .f32⟩
  | .hbm, ⟨14, _⟩ => ⟨S_, .f32⟩
  | .hbm, ⟨15, _⟩ => ⟨S8x19, .f32⟩
  | .hbm, ⟨16, _⟩ => ⟨S8x19, .f32⟩
  | .hbm, ⟨17, _⟩ => ⟨S_, .f32⟩
  | .hbm, ⟨18, _⟩ => ⟨S8x19, .f32⟩
  | .hbm, ⟨19, _⟩ => ⟨S_, .f32⟩
  | .hbm, ⟨20, _⟩ => ⟨S8x19, .f32⟩
  | .hbm, ⟨21, _⟩ => ⟨S8x19, .f32⟩
  | .hbm, ⟨22, _⟩ => ⟨S_, .f32⟩
  | .hbm, ⟨23, _⟩ => ⟨S8x19, .f32⟩
  | .hbm, ⟨24, _⟩ => ⟨S8x19, .f32⟩
  | .hbm, ⟨25, _⟩ => ⟨S8x19, .f32⟩
  | .hbm, ⟨26, _⟩ => ⟨S_, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩

abbrev nD : Nat := 1
abbrev τ : Topo := Topo.v7x

variable {F : FTy → Type} [FloatOps F]

class Facts₀ : Prop where
  bcast_S8x512x512_S8x1x512x512_0_2_3 : S8x512x512.BroadcastsInDim S8x1x512x512 (![0, 2, 3] : Fin 3 → Fin S8x1x512x512.rank)
  bcast_S8x1x512x512_S8x19x512x512_0_1_2_3 : S8x1x512x512.BroadcastsInDim S8x19x512x512 (![0, 1, 2, 3] : Fin 4 → Fin S8x19x512x512.rank)
  bcast_S1x19x1x1_S8x19x512x512_0_1_2_3 : S1x19x1x1.BroadcastsInDim S8x19x512x512 (![0, 1, 2, 3] : Fin 4 → Fin S8x19x512x512.rank)
  reducesTo_S8x19x512x512_S8x19_d2_3 : S8x19x512x512.ReducesTo [2, 3] S8x19
  h_S_ : 0 < S_.numel
  bcast_S_S8x19 : S_.BroadcastsInDim S8x19 (![] : Fin 0 → Fin S8x19.rank)
  reducesTo_S8x19_S8_d1 : S8x19.ReducesTo [1] S8
  bcast_S_S8 : S_.BroadcastsInDim S8 (![] : Fin 0 → Fin S8.rank)

variable [Facts₀]

class Facts : Prop extends Facts₀ where

variable [Facts]
-- ==== Proof.SpecSC.lean ====
import Idealize.ShloMosaic.PureOps
import Idealize.ShloMosaic.Lib.ValueIdx

noncomputable section

namespace Cert.SpecSC

open Idealize.ShloMosaic Idealize.ShloMosaic.ValueIdx

abbrev SP : Shape := ⟨4, ![8, 19, 512, 512]⟩
abbrev ST : Shape := ⟨3, ![8, 512, 512]⟩
abbrev SO : Shape := ⟨1, ![61440]⟩

variable {F : FTy → Type} [FloatOps F]

def fin512 (n : Nat) : Fin 512 := ⟨n % 512, Nat.mod_lt _ (by decide)⟩
def fin61440 (n : Nat) : Fin 61440 := ⟨n % 61440, Nat.mod_lt _ (by decide)⟩

def zeroF : F .f32 := Scalar.ofBits .f32 0x00000000#32
def oneF : F .f32 := Scalar.ofBits .f32 0x3F800000#32

def m01 (c t : BitVec 32) : F .f32 := Scalar.select (IntOp.cmpi .eq t c) (oneF (F := F)) (zeroF (F := F))

def accum (g : Nat → F .f32) : Nat → F .f32
  | 0 => zeroF
  | k + 1 => FloatOps.addf (accum g k) (g k)

def pairB (j : Fin 38) : Fin 8 := ⟨6 + j.val / 19, by have := j.isLt; omega⟩
def pairC (j : Fin 38) : Fin 19 := ⟨j.val % 19, Nat.mod_lt _ (by decide)⟩
def cls (c : Fin 19) : BitVec 32 := BitVec.ofNat 32 c.val

variable (P : SP.Idx → F .f32) (T : ST.Idx → BitVec 32)

def pAt (b : Fin 8) (c : Fin 19) (wid v col : Nat) : F .f32 :=
  P (ix4 b c (fin512 (16 * wid + v / 16)) (fin512 (32 * (v % 16) + col)))
def tAt (b : Fin 8) (wid v col : Nat) : BitVec 32 :=
  T (ix3 b (fin512 (16 * wid + v / 16)) (fin512 (32 * (v % 16) + col)))

def gNom (b : Fin 8) (c : Fin 19) (wid col v : Nat) : F .f32 :=
  FloatOps.mulf (pAt P b c wid v col) (m01 (cls c) (tAt T b wid v col))
def gIsum (b : Fin 8) (c : Fin 19) (wid col v : Nat) : F .f32 := pAt P b c wid v col
def gTsum (b : Fin 8) (c : Fin 19) (wid col v : Nat) : F .f32 := m01 (cls c) (tAt T b wid v col)

def tileNom (b : Fin 8) (c : Fin 19) (wid l : Nat) : F .f32 :=
  FloatOps.addf (accum (gNom P T b c wid l) 256) (accum (gNom P T b c wid (l + 16)) 256)
def tileIsum (b : Fin 8) (c : Fin 19) (wid l : Nat) : F .f32 :=
  FloatOps.addf (accum (gIsum P b c wid l) 256) (accum (gIsum P b c wid (l + 16)) 256)
def tileTsum (b : Fin 8) (c : Fin 19) (wid l : Nat) : F .f32 :=
  FloatOps.addf (accum (gTsum (F := F) T b c wid l) 256) (accum (gTsum (F := F) T b c wid (l + 16)) 256)

def SpecSC (out0 : SO.Idx → F .f32) : Prop :=
  ∀ (wid : Fin 32) (j : Fin 38) (l : Fin 16),
    out0 (ix1 (fin61440 (wid.val * 1920 + (0 * 40 + j.val) * 16 + l.val))) = tileNom P T (pairB j) (pairC j) wid.val l.val
    ∧ out0 (ix1 (fin61440 (wid.val * 1920 + (1 * 40 + j.val) * 16 + l.val))) = tileIsum P (pairB j) (pairC j) wid.val l.val
    ∧ out0 (ix1 (fin61440 (wid.val * 1920 + (2 * 40 + j.val) * 16 + l.val))) = tileTsum (F := F) T (pairB j) (pairC j) wid.val l.val

def TileSpec (wid : Nat) (out0 : SO.Idx → F .f32) : Prop :=
  ∀ (j : Fin 38) (l : Fin 16),
    out0 (ix1 (fin61440 (wid * 1920 + (0 * 40 + j.val) * 16 + l.val))) = tileNom P T (pairB j) (pairC j) wid l.val
    ∧ out0 (ix1 (fin61440 (wid * 1920 + (1 * 40 + j.val) * 16 + l.val))) = tileIsum P (pairB j) (pairC j) wid l.val
    ∧ out0 (ix1 (fin61440 (wid * 1920 + (2 * 40 + j.val) * 16 + l.val))) = tileTsum (F := F) T (pairB j) (pairC j) wid l.val

theorem specSC_of_tiles {out0 : SO.Idx → F .f32} (h : ∀ wid : Fin 32, TileSpec P T wid.val out0) : SpecSC P T out0 :=
  fun wid j l => h wid j l

end Cert.SpecSC

end
-- ==== Proof.PayDefs.lean ====
import proofs.«216000_g43989055045728_cont_8to1_b_1827_23_alg».proof.KernelIdeal
import proofs.«216000_g43989055045728_cont_8to1_b_1827_23_alg».proof.Proof.Gen.KernelIdeal
import proofs.«216000_g43989055045728_cont_8to1_b_1827_23_alg».proof.Proof.SpecSC
import Idealize.ShloMosaic.Lib.SparseCore.Launch
import Idealize.ShloMosaic.Lib.Pipeline.Kit
import Idealize.ShloMosaic.Lib.Transfers

noncomputable section

namespace Cert.KernelIdeal.PayDefs

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = grid0.bound 0 := rfl
theorem nSub_zero : (K (F := F)).nSub 0 = grid0.bound 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ

abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

def ER : Emb UP (MT nD τ sig (HIx 1) (Elt F) ℕ UU ℕ) :=
  (Emb.inl : Emb UP (UP × Counters)).trans
    ((Emb.inr : Emb (UP × Counters) UU).trans (uEmb (nD := nD) (sig := sig) (Ix := HIx 1) (Val := Elt F) (Name := ℕ) (U := UU) (Lvl := ℕ)).toEmb)

instance ER_landsIn : (ER : Emb UP 𝕄).LandsIn (upEmb : UEmb _ 𝕄) := by unfold ER; infer_instance

variable (m : (ℓ : Loc nD τ sig) → Buf (Elt F) ℓ) (ρ : Dev nD → PrngReg)

abbrev pLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

abbrev pV : Memref sig .scVector .hbm S8x19x512x512 .f32 := Memref.whole main_arg0_scv
abbrev tV : Memref sig .scVector .hbm S8x512x512 .i32 := Memref.whole main_arg1_scv
abbrev oV : Memref sig .scVector .hbm S61440 .f32 := Memref.whole main_v0_scv

abbrev sT : Memref sig .scVector .vmem S32x512 .i32 := Memref.whole cc0_scratch0
abbrev sA : Memref sig .scVector .vmem S16x512 .f32 := Memref.whole cc0_scratch1
abbrev sB : Memref sig .scVector .vmem S16x512 .f32 := Memref.whole cc0_scratch2
abbrev sR : Memref sig .scVector .vmem S1920 .f32 := Memref.whole cc0_scratch3

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

abbrev tileThr (d : Dev nD) (L : grid0.Coords) : Thread nD τ := V d (cV L) (jV L)

abbrev widOf (L : grid0.Coords) : ℕ := 2 * (L 1).val + (L 0).val

abbrev oSl (L : grid0.Coords) : Memref sig .scVector .hbm S1920 .f32 :=
  (oV).slice (Rect.unit (s := S61440) (k0_off193 L) S1920.size (k0_off193_inb L)) (fun _ => rfl)

abbrev oSet (L : grid0.Coords) : Finset S61440.Idx := (oSl L).view.set

def qC (c : ℕ) : PosShare TreeShare := Transfers.shareTokN fullShare c

def qT (c s : ℕ) : PosShare TreeShare := Transfers.shareTokN (qC c) s
abbrev qL (L : grid0.Coords) : PosShare TreeShare := qT (L 0).val (L 1).val

variable [FloatOps F]

def tileGo (d : Dev nD) (L : grid0.Coords) : sProp 𝕄 :=
  iprop(((pV).view.loc (tileThr d L) ↦{qL L} m (pLoc d))
    ∗ ((tV).view.loc (tileThr d L) ↦{qL L} m (tLoc d))
    ∗ ((oSl L).view.loc (tileThr d L) ↦[(oSl L).view.set]{fullShare} m (oLoc d)))

def tileTd (d : Dev nD) (L : grid0.Coords) : sProp 𝕄 :=
  iprop(((pV).view.loc (tileThr d L) ↦{qL L} m (pLoc d))
    ∗ ((tV).view.loc (tileThr d L) ↦{qL L} m (tLoc d))
    ∗ ∃ f : Buf (Elt F) (oLoc d), ⌜Cert.SpecSC.TileSpec (m (pLoc d)) (m (tLoc d)) (widOf L) f⌝
        ∗ ((oSl L).view.loc (tileThr d L) ↦[(oSl L).view.set]{fullShare} f))

def coreSt (d : Dev nD) (c : Fin (grid0.bound 0)) : sProp 𝕄 :=
  iprop((pLoc d ↦{qC c.val} m (pLoc d)) ∗ (tLoc d ↦{qC c.val} m (tLoc d))
    ∗ bigSep Finset.univ fun s : Fin (grid0.bound 1) => oLoc d ↦[oSet (coordsV c s)]{fullShare} m (oLoc d))

def coreDn (d : Dev nD) (c : Fin (grid0.bound 0)) : sProp 𝕄 :=
  iprop((pLoc d ↦{qC c.val} m (pLoc d)) ∗ (tLoc d ↦{qC c.val} m (tLoc d))
    ∗ bigSep Finset.univ fun s : Fin (grid0.bound 1) =>
        iprop(∃ f : Buf (Elt F) (oLoc d), ⌜Cert.SpecSC.TileSpec (m (pLoc d)) (m (tLoc d)) (widOf (coordsV c s)) f⌝
          ∗ oLoc d ↦[oSet (coordsV c s)]{fullShare} f))

instance tileGo_storable (d : Dev nD) (L : grid0.Coords) : BI.Storable (upEmb : UEmb _ 𝕄) (tileGo m d L) := by
  unfold tileGo; infer_instance
instance tileTd_storable (d : Dev nD) (L : grid0.Coords) : BI.Storable (upEmb : UEmb _ 𝕄) (tileTd m d L) := by
  unfold tileTd; infer_instance
instance coreSt_storable (d : Dev nD) (c : Fin (grid0.bound 0)) : BI.Storable (upEmb : UEmb _ 𝕄) (coreSt m d c) := by
  unfold coreSt; infer_instance
instance coreDn_storable (d : Dev nD) (c : Fin (grid0.bound 0)) : BI.Storable (upEmb : UEmb _ 𝕄) (coreDn m d c) := by
  unfold coreDn; infer_instance

def P : (K (F := F)).Pay (nD := nD) (Val := Elt F) (Name := ℕ) (U := UU) where
  st := fun q d c => match q with | 0 => coreSt m d (Fin.cast nCore_zero c)
  dn := fun q d c => match q with | 0 => coreDn m d (Fin.cast nCore_zero c)
  go := fun q d c i => match q with | 0 => tileGo m d (coordsV (Fin.cast nCore_zero c) (Fin.cast nSub_zero i))
  td := fun q d c i => match q with | 0 => tileTd m d (coordsV (Fin.cast nCore_zero c) (Fin.cast nSub_zero i))
  x := fun _ _ => iprop(emp)

instance P_storable : (P (F := F) m).IsStorable where
  st q d c := match q with | 0 => coreSt_storable m d _
  dn q d c := match q with | 0 => coreDn_storable m d _
  go q d c i := match q with | 0 => tileGo_storable m d _
  td q d c i := match q with | 0 => tileTd_storable m d _

theorem P_st (d : Dev nD) (c : Fin ((K (F := F)).nCore 0)) : (P m).st 0 d c = coreSt m d (Fin.cast nCore_zero c) := rfl
theorem P_dn (d : Dev nD) (c : Fin ((K (F := F)).nCore 0)) : (P m).dn 0 d c = coreDn m d (Fin.cast nCore_zero c) := rfl
theorem P_x (q : Fin 1) (thr : Thread nD τ) : (P (F := F) m).x q thr = iprop(emp) := rfl

end Cert.KernelIdeal.PayDefs

end
-- ==== Proof.Tail.lean ====
import proofs.«216000_g43989055045728_cont_8to1_b_1827_23_alg».proof.KernelIdeal

noncomputable section

namespace Cert.KernelIdeal.Tail

open Idealize.ShloMosaic Cert.KernelIdeal

variable {F : FTy → Type} [FloatOps F] [Facts]
open Facts₀ Facts

def tcTail (out1 : FVec F S6x1x128 .f32) : FVec F S6 .f32 :=
  shapeCast S6 (extractStridedSlice S6x1x1 ![0, 0, 0] out1 slices_S6x1x128_S6x1x1_0_0_0) shapeCasts_S6x1x1_S6

def scSums (out0 : FVec F S61440 .f32) : FVec F S3x40 .f32 :=
  Host.reduceAdd (shapeCast S32x3x40x16 out0 shapeCasts_S61440_S32x3x40x16) (constant S_ .f32 0x00000000#32)
    reducesTo_S32x3x40x16_S3x40_d0_3 h_S_

def scNom (s : FVec F S3x40 .f32) : FVec F S2x19 .f32 :=
  shapeCast S2x19 (shapeCast S38 (extractStridedSlice S1x38 ![0, 0] s slices_S3x40_S1x38_0_0) shapeCasts_S1x38_S38) shapeCasts_S38_S2x19
def scIsum (s : FVec F S3x40 .f32) : FVec F S2x19 .f32 :=
  shapeCast S2x19 (shapeCast S38 (extractStridedSlice S1x38 ![1, 0] s slices_S3x40_S1x38_1_0) shapeCasts_S1x38_S38) shapeCasts_S38_S2x19
def scTsum (s : FVec F S3x40 .f32) : FVec F S2x19 .f32 :=
  shapeCast S2x19 (shapeCast S38 (extractStridedSlice S1x38 ![2, 0] s slices_S3x40_S1x38_2_0) shapeCasts_S1x38_S38) shapeCasts_S38_S2x19

def scFrac (nom isum tsum : FVec F S2x19 .f32) : FVec F S2x19 .f32 :=
  Host.divf
    (addf (mulf (broadcastInDim S2x19 ![] bcast_S_S2x19 (constant S_ .f32 0x40000000#32)) nom)
      (broadcastInDim S2x19 ![] bcast_S_S2x19 (constant S_ .f32 0x3F800000#32)))
    (addf (addf isum tsum) (broadcastInDim S2x19 ![] bcast_S_S2x19 (constant S_ .f32 0x3F800000#32)))

def scMean (frac : FVec F S2x19 .f32) : FVec F S2 .f32 :=
  Host.negf (Host.divf (Host.reduceAdd frac (constant S_ .f32 0x00000000#32) reducesTo_S2x19_S2_d1 h_S_)
    (broadcastInDim S2 ![] bcast_S_S2 (constant S_ .f32 0x41980000#32)))

def scTail (out0 : FVec F S61440 .f32) : FVec F S2 .f32 :=
  scMean (scFrac (scNom (scSums out0)) (scIsum (scSums out0)) (scTsum (scSums out0)))

def tailOf (out0 : FVec F S61440 .f32) (out1 : FVec F S6x1x128 .f32) : FVec F S8 .f32 :=
  concatenate S8 0 [⟨S6, tcTail out1⟩, ⟨S2, scTail out0⟩] concatenates_S6_S2_S8_d0

end Cert.KernelIdeal.Tail

end
-- ==== Proof.SpecTC.lean ====
import proofs.«216000_g43989055045728_cont_8to1_b_1827_23_alg».proof.KernelIdeal
import Idealize.ShloMosaic.Lib.ValueIdx

noncomputable section

namespace Cert.KernelIdeal.SpecTC

open Idealize.ShloMosaic Idealize.ShloMosaic.ValueIdx
open Cert.KernelIdeal.Facts₀ Cert.KernelIdeal.Facts

variable {F : FTy → Type} [FloatOps F] [Facts]

def cls (c : Fin 19) : BitVec 32 := BitVec.ofNat 32 c.val

def mask (c : BitVec 32) (T : IVec S256x512 32) : IVec S256x512 1 :=
  cmpi .eq T (broadcast S256x512 c)

def fold8 (x : FVec F S256x512 .f32) : FVec F S8x512 .f32 :=
  multiReduction .add [0] S8x512 (shapeCast S32x8x512 x shapeCasts_S256x512_S32x8x512)
    0x00000000#32 reduces_S32x8x512_S8x512 (.inl rfl) rfl

def nomPart (c : BitVec 32) (P : FVec F S256x512 .f32) (T : IVec S256x512 32) : FVec F S8x512 .f32 :=
  fold8 (select (mask c T) P (broadcast S256x512 (Scalar.ofBits .f32 0x00000000#32)))

def isumPart (P : FVec F S256x512 .f32) : FVec F S8x512 .f32 :=
  fold8 P

def tsumPart (c : BitVec 32) (T : IVec S256x512 32) : FVec F S8x512 .f32 :=
  fold8 (select (mask c T) (broadcast S256x512 (Scalar.ofBits .f32 0x3F800000#32))
    (broadcast S256x512 (Scalar.ofBits .f32 0x00000000#32)))

def addRows (acc : FVec F S19x8x512 .f32) (part : Fin 19 → FVec F S8x512 .f32) : FVec F S19x8x512 .f32 :=
  fun j => FloatOps.addf (acc j) (part (j 0) (ix2 (j 1) (j 2)))

def accZero : FVec F S19x8x512 .f32 :=
  broadcast S19x8x512 (Scalar.ofBits .f32 0x00000000#32)

def acc0 (p0 : Fin 19 → FVec F S8x512 .f32) : FVec F S19x8x512 .f32 :=
  addRows accZero p0

def acc1 (p0 p1 : Fin 19 → FVec F S8x512 .f32) : FVec F S19x8x512 .f32 :=
  addRows (acc0 p0) p1

def nomParts (Pb : Fin 19 → FVec F S256x512 .f32) (T : IVec S256x512 32) : Fin 19 → FVec F S8x512 .f32 :=
  fun c => nomPart (cls c) (Pb c) T

def isumParts (Pb : Fin 19 → FVec F S256x512 .f32) : Fin 19 → FVec F S8x512 .f32 :=
  fun c => isumPart (Pb c)

def tsumParts (T : IVec S256x512 32) : Fin 19 → FVec F S8x512 .f32 :=
  fun c => tsumPart (F := F) (cls c) T

def perClass (acc : FVec F S19x8x512 .f32) : FVec F S19 .f32 :=
  multiReduction .add [1, 2] S19 acc 0x00000000#32 reduces_S19x8x512_S19 (.inl rfl) rfl

def frac (nom isum tsum : FVec F S19 .f32) : FVec F S19 .f32 :=
  divf (addf (mulf (broadcast S19 (Scalar.ofBits .f32 0x40000000#32)) nom) (broadcast S19 (Scalar.ofBits .f32 0x3F800000#32)))
    (addf (addf isum tsum) (broadcast S19 (Scalar.ofBits .f32 0x3F800000#32)))

def laneSum (x : FVec F S19 .f32) : F .f32 :=
  extractAt ![0, 0]
    (shapeCast S1x1
      (multiReduction .add [1] S1 (shapeCast S1x19 x shapeCasts_S19_S1x19) 0x00000000#32 reduces_S1x19_S1 (.inl rfl) rfl)
      shapeCasts_S1_S1x1)
    inpos_S1x1_p0_0

def finish (nom isum tsum : FVec F S19x8x512 .f32) : F .f32 :=
  Scalar.divf
    (Scalar.subf (Scalar.ofBits .f32 0x00000000#32) (laneSum (frac (perClass nom) (perClass isum) (perClass tsum))))
    (Scalar.ofBits .f32 0x41980000#32)

def finishBlock (nom isum tsum : FVec F S19x8x512 .f32) : FVec F S1x1x128 .f32 :=
  shapeCast S1x1x128 (broadcast S128 (finish nom isum tsum)) shapeCasts_S128_S1x1x128

def predBlock (P : FVec F S8x19x512x512 .f32) (b : Fin 8) (s : Fin 2) (c : Fin 19) : FVec F S256x512 .f32 :=
  fun i => P (ix4 b c ⟨256 * s.val + (i 0).val, by have := idx2_lt0 i; have := s.isLt; omega⟩ (i 1))

def tgtBlock (T : IVec S8x512x512 32) (b : Fin 8) (s : Fin 2) : IVec S256x512 32 :=
  fun i => T (ix3 b ⟨256 * s.val + (i 0).val, by have := idx2_lt0 i; have := s.isLt; omega⟩ (i 1))

def nomAcc (P : FVec F S8x19x512x512 .f32) (T : IVec S8x512x512 32) (b : Fin 8) : FVec F S19x8x512 .f32 :=
  acc1 (nomParts (predBlock P b 0) (tgtBlock T b 0)) (nomParts (predBlock P b 1) (tgtBlock T b 1))

def isumAcc (P : FVec F S8x19x512x512 .f32) (b : Fin 8) : FVec F S19x8x512 .f32 :=
  acc1 (isumParts (predBlock P b 0)) (isumParts (predBlock P b 1))

def tsumAcc (T : IVec S8x512x512 32) (b : Fin 8) : FVec F S19x8x512 .f32 :=
  acc1 (F := F) (tsumParts (tgtBlock T b 0)) (tsumParts (tgtBlock T b 1))

def loss (P : FVec F S8x19x512x512 .f32) (T : IVec S8x512x512 32) (b : Fin 8) : F .f32 :=
  finish (nomAcc P T b) (isumAcc P b) (tsumAcc (F := F) T b)

def SpecTC (P : FVec F S8x19x512x512 .f32) (T : IVec S8x512x512 32) (out1 : FVec F S6x1x128 .f32) : Prop :=
  ∀ (b : Fin 6) (lane : Fin 128), out1 (ix3 b 0 lane) = loss P T (Fin.castLE (by decide) b)

end Cert.KernelIdeal.SpecTC
-- ==== Proof.Launch.lean ====
import proofs.«216000_g43989055045728_cont_8to1_b_1827_23_alg».proof.Proof.PayDefs
import proofs.«216000_g43989055045728_cont_8to1_b_1827_23_alg».proof.Proof.Tail
import proofs.«216000_g43989055045728_cont_8to1_b_1827_23_alg».proof.Proof.SpecTC
import proofs.«216000_g43989055045728_cont_8to1_b_1827_23_alg».proof.Proof.Gen.KernelIdeal.Launch
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Launch

open Cert.KernelIdeal Cert.KernelIdeal.Gen Cert.KernelIdeal.PayDefs

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ tileGo m d L
        ∗ scopedBufs (tileThr d L) ∗ scopedSems0 (tileThr d L) ∗ owes (tileThr d L) O W)
      ⊢ wp frame (wpE (defs₀ (F := F)) 𝒱₀ (tileThr d L) none) Set.univ
          (cc0__sc_partials L pV (Memref.isWhole_whole _) tV (Memref.isWhole_whole _) oV (Memref.isWhole_whole _)
            sT (Memref.isWhole_whole _) sA (Memref.isWhole_whole _) sB (Memref.isWhole_whole _) sR (Memref.isWhole_whole _)
            cc0_scratch4 cc0_scratch5 cc0_scratch6 cc0_scratch7)
          fun _ => iprop(tileTd m d L ∗ scopedBufs (tileThr d L) ∗ scopedSems0 (tileThr d L)
            ∗ ∃ W', ⌜∀ p ∈ W', p ∈ W ∨ p.2 = none⌝ ∗ owes (tileThr d L) O W')

theorem defs₀_vector (c : Fin τ.nSC) (s : Fin τ.nSub) :
    defs₀ (F := F) (.scVector c s) 0 ()
      = SparseCore.onTile hcore0 hsub0 (fun c s => cc0__sc_partials (coordsV c s)
          pV (Memref.isWhole_whole _) tV (Memref.isWhole_whole _) oV (Memref.isWhole_whole _)
          sT (Memref.isWhole_whole _) sA (Memref.isWhole_whole _) sB (Memref.isWhole_whole _) sR (Memref.isWhole_whole _)
          cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hb : TileBody m) : (K (F := F)).TileObl (D (F := F)) 𝒱 (P m) v₀ 0 := by
  intro d c i O W hO _ _

  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

omit [FloatOps F] in
theorem oSet_eq (L : grid0.Coords) : oSet L = (Rect.unit (s := S61440) (k0_off193 L) S1920.size (k0_off193_inb L)).set := by
  show ((View.whole (main_v0_scv : Ref sig .scVector)).slice (Rect.unit (s := S61440) (k0_off193 L) S1920.size (k0_off193_inb L))).set = _
  rw [View.set_slice]; exact Finset.map_refl

omit [FloatOps F] in
theorem widOf_lt (L : grid0.Coords) : widOf L < 32 := by
  have h0 : (L 0).val < 2 := (L 0).isLt
  have h1 : (L 1).val < 16 := (L 1).isLt
  show 2 * (L 1).val + (L 0).val < 32
  omega

omit [FloatOps F] in

theorem mem_oSet {L : grid0.Coords} {i : S61440.Idx} : i ∈ oSet L ↔ 1920 * widOf L ≤ (i 0).val ∧ (i 0).val < 1920 * widOf L + 1920 := by
  rw [oSet_eq, Rect.mem_set_unit, k0_off193_eq]
  constructor
  · intro h; have := h 0
    simp only [Matrix.cons_val_zero, Matrix.cons_val_fin_one] at this
    show 1920 * (2 * (L 1).val + (L 0).val) ≤ _ ∧ _ < 1920 * (2 * (L 1).val + (L 0).val) + 1920
    have e : S1920.size 0 = 1920 := rfl
    omega
  · intro h a
    have ha : a = 0 := Subsingleton.elim _ _
    subst ha
    simp only [Matrix.cons_val_zero, Matrix.cons_val_fin_one]
    have h' : 1920 * (2 * (L 1).val + (L 0).val) ≤ (i 0).val ∧ (i 0).val < 1920 * (2 * (L 1).val + (L 0).val) + 1920 := h
    have e : S1920.size 0 = 1920 := rfl
    omega

abbrev Pt : Type := Fin (grid0.bound 0) × Fin (grid0.bound 1)
abbrev ptSet (d : Dev nD) (t : Pt) : Finset (Idx (oLoc d)) := oSet (coordsV t.1 t.2)

omit [FloatOps F] in
theorem widOf_coordsV (c : Fin (grid0.bound 0)) (s : Fin (grid0.bound 1)) : widOf (coordsV c s) = 2 * s.val + c.val := rfl

omit [FloatOps F] in
theorem slices_disjoint (d : Dev nD) : ∀ t ∈ (Finset.univ : Finset Pt), ∀ t' ∈ (Finset.univ : Finset Pt), t ≠ t' → Disjoint (ptSet d t) (ptSet d t') := by
  rintro ⟨c, s⟩ - ⟨c', s'⟩ - hne
  rw [Finset.disjoint_left]
  intro i hi1 hi2
  have hi := (mem_oSet (L := coordsV c s)).mp hi1
  have hi' := (mem_oSet (L := coordsV c' s')).mp hi2
  rw [widOf_coordsV] at hi hi'
  have hc : c.val < 2 := c.isLt
  have hc' : c'.val < 2 := c'.isLt
  apply hne
  have : 2 * s.val + c.val = 2 * s'.val + c'.val := by omega
  exact Prod.ext (Fin.ext (by show c.val = c'.val; omega)) (Fin.ext (by show s.val = s'.val; omega))

omit [FloatOps F] in
theorem slices_cover (d : Dev nD) : (Finset.univ : Finset Pt).biUnion (ptSet d) = Finset.univ := by
  ext i
  simp only [Finset.mem_biUnion, Finset.mem_univ, true_and, iff_true]
  have hi : (i 0).val < 61440 := (i 0).isLt
  refine ⟨(⟨((i 0).val / 1920) % 2, Nat.mod_lt _ (by decide)⟩, ⟨((i 0).val / 1920) / 2, ?_⟩), ?_⟩
  · show (i 0).val / 1920 / 2 < 16
    omega
  · rw [mem_oSet, widOf_coordsV]
    show 1920 * (2 * ((i 0).val / 1920 / 2) + (i 0).val / 1920 % 2) ≤ _ ∧ _ < 1920 * (2 * ((i 0).val / 1920 / 2) + (i 0).val / 1920 % 2) + 1920
    omega

omit [FloatOps F] in

theorem oPts_slices (d : Dev nD) (f : Buf (Elt F) (oLoc d)) :
    (oLoc d ↦{fullShare} f : sProp 𝕄)
      = bigSep Finset.univ fun c : Fin (grid0.bound 0) => bigSep Finset.univ fun s : Fin (grid0.bound 1) => oLoc d ↦[oSet (coordsV c s)]{fullShare} f := by
  calc (oLoc d ↦{fullShare} f : sProp 𝕄) = (oLoc d ↦[(Finset.univ : Finset Pt).biUnion (ptSet d)]{fullShare} f) := by rw [slices_cover]; try rfl
    _ = bigSep (Finset.univ : Finset Pt) fun t => oLoc d ↦[ptSet d t]{fullShare} f := pointsTo_biUnion _ (ptSet d) (slices_disjoint d)
    _ = bigSep ((Finset.univ : Finset (Fin (grid0.bound 0))) ×ˢ (Finset.univ : Finset (Fin (grid0.bound 1)))) fun t : Pt => oLoc d ↦[ptSet d t]{fullShare} f := by
      rw [Finset.univ_product_univ]
    _ = _ := SparseCore.bigSep_product _ _ _

theorem tileGo_eq (d : Dev nD) (c : Fin (grid0.bound 0)) (s : Fin (grid0.bound 1)) :
    tileGo m d (coordsV c s) = iprop((pLoc d ↦{Transfers.shareTok (qC c.val) (grid0.bound 1) s} m (pLoc d))
      ∗ (tLoc d ↦{Transfers.shareTok (qC c.val) (grid0.bound 1) s} m (tLoc d))
      ∗ (oLoc d ↦[oSet (coordsV c s)]{fullShare} m (oLoc d))) := rfl

theorem tileTd_eq (d : Dev nD) (c : Fin (grid0.bound 0)) (s : Fin (grid0.bound 1)) :
    tileTd m d (coordsV c s) = iprop((pLoc d ↦{Transfers.shareTok (qC c.val) (grid0.bound 1) s} m (pLoc d))
      ∗ (tLoc d ↦{Transfers.shareTok (qC c.val) (grid0.bound 1) s} m (tLoc d))
      ∗ ∃ f : Buf (Elt F) (oLoc d), ⌜Cert.SpecSC.TileSpec (m (pLoc d)) (m (tLoc d)) (widOf (coordsV c s)) f⌝
          ∗ (oLoc d ↦[oSet (coordsV c s)]{fullShare} f)) := rfl

theorem coreSplit (d : Dev nD) (c : Fin (grid0.bound 0)) :
    coreSt m d c ⊢ iprop((bigSep Finset.univ fun s : Fin (grid0.bound 1) => tileGo m d (coordsV c s))
      ∗ ((bigSep Finset.univ fun s : Fin (grid0.bound 1) => tileTd m d (coordsV c s)) -∗ coreDn m d c)) := by
  simp only [tileGo_eq, tileTd_eq]
  rw [bigSep_sep', bigSep_sep', bigSep_sep', bigSep_sep']
  unfold coreSt coreDn
  iintro ⟨Hp, Ht, Ho⟩
  ihave Hp' := (Transfers.pointsTo_toks_split (qC c.val) (grid0.bound 1)) $$ Hp
  icases Hp' with ⟨Hpr, Hps⟩
  ihave Ht' := (Transfers.pointsTo_toks_split (qC c.val) (grid0.bound 1)) $$ Ht
  icases Ht' with ⟨Htr, Hts⟩
  isplitl [Hps Hts Ho]
  · isplitl [Hps]; · iexact Hps
    isplitl [Hts]; · iexact Hts
    iexact Ho
  iintro ⟨Hps, Hts, Ho⟩
  isplitl [Hpr Hps]
  · iapply (Transfers.pointsTo_toks_join (qC c.val) (grid0.bound 1))
    isplitl [Hpr]; · iexact Hpr
    iexact Hps
  isplitl [Htr Hts]
  · iapply (Transfers.pointsTo_toks_join (qC c.val) (grid0.bound 1))
    isplitl [Htr]; · iexact Htr
    iexact Hts
  iexact Ho

omit [FloatOps F] in
theorem bigSep_tasks (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show coreSt m d (Fin.cast nCore_zero c) ⊢ |={Set.univ}=> iprop(
      (bigSep Finset.univ fun i : Fin ((K (F := F)).nSub 0) => tileGo m d (coordsV (Fin.cast nCore_zero c) (Fin.cast nSub_zero i)))
      ∗ ((bigSep Finset.univ fun i : Fin ((K (F := F)).nSub 0) => tileTd m d (coordsV (Fin.cast nCore_zero c) (Fin.cast nSub_zero i)))
          -∗ coreDn m d (Fin.cast nCore_zero c)))
  rw [bigSep_tasks (F := F) (fun s => tileGo m d (coordsV (Fin.cast nCore_zero c) s)),
    bigSep_tasks (F := F) (fun s => tileTd m d (coordsV (Fin.cast nCore_zero c) s))]
  iintro H; imodintro
  iapply (coreSplit m d (Fin.cast nCore_zero c)); iexact H

abbrev adm : (p : Fin 1) → (pcfgs (F := F) p).Adm := fun p => (cfgs p).toPCfg_adm
omit [FloatOps F] in
theorem cellOf_inj' : Function.Injective (Pipeline.cellOf (nD := nD) (τ := τ) (Pipeline.pin (pcfgs (F := F)) adm)) := Gen.cellOf_inj

def u₀ : UU :=
  (initOf (K (F := F)).hsCells (K (F := F)).hsToks,
    (initOf (Pipeline.cells (Pipeline.pin (pcfgs (F := F)) adm) cellOf_inj') (Pipeline.launchToks (Pipeline.pin (pcfgs (F := F)) adm) cellOf_inj'), 1))

def G (d : Dev nD) : sProp 𝕄 :=
  iprop((bigSep Finset.univ fun p : Fin 1 => Pipeline.cellsGhost (Pipeline.pin (pcfgs (F := F)) adm) ER p d)
    ∗ bigSep Finset.univ fun p : Fin 1 => Pipeline.toksInit (Pipeline.pin (pcfgs (F := F)) adm) ER p d)

omit [FloatOps F] in
theorem G_eq (d : Dev nD) : (G (F := F) d : sProp 𝕄)
    = iprop(Pipeline.cellsGhost (Pipeline.pin (pcfgs (F := F)) adm) ER 0 d ∗ Pipeline.toksInit (Pipeline.pin (pcfgs (F := F)) adm) ER 0 d) := by
  unfold G
  rw [bigSep_univ_of_subsingleton (0 : Fin 1), bigSep_univ_of_subsingleton (0 : Fin 1)]

omit [FloatOps F] in
theorem own_embR_split (b : UP) (c : Counters) :
    (BI.own ((embR : Emb (UP × Counters) 𝕄) (b, c)) : sProp 𝕄) ⊢ iprop(BI.own (ER b) ∗ BI.own ((embR : Emb (UP × Counters) 𝕄) (1, c))) :=
  BI.own_op_elim ((embR : Emb (UP × Counters) 𝕄).op_of_mem (Prod.mk_mem_op (URA.mem_op_one b) (URA.mem_one_op c)))

omit [FloatOps F] in
theorem ownU_split (a : UH) (b : UP) (c : Counters) : (ownU ((a, (b, c)) : UU) : sProp 𝕄) ⊢ iprop(BI.own (EH a) ∗ BI.own (ER b)) := by
  iintro Hu
  ihave H := (ownU_pair a (b, c)) $$ Hu
  icases H with ⟨HH, HR⟩
  isplitl [HH]; · iexact HH
  ihave H' := (own_embR_split b c) $$ HR
  icases H' with ⟨Hb, -⟩
  iexact Hb

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _ _) $$ Hu
  icases H with ⟨HH, HR⟩
  imod (Pipeline.fund_ghost (Pipeline.pin (pcfgs (F := F)) adm) ER cellOf_inj') $$ HR with ⟨Hg, Htok⟩
  imodintro
  isplitl [HH]; · iexact HH
  isplitl [Hg Htok]
  · unfold G
    rw [bigSep_sep']
    isplitl [Hg]; · iexact Hg
    iexact Htok
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

abbrev rLoc (d : Dev nD) : Loc nD τ sig := (SparseCore.T d).loc main_v1
abbrev vLoc (d : Dev nD) : Loc nD τ sig := (SparseCore.T d).loc main_v27

def regPre (Vm : (ℓ : Loc nD τ sig) → Buf (Elt F) ℓ) (B : Dev nD → Set (SemLoc sig × HIx 1)) (d : Dev nD) : sProp 𝕄 :=
  iprop((pLoc d ↦{fullShare} Vm (pLoc d)) ∗ (tLoc d ↦{fullShare} Vm (tLoc d)) ∗ (rLoc d ↦{fullShare} Vm (rLoc d))
    ∗ Pipeline.owesWithin d (0 : CellTallies nD τ sig (HIx 1)) (B d))

def regPost (Vm : (ℓ : Loc nD τ sig) → Buf (Elt F) ℓ) (B : Dev nD → Set (SemLoc sig × HIx 1)) (d : Dev nD) : sProp 𝕄 :=
  iprop((pLoc d ↦{fullShare} Vm (pLoc d)) ∗ (tLoc d ↦{fullShare} Vm (tLoc d))
    ∗ (∃ out1 : Buf (Elt F) (rLoc d), ⌜SpecTC.SpecTC (Vm (pLoc d)) (Vm (tLoc d)) out1⌝ ∗ (rLoc d ↦{fullShare} out1))
    ∗ Pipeline.owesWithin d (0 : CellTallies nD τ sig (HIx 1)) (B d ∪ cfg1.waitPairs (none : HIx 1)))

def TcRegion : Prop :=
  ∀ (Vm : (ℓ : Loc nD τ sig) → Buf (Elt F) ℓ) (B : Dev nD → Set (SemLoc sig × HIx 1)) (lv : GSem nD τ sig → HIx 1 → ℕ)
    (d : Dev nD) (Φ : PUnit → sProp 𝕄),
    iprop((iprop(boundary (SparseCore.T d) ∗ regPost Vm B d) -∗ Φ ⟨⟩) ∗ boundary (SparseCore.T d) ∗ regPre Vm B d ∗ levAts (K (F := F)).L lv
        ∗ Pipeline.cellsGhost (Pipeline.pin (pcfgs (F := F)) adm) ER 0 d ∗ Pipeline.toksInit (Pipeline.pin (pcfgs (F := F)) adm) ER 0 d)
      ⊢ wp frame (wpE ((K (F := F)).defs D) 𝒱 (SparseCore.T d) none) Set.univ (Prog.lift (.customCall (SparseCore.inner (Pipeline.entry 0)) ())) Φ

def tcArrays : Finset (DevRef τ sig) :=
  (Finset.univ.filter fun b : Ref sig .tc => ¬ b.isScoped).map ⟨Proc.devRef (τ := τ) .tc, Proc.devRef_injective _⟩

structure TailFacts (F : FTy → Type) [FloatOps F] where
  ops : List (HloOp τ sig (Elt F))
  main_eq : ∀ d : Dev nD, main (F := F) d
    = (sc.run d 0 >>= fun _ => (Prog.lift (.customCall (SparseCore.inner (Pipeline.entry 0)) ()) >>= fun _ => StableHlo.seq ops))
  bufs : ∀ op ∈ ops, op.bufs ⊆ tcArrays
  fresh : ∀ op ∈ ops, op.fresh = ∅
  v27 : ∀ V : Valuation τ sig (Elt F), StableHlo.after ops V (Proc.devRef .tc main_v27)
    = Tail.tailOf (V (Proc.devRef .tc main_v0)) (V (Proc.devRef .tc main_v1))
  arg0 : ∀ V : Valuation τ sig (Elt F), StableHlo.after ops V (Proc.devRef .tc main_arg0) = V (Proc.devRef .tc main_arg0)
  arg1 : ∀ V : Valuation τ sig (Elt F), StableHlo.after ops V (Proc.devRef .tc main_arg1) = V (Proc.devRef .tc main_arg1)

abbrev p' : DevRef τ sig := Proc.devRef .tc (main_arg0 : Ref sig .tc)
abbrev t' : DevRef τ sig := Proc.devRef .tc (main_arg1 : Ref sig .tc)
abbrev o' : DevRef τ sig := Proc.devRef .tc (main_v0 : Ref sig .tc)
abbrev r' : DevRef τ sig := Proc.devRef .tc (main_v1 : Ref sig .tc)
abbrev v' : DevRef τ sig := Proc.devRef .tc (main_v27 : Ref sig .tc)

def V0 (d : Dev nD) : Valuation τ sig (Elt F) := fun b => m (d, b)

omit [FloatOps F] in
theorem unscoped_held (d : Dev nD) :
    (unscopedBufs d (fun b => m ((SparseCore.T d).loc b)) : sProp 𝕄) = held (SparseCore.T d) tcArrays (V0 m d) := by
  unfold unscopedBufs held tcArrays
  rw [bigSep_map]; rfl

omit [FloatOps F] in
theorem mem_tcArrays {b : Ref sig .tc} (h : ¬ b.isScoped) : (Proc.devRef (τ := τ) .tc b) ∈ tcArrays :=
  Finset.mem_map_of_mem _ (Finset.mem_filter.mpr ⟨Finset.mem_univ _, h⟩)

abbrev T4 : Finset (DevRef τ sig) := {p', t', o', r'}
abbrev T3 : Finset (DevRef τ sig) := {p', t', v'}

omit [FloatOps F] in
theorem T4_sub : T4 ⊆ tcArrays := by
  intro b hb
  simp only [T4, Finset.mem_insert, Finset.mem_singleton] at hb
  rcases hb with rfl | rfl | rfl | rfl <;> exact mem_tcArrays (by decide)
omit [FloatOps F] in
theorem T3_sub : T3 ⊆ tcArrays := by
  intro b hb
  simp only [T3, Finset.mem_insert, Finset.mem_singleton] at hb
  rcases hb with rfl | rfl | rfl <;> exact mem_tcArrays (by decide)

omit [FloatOps F] in
theorem held_T4 (d : Dev nD) (W : Valuation τ sig (Elt F)) :
    (held (SparseCore.T d) T4 W : sProp 𝕄)
      = iprop((pLoc d ↦{fullShare} W p') ∗ (tLoc d ↦{fullShare} W t') ∗ (oLoc d ↦{fullShare} W o') ∗ (rLoc d ↦{fullShare} W r')) := by
  unfold held T4
  rw [SparseCore.bigSep_insert' (by decide), SparseCore.bigSep_insert' (by decide), SparseCore.bigSep_insert' (by decide), bigSep_singleton]
omit [FloatOps F] in
theorem held_T3 (d : Dev nD) (W : Valuation τ sig (Elt F)) :
    (held (SparseCore.T d) T3 W : sProp 𝕄)
      = iprop((pLoc d ↦{fullShare} W p') ∗ (tLoc d ↦{fullShare} W t') ∗ (vLoc d ↦{fullShare} W v')) := by
  unfold held T3
  rw [SparseCore.bigSep_insert' (by decide), SparseCore.bigSep_insert' (by decide), bigSep_singleton]

omit [FloatOps F] in
theorem held_all4 (d : Dev nD) (W : Valuation τ sig (Elt F)) :
    (held (SparseCore.T d) tcArrays W : sProp 𝕄)
      = iprop(((pLoc d ↦{fullShare} W p') ∗ (tLoc d ↦{fullShare} W t') ∗ (oLoc d ↦{fullShare} W o') ∗ (rLoc d ↦{fullShare} W r'))
          ∗ held (SparseCore.T d) (tcArrays \ T4) W) := by
  rw [StableHlo.held_sub_split (SparseCore.T d) T4_sub W, held_T4]
omit [FloatOps F] in
theorem held_all3 (d : Dev nD) (W : Valuation τ sig (Elt F)) :
    (held (SparseCore.T d) tcArrays W : sProp 𝕄)
      = iprop(((pLoc d ↦{fullShare} W p') ∗ (tLoc d ↦{fullShare} W t') ∗ (vLoc d ↦{fullShare} W v'))
          ∗ held (SparseCore.T d) (tcArrays \ T3) W) := by
  rw [StableHlo.held_sub_split (SparseCore.T d) T3_sub W, held_T3]

def V2 (d : Dev nD) (g : Buf (Elt F) (oLoc d)) (out1 : Buf (Elt F) (rLoc d)) : Valuation τ sig (Elt F) :=
  Function.update (Function.update (V0 m d) o' g) r' out1

omit [FloatOps F] in
theorem V2_p (d : Dev nD) (g : Buf (Elt F) (oLoc d)) (out1 : Buf (Elt F) (rLoc d)) : V2 m d g out1 p' = m (pLoc d) :=
  (Function.update_of_ne (show p' ≠ r' by decide) _ _).trans (Function.update_of_ne (show p' ≠ o' by decide) _ _)
omit [FloatOps F] in
theorem V2_t (d : Dev nD) (g : Buf (Elt F) (oLoc d)) (out1 : Buf (Elt F) (rLoc d)) : V2 m d g out1 t' = m (tLoc d) :=
  (Function.update_of_ne (show t' ≠ r' by decide) _ _).trans (Function.update_of_ne (show t' ≠ o' by decide) _ _)
omit [FloatOps F] in
theorem V2_o (d : Dev nD) (g : Buf (Elt F) (oLoc d)) (out1 : Buf (Elt F) (rLoc d)) : V2 m d g out1 o' = g :=
  (Function.update_of_ne (show o' ≠ r' by decide) _ _).trans (Function.update_self _ _ _)
omit [FloatOps F] in
theorem V2_r (d : Dev nD) (g : Buf (Elt F) (oLoc d)) (out1 : Buf (Elt F) (rLoc d)) : V2 m d g out1 r' = out1 :=
  Function.update_self _ _ _
omit [FloatOps F] in
theorem V2_rest (d : Dev nD) (g : Buf (Elt F) (oLoc d)) (out1 : Buf (Elt F) (rLoc d)) :
    (held (SparseCore.T d) (tcArrays \ T4) (V2 m d g out1) : sProp 𝕄) = held (SparseCore.T d) (tcArrays \ T4) (V0 m d) :=
  StableHlo.held_congr (SparseCore.T d) fun b hb => by
    have hb' := (Finset.mem_sdiff.mp hb).2
    simp only [T4, Finset.mem_insert, Finset.mem_singleton, not_or] at hb'
    unfold V2
    rw [Function.update_of_ne hb'.2.2.2, Function.update_of_ne hb'.2.2.1]

omit [FloatOps F] in
theorem ix_mem_oSet (L : grid0.Coords) (k : ℕ) (h1 : 1920 * widOf L ≤ k) (h2 : k < 1920 * widOf L + 1920) :
    (ValueIdx.ix1 (Cert.SpecSC.fin61440 k) : S61440.Idx) ∈ oSet L := by
  rw [mem_oSet]
  show 1920 * widOf L ≤ k % 61440 ∧ k % 61440 < 1920 * widOf L + 1920
  have := widOf_lt L
  omega

theorem tileSpec_congr {Pp : Cert.SpecSC.SP.Idx → F .f32} {Tt : Cert.SpecSC.ST.Idx → BitVec 32} (L : grid0.Coords)
    {f g : Cert.SpecSC.SO.Idx → F .f32} (h : ∀ i ∈ oSet L, g i = f i) (hf : Cert.SpecSC.TileSpec Pp Tt (widOf L) f) :
    Cert.SpecSC.TileSpec Pp Tt (widOf L) g := by
  intro j l
  have hj : j.val < 38 := j.isLt
  have hl : l.val < 16 := l.isLt
  obtain ⟨h1, h2, h3⟩ := hf j l
  refine ⟨(h _ (ix_mem_oSet L _ (by omega) (by omega))).trans h1, (h _ (ix_mem_oSet L _ (by omega) (by omega))).trans h2,
    (h _ (ix_mem_oSet L _ (by omega) (by omega))).trans h3⟩

theorem oSlices_join (d : Dev nD) (φ : Pt → Buf (Elt F) (oLoc d) → Prop) :
    (bigSep Finset.univ fun c : Fin (grid0.bound 0) => bigSep Finset.univ fun s : Fin (grid0.bound 1) =>
        iprop(∃ f : Buf (Elt F) (oLoc d), ⌜φ (c, s) f⌝ ∗ oLoc d ↦[oSet (coordsV c s)]{fullShare} f))
      ⊢ (iprop(∃ g : Buf (Elt F) (oLoc d), ⌜∀ t : Pt, ∃ f, φ t f ∧ ∀ i ∈ ptSet d t, g i = f i⌝ ∗ oLoc d ↦{fullShare} g) : sProp 𝕄) := by
  rw [← bigSep_univ_prod (fun t : Pt => iprop(∃ f : Buf (Elt F) (oLoc d), ⌜φ t f⌝ ∗ oLoc d ↦[ptSet d t]{fullShare} f))]
  refine (bigSep_exists_pi Finset.univ (fun (t : Pt) (f : Buf (Elt F) (oLoc d)) => iprop(⌜φ t f⌝ ∗ oLoc d ↦[ptSet d t]{fullShare} f))).trans ?_
  iintro ⟨%fs, H⟩
  ihave H' := (bigSep_pure_sep Finset.univ (fun t => φ t (fs t)) (fun t => (oLoc d ↦[ptSet d t]{fullShare} fs t : sProp 𝕄))) $$ H
  icases H' with ⟨%hφ, H⟩
  ihave H'' := (pointsTo_biUnion_join Finset.univ (ptSet d) fs (fs (⟨0, by decide⟩, ⟨0, by decide⟩)) (slices_disjoint d)) $$ H
  icases H'' with ⟨%g, %hg, Hg⟩
  rw [slices_cover]
  iexists g; isplitr
  · ipureintro; intro t; exact ⟨fs t, hφ t (Finset.mem_univ t), fun i hi => hg t (Finset.mem_univ t) i hi⟩
  · iexact Hg

theorem specSC_of_slices (d : Dev nD) {g : Buf (Elt F) (oLoc d)}
    (hg : ∀ t : Pt, ∃ f : Buf (Elt F) (oLoc d), Cert.SpecSC.TileSpec (m (pLoc d)) (m (tLoc d)) (widOf (coordsV t.1 t.2)) f ∧ ∀ i ∈ ptSet d t, g i = f i) :
    Cert.SpecSC.SpecSC (m (pLoc d)) (m (tLoc d)) g := by
  refine Cert.SpecSC.specSC_of_tiles _ _ fun wid => ?_
  have hw : wid.val < 32 := wid.isLt
  obtain ⟨f, hf, hgf⟩ := hg (⟨wid.val % 2, Nat.mod_lt _ (by decide)⟩, ⟨wid.val / 2, by show wid.val / 2 < 16; omega⟩)
  have e : widOf (coordsV (⟨wid.val % 2, Nat.mod_lt _ (by decide)⟩ : Fin (grid0.bound 0)) (⟨wid.val / 2, by show wid.val / 2 < 16; omega⟩ : Fin (grid0.bound 1))) = wid.val := by
    rw [widOf_coordsV]; show 2 * (wid.val / 2) + wid.val % 2 = wid.val; omega
  have := tileSpec_congr (L := coordsV (⟨wid.val % 2, Nat.mod_lt _ (by decide)⟩ : Fin (grid0.bound 0)) (⟨wid.val / 2, by show wid.val / 2 < 16; omega⟩ : Fin (grid0.bound 1))) hgf hf
  rw [e] at this
  exact this

omit [FloatOps F] in
theorem bigSep_cores (Φ : Fin (grid0.bound 0) → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P m).st 0 d c)
      = iprop((bigSep Finset.univ fun c : Fin (grid0.bound 0) => pLoc d ↦{Transfers.shareTok fullShare (grid0.bound 0) c} m (pLoc d))
        ∗ (bigSep Finset.univ fun c : Fin (grid0.bound 0) => tLoc d ↦{Transfers.shareTok fullShare (grid0.bound 0) c} m (tLoc d))
        ∗ bigSep Finset.univ fun c : Fin (grid0.bound 0) => bigSep Finset.univ fun s : Fin (grid0.bound 1) => oLoc d ↦[oSet (coordsV c s)]{fullShare} m (oLoc d)) := by
  simp only [P_st]
  rw [bigSep_cores (F := F) (fun c => coreSt m d c), ← bigSep_sep', ← bigSep_sep']
  rfl

theorem dn0_eq (d : Dev nD) :
    (bigSep Finset.univ fun c : Fin ((K (F := F)).nCore 0) => (P m).dn 0 d c)
      = iprop((bigSep Finset.univ fun c : Fin (grid0.bound 0) => pLoc d ↦{Transfers.shareTok fullShare (grid0.bound 0) c} m (pLoc d))
        ∗ (bigSep Finset.univ fun c : Fin (grid0.bound 0) => tLoc d ↦{Transfers.shareTok fullShare (grid0.bound 0) c} m (tLoc d))
        ∗ bigSep Finset.univ fun c : Fin (grid0.bound 0) => bigSep Finset.univ fun s : Fin (grid0.bound 1) =>
            iprop(∃ f : Buf (Elt F) (oLoc d), ⌜Cert.SpecSC.TileSpec (m (pLoc d)) (m (tLoc d)) (widOf (coordsV c s)) f⌝
              ∗ oLoc d ↦[oSet (coordsV c s)]{fullShare} f)) := by
  simp only [P_dn]
  rw [bigSep_cores (F := F) (fun c => coreDn m d c), ← bigSep_sep', ← bigSep_sep']
  rfl

def Bd (d : Dev nD) : Set (SemLoc sig × HIx 1) := {p | (K (F := F)).lev (SparseCore.T d, p.1) p.2 ≤ 8}

omit [FloatOps F] in

theorem tcSt_region (d : Dev nD) :
    ((K (F := F)).tcSt EH d 1 : sProp 𝕄)
      ⊢ iprop(Pipeline.owesWithin d (0 : CellTallies nD τ sig (HIx 1)) (Bd (F := F) d)
        ∗ (Pipeline.owesWithin d (0 : CellTallies nD τ sig (HIx 1)) (Bd (F := F) d ∪ cfg1.waitPairs (none : HIx 1)) -∗ (K (F := F)).tcSt EH d 1)) := by
  unfold SparseCore.Cfg.tcSt
  rw [(K (F := F)).Otc_end d (le_refl 1)]
  iintro ⟨⟨%W, %hW, HO⟩, Hrest⟩
  isplitl [HO]
  · iexists W; isplitr
    · ipureintro; intro p hp; exact hW p (Finset.mem_coe.mp hp)
    · iexact HO
  iintro ⟨%W', %hW', HO⟩
  isplitl [HO]
  · iexists W'; isplitr
    · ipureintro; intro p hp
      rcases hW' (Finset.mem_coe.mpr hp) with h | ⟨w, s, rfl⟩
      · exact h
      · show (K (F := F)).lev _ none ≤ 8 * 1
        rw [SparseCore.Cfg.lev_none]; exact Nat.zero_le _
    · iexact HO
  · iexact Hrest

omit [FloatOps F] in
theorem tcSt_region' (d : Dev nD) :
    ((K (F := F)).tcSt EH d ((0 : Fin 1).val + 1) : sProp 𝕄)
      ⊢ iprop(Pipeline.owesWithin d (0 : CellTallies nD τ sig (HIx 1)) (Bd (F := F) d)
        ∗ (Pipeline.owesWithin d (0 : CellTallies nD τ sig (HIx 1)) (Bd (F := F) d ∪ cfg1.waitPairs (none : HIx 1)) -∗ (K (F := F)).tcSt EH d 1)) :=
  tcSt_region d

def FIN (d : Dev nD) : sProp 𝕄 :=
  iprop(∃ (out0 : Buf (Elt F) (oLoc d)) (out1 : Buf (Elt F) (rLoc d)),
    ⌜Cert.SpecSC.SpecSC (m (pLoc d)) (m (tLoc d)) out0 ∧ SpecTC.SpecTC (m (pLoc d)) (m (tLoc d)) out1⌝
    ∗ (pLoc d ↦{fullShare} m (pLoc d)) ∗ (tLoc d ↦{fullShare} m (tLoc d)) ∗ (vLoc d ↦{fullShare} (Tail.tailOf out0 out1)))

theorem hmain (htc : TcRegion (F := F)) (ht : TailFacts F) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, held_all4, G_eq, ht.main_eq d, wp_bind]
  iintro ⟨#Hctx, Hst, ⟨Hb, ⟨⟨Hp, Ht, Ho, Hr⟩, Hrest⟩, -, -⟩, Hg, Htok⟩
  ihave Hlev := (SparseCore.Cfg.ctx_levAts κ) $$ Hctx

  ihave Hp' := (Transfers.pointsTo_toks_split fullShare (grid0.bound 0)) $$ Hp
  icases Hp' with ⟨Hpr, Hps⟩
  ihave Ht' := (Transfers.pointsTo_toks_split fullShare (grid0.bound 0)) $$ Ht
  icases Ht' with ⟨Htr, Hts⟩
  ihave Ho' := (Entails.of_eq (oPts_slices d _)) $$ Ho
  iapply ((K (F := F)).wp_run (D (F := F)) 𝒱 (EH := EH) (P := P m) κ d 0) $$ [Hst Hps Hts Ho' Hb Hr Hrest Hg Htok Hpr Htr Hlev]
  isplitr; · iexact Hctx
  isplitl [Hst]; · iexact Hst
  isplitl [Hps Hts Ho']
  · rw [st0_eq]
    isplitl [Hps]; · iexact Hps
    isplitl [Hts]; · iexact Hts
    iexact Ho'
  iintro ⟨Hst, Hdn⟩
  ihave Hdn' := (Entails.of_eq (dn0_eq m d)) $$ Hdn
  icases Hdn' with ⟨Hps, Hts, Hos⟩
  ihave Hp := (Transfers.pointsTo_toks_join fullShare (grid0.bound 0)) $$ [Hpr Hps]
  · isplitl [Hpr]; · iexact Hpr
    iexact Hps
  ihave Ht := (Transfers.pointsTo_toks_join fullShare (grid0.bound 0)) $$ [Htr Hts]
  · isplitl [Htr]; · iexact Htr
    iexact Hts
  ihave Ho := (oSlices_join d (fun t f => Cert.SpecSC.TileSpec (m (pLoc d)) (m (tLoc d)) (widOf (coordsV t.1 t.2)) f)) $$ Hos
  icases Ho with ⟨%g, %hg, Ho⟩
  have hSC := specSC_of_slices m d hg

  ihave Hst' := (tcSt_region' d) $$ Hst
  icases Hst' with ⟨HO, Hback⟩

  rw [wp_bind]
  iapply (htc m (Bd (F := F)) (K (F := F)).lev d _) $$ [Hb Hp Ht Hr HO Hg Htok Hlev Ho Hrest Hback]
  isplitr [Hb Hp Ht Hr HO Hg Htok Hlev]
  swap
  · isplitl [Hb]; · iexact Hb
    isplitl [Hp Ht Hr HO]
    · unfold regPre
      isplitl [Hp]; · iexact Hp
      isplitl [Ht]; · iexact Ht
      isplitl [Hr]; · iexact Hr
      iexact HO
    isplitl [Hlev]; · iexact Hlev
    isplitl [Hg]; · iexact Hg
    iexact Htok
  iintro ⟨Hb, Hpost⟩
  unfold regPost
  icases Hpost with ⟨Hp, Ht, ⟨%out1, %hTC, Hr⟩, HO⟩
  ihave Hst := Hback $$ HO

  rw [← Prog.bind_pure (StableHlo.seq ht.ops)]
  iapply (StableHlo.wp_seq 𝒱 none Set.univ d tcArrays (fun u => pure u) ht.ops ht.bufs ht.fresh (V2 m d g out1)) $$ [Hb Hp Ht Ho Hr Hrest]
  · isplitl [Hb]; · iexact Hb
    rw [held_all4, V2_p, V2_t, V2_o, V2_r, V2_rest]
    isplitr [Hrest]
    · isplitl [Hp]; · iexact Hp
      isplitl [Ht]; · iexact Ht
      isplitl [Ho]; · iexact Ho
      iexact Hr
    · iexact Hrest
  iintro ⟨Hb, Hheld⟩
  ihave Hh := (Entails.of_eq (held_all3 d _)) $$ Hheld
  icases Hh with ⟨⟨Hp, Ht, Hv⟩, -⟩
  rw [Prog.pure_eq_ret, wp_ret]; imodintro
  isplitl [Hst]; · iexact Hst
  unfold FIN
  iexists g; iexists out1
  isplitr; · ipureintro; exact ⟨hSC, hTC⟩
  rw [ht.arg0, ht.arg1, ht.v27, V2_p, V2_t, V2_o, V2_r]
  isplitl [Hp]; · iexact Hp
  isplitl [Ht]; · iexact Ht
  iexact Hv

def fq (d : Dev nD) (s' : Phys nD τ sig (Elt F)) : Prop :=
  (∃ (out0 : Buf (Elt F) (oLoc d)) (out1 : Buf (Elt F) (rLoc d)),
      Cert.SpecSC.SpecSC (m (pLoc d)) (m (tLoc d)) out0 ∧ SpecTC.SpecTC (m (pLoc d)) (m (tLoc d)) out1
        ∧ s'.mem.mem (vLoc d) = Tail.tailOf out0 out1)
    ∧ s'.mem.mem (pLoc d) = m (pLoc d) ∧ s'.mem.mem (tLoc d) = m (tLoc d)

theorem hfin (d : Dev nD) (s' : Phys nD τ sig (Elt F)) : iprop(FIN m d ∗ SI s') ⊢ (⌜fq m d s'⌝ : sProp 𝕄) := by
  unfold FIN
  iintro ⟨⟨%out0, %out1, %hS, Hp, Ht, Hv⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := vLoc d) (I := Finset.univ) (q := fullShare) (f := Tail.tailOf out0 out1)) $$ [HSI Hv]
  · isplitl [HSI] <;> iassumption
  icases H with %h3
  ipureintro
  exact ⟨⟨out0, out1, hS.1, hS.2, funext fun i => h3 i (Finset.mem_univ i)⟩, funext fun i => h1 i (Finset.mem_univ i), funext fun i => h2 i (Finset.mem_univ i)⟩

def QC : PUnit × MemSt nD τ sig (Elt F) → Prop := fun r => ∀ c : Dev nD,
  (∃ (out0 : Buf (Elt F) (oLoc c)) (out1 : Buf (Elt F) (rLoc c)),
      Cert.SpecSC.SpecSC (m (pLoc c)) (m (tLoc c)) out0 ∧ SpecTC.SpecTC (m (pLoc c)) (m (tLoc c)) out1
        ∧ r.2.mem (vLoc c) = Tail.tailOf out0 out1)
    ∧ r.2.mem (pLoc c) = m (pLoc c) ∧ r.2.mem (tLoc c) = m (tLoc c)

theorem run_main [∀ e, Nonempty (Elt F e)] (hb : TileBody m) (htc : TcRegion (F := F)) (ht : TailFacts F) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (G (F := F)) (FIN m) (u₀ (F := F)) (sep_elim_left.trans (hu₀ m)) (hmain m ρ htc ht) (fq m) (hfin m) (QC m) (fun _ h => h)

end Cert.KernelIdeal.Launch

end
-- ==== Proof.ScLoop.lean ====
/-
  One trip of a pair's loop adds, lane by lane, the masked prediction, the prediction and the mask read off the two
  buffers into six carried vectors; `st` is that recursion over the trips, `inv` holds both buffers and says the carried
  vectors are `st` at the trip, and `trip` proves one trip once, for any buffer half, target rows and class word.
-/
import proofs.«216000_g43989055045728_cont_8to1_b_1827_23_alg».proof.Proof.Gen.KernelIdeal.Skeleton
import proofs.«216000_g43989055045728_cont_8to1_b_1827_23_alg».proof.Proof.SpecSC
import proofs.«216000_g43989055045728_cont_8to1_b_1827_23_alg».proof.Proof.PayDefs
import Idealize.ShloMosaic.Lib.ValueLayout
import Idealize.ShloMosaic.Lib.SparseCore
import Idealize.ShloMosaic.Lib.Exec
import Idealize.ShloMosaic.Rules.Step

set_option warn.classDefReducibility false

noncomputable section

namespace Cert.KernelIdeal.ScLoop

open Cert.KernelIdeal Cert.KernelIdeal.Gen
open Cert.SpecSC

open Idealize.ShloMosaic Idealize.ShloMosaic.ValueIdx
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

def fin16 (n : Nat) : Fin 16 := ⟨n % 16, Nat.mod_lt _ (by decide)⟩
def fin32 (n : Nat) : Fin 32 := ⟨n % 32, Nat.mod_lt _ (by decide)⟩

abbrev Acc (F : FTy → Type) : Type :=
  FVec F S16 .f32 × FVec F S16 .f32 × FVec F S16 .f32 × FVec F S16 .f32 × FVec F S16 .f32 × FVec F S16 .f32

section Pure

variable (rp : S16x512.Idx → F .f32) (rt : S32x512.Idx → BitVec 32)

def pRd (v col : Nat) : F .f32 := rp (ix2 (fin16 (v / 16)) (fin512 (32 * (v % 16) + col)))

def tRd (ro v col : Nat) : BitVec 32 := rt (ix2 (fin32 (ro + v / 16)) (fin512 (32 * (v % 16) + col)))

def bNom (cw : BitVec 32) (ro col v : Nat) : F .f32 := FloatOps.mulf (pRd rp v col) (m01 cw (tRd rt ro v col))
def bIsum (col v : Nat) : F .f32 := pRd rp v col
def bTsum (cw : BitVec 32) (ro col v : Nat) : F .f32 := m01 (F := F) cw (tRd rt ro v col)

def Lanes (cw : BitVec 32) (ro k : Nat) (acc : Acc F) : Prop :=
  ∀ l : Fin 16,
    acc.1 (ix1 l) = accum (bNom rp rt cw ro l.val) k
    ∧ acc.2.1 (ix1 l) = accum (bIsum rp l.val) k
    ∧ acc.2.2.1 (ix1 l) = accum (bTsum (F := F) rt cw ro l.val) k
    ∧ acc.2.2.2.1 (ix1 l) = accum (bNom rp rt cw ro (l.val + 16)) k
    ∧ acc.2.2.2.2.1 (ix1 l) = accum (bIsum rp (l.val + 16)) k
    ∧ acc.2.2.2.2.2 (ix1 l) = accum (bTsum (F := F) rt cw ro (l.val + 16)) k

def stStep (cw : BitVec 32) (ro k : Nat) (a : Acc F) : Acc F :=
  (fun j => FloatOps.addf (a.1 j) (bNom rp rt cw ro (j 0).val k),
   fun j => FloatOps.addf (a.2.1 j) (bIsum rp (j 0).val k),
   fun j => FloatOps.addf (a.2.2.1 j) (bTsum (F := F) rt cw ro (j 0).val k),
   fun j => FloatOps.addf (a.2.2.2.1 j) (bNom rp rt cw ro ((j 0).val + 16) k),
   fun j => FloatOps.addf (a.2.2.2.2.1 j) (bIsum rp ((j 0).val + 16) k),
   fun j => FloatOps.addf (a.2.2.2.2.2 j) (bTsum (F := F) rt cw ro ((j 0).val + 16) k))

/-- The carried vectors before trip k, all six started from z. -/
def st (z : FVec F S16 .f32) (cw : BitVec 32) (ro : Nat) : Nat → Acc F
  | 0 => (z, z, z, z, z, z)
  | k + 1 => stStep rp rt cw ro k (st z cw ro k)

theorem st_lanes (z : FVec F S16 .f32) (hz : ∀ l : Fin 16, z (ix1 l) = zeroF) (cw : BitVec 32) (ro : Nat) :
    ∀ k, Lanes rp rt cw ro k (st rp rt z cw ro k)
  | 0 => fun l => ⟨hz l, hz l, hz l, hz l, hz l, hz l⟩
  | k + 1 => fun l => by
    obtain ⟨h0, h1, h2, h3, h4, h5⟩ := st_lanes z hz cw ro k l
    refine ⟨?_, ?_, ?_, ?_, ?_, ?_⟩
    · show FloatOps.addf ((st rp rt z cw ro k).1 (ix1 l)) _ = FloatOps.addf _ _; rw [h0]
    · show FloatOps.addf ((st rp rt z cw ro k).2.1 (ix1 l)) _ = FloatOps.addf _ _; rw [h1]
    · show FloatOps.addf ((st rp rt z cw ro k).2.2.1 (ix1 l)) _ = FloatOps.addf _ _; rw [h2]
    · show FloatOps.addf ((st rp rt z cw ro k).2.2.2.1 (ix1 l)) _ = FloatOps.addf _ _; rw [h3]
    · show FloatOps.addf ((st rp rt z cw ro k).2.2.2.2.1 (ix1 l)) _ = FloatOps.addf _ _; rw [h4]
    · show FloatOps.addf ((st rp rt z cw ro k).2.2.2.2.2 (ix1 l)) _ = FloatOps.addf _ _; rw [h5]

theorem step_eq (cw : BitVec 32) (ro k : Nat)
    (a0 a1 a2 a3 a4 a5 b0 b1 b2 b3 b4 b5 : FVec F S16 .f32) (v1 v2 : Vec F S1x16 .f32) (w1 w2 : Vec F S1x16 .i32)
    (hv1 : ∀ l : Fin 16, v1 (ix2 (0 : Fin 1) l) = pRd rp k l.val)
    (hw1 : ∀ l : Fin 16, w1 (ix2 (0 : Fin 1) l) = tRd rt ro k l.val)
    (hv2 : ∀ l : Fin 16, v2 (ix2 (0 : Fin 1) l) = pRd rp k (l.val + 16))
    (hw2 : ∀ l : Fin 16, w2 (ix2 (0 : Fin 1) l) = tRd rt ro k (l.val + 16))
    (hb0 : ∀ l : Fin 16, b0 (ix1 l) = FloatOps.addf (a0 (ix1 l)) (FloatOps.mulf (v1 (ix2 (0 : Fin 1) l)) (m01 cw (w1 (ix2 (0 : Fin 1) l)))))
    (hb1 : ∀ l : Fin 16, b1 (ix1 l) = FloatOps.addf (a1 (ix1 l)) (v1 (ix2 (0 : Fin 1) l)))
    (hb2 : ∀ l : Fin 16, b2 (ix1 l) = FloatOps.addf (a2 (ix1 l)) (m01 cw (w1 (ix2 (0 : Fin 1) l))))
    (hb3 : ∀ l : Fin 16, b3 (ix1 l) = FloatOps.addf (a3 (ix1 l)) (FloatOps.mulf (v2 (ix2 (0 : Fin 1) l)) (m01 cw (w2 (ix2 (0 : Fin 1) l)))))
    (hb4 : ∀ l : Fin 16, b4 (ix1 l) = FloatOps.addf (a4 (ix1 l)) (v2 (ix2 (0 : Fin 1) l)))
    (hb5 : ∀ l : Fin 16, b5 (ix1 l) = FloatOps.addf (a5 (ix1 l)) (m01 cw (w2 (ix2 (0 : Fin 1) l)))) :
    (b0, b1, b2, b3, b4, b5) = stStep rp rt cw ro k (a0, a1, a2, a3, a4, a5) := by
  have e0 : b0 = (stStep rp rt cw ro k (a0, a1, a2, a3, a4, a5)).1 := by
    funext j; obtain ⟨l, rfl⟩ : ∃ l : Fin 16, j = ix1 l := ⟨j 0, eq_ix1 j⟩
    rw [hb0, hv1, hw1]; rfl
  have e1 : b1 = (stStep rp rt cw ro k (a0, a1, a2, a3, a4, a5)).2.1 := by
    funext j; obtain ⟨l, rfl⟩ : ∃ l : Fin 16, j = ix1 l := ⟨j 0, eq_ix1 j⟩
    rw [hb1, hv1]; rfl
  have e2 : b2 = (stStep rp rt cw ro k (a0, a1, a2, a3, a4, a5)).2.2.1 := by
    funext j; obtain ⟨l, rfl⟩ : ∃ l : Fin 16, j = ix1 l := ⟨j 0, eq_ix1 j⟩
    rw [hb2, hw1]; rfl
  have e3 : b3 = (stStep rp rt cw ro k (a0, a1, a2, a3, a4, a5)).2.2.2.1 := by
    funext j; obtain ⟨l, rfl⟩ : ∃ l : Fin 16, j = ix1 l := ⟨j 0, eq_ix1 j⟩
    rw [hb3, hv2, hw2]; rfl
  have e4 : b4 = (stStep rp rt cw ro k (a0, a1, a2, a3, a4, a5)).2.2.2.2.1 := by
    funext j; obtain ⟨l, rfl⟩ : ∃ l : Fin 16, j = ix1 l := ⟨j 0, eq_ix1 j⟩
    rw [hb4, hv2]; rfl
  have e5 : b5 = (stStep rp rt cw ro k (a0, a1, a2, a3, a4, a5)).2.2.2.2.2 := by
    funext j; obtain ⟨l, rfl⟩ : ∃ l : Fin 16, j = ix1 l := ⟨j 0, eq_ix1 j⟩
    rw [hb5, hw2]; rfl
  rw [e0, e1, e2, e3, e4, e5]

end Pure

theorem unit_idx {n0 n1 : Nat} (off : Fin 2 → Nat)
    (inb : ∀ a, off a + S1x16.size a ≤ (⟨2, ![n0, n1]⟩ : Shape).size a) (l : Fin 16)
    (r : Fin n0) (x : Fin n1) (hr : r.val = off 0) (hx : x.val = off 1 + l.val) :
    (Rect.unit (s := ⟨2, ![n0, n1]⟩) off S1x16.size inb).toLoadRect.idx (ix2 (0 : Fin 1) l) = ix2 r x := by
  funext a
  apply Fin.ext
  rw [LoadRect.idx_apply]
  match a with
  | ⟨0, _⟩ => show off 0 + 1 * 0 = r.val; omega
  | ⟨1, _⟩ => show off 1 + 1 * l.val = x.val; omega

theorem readAt_unit16 {Val : EltTy → Type} {sig : RefSig} {κ : Kind} {sp : Space} {n0 n1 : Nat} {e : EltTy}
    (v : View sig κ sp (⟨2, ![n0, n1]⟩ : Shape) e) (off : Fin 2 → Nat)
    (inb : ∀ a, off a + S1x16.size a ≤ (⟨2, ![n0, n1]⟩ : Shape).size a) (f : v.ty.Contents Val) (l : Fin 16)
    (r : Fin n0) (x : Fin n1) (hr : r.val = off 0) (hx : x.val = off 1 + l.val) :
    v.readAt Val (Rect.unit (s := ⟨2, ![n0, n1]⟩) off S1x16.size inb).toLoadRect f (ix2 (0 : Fin 1) l)
      = v.read Val f (ix2 r x) := by
  rw [View.readAt_apply, unit_idx off inb l r x hr hx]

section Inv

variable {Ix : Type} [DecidableEq Ix] {U : Type} [URA U] {Lvl : Type} [Preorder Lvl]

/-- Before trip k both buffers are held at their contents and the carried vectors are the state at k. -/
def inv (c : Thread nD τ) (mP : Memref sig c.2.kind .vmem S16x512 .f32) (mT : Memref sig c.2.kind .vmem S32x512 .i32)
    (qP qT : PosShare TreeShare) (fb : Buf (Elt F) (mP.view.loc c)) (ft : Buf (Elt F) (mT.view.loc c))
    (z : FVec F S16 .f32) (cw : BitVec 32) (ro : Nat) (k : Nat) (acc : Acc F) : sProp (MT nD τ sig Ix (Elt F) ℕ U Lvl) :=
  iprop(⌜acc = st (mP.view.read (Elt F) fb) (mT.view.read (Elt F) ft) z cw ro k⌝
    ∗ (mP.view.loc c ↦{qP} fb) ∗ (mT.view.loc c ↦{qT} ft))

end Inv

/-! ## One trip, for every pair -/

section Trip

/-- A trip's load offsets as the kernel computes them from the trip's number: the row from k / 16, the column from 32 (k mod 16). -/
def off (row col : BitVec 32 → BitVec 32) (k : Nat) : Fin 2 → Nat :=
  ![(Scalar.indexCast (row (Scalar.shrsi (Scf.iv 0#32 1#32 k) 4#32)) : Index).toNat,
    (Scalar.indexCast (col (Scalar.muli (Scalar.andi (Scf.iv 0#32 1#32 k) 15#32) 32#32)) : Index).toNat]

theorem off_P0 : ∀ k, k < 256 → off id id k = ![k / 16, 32 * (k % 16)] := by decide +kernel
theorem off_P16 : ∀ k, k < 256 → off id (Scalar.addi · 16#32) k = ![k / 16, 32 * (k % 16) + 16] := by decide +kernel
theorem off_T0 (ro : Nat) (h : ro = 0 ∨ ro = 16) :
    ∀ k, k < 256 → off (Scalar.addi (BitVec.ofNat 32 ro)) id k = ![ro + k / 16, 32 * (k % 16)] := by
  rcases h with rfl | rfl <;> decide +kernel
theorem off_T16 (ro : Nat) (h : ro = 0 ∨ ro = 16) :
    ∀ k, k < 256 → off (Scalar.addi (BitVec.ofNat 32 ro)) (Scalar.addi · 16#32) k = ![ro + k / 16, 32 * (k % 16) + 16] := by
  rcases h with rfl | rfl <;> decide +kernel

/-- A loaded 1 x 16 row as a 16-vector, and the 0/1 vector of its lanes equal to the class word. -/
def vCast (v : Vec F S1x16 .f32) : FVec F S16 .f32 := shapeCast S16 v shapeCasts_S1x16_S16
def vMask (cw : BitVec 32) (w : Vec F S1x16 .i32) : FVec F S16 .f32 :=
  select (cmpi .eq (shapeCast S16 w shapeCasts_S1x16_S16 : IVec S16 32) (broadcast S16 cw))
    (broadcast S16 (Scalar.ofBits .f32 0x3F800000#32 : F .f32)) (broadcast S16 (Scalar.ofBits .f32 0x00000000#32 : F .f32))

section Pay
variable (cw : BitVec 32) (a : FVec F S16 .f32) (v : Vec F S1x16 .f32) (w : Vec F S1x16 .i32) (l : Fin 16)

theorem nom_lane : addf a (mulf (vCast v) (vMask cw w)) (ix1 l)
    = FloatOps.addf (a (ix1 l)) (FloatOps.mulf (v (ix2 (0 : Fin 1) l)) (m01 cw (w (ix2 (0 : Fin 1) l)))) := by
  simp only [vCast, vMask, addf, mulf, select, cmpi, broadcast, shapeCast_1a_a_apply]; rfl
theorem isum_lane : addf a (vCast v) (ix1 l) = FloatOps.addf (a (ix1 l)) (v (ix2 (0 : Fin 1) l)) := by
  simp only [vCast, addf, shapeCast_1a_a_apply]
theorem tsum_lane : addf a (vMask (F := F) cw w) (ix1 l) = FloatOps.addf (a (ix1 l)) (m01 cw (w (ix2 (0 : Fin 1) l))) := by
  simp only [vMask, addf, select, cmpi, broadcast, shapeCast_1a_a_apply]; rfl
end Pay

variable {Ix : Type} [DecidableEq Ix] {U : Type} [URA U] {Lvl : Type} [Preorder Lvl]

/-- One trip takes the invariant to the invariant, whichever buffer half, target rows and class word the loop walks.
    The offsets and their bounds are read off the loop's body; they are the kernel's word arithmetic on the trip's
    number, so the four loads read the rows the state's step reads, and the six sums add what it adds. -/
theorem trip {n : Nat} (hn : n ≤ 256) (c : Thread nD τ) (mP : Memref sig c.2.kind .vmem S16x512 .f32) (mT : Memref sig c.2.kind .vmem S32x512 .i32)
    {defs : Defs nD τ sig (Elt F) Λ₀} (𝒱 : Variants) (bd : Option 𝒱.V) (E : Set ℕ) (qP qT : PosShare TreeShare)
    (fb : Buf (Elt F) (mP.view.loc c)) (ft : Buf (Elt F) (mT.view.loc c)) (z : FVec F S16 .f32)
    (cw : BitVec 32) (ro : Nat) (k : Fin n) {o1 o2 o3 o4 : Fin 2 → Nat}
    {i1 : ∀ a, o1 a + S1x16.size a ≤ S16x512.size a} {i2 : ∀ a, o2 a + S1x16.size a ≤ S32x512.size a}
    {i3 : ∀ a, o3 a + S1x16.size a ≤ S16x512.size a} {i4 : ∀ a, o4 a + S1x16.size a ≤ S32x512.size a}
    (a0 a1 a2 a3 a4 a5 : FVec F S16 .f32) (hro : ro = 0 ∨ ro = 16 := by decide)
    (h1 : o1 = off id id k := by exact rfl) (h2 : o2 = off (Scalar.addi (BitVec.ofNat 32 ro)) id k := by exact rfl)
    (h3 : o3 = off id (Scalar.addi · 16#32) k := by exact rfl)
    (h4 : o4 = off (Scalar.addi (BitVec.ofNat 32 ro)) (Scalar.addi · 16#32) k := by exact rfl) :
    inv (Ix := Ix) (U := U) (Lvl := Lvl) c mP mT qP qT fb ft z cw ro k (a0, a1, a2, a3, a4, a5)
      ⊢ wp frame (wpE defs 𝒱 c bd) E
          (show Prog (TpuEff nD τ sig (Elt F) Λ₀ c.2) (Acc F) from do
            let v : Vec F S1x16 .f32 ← Prog.lift (.load mP (Rect.unit (s := S16x512) o1 S1x16.size i1).toLoadRect (View.loadsAt_vmem h_S1x16))
            let w : Vec F S1x16 .i32 ← Prog.lift (.load mT (Rect.unit (s := S32x512) o2 S1x16.size i2).toLoadRect (View.loadsAt_vmem h_S1x16))
            let v' : Vec F S1x16 .f32 ← Prog.lift (.load mP (Rect.unit (s := S16x512) o3 S1x16.size i3).toLoadRect (View.loadsAt_vmem h_S1x16))
            let w' : Vec F S1x16 .i32 ← Prog.lift (.load mT (Rect.unit (s := S32x512) o4 S1x16.size i4).toLoadRect (View.loadsAt_vmem h_S1x16))
            pure (addf a0 (mulf (vCast v) (vMask cw w)), addf a1 (vCast v), addf a2 (vMask cw w),
              addf a3 (mulf (vCast v') (vMask cw w')), addf a4 (vCast v'), addf a5 (vMask cw w')))
          (inv c mP mT qP qT fb ft z cw ro (k.val + 1)) := by
  have hk := Nat.lt_of_lt_of_le k.isLt hn
  have hr : ro ≤ 16 := by rcases hro with rfl | rfl <;> decide
  replace h1 := h1.trans (off_P0 k hk)
  replace h2 := h2.trans (off_T0 ro hro k hk)
  replace h3 := h3.trans (off_P16 k hk)
  replace h4 := h4.trans (off_T16 ro hro k hk)
  subst h1 h2 h3 h4
  unfold inv
  simp only [Prog.lift, Prog.bind_op, Prog.bind_ret, Prog.pure_eq_ret]
  iintro ⟨%hacc, HP, HT⟩
  iapply (wp_load 𝒱 c bd E (m := mP) (Finset.subset_univ _)) $$ HP; iintro HP
  iapply (wp_load 𝒱 c bd E (m := mT) (Finset.subset_univ _)) $$ HT; iintro HT
  iapply (wp_load 𝒱 c bd E (m := mP) (Finset.subset_univ _)) $$ HP; iintro HP
  iapply (wp_load 𝒱 c bd E (m := mT) (Finset.subset_univ _)) $$ HT; iintro HT
  rw [wp_ret]; imodintro
  isplitr
  · ipureintro
    show _ = stStep (mP.view.read (Elt F) fb) (mT.view.read (Elt F) ft) cw ro k
      (st (mP.view.read (Elt F) fb) (mT.view.read (Elt F) ft) z cw ro k)
    rw [← hacc]
    refine step_eq _ _ cw ro k a0 a1 a2 a3 a4 a5 _ _ _ _ _ _ _ _ _ _ ?_ ?_ ?_ ?_
      (nom_lane cw a0 _ _) (isum_lane a1 _) (tsum_lane cw a2 _) (nom_lane cw a3 _ _) (isum_lane a4 _) (tsum_lane cw a5 _)
    · intro l
      exact readAt_unit16 mP.view _ _ fb l _ _ (by show (k.val / 16) % 16 = k.val / 16; omega)
        (by show (32 * (k.val % 16) + l.val) % 512 = 32 * (k.val % 16) + l.val; omega)
    · intro l
      exact readAt_unit16 mT.view _ _ ft l _ _ (by show (ro + k.val / 16) % 32 = ro + k.val / 16; omega)
        (by show (32 * (k.val % 16) + l.val) % 512 = 32 * (k.val % 16) + l.val; omega)
    · intro l
      exact readAt_unit16 mP.view _ _ fb l _ _ (by show (k.val / 16) % 16 = k.val / 16; omega)
        (by show (32 * (k.val % 16) + (l.val + 16)) % 512 = 32 * (k.val % 16) + 16 + l.val; omega)
    · intro l
      exact readAt_unit16 mT.view _ _ ft l _ _ (by show (ro + k.val / 16) % 32 = ro + k.val / 16; omega)
        (by show (32 * (k.val % 16) + (l.val + 16)) % 512 = 32 * (k.val % 16) + 16 + l.val; omega)
  isplitl [HP]
  · iexact HP
  · iexact HT

open Cert.KernelIdeal.PayDefs in
/-- The class of a pair's loop on tile (d, L): the loop's bounds and body as the program has them, its six sums started from z. -/
abbrev TileLoop (d : Dev nD) (L : grid0.Coords) (z : FVec F S16 .f32) (lp : Scf.Loop 32) (ok : lp.OK)
    (body : Fin lp.trips → Acc F → Prog (TpuEff nD τ sig (Elt F) Λ₀ (tileThr d L).2) (Acc F)) :=
  LoopInv (M := MT nD τ sig (HIx 1) (Elt F) ℕ UU ℕ) frame (wpE (defs₀ (F := F)) 𝒱₀ (tileThr d L) none) Set.univ
    lp.lb lp.ub lp.st ok (z, z, z, z, z, z) body

end Trip

section Spec

variable (P : SP.Idx → F .f32) (T : ST.Idx → BitVec 32)
variable (rp : S16x512.Idx → F .f32) (rt : S32x512.Idx → BitVec 32)

theorem accum_congr {g g' : Nat → F .f32} : ∀ k, (∀ v, v < k → g v = g' v) → accum g k = accum g' k
  | 0, _ => rfl
  | k + 1, h => by
    show FloatOps.addf (accum g k) (g k) = FloatOps.addf (accum g' k) (g' k)
    rw [accum_congr k (fun v hv => h v (Nat.lt_succ_of_lt hv)), h k (Nat.lt_succ_self k)]

def HoldsP (b : Fin 8) (c : Fin 19) (wid : Nat) : Prop :=
  ∀ (r : Fin 16) (x : Fin 512), rp (ix2 r x) = P (ix4 b c (fin512 (16 * wid + r.val)) x)
def HoldsT (b : Fin 8) (wid ro : Nat) : Prop :=
  ∀ (r : Fin 16) (x : Fin 512), rt (ix2 (fin32 (ro + r.val)) x) = T (ix3 b (fin512 (16 * wid + r.val)) x)

variable {P T rp rt}

theorem pRd_eq {b : Fin 8} {c : Fin 19} {wid : Nat} (hP : HoldsP P rp b c wid) (v col : Nat) (hv : v < 256) :
    pRd rp v col = pAt P b c wid v col := by
  have e : (fin16 (v / 16)).val = v / 16 := by show (v / 16) % 16 = v / 16; omega
  have h := hP (fin16 (v / 16)) (fin512 (32 * (v % 16) + col))
  rw [e] at h
  exact h

theorem tRd_eq {b : Fin 8} {wid ro : Nat} (hT : HoldsT T rt b wid ro) (v col : Nat) (hv : v < 256) :
    tRd rt ro v col = tAt T b wid v col := by
  have e : (fin16 (v / 16)).val = v / 16 := by show (v / 16) % 16 = v / 16; omega
  have h := hT (fin16 (v / 16)) (fin512 (32 * (v % 16) + col))
  rw [e] at h
  exact h

theorem bNom_eq {b : Fin 8} {c : Fin 19} {wid ro : Nat} (hP : HoldsP P rp b c wid) (hT : HoldsT T rt b wid ro) (col v : Nat) (hv : v < 256) :
    bNom rp rt (cls c) ro col v = gNom P T b c wid col v := by
  unfold bNom gNom; rw [pRd_eq hP v col hv, tRd_eq hT v col hv]
theorem bIsum_eq {b : Fin 8} {c : Fin 19} {wid : Nat} (hP : HoldsP P rp b c wid) (col v : Nat) (hv : v < 256) :
    bIsum rp col v = gIsum P b c wid col v := by
  unfold bIsum gIsum; exact pRd_eq hP v col hv
theorem bTsum_eq {b : Fin 8} {c : Fin 19} {wid ro : Nat} (hT : HoldsT T rt b wid ro) (col v : Nat) (hv : v < 256) :
    bTsum (F := F) rt (cls c) ro col v = gTsum (F := F) T b c wid col v := by
  unfold bTsum gTsum; rw [tRd_eq hT v col hv]

/-- With the slices in the buffers, the state after 256 trips adds up, pairwise, to the tile's three sums of the pair. -/
theorem tile_of_st {b : Fin 8} {c : Fin 19} {wid ro : Nat} (hP : HoldsP P rp b c wid) (hT : HoldsT T rt b wid ro)
    (z : FVec F S16 .f32) (hz : ∀ l : Fin 16, z (ix1 l) = zeroF) (l : Fin 16) :
    FloatOps.addf ((st rp rt z (cls c) ro 256).1 (ix1 l)) ((st rp rt z (cls c) ro 256).2.2.2.1 (ix1 l)) = tileNom P T b c wid l.val
    ∧ FloatOps.addf ((st rp rt z (cls c) ro 256).2.1 (ix1 l)) ((st rp rt z (cls c) ro 256).2.2.2.2.1 (ix1 l)) = tileIsum P b c wid l.val
    ∧ FloatOps.addf ((st rp rt z (cls c) ro 256).2.2.1 (ix1 l)) ((st rp rt z (cls c) ro 256).2.2.2.2.2 (ix1 l)) = tileTsum (F := F) T b c wid l.val := by
  obtain ⟨h0, h1, h2, h3, h4, h5⟩ := st_lanes rp rt z hz (cls c) ro 256 l
  rw [h0, h1, h2, h3, h4, h5]
  refine ⟨?_, ?_, ?_⟩
  · unfold tileNom
    rw [accum_congr 256 (fun v hv => bNom_eq hP hT l.val v hv), accum_congr 256 (fun v hv => bNom_eq hP hT (l.val + 16) v hv)]
  · unfold tileIsum
    rw [accum_congr 256 (fun v hv => bIsum_eq (c := c) hP l.val v hv), accum_congr 256 (fun v hv => bIsum_eq (c := c) hP (l.val + 16) v hv)]
  · unfold tileTsum
    rw [accum_congr 256 (fun v hv => bTsum_eq (c := c) hT l.val v hv), accum_congr 256 (fun v hv => bTsum_eq (c := c) hT (l.val + 16) v hv)]

theorem sum_cast_lane (x y : FVec F S16 .f32) (h : S16.ShapeCasts S16) (l : Fin 16) :
    shapeCast S16 (addf x y) h (ix1 l) = FloatOps.addf (x (ix1 l)) (y (ix1 l)) := by
  rw [shapeCast_self]; rfl

end Spec

end Cert.KernelIdeal.ScLoop

end
-- ==== Proof.ScLoopAll.lean ====
import proofs.«216000_g43989055045728_cont_8to1_b_1827_23_alg».proof.Proof.ScLoop

set_option warn.classDefReducibility false

noncomputable section

namespace Cert.KernelIdeal.ScLoop

open Cert.KernelIdeal Cert.KernelIdeal.Gen Cert.KernelIdeal.PayDefs
open Idealize.ShloMosaic
open Idealize.ShloMosaic.SparseCore.Cfg (HIx)
open Idealize.SL Idealize.SL.RA Idealize.SL.Sem

variable {F : FTy → Type} [FloatOps F]
variable (d : Dev nD) (L : grid0.Coords) (qP qT : PosShare TreeShare)
  (ft : Buf (Elt F) (sT.view.loc (tileThr d L))) (z : FVec F S16 .f32)

@[sl_loop] def loopInv1 (fb : Buf (Elt F) (sA.view.loc (tileThr d L))) :
    TileLoop d L z k0_t1_loop k0_t1_ok
      (k0_t1_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7) where
  inv := inv (tileThr d L) sA sT qP qT fb ft z 0#32 0
  step := fun k ⟨a0, a1, a2, a3, a4, a5⟩ =>
    trip k0_t1_abs.2.1 (tileThr d L) sA sT 𝒱₀ none Set.univ qP qT fb ft z 0#32 0 k a0 a1 a2 a3 a4 a5

@[sl_loop] def loopInv2 (fb : Buf (Elt F) (sB.view.loc (tileThr d L))) (v31 : FVec F S16 .f32) :
    TileLoop d L z k0_t2_loop k0_t2_ok
      (k0_t2_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 1#32 0
  step := fun k ⟨a0, a1, a2, a3, a4, a5⟩ =>
    trip k0_t2_abs.2.1 (tileThr d L) sB sT 𝒱₀ none Set.univ qP qT fb ft z 1#32 0 k a0 a1 a2 a3 a4 a5

@[sl_loop] def loopInv3 (fb : Buf (Elt F) (sA.view.loc (tileThr d L))) (v31 : FVec F S16 .f32) (c0_i32_58 : BitVec 32) (c1_i32_60 : BitVec 32) :
    TileLoop d L z k0_t3_loop k0_t3_ok
      (k0_t3_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_58 c1_i32_60) where
  inv := inv (tileThr d L) sA sT qP qT fb ft z 2#32 0
  step := fun k ⟨a0, a1, a2, a3, a4, a5⟩ =>
    trip k0_t3_abs.2.1 (tileThr d L) sA sT 𝒱₀ none Set.univ qP qT fb ft z 2#32 0 k a0 a1 a2 a3 a4 a5

@[sl_loop] def loopInv4 (fb : Buf (Elt F) (sB.view.loc (tileThr d L))) (v31 : FVec F S16 .f32) (c0_i32_58 : BitVec 32) (c1_i32_60 : BitVec 32) :
    TileLoop d L z k0_t4_loop k0_t4_ok
      (k0_t4_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_58 c1_i32_60) where
  inv := inv (tileThr d L) sB sT qP qT fb ft z 3#32 0
  step := fun k ⟨a0, a1, a2, a3, a4, a5⟩ =>
    trip k0_t4_abs.2.1 (tileThr d L) sB sT 𝒱₀ none Set.univ qP qT fb ft z 3#32 0 k a0 a1 a2 a3 a4 a5

@[sl_loop] def loopInv5 (fb : Buf (Elt F) (sA.view.loc (tileThr d L))) (v31 : FVec F S16 .f32) (v110 : FVec F S16 .f32) :
    TileLoop d L z k0_t5_loop k0_t5_ok
      (k0_t5_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v110) where
  inv := inv (tileThr d L) sA sT qP qT fb ft z 4#32 0
  step := fun k ⟨a0, a1, a2, a3, a4, a5⟩ =>
    trip k0_t5_abs.2.1 (tileThr d L) sA sT 𝒱₀ none Set.univ qP qT fb ft z 4#32 0 k a0 a1 a2 a3 a4 a5

@[sl_loop] def loopInv6 (fb : Buf (Elt F) (sB.view.loc (tileThr d L))) (v31 : FVec F S16 .f32) :
    TileLoop d L z k0_t6_loop k0_t6_ok
      (k0_t6_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 5#32 0
  step := fun k ⟨a0, a1, a2, a3, a4, a5⟩ =>
    trip k0_t6_abs.2.1 (tileThr d L) sB sT 𝒱₀ none Set.univ qP qT fb ft z 5#32 0 k a0 a1 a2 a3 a4 a5

@[sl_loop] def loopInv7 (fb : Buf (Elt F) (sA.view.loc (tileThr d L))) (v31 : FVec F S16 .f32) :
    TileLoop d L z k0_t7_loop k0_t7_ok
      (k0_t7_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sA sT qP qT fb ft z 6#32 0
  step := fun k ⟨a0, a1, a2, a3, a4, a5⟩ =>
    trip k0_t7_abs.2.1 (tileThr d L) sA sT 𝒱₀ none Set.univ qP qT fb ft z 6#32 0 k a0 a1 a2 a3 a4 a5

@[sl_loop] def loopInv8 (fb : Buf (Elt F) (sB.view.loc (tileThr d L))) (v31 : FVec F S16 .f32) (v175 : FVec F S16 .f32) (v176 : FVec F S16 .f32) (v180 : Vec F S16 .f32) :
    TileLoop d L z k0_t8_loop k0_t8_ok
      (k0_t8_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v175 v176 v180) where
  inv := inv (tileThr d L) sB sT qP qT fb ft z 7#32 0
  step := fun k ⟨a0, a1, a2, a3, a4, a5⟩ =>
    trip k0_t8_abs.2.1 (tileThr d L) sB sT 𝒱₀ none Set.univ qP qT fb ft z 7#32 0 k a0 a1 a2 a3 a4 a5

@[sl_loop] def loopInv9 (fb : Buf (Elt F) (sA.view.loc (tileThr d L))) (v31 : FVec F S16 .f32) :
    TileLoop d L z k0_t9_loop k0_t9_ok
      (k0_t9_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sA sT qP qT fb ft z 8#32 0
  step := fun k ⟨a0, a1, a2, a3, a4, a5⟩ =>
    trip k0_t9_abs.2.1 (tileThr d L) sA sT 𝒱₀ none Set.univ qP qT fb ft z 8#32 0 k a0 a1 a2 a3 a4 a5

@[sl_loop] def loopInv10 (fb : Buf (Elt F) (sB.view.loc (tileThr d L))) (v31 : FVec F S16 .f32) :
    TileLoop d L z k0_t10_loop k0_t10_ok
      (k0_t10_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 9#32 0
  step := fun k ⟨a0, a1, a2, a3, a4, a5⟩ =>
    trip k0_t10_abs.2.1 (tileThr d L) sB sT 𝒱₀ none Set.univ qP qT fb ft z 9#32 0 k a0 a1 a2 a3 a4 a5

@[sl_loop] def loopInv11 (fb : Buf (Elt F) (sA.view.loc (tileThr d L))) (v31 : FVec F S16 .f32) (v240 : FVec F S16 .f32) (v241 : FVec F S16 .f32) (v242 : FVec F S16 .f32) :
    TileLoop d L z k0_t11_loop k0_t11_ok
      (k0_t11_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v240 v241 v242) where
  inv := inv (tileThr d L) sA sT qP qT fb ft z 10#32 0
  step := fun k ⟨a0, a1, a2, a3, a4, a5⟩ =>
    trip k0_t11_abs.2.1 (tileThr d L) sA sT 𝒱₀ none Set.univ qP qT fb ft z 10#32 0 k a0 a1 a2 a3 a4 a5

@[sl_loop] def loopInv12 (fb : Buf (Elt F) (sB.view.loc (tileThr d L))) (v31 : FVec F S16 .f32) :
    TileLoop d L z k0_t12_loop k0_t12_ok
      (k0_t12_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 11#32 0
  step := fun k ⟨a0, a1, a2, a3, a4, a5⟩ =>
    trip k0_t12_abs.2.1 (tileThr d L) sB sT 𝒱₀ none Set.univ qP qT fb ft z 11#32 0 k a0 a1 a2 a3 a4 a5

@[sl_loop] def loopInv13 (fb : Buf (Elt F) (sA.view.loc (tileThr d L))) (v31 : FVec F S16 .f32) (c0_i32_170 : BitVec 32) (c1_i32_172 : BitVec 32) :
    TileLoop d L z k0_t13_loop k0_t13_ok
      (k0_t13_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_170 c1_i32_172) where
  inv := inv (tileThr d L) sA sT qP qT fb ft z 12#32 0
  step := fun k ⟨a0, a1, a2, a3, a4, a5⟩ =>
    trip k0_t13_abs.2.1 (tileThr d L) sA sT 𝒱₀ none Set.univ qP qT fb ft z 12#32 0 k a0 a1 a2 a3 a4 a5

@[sl_loop] def loopInv14 (fb : Buf (Elt F) (sB.view.loc (tileThr d L))) (v31 : FVec F S16 .f32) (c0_i32_170 : BitVec 32) (c1_i32_172 : BitVec 32) :
    TileLoop d L z k0_t14_loop k0_t14_ok
      (k0_t14_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_170 c1_i32_172) where
  inv := inv (tileThr d L) sB sT qP qT fb ft z 13#32 0
  step := fun k ⟨a0, a1, a2, a3, a4, a5⟩ =>
    trip k0_t14_abs.2.1 (tileThr d L) sB sT 𝒱₀ none Set.univ qP qT fb ft z 13#32 0 k a0 a1 a2 a3 a4 a5

@[sl_loop] def loopInv15 (fb : Buf (Elt F) (sA.view.loc (tileThr d L))) (v31 : FVec F S16 .f32) (v330 : FVec F S16 .f32) :
    TileLoop d L z k0_t15_loop k0_t15_ok
      (k0_t15_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v330) where
  inv := inv (tileThr d L) sA sT qP qT fb ft z 14#32 0
  step := fun k ⟨a0, a1, a2, a3, a4, a5⟩ =>
    trip k0_t15_abs.2.1 (tileThr d L) sA sT 𝒱₀ none Set.univ qP qT fb ft z 14#32 0 k a0 a1 a2 a3 a4 a5

@[sl_loop] def loopInv16 (fb : Buf (Elt F) (sB.view.loc (tileThr d L))) (v31 : FVec F S16 .f32) :
    TileLoop d L z k0_t16_loop k0_t16_ok
      (k0_t16_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 15#32 0
  step := fun k ⟨a0, a1, a2, a3, a4, a5⟩ =>
    trip k0_t16_abs.2.1 (tileThr d L) sB sT 𝒱₀ none Set.univ qP qT fb ft z 15#32 0 k a0 a1 a2 a3 a4 a5

@[sl_loop] def loopInv17 (fb : Buf (Elt F) (sA.view.loc (tileThr d L))) (v31 : FVec F S16 .f32) :
    TileLoop d L z k0_t17_loop k0_t17_ok
      (k0_t17_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sA sT qP qT fb ft z 16#32 0
  step := fun k ⟨a0, a1, a2, a3, a4, a5⟩ =>
    trip k0_t17_abs.2.1 (tileThr d L) sA sT 𝒱₀ none Set.univ qP qT fb ft z 16#32 0 k a0 a1 a2 a3 a4 a5

@[sl_loop] def loopInv18 (fb : Buf (Elt F) (sB.view.loc (tileThr d L))) (v31 : FVec F S16 .f32) (v395 : FVec F S16 .f32) (v396 : FVec F S16 .f32) (v400 : Vec F S16 .f32) :
    TileLoop d L z k0_t18_loop k0_t18_ok
      (k0_t18_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v395 v396 v400) where
  inv := inv (tileThr d L) sB sT qP qT fb ft z 17#32 0
  step := fun k ⟨a0, a1, a2, a3, a4, a5⟩ =>
    trip k0_t18_abs.2.1 (tileThr d L) sB sT 𝒱₀ none Set.univ qP qT fb ft z 17#32 0 k a0 a1 a2 a3 a4 a5

@[sl_loop] def loopInv19 (fb : Buf (Elt F) (sA.view.loc (tileThr d L))) (v31 : FVec F S16 .f32) :
    TileLoop d L z k0_t19_loop k0_t19_ok
      (k0_t19_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sA sT qP qT fb ft z 18#32 0
  step := fun k ⟨a0, a1, a2, a3, a4, a5⟩ =>
    trip k0_t19_abs.2.1 (tileThr d L) sA sT 𝒱₀ none Set.univ qP qT fb ft z 18#32 0 k a0 a1 a2 a3 a4 a5

@[sl_loop] def loopInv20 (fb : Buf (Elt F) (sB.view.loc (tileThr d L))) (v31 : FVec F S16 .f32) :
    TileLoop d L z k0_t20_loop k0_t20_ok
      (k0_t20_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 0#32 16
  step := fun k ⟨a0, a1, a2, a3, a4, a5⟩ =>
    trip k0_t20_abs.2.1 (tileThr d L) sB sT 𝒱₀ none Set.univ qP qT fb ft z 0#32 16 k a0 a1 a2 a3 a4 a5

@[sl_loop] def loopInv21 (fb : Buf (Elt F) (sA.view.loc (tileThr d L))) (v31 : FVec F S16 .f32) (v460 : FVec F S16 .f32) (v461 : FVec F S16 .f32) (v462 : FVec F S16 .f32) :
    TileLoop d L z k0_t21_loop k0_t21_ok
      (k0_t21_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v460 v461 v462) where
  inv := inv (tileThr d L) sA sT qP qT fb ft z 1#32 16
  step := fun k ⟨a0, a1, a2, a3, a4, a5⟩ =>
    trip k0_t21_abs.2.1 (tileThr d L) sA sT 𝒱₀ none Set.univ qP qT fb ft z 1#32 16 k a0 a1 a2 a3 a4 a5

@[sl_loop] def loopInv22 (fb : Buf (Elt F) (sB.view.loc (tileThr d L))) (v31 : FVec F S16 .f32) :
    TileLoop d L z k0_t22_loop k0_t22_ok
      (k0_t22_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 2#32 16
  step := fun k ⟨a0, a1, a2, a3, a4, a5⟩ =>
    trip k0_t22_abs.2.1 (tileThr d L) sB sT 𝒱₀ none Set.univ qP qT fb ft z 2#32 16 k a0 a1 a2 a3 a4 a5

@[sl_loop] def loopInv23 (fb : Buf (Elt F) (sA.view.loc (tileThr d L))) (v31 : FVec F S16 .f32) (c0_i32_286 : BitVec 32) (c1_i32_288 : BitVec 32) :
    TileLoop d L z k0_t23_loop k0_t23_ok
      (k0_t23_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_286 c1_i32_288) where
  inv := inv (tileThr d L) sA sT qP qT fb ft z 3#32 16
  step := fun k ⟨a0, a1, a2, a3, a4, a5⟩ =>
    trip k0_t23_abs.2.1 (tileThr d L) sA sT 𝒱₀ none Set.univ qP qT fb ft z 3#32 16 k a0 a1 a2 a3 a4 a5

@[sl_loop] def loopInv24 (fb : Buf (Elt F) (sB.view.loc (tileThr d L))) (v31 : FVec F S16 .f32) (c0_i32_286 : BitVec 32) (c1_i32_288 : BitVec 32) :
    TileLoop d L z k0_t24_loop k0_t24_ok
      (k0_t24_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_286 c1_i32_288) where
  inv := inv (tileThr d L) sB sT qP qT fb ft z 4#32 16
  step := fun k ⟨a0, a1, a2, a3, a4, a5⟩ =>
    trip k0_t24_abs.2.1 (tileThr d L) sB sT 𝒱₀ none Set.univ qP qT fb ft z 4#32 16 k a0 a1 a2 a3 a4 a5

@[sl_loop] def loopInv25 (fb : Buf (Elt F) (sA.view.loc (tileThr d L))) (v31 : FVec F S16 .f32) (v550 : FVec F S16 .f32) :
    TileLoop d L z k0_t25_loop k0_t25_ok
      (k0_t25_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v550) where
  inv := inv (tileThr d L) sA sT qP qT fb ft z 5#32 16
  step := fun k ⟨a0, a1, a2, a3, a4, a5⟩ =>
    trip k0_t25_abs.2.1 (tileThr d L) sA sT 𝒱₀ none Set.univ qP qT fb ft z 5#32 16 k a0 a1 a2 a3 a4 a5

@[sl_loop] def loopInv26 (fb : Buf (Elt F) (sB.view.loc (tileThr d L))) (v31 : FVec F S16 .f32) :
    TileLoop d L z k0_t26_loop k0_t26_ok
      (k0_t26_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 6#32 16
  step := fun k ⟨a0, a1, a2, a3, a4, a5⟩ =>
    trip k0_t26_abs.2.1 (tileThr d L) sB sT 𝒱₀ none Set.univ qP qT fb ft z 6#32 16 k a0 a1 a2 a3 a4 a5

@[sl_loop] def loopInv27 (fb : Buf (Elt F) (sA.view.loc (tileThr d L))) (v31 : FVec F S16 .f32) :
    TileLoop d L z k0_t27_loop k0_t27_ok
      (k0_t27_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sA sT qP qT fb ft z 7#32 16
  step := fun k ⟨a0, a1, a2, a3, a4, a5⟩ =>
    trip k0_t27_abs.2.1 (tileThr d L) sA sT 𝒱₀ none Set.univ qP qT fb ft z 7#32 16 k a0 a1 a2 a3 a4 a5

@[sl_loop] def loopInv28 (fb : Buf (Elt F) (sB.view.loc (tileThr d L))) (v31 : FVec F S16 .f32) (v615 : FVec F S16 .f32) (v616 : FVec F S16 .f32) (v620 : Vec F S16 .f32) :
    TileLoop d L z k0_t28_loop k0_t28_ok
      (k0_t28_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v615 v616 v620) where
  inv := inv (tileThr d L) sB sT qP qT fb ft z 8#32 16
  step := fun k ⟨a0, a1, a2, a3, a4, a5⟩ =>
    trip k0_t28_abs.2.1 (tileThr d L) sB sT 𝒱₀ none Set.univ qP qT fb ft z 8#32 16 k a0 a1 a2 a3 a4 a5

@[sl_loop] def loopInv29 (fb : Buf (Elt F) (sA.view.loc (tileThr d L))) (v31 : FVec F S16 .f32) :
    TileLoop d L z k0_t29_loop k0_t29_ok
      (k0_t29_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sA sT qP qT fb ft z 9#32 16
  step := fun k ⟨a0, a1, a2, a3, a4, a5⟩ =>
    trip k0_t29_abs.2.1 (tileThr d L) sA sT 𝒱₀ none Set.univ qP qT fb ft z 9#32 16 k a0 a1 a2 a3 a4 a5

@[sl_loop] def loopInv30 (fb : Buf (Elt F) (sB.view.loc (tileThr d L))) (v31 : FVec F S16 .f32) :
    TileLoop d L z k0_t30_loop k0_t30_ok
      (k0_t30_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 10#32 16
  step := fun k ⟨a0, a1, a2, a3, a4, a5⟩ =>
    trip k0_t30_abs.2.1 (tileThr d L) sB sT 𝒱₀ none Set.univ qP qT fb ft z 10#32 16 k a0 a1 a2 a3 a4 a5

@[sl_loop] def loopInv31 (fb : Buf (Elt F) (sA.view.loc (tileThr d L))) (v31 : FVec F S16 .f32) (v680 : FVec F S16 .f32) (v681 : FVec F S16 .f32) (v682 : FVec F S16 .f32) :
    TileLoop d L z k0_t31_loop k0_t31_ok
      (k0_t31_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v680 v681 v682) where
  inv := inv (tileThr d L) sA sT qP qT fb ft z 11#32 16
  step := fun k ⟨a0, a1, a2, a3, a4, a5⟩ =>
    trip k0_t31_abs.2.1 (tileThr d L) sA sT 𝒱₀ none Set.univ qP qT fb ft z 11#32 16 k a0 a1 a2 a3 a4 a5

@[sl_loop] def loopInv32 (fb : Buf (Elt F) (sB.view.loc (tileThr d L))) (v31 : FVec F S16 .f32) :
    TileLoop d L z k0_t32_loop k0_t32_ok
      (k0_t32_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 12#32 16
  step := fun k ⟨a0, a1, a2, a3, a4, a5⟩ =>
    trip k0_t32_abs.2.1 (tileThr d L) sB sT 𝒱₀ none Set.univ qP qT fb ft z 12#32 16 k a0 a1 a2 a3 a4 a5

@[sl_loop] def loopInv33 (fb : Buf (Elt F) (sA.view.loc (tileThr d L))) (v31 : FVec F S16 .f32) (c0_i32_406 : BitVec 32) (c1_i32_408 : BitVec 32) :
    TileLoop d L z k0_t33_loop k0_t33_ok
      (k0_t33_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_406 c1_i32_408) where
  inv := inv (tileThr d L) sA sT qP qT fb ft z 13#32 16
  step := fun k ⟨a0, a1, a2, a3, a4, a5⟩ =>
    trip k0_t33_abs.2.1 (tileThr d L) sA sT 𝒱₀ none Set.univ qP qT fb ft z 13#32 16 k a0 a1 a2 a3 a4 a5

@[sl_loop] def loopInv34 (fb : Buf (Elt F) (sB.view.loc (tileThr d L))) (v31 : FVec F S16 .f32) (c0_i32_406 : BitVec 32) (c1_i32_408 : BitVec 32) :
    TileLoop d L z k0_t34_loop k0_t34_ok
      (k0_t34_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_406 c1_i32_408) where
  inv := inv (tileThr d L) sB sT qP qT fb ft z 14#32 16
  step := fun k ⟨a0, a1, a2, a3, a4, a5⟩ =>
    trip k0_t34_abs.2.1 (tileThr d L) sB sT 𝒱₀ none Set.univ qP qT fb ft z 14#32 16 k a0 a1 a2 a3 a4 a5

@[sl_loop] def loopInv35 (fb : Buf (Elt F) (sA.view.loc (tileThr d L))) (v31 : FVec F S16 .f32) (v770 : FVec F S16 .f32) :
    TileLoop d L z k0_t35_loop k0_t35_ok
      (k0_t35_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v770) where
  inv := inv (tileThr d L) sA sT qP qT fb ft z 15#32 16
  step := fun k ⟨a0, a1, a2, a3, a4, a5⟩ =>
    trip k0_t35_abs.2.1 (tileThr d L) sA sT 𝒱₀ none Set.univ qP qT fb ft z 15#32 16 k a0 a1 a2 a3 a4 a5

@[sl_loop] def loopInv36 (fb : Buf (Elt F) (sB.view.loc (tileThr d L))) (v31 : FVec F S16 .f32) :
    TileLoop d L z k0_t36_loop k0_t36_ok
      (k0_t36_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 16#32 16
  step := fun k ⟨a0, a1, a2, a3, a4, a5⟩ =>
    trip k0_t36_abs.2.1 (tileThr d L) sB sT 𝒱₀ none Set.univ qP qT fb ft z 16#32 16 k a0 a1 a2 a3 a4 a5

@[sl_loop] def loopInv37 (fb : Buf (Elt F) (sA.view.loc (tileThr d L))) (v31 : FVec F S16 .f32) :
    TileLoop d L z k0_t37_loop k0_t37_ok
      (k0_t37_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sA sT qP qT fb ft z 17#32 16
  step := fun k ⟨a0, a1, a2, a3, a4, a5⟩ =>
    trip k0_t37_abs.2.1 (tileThr d L) sA sT 𝒱₀ none Set.univ qP qT fb ft z 17#32 16 k a0 a1 a2 a3 a4 a5

@[sl_loop] def loopInv38 (fb : Buf (Elt F) (sB.view.loc (tileThr d L))) :
    TileLoop d L z k0_t38_loop k0_t38_ok
      (k0_t38_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7) where
  inv := inv (tileThr d L) sB sT qP qT fb ft z 18#32 16
  step := fun k ⟨a0, a1, a2, a3, a4, a5⟩ =>
    trip k0_t38_abs.2.1 (tileThr d L) sB sT 𝒱₀ none Set.univ qP qT fb ft z 18#32 16 k a0 a1 a2 a3 a4 a5

end Cert.KernelIdeal.ScLoop

end
-- ==== Proof.ScViews.lean ====
import proofs.«216000_g43989055045728_cont_8to1_b_1827_23_alg».proof.Proof.PayDefs
import proofs.«216000_g43989055045728_cont_8to1_b_1827_23_alg».proof.Proof.ScLoop
import Idealize.ShloMosaic.Lib.ValueLayout
import Idealize.ShloMosaic.Lib.Writes

noncomputable section

namespace Cert.KernelIdeal.ScViews

open Cert.KernelIdeal Cert.KernelIdeal.Gen Cert.KernelIdeal.PayDefs Cert.KernelIdeal.ScLoop
open Cert.SpecSC

open Idealize.ShloMosaic Idealize.ShloMosaic.ValueIdx

variable {F : FTy → Type}

theorem wid_lt (L : grid0.Coords) : widOf L < 32 := by
  have h0 : (L 0).val < 2 := (L 0).isLt
  have h1 : (L 1).val < 16 := (L 1).isLt
  show 2 * (L 1).val + (L 0).val < 32
  omega

theorem holdsP_of_off (L : grid0.Coords) (g : SP.Idx → F .f32) (off : Fin 4 → ℕ)
    (hinb : ∀ a, off a + S1x1x16x512.size a ≤ S8x19x512x512.size a) (b : Fin 8) (c : Fin 19)
    (hoff : off = ![b.val, c.val, 16 * widOf L, 0]) :
    HoldsP g (ReadAs.same.apply (View.read (Elt F)
      ((pV.slice (Rect.unit (s := S8x19x512x512) off S1x1x16x512.size hinb) (fun _ => rfl)).squeeze S16x512 squeezes_S1x1x16x512_S16x512).view g))
      b c (widOf L) := by
  intro r x
  have hw := wid_lt L
  rw [ReadAs.apply_same, View.read_apply]
  show g _ = g _
  congr 1
  funext a
  apply Fin.ext
  simp only [Memref.view_squeeze, Memref.view_slice, View.emb_reshape, View.emb_slice, Function.Embedding.trans_apply,
    Equiv.coe_toEmbedding]
  rw [reshapeEquiv_ix2_11ab]
  subst hoff
  revert a
  show ∀ a : Fin 4, _
  intro a
  fin_cases a
  · show b.val + 1 * 0 = b.val; omega
  · show c.val + 1 * 0 = c.val; omega
  · show 16 * widOf L + 1 * r.val = (16 * widOf L + r.val) % 512; omega
  · show 0 + 1 * x.val = x.val; omega

theorem readT_of_off (L : grid0.Coords) (g : ST.Idx → BitVec 32) (off : Fin 3 → ℕ)
    (hinb : ∀ a, off a + S1x16x512.size a ≤ S8x512x512.size a) (b : Fin 8)
    (hoff : off = ![b.val, 16 * widOf L, 0]) (r : Fin 16) (x : Fin 512) :
    ReadAs.same.apply (View.read (Elt F)
      ((tV.slice (Rect.unit (s := S8x512x512) off S1x16x512.size hinb) (fun _ => rfl)).squeeze S16x512 squeezes_S1x16x512_S16x512).view g)
      (ix2 r x) = g (ix3 b (fin512 (16 * widOf L + r.val)) x) := by
  have hw := wid_lt L
  rw [ReadAs.apply_same, View.read_apply]
  show g _ = g _
  congr 1
  funext a
  apply Fin.ext
  simp only [Memref.view_squeeze, Memref.view_slice, View.emb_reshape, View.emb_slice, Function.Embedding.trans_apply,
    Equiv.coe_toEmbedding]
  rw [reshapeEquiv_ix2_1ab]
  subst hoff
  revert a
  show ∀ a : Fin 3, _
  intro a
  fin_cases a
  · show b.val + 1 * 0 = b.val; omega
  · show 16 * widOf L + 1 * r.val = (16 * widOf L + r.val) % 512; omega
  · show 0 + 1 * x.val = x.val; omega

theorem read_sT_lo (f0 : sT.view.ty.Contents (Elt F)) (h16 : ∀ a, (![16, 0] : Fin 2 → ℕ) a + S16x512.size a ≤ S32x512.size a)
    (h0 : ∀ a, (![0, 0] : Fin 2 → ℕ) a + S16x512.size a ≤ S32x512.size a) (d1 d0 : S16x512.Idx → BitVec 32) (r : Fin 16) (x : Fin 512) :
    sT.view.read (Elt F) (sT.view.writes (Elt F) f0 [⟨Rect.unit (s := S32x512) ![16, 0] S16x512.size h16, d1⟩, ⟨Rect.unit (s := S32x512) ![0, 0] S16x512.size h0, d0⟩])
      (ix2 (fin32 (0 + r.val)) x) = d0 (ix2 r x) := by
  have hy : (ix2 (fin32 (0 + r.val)) x : S32x512.Idx) = (Rect.unit (s := S32x512) ![0, 0] S16x512.size h0).emb (ix2 r x) := by
    funext a; apply Fin.ext; revert a; show ∀ a : Fin 2, _; intro a; fin_cases a
    · show (0 + r.val) % 32 = 0 + 1 * r.val; have := r.isLt; omega
    · show x.val = 0 + 1 * x.val; omega
  rw [View.writes_cons, View.read_slice_write_of_not_mem _ _ _ _ (by
    rw [Rect.map_emb_univ, Rect.mem_set_unit]
    intro h
    have h' := (h (0 : Fin 2)).1
    have h'' : 16 ≤ (0 + r.val) % 32 := h'
    have := r.isLt
    omega), hy, View.read_writes_cons_emb]

theorem read_sT_hi (f0 : sT.view.ty.Contents (Elt F)) (h16 : ∀ a, (![16, 0] : Fin 2 → ℕ) a + S16x512.size a ≤ S32x512.size a)
    (h0 : ∀ a, (![0, 0] : Fin 2 → ℕ) a + S16x512.size a ≤ S32x512.size a) (d1 d0 : S16x512.Idx → BitVec 32) (r : Fin 16) (x : Fin 512) :
    sT.view.read (Elt F) (sT.view.writes (Elt F) f0 [⟨Rect.unit (s := S32x512) ![16, 0] S16x512.size h16, d1⟩, ⟨Rect.unit (s := S32x512) ![0, 0] S16x512.size h0, d0⟩])
      (ix2 (fin32 (16 + r.val)) x) = d1 (ix2 r x) := by
  have hy : (ix2 (fin32 (16 + r.val)) x : S32x512.Idx) = (Rect.unit (s := S32x512) ![16, 0] S16x512.size h16).emb (ix2 r x) := by
    funext a; apply Fin.ext; revert a; show ∀ a : Fin 2, _; intro a; fin_cases a
    · show (16 + r.val) % 32 = 16 + 1 * r.val; have := r.isLt; omega
    · show x.val = 0 + 1 * x.val; omega
  rw [hy, View.read_writes_cons_emb]

theorem holdsT_lo (L : grid0.Coords) (g : ST.Idx → BitVec 32) (f0 : sT.view.ty.Contents (Elt F)) (h16 h0)
    (off1 off2 : Fin 3 → ℕ) (hinb1 hinb2) (hoff1 : off1 = ![6, 16 * widOf L, 0]) :
    HoldsT g (sT.view.read (Elt F) (sT.view.writes (Elt F) f0
      [⟨Rect.unit (s := S32x512) ![16, 0] S16x512.size h16, ReadAs.same.apply (View.read (Elt F)
          ((tV.slice (Rect.unit (s := S8x512x512) off2 S1x16x512.size hinb2) (fun _ => rfl)).squeeze S16x512 squeezes_S1x16x512_S16x512).view g)⟩,
       ⟨Rect.unit (s := S32x512) ![0, 0] S16x512.size h0, ReadAs.same.apply (View.read (Elt F)
          ((tV.slice (Rect.unit (s := S8x512x512) off1 S1x16x512.size hinb1) (fun _ => rfl)).squeeze S16x512 squeezes_S1x16x512_S16x512).view g)⟩]))
      (6 : Fin 8) (widOf L) 0 := by
  intro r x
  rw [read_sT_lo]
  exact readT_of_off (F := F) L g off1 hinb1 6 hoff1 r x

theorem holdsT_hi (L : grid0.Coords) (g : ST.Idx → BitVec 32) (f0 : sT.view.ty.Contents (Elt F)) (h16 h0)
    (off1 off2 : Fin 3 → ℕ) (hinb1 hinb2) (hoff2 : off2 = ![7, 16 * widOf L, 0]) :
    HoldsT g (sT.view.read (Elt F) (sT.view.writes (Elt F) f0
      [⟨Rect.unit (s := S32x512) ![16, 0] S16x512.size h16, ReadAs.same.apply (View.read (Elt F)
          ((tV.slice (Rect.unit (s := S8x512x512) off2 S1x16x512.size hinb2) (fun _ => rfl)).squeeze S16x512 squeezes_S1x16x512_S16x512).view g)⟩,
       ⟨Rect.unit (s := S32x512) ![0, 0] S16x512.size h0, ReadAs.same.apply (View.read (Elt F)
          ((tV.slice (Rect.unit (s := S8x512x512) off1 S1x16x512.size hinb1) (fun _ => rfl)).squeeze S16x512 squeezes_S1x16x512_S16x512).view g)⟩]))
      (7 : Fin 8) (widOf L) 16 := by
  intro r x
  rw [read_sT_hi]
  exact readT_of_off (F := F) L g off2 hinb2 7 hoff2 r x

theorem off_wid (L : grid0.Coords) : 32 * (L 1).val + 16 * (L 0).val = 16 * widOf L := by
  show 32 * (L 1).val + 16 * (L 0).val = 16 * (2 * (L 1).val + (L 0).val); omega

end Cert.KernelIdeal.ScViews

end
-- ==== Proof.ScVal.lean ====
import proofs.«216000_g43989055045728_cont_8to1_b_1827_23_alg».proof.Proof.SpecSC
import proofs.«216000_g43989055045728_cont_8to1_b_1827_23_alg».proof.Proof.ScLoop
import proofs.«216000_g43989055045728_cont_8to1_b_1827_23_alg».proof.Proof.PayDefs
import Idealize.ShloMosaic.Lib.Writes
import Idealize.ShloMosaic.Lib.ValueIdx

noncomputable section

namespace Cert.KernelIdeal.ScVal

open Cert.KernelIdeal Cert.KernelIdeal.Gen Cert.KernelIdeal.PayDefs
open Cert.SpecSC
open Cert.KernelIdeal.ScLoop (Acc sum_cast_lane)
open Idealize.ShloMosaic Idealize.ShloMosaic.ValueIdx

variable {F : FTy → Type} [FloatOps F]

theorem inb16 (n : Nat) (h : n + 16 ≤ 1920) : ∀ a, (![n] : Fin 1 → Nat) a + S16.size a ≤ S1920.size a :=
  Rect.inb₁ (d := ![1920]) (off := ![n]) (size := ![16]) h

def piece (n : Nat) (h : n + 16 ≤ 1920) (x y : FVec F S16 .f32) : View.Piece (Elt F) S1920 .f32 :=
  ⟨Rect.unit (s := S1920) ![n] S16.size (inb16 n h), shapeCast S16 (addf x y) shapeCasts_S16_S16⟩

def pieces3 (j : Nat) (hj : j < 38) (a : Acc F) : List (View.Piece (Elt F) S1920 .f32) :=
  [piece ((80 + j) * 16) (by omega) a.2.2.1 a.2.2.2.2.2, piece ((40 + j) * 16) (by omega) a.2.1 a.2.2.2.2.1,
    piece (j * 16) (by omega) a.1 a.2.2.2.1]

def storeListTo (A : Fin 38 → Acc F) : (n : Nat) → n ≤ 38 → List (View.Piece (Elt F) S1920 .f32)
  | 0, _ => []
  | n + 1, h => pieces3 n h (A ⟨n, h⟩) ++ storeListTo A n (Nat.le_of_succ_le h)

def storeList (A : Fin 38 → Acc F) : List (View.Piece (Elt F) S1920 .f32) := storeListTo A 38 (Nat.le_refl _)

def laneSum (k : Nat) (a : Acc F) (l : Fin 16) : F .f32 :=
  match k with
  | 0 => FloatOps.addf (a.1 (ix1 l)) (a.2.2.2.1 (ix1 l))
  | 1 => FloatOps.addf (a.2.1 (ix1 l)) (a.2.2.2.2.1 (ix1 l))
  | _ => FloatOps.addf (a.2.2.1 (ix1 l)) (a.2.2.2.2.2 (ix1 l))

def resAt (A : Fin 38 → Acc F) (y : S1920.Idx) : F .f32 :=
  if h : ((y 0).val / 16) % 40 < 38 then
    laneSum ((y 0).val / 640) (A ⟨((y 0).val / 16) % 40, h⟩) ⟨(y 0).val % 16, Nat.mod_lt _ (by decide)⟩
  else zeroF

theorem mem_storeListTo (A : Fin 38 → Acc F) : ∀ (n : Nat) (hn : n ≤ 38) (p : View.Piece (Elt F) S1920 .f32), p ∈ storeListTo A n hn →
    ∃ (j : Nat) (hj : j < 38), j < n ∧ (p = piece (j * 16) (by omega) (A ⟨j, hj⟩).1 (A ⟨j, hj⟩).2.2.2.1
      ∨ p = piece ((40 + j) * 16) (by omega) (A ⟨j, hj⟩).2.1 (A ⟨j, hj⟩).2.2.2.2.1
      ∨ p = piece ((80 + j) * 16) (by omega) (A ⟨j, hj⟩).2.2.1 (A ⟨j, hj⟩).2.2.2.2.2)
  | 0, _, p, hp => absurd hp List.not_mem_nil
  | n + 1, hn, p, hp => by
    rw [storeListTo, List.mem_append] at hp
    rcases hp with hp | hp
    · refine ⟨n, hn, Nat.lt_succ_self n, ?_⟩
      simp only [pieces3, List.mem_cons, List.not_mem_nil, or_false] at hp
      rcases hp with rfl | rfl | rfl
      · exact Or.inr (Or.inr rfl)
      · exact Or.inr (Or.inl rfl)
      · exact Or.inl rfl
    · obtain ⟨j, hj, hjn, h⟩ := mem_storeListTo A n (Nat.le_of_succ_le hn) p hp
      exact ⟨j, hj, Nat.lt_succ_of_lt hjn, h⟩

theorem resAt_apply (A : Fin 38 → Acc F) (k j : Nat) (hk : k < 3) (hj : j < 38) (l : Fin 16) (y : S1920.Idx)
    (hy : (y 0).val = (k * 40 + j) * 16 + l.val) : resAt A y = laneSum k (A ⟨j, hj⟩) l := by
  have hq : ((k * 40 + j) * 16 + l.val) / 16 % 40 = j := by omega
  have hk' : ((k * 40 + j) * 16 + l.val) / 640 = k := by omega
  have hl : ((k * 40 + j) * 16 + l.val) % 16 = l.val := by omega
  have hq' : ((y 0).val / 16) % 40 = j := by rw [hy]; exact hq
  have hk'' : (y 0).val / 640 = k := by rw [hy]; exact hk'
  have hl' : (y 0).val % 16 = l.val := by rw [hy]; exact hl
  unfold resAt
  rw [dif_pos (by rw [hq']; exact hj)]
  have e1 : (⟨((y 0).val / 16) % 40, by rw [hq']; exact hj⟩ : Fin 38) = ⟨j, hj⟩ := Fin.ext hq'
  have e2 : (⟨(y 0).val % 16, Nat.mod_lt _ (by decide)⟩ : Fin 16) = l := Fin.ext hl'
  rw [e1, e2, hk'']

theorem piece_eq_resAt (A : Fin 38 → Acc F) (k j : Nat) (hk : k < 3) (hj : j < 38) (n : Nat) (hn : n = (k * 40 + j) * 16)
    (h16 : n + 16 ≤ 1920) (x y : FVec F S16 .f32)
    (hxy : ∀ l : Fin 16, FloatOps.addf (x (ix1 l)) (y (ix1 l)) = laneSum k (A ⟨j, hj⟩) l)
    (i : (piece (F := F) n h16 x y).1.shape.Idx) :
    (piece n h16 x y).2 i = resAt A ((piece (F := F) n h16 x y).1.emb i) := by
  subst hn
  obtain ⟨l, rfl⟩ : ∃ l : Fin 16, i = ix1 l := ⟨i 0, eq_ix1 i⟩
  rw [resAt_apply A k j hk hj l _ (by show (k * 40 + j) * 16 + 1 * l.val = _; omega)]
  show shapeCast S16 (addf x y) shapeCasts_S16_S16 (ix1 l) = _
  rw [sum_cast_lane, hxy]

theorem storeList_pieces (A : Fin 38 → Acc F) :
    ∀ p ∈ storeList A, ∀ x : p.1.shape.Idx, p.2 x = resAt A (p.1.emb x) := by
  intro p hp
  obtain ⟨j, hj, _, h | h | h⟩ := mem_storeListTo A 38 (Nat.le_refl _) p hp
  · subst h; exact piece_eq_resAt A 0 j (by decide) hj _ (by omega) _ _ _ (fun _ => rfl)
  · subst h; exact piece_eq_resAt A 1 j (by decide) hj _ (by omega) _ _ _ (fun _ => rfl)
  · subst h; exact piece_eq_resAt A 2 j (by decide) hj _ (by omega) _ _ _ (fun _ => rfl)

theorem pieces3_mem (A : Fin 38 → Acc F) : ∀ (n : Nat) (hn : n ≤ 38) (j : Nat) (hj : j < 38), j < n →
    ∀ p ∈ pieces3 j hj (A ⟨j, hj⟩), p ∈ storeListTo A n hn
  | 0, _, _, _, h, _, _ => absurd h (Nat.not_lt_zero _)
  | n + 1, hn, j, hj, h, p, hp => by
    rw [storeListTo, List.mem_append]
    rcases Nat.lt_succ_iff_lt_or_eq.mp h with h' | rfl
    · exact Or.inr (pieces3_mem A n (Nat.le_of_succ_le hn) j hj h' p hp)
    · exact Or.inl hp

theorem read_stores (A : Fin 38 → Acc F) (fR : sR.view.ty.Contents (Elt F)) (k j : Nat) (hk : k < 3) (hj : j < 38) (l : Fin 16)
    (h : (k * 40 + j) * 16 + l.val < 1920) :
    sR.view.read (Elt F) (sR.view.writes (Elt F) fR (storeList A)) (ix1 ⟨(k * 40 + j) * 16 + l.val, h⟩)
      = laneSum k (A ⟨j, hj⟩) l := by
  rw [View.read_writes_apply_of_pieces sR.view fR (resAt A) (storeList A) (storeList_pieces A) _ ?_]
  · exact resAt_apply A k j hk hj l _ rfl
  · have hl := l.isLt
    have hm : ∀ (n : Nat) (h16 : n + 16 ≤ 1920) (x y : FVec F S16 .f32), n = (k * 40 + j) * 16 → piece n h16 x y ∈ pieces3 j hj (A ⟨j, hj⟩) →
        ∃ p ∈ storeList A, (ix1 ⟨(k * 40 + j) * 16 + l.val, h⟩ : S1920.Idx) ∈ p.1.set := by
      intro n h16 x y hn hp
      refine ⟨_, pieces3_mem A 38 (Nat.le_refl _) j hj hj _ hp, ?_⟩
      show (ix1 ⟨(k * 40 + j) * 16 + l.val, h⟩ : S1920.Idx) ∈ (Rect.unit (s := S1920) ![n] S16.size (inb16 n h16)).set
      refine Rect.mem_set_unit.mpr fun a => ?_
      obtain rfl : a = 0 := Subsingleton.elim _ _
      show n ≤ (k * 40 + j) * 16 + l.val ∧ (k * 40 + j) * 16 + l.val < n + 16
      omega
    have hk3 : k = 0 ∨ k = 1 ∨ k = 2 := by omega
    rcases hk3 with rfl | rfl | rfl
    · exact hm (j * 16) (by omega) (A ⟨j, hj⟩).1 (A ⟨j, hj⟩).2.2.2.1 (by omega)
        (List.mem_cons_of_mem _ (List.mem_cons_of_mem _ List.mem_cons_self))
    · exact hm ((40 + j) * 16) (by omega) (A ⟨j, hj⟩).2.1 (A ⟨j, hj⟩).2.2.2.2.1 (by omega)
        (List.mem_cons_of_mem _ List.mem_cons_self)
    · exact hm ((80 + j) * 16) (by omega) (A ⟨j, hj⟩).2.2.1 (A ⟨j, hj⟩).2.2.2.2.2 (by omega) List.mem_cons_self

theorem widOf_lt (L : grid0.Coords) : widOf L < 32 := by
  have h0 : (L 0).val < 2 := (L 0).isLt
  have h1 : (L 1).val < 16 := (L 1).isLt
  show 2 * (L 1).val + (L 0).val < 32
  omega

set_option maxHeartbeats 2000000 in

theorem out_apply (L : grid0.Coords) (o0 : (oSl L).view.ty.Contents (Elt F)) (fR : sR.view.ty.Contents (Elt F)) (A : Fin 38 → Acc F)
    (k : Nat) (hk : k < 3) (j : Fin 38) (l : Fin 16) :
    (oSl L).view.writes (Elt F) o0 [⟨Rect.whole S1920, ReadAs.same.apply (sR.view.read (Elt F) (sR.view.writes (Elt F) fR (storeList A)))⟩]
        (ix1 (fin61440 (widOf L * 1920 + (k * 40 + j.val) * 16 + l.val)))
      = laneSum k (A j) l := by
  have hw := widOf_lt L
  have hj := j.isLt
  have hl := l.isLt
  have h : (k * 40 + j.val) * 16 + l.val < 1920 := by omega
  have hidx : (ix1 (fin61440 (widOf L * 1920 + (k * 40 + j.val) * 16 + l.val)) : S61440.Idx)
      = (oSl L).view.emb ((Rect.whole S1920).emb (ix1 ⟨(k * 40 + j.val) * 16 + l.val, h⟩)) := by
    funext a
    obtain rfl : a = 0 := Subsingleton.elim _ _
    refine Fin.ext ?_
    show (widOf L * 1920 + (k * 40 + j.val) * 16 + l.val) % 61440 = k0_off193 L 0 + 1 * (0 + 1 * ((k * 40 + j.val) * 16 + l.val))
    rw [k0_off193_eq]
    show _ = 3840 * (L 1).val + 1920 * (L 0).val + _
    have : widOf L = 2 * (L 1).val + (L 0).val := rfl
    omega
  rw [hidx]
  show (oSl L).view.read (Elt F) ((oSl L).view.writes (Elt F) o0 [⟨Rect.whole S1920, _⟩]) ((Rect.whole S1920).emb _) = _
  rw [View.read_writes_cons_emb]
  exact read_stores A fR k j.val hk j.isLt l h

set_option maxHeartbeats 2000000 in

theorem tileSpec_of_stores (L : grid0.Coords) (P : SP.Idx → F .f32) (T : ST.Idx → BitVec 32)
    (o0 : (oSl L).view.ty.Contents (Elt F)) (fR : sR.view.ty.Contents (Elt F)) (A : Fin 38 → Acc F)
    (hA : ∀ (j : Fin 38) (l : Fin 16),
      FloatOps.addf ((A j).1 (ix1 l)) ((A j).2.2.2.1 (ix1 l)) = tileNom P T (pairB j) (pairC j) (widOf L) l.val
      ∧ FloatOps.addf ((A j).2.1 (ix1 l)) ((A j).2.2.2.2.1 (ix1 l)) = tileIsum P (pairB j) (pairC j) (widOf L) l.val
      ∧ FloatOps.addf ((A j).2.2.1 (ix1 l)) ((A j).2.2.2.2.2 (ix1 l)) = tileTsum (F := F) T (pairB j) (pairC j) (widOf L) l.val) :
    TileSpec P T (widOf L) ((oSl L).view.writes (Elt F) o0
      [⟨Rect.whole S1920, ReadAs.same.apply (sR.view.read (Elt F) (sR.view.writes (Elt F) fR (storeList A)))⟩]) := by
  intro j l
  exact ⟨(out_apply L o0 fR A 0 (by decide) j l).trans (hA j l).1, (out_apply L o0 fR A 1 (by decide) j l).trans (hA j l).2.1,
    (out_apply L o0 fR A 2 (by decide) j l).trans (hA j l).2.2⟩

end Cert.KernelIdeal.ScVal

end
-- ==== Proof.ScStores.lean ====
/-
  The tile's 114 sixteen-lane stores into its result scratch, as the body makes them (the last one first), and the one
  copy of the scratch into the tile's slice of the partial sums: once every pair's carried vectors add up, lane by
  lane, to the tile's three sums of the pair, the slice meets the tile's specification.
-/
import proofs.«216000_g43989055045728_cont_8to1_b_1827_23_alg».proof.Proof.ScVal
import proofs.«216000_g43989055045728_cont_8to1_b_1827_23_alg».proof.Proof.Gen.KernelIdeal.Skeleton

set_option maxRecDepth 65536

noncomputable section

namespace Cert.KernelIdeal.ScStores

open Cert.KernelIdeal Cert.KernelIdeal.Gen Cert.KernelIdeal.PayDefs Cert.KernelIdeal.ScLoop Cert.KernelIdeal.ScVal
open Cert.SpecSC

open Idealize.ShloMosaic Idealize.ShloMosaic.ValueIdx

variable {F : FTy → Type} [FloatOps F]

/-- A pair's six carried vectors add up, lane by lane, to the tile's three sums of the pair (b, c). -/
def Sums (P : SP.Idx → F .f32) (T : ST.Idx → BitVec 32) (wid : ℕ) (b : Fin 8) (c : Fin 19) (a : Acc F) : Prop :=
  ∀ l : Fin 16,
    FloatOps.addf (a.1 (ix1 l)) (a.2.2.2.1 (ix1 l)) = tileNom P T b c wid l.val
    ∧ FloatOps.addf (a.2.1 (ix1 l)) (a.2.2.2.2.1 (ix1 l)) = tileIsum P b c wid l.val
    ∧ FloatOps.addf (a.2.2.1 (ix1 l)) (a.2.2.2.2.2 (ix1 l)) = tileTsum (F := F) T b c wid l.val

theorem tileSpec_of_run (L : grid0.Coords) (P : SP.Idx → F .f32) (T : ST.Idx → BitVec 32)
    (o0 : (oSl L).view.ty.Contents (Elt F)) (fR : sR.view.ty.Contents (Elt F))
    (a1 a2 a3 a4 a5 a6 a7 a8 a9 a10 a11 a12 a13 a14 a15 a16 a17 a18 a19 a20 a21 a22 a23 a24 a25 a26 a27 a28 a29 a30 a31 a32 a33 a34 a35 a36 a37 a38 : Acc F)
    (h1 : Sums P T (widOf L) 6 0 a1)
    (h2 : Sums P T (widOf L) 6 1 a2)
    (h3 : Sums P T (widOf L) 6 2 a3)
    (h4 : Sums P T (widOf L) 6 3 a4)
    (h5 : Sums P T (widOf L) 6 4 a5)
    (h6 : Sums P T (widOf L) 6 5 a6)
    (h7 : Sums P T (widOf L) 6 6 a7)
    (h8 : Sums P T (widOf L) 6 7 a8)
    (h9 : Sums P T (widOf L) 6 8 a9)
    (h10 : Sums P T (widOf L) 6 9 a10)
    (h11 : Sums P T (widOf L) 6 10 a11)
    (h12 : Sums P T (widOf L) 6 11 a12)
    (h13 : Sums P T (widOf L) 6 12 a13)
    (h14 : Sums P T (widOf L) 6 13 a14)
    (h15 : Sums P T (widOf L) 6 14 a15)
    (h16 : Sums P T (widOf L) 6 15 a16)
    (h17 : Sums P T (widOf L) 6 16 a17)
    (h18 : Sums P T (widOf L) 6 17 a18)
    (h19 : Sums P T (widOf L) 6 18 a19)
    (h20 : Sums P T (widOf L) 7 0 a20)
    (h21 : Sums P T (widOf L) 7 1 a21)
    (h22 : Sums P T (widOf L) 7 2 a22)
    (h23 : Sums P T (widOf L) 7 3 a23)
    (h24 : Sums P T (widOf L) 7 4 a24)
    (h25 : Sums P T (widOf L) 7 5 a25)
    (h26 : Sums P T (widOf L) 7 6 a26)
    (h27 : Sums P T (widOf L) 7 7 a27)
    (h28 : Sums P T (widOf L) 7 8 a28)
    (h29 : Sums P T (widOf L) 7 9 a29)
    (h30 : Sums P T (widOf L) 7 10 a30)
    (h31 : Sums P T (widOf L) 7 11 a31)
    (h32 : Sums P T (widOf L) 7 12 a32)
    (h33 : Sums P T (widOf L) 7 13 a33)
    (h34 : Sums P T (widOf L) 7 14 a34)
    (h35 : Sums P T (widOf L) 7 15 a35)
    (h36 : Sums P T (widOf L) 7 16 a36)
    (h37 : Sums P T (widOf L) 7 17 a37)
    (h38 : Sums P T (widOf L) 7 18 a38) :
    TileSpec P T (widOf L) ((oSl L).view.writes (Elt F) o0
      [⟨Rect.whole S1920, ReadAs.same.apply (View.read (Elt F) sR.view ((Memref.whole cc0_scratch3).view.writes (Elt F) fR [
        ⟨Rect.unit (s := S1920) ![1872] S16.size inb_S1920_S16_1872, k0_pay2 (k0_pay517 a38.2.2.1 a38.2.2.2.2.2)⟩,
        ⟨Rect.unit (s := S1920) ![1232] S16.size inb_S1920_S16_1232, k0_pay1 (k0_pay516 a38.2.1 a38.2.2.2.2.1)⟩,
        ⟨Rect.unit (s := S1920) ![592] S16.size inb_S1920_S16_592, k0_pay518 a38.1 a38.2.2.2.1⟩,
        ⟨Rect.unit (s := S1920) ![1856] S16.size inb_S1920_S16_1856, k0_pay505 (k0_pay502 a37.2.2.1 a37.2.2.2.2.2)⟩,
        ⟨Rect.unit (s := S1920) ![1216] S16.size inb_S1920_S16_1216, k0_pay504 (k0_pay501 a37.2.1 a37.2.2.2.2.1)⟩,
        ⟨Rect.unit (s := S1920) ![576] S16.size inb_S1920_S16_576, k0_pay503 a37.1 a37.2.2.2.1⟩,
        ⟨Rect.unit (s := S1920) ![1840] S16.size inb_S1920_S16_1840, k0_pay490 a36.2.2.1 a36.2.2.2.2.2⟩,
        ⟨Rect.unit (s := S1920) ![1200] S16.size inb_S1920_S16_1200, k0_pay489 a36.2.1 a36.2.2.2.2.1⟩,
        ⟨Rect.unit (s := S1920) ![560] S16.size inb_S1920_S16_560, k0_pay488 a36.1 a36.2.2.2.1⟩,
        ⟨Rect.unit (s := S1920) ![1824] S16.size inb_S1920_S16_1824, k0_pay477 a35.2.2.1 a35.2.2.2.2.2⟩,
        ⟨Rect.unit (s := S1920) ![1184] S16.size inb_S1920_S16_1184, k0_pay476 a35.2.1 a35.2.2.2.2.1⟩,
        ⟨Rect.unit (s := S1920) ![544] S16.size inb_S1920_S16_544, k0_pay475 a35.1 a35.2.2.2.1⟩,
        ⟨Rect.unit (s := S1920) ![1808] S16.size inb_S1920_S16_1808, k0_pay464 (k0_pay461 a34.2.2.1 a34.2.2.2.2.2)⟩,
        ⟨Rect.unit (s := S1920) ![1168] S16.size inb_S1920_S16_1168, k0_pay463 a34.2.1 a34.2.2.2.2.1⟩,
        ⟨Rect.unit (s := S1920) ![528] S16.size inb_S1920_S16_528, k0_pay462 a34.1 a34.2.2.2.1⟩,
        ⟨Rect.unit (s := S1920) ![1792] S16.size inb_S1920_S16_1792, k0_pay450 a33.2.2.1 a33.2.2.2.2.2⟩,
        ⟨Rect.unit (s := S1920) ![1152] S16.size inb_S1920_S16_1152, k0_pay449 a33.2.1 a33.2.2.2.2.1⟩,
        ⟨Rect.unit (s := S1920) ![512] S16.size inb_S1920_S16_512, k0_pay448 a33.1 a33.2.2.2.1⟩,
        ⟨Rect.unit (s := S1920) ![1776] S16.size inb_S1920_S16_1776, k0_pay437 a32.2.2.1 a32.2.2.2.2.2⟩,
        ⟨Rect.unit (s := S1920) ![1136] S16.size inb_S1920_S16_1136, k0_pay436 a32.2.1 a32.2.2.2.2.1⟩,
        ⟨Rect.unit (s := S1920) ![496] S16.size inb_S1920_S16_496, k0_pay435 a32.1 a32.2.2.2.1⟩,
        ⟨Rect.unit (s := S1920) ![1760] S16.size inb_S1920_S16_1760, k0_pay424 a31.2.2.1 a31.2.2.2.2.2⟩,
        ⟨Rect.unit (s := S1920) ![1120] S16.size inb_S1920_S16_1120, k0_pay423 a31.2.1 a31.2.2.2.2.1⟩,
        ⟨Rect.unit (s := S1920) ![480] S16.size inb_S1920_S16_480, k0_pay422 a31.1 a31.2.2.2.1⟩,
        ⟨Rect.unit (s := S1920) ![1744] S16.size inb_S1920_S16_1744, k0_pay411 (k0_pay408 a30.2.2.1 a30.2.2.2.2.2)⟩,
        ⟨Rect.unit (s := S1920) ![1104] S16.size inb_S1920_S16_1104, k0_pay410 (k0_pay407 a30.2.1 a30.2.2.2.2.1)⟩,
        ⟨Rect.unit (s := S1920) ![464] S16.size inb_S1920_S16_464, k0_pay409 (k0_pay406 a30.1 a30.2.2.2.1)⟩,
        ⟨Rect.unit (s := S1920) ![1728] S16.size inb_S1920_S16_1728, k0_pay395 a29.2.2.1 a29.2.2.2.2.2⟩,
        ⟨Rect.unit (s := S1920) ![1088] S16.size inb_S1920_S16_1088, k0_pay394 a29.2.1 a29.2.2.2.2.1⟩,
        ⟨Rect.unit (s := S1920) ![448] S16.size inb_S1920_S16_448, k0_pay393 a29.1 a29.2.2.2.1⟩,
        ⟨Rect.unit (s := S1920) ![1712] S16.size inb_S1920_S16_1712, k0_pay382 a28.2.2.1 a28.2.2.2.2.2⟩,
        ⟨Rect.unit (s := S1920) ![1072] S16.size inb_S1920_S16_1072, k0_pay381 a28.2.1 a28.2.2.2.2.1⟩,
        ⟨Rect.unit (s := S1920) ![432] S16.size inb_S1920_S16_432, k0_pay380 a28.1 a28.2.2.2.1⟩,
        ⟨Rect.unit (s := S1920) ![1696] S16.size inb_S1920_S16_1696, k0_pay369 (k0_pay366 a27.2.2.1 a27.2.2.2.2.2)⟩,
        ⟨Rect.unit (s := S1920) ![1056] S16.size inb_S1920_S16_1056, k0_pay368 (k0_pay365 a27.2.1 a27.2.2.2.2.1)⟩,
        ⟨Rect.unit (s := S1920) ![416] S16.size inb_S1920_S16_416, k0_pay367 a27.1 a27.2.2.2.1⟩,
        ⟨Rect.unit (s := S1920) ![1680] S16.size inb_S1920_S16_1680, k0_pay354 a26.2.2.1 a26.2.2.2.2.2⟩,
        ⟨Rect.unit (s := S1920) ![1040] S16.size inb_S1920_S16_1040, k0_pay353 a26.2.1 a26.2.2.2.2.1⟩,
        ⟨Rect.unit (s := S1920) ![400] S16.size inb_S1920_S16_400, k0_pay352 a26.1 a26.2.2.2.1⟩,
        ⟨Rect.unit (s := S1920) ![1664] S16.size inb_S1920_S16_1664, k0_pay341 a25.2.2.1 a25.2.2.2.2.2⟩,
        ⟨Rect.unit (s := S1920) ![1024] S16.size inb_S1920_S16_1024, k0_pay340 a25.2.1 a25.2.2.2.2.1⟩,
        ⟨Rect.unit (s := S1920) ![384] S16.size inb_S1920_S16_384, k0_pay339 a25.1 a25.2.2.2.1⟩,
        ⟨Rect.unit (s := S1920) ![1648] S16.size inb_S1920_S16_1648, k0_pay328 (k0_pay325 a24.2.2.1 a24.2.2.2.2.2)⟩,
        ⟨Rect.unit (s := S1920) ![1008] S16.size inb_S1920_S16_1008, k0_pay327 a24.2.1 a24.2.2.2.2.1⟩,
        ⟨Rect.unit (s := S1920) ![368] S16.size inb_S1920_S16_368, k0_pay326 a24.1 a24.2.2.2.1⟩,
        ⟨Rect.unit (s := S1920) ![1632] S16.size inb_S1920_S16_1632, k0_pay314 a23.2.2.1 a23.2.2.2.2.2⟩,
        ⟨Rect.unit (s := S1920) ![992] S16.size inb_S1920_S16_992, k0_pay313 a23.2.1 a23.2.2.2.2.1⟩,
        ⟨Rect.unit (s := S1920) ![352] S16.size inb_S1920_S16_352, k0_pay312 a23.1 a23.2.2.2.1⟩,
        ⟨Rect.unit (s := S1920) ![1616] S16.size inb_S1920_S16_1616, k0_pay301 a22.2.2.1 a22.2.2.2.2.2⟩,
        ⟨Rect.unit (s := S1920) ![976] S16.size inb_S1920_S16_976, k0_pay300 a22.2.1 a22.2.2.2.2.1⟩,
        ⟨Rect.unit (s := S1920) ![336] S16.size inb_S1920_S16_336, k0_pay299 a22.1 a22.2.2.2.1⟩,
        ⟨Rect.unit (s := S1920) ![1600] S16.size inb_S1920_S16_1600, k0_pay288 a21.2.2.1 a21.2.2.2.2.2⟩,
        ⟨Rect.unit (s := S1920) ![960] S16.size inb_S1920_S16_960, k0_pay287 a21.2.1 a21.2.2.2.2.1⟩,
        ⟨Rect.unit (s := S1920) ![320] S16.size inb_S1920_S16_320, k0_pay286 a21.1 a21.2.2.2.1⟩,
        ⟨Rect.unit (s := S1920) ![1584] S16.size inb_S1920_S16_1584, k0_pay275 (k0_pay272 a20.2.2.1 a20.2.2.2.2.2)⟩,
        ⟨Rect.unit (s := S1920) ![944] S16.size inb_S1920_S16_944, k0_pay274 (k0_pay271 a20.2.1 a20.2.2.2.2.1)⟩,
        ⟨Rect.unit (s := S1920) ![304] S16.size inb_S1920_S16_304, k0_pay273 (k0_pay270 a20.1 a20.2.2.2.1)⟩,
        ⟨Rect.unit (s := S1920) ![1568] S16.size inb_S1920_S16_1568, k0_pay259 a19.2.2.1 a19.2.2.2.2.2⟩,
        ⟨Rect.unit (s := S1920) ![928] S16.size inb_S1920_S16_928, k0_pay258 a19.2.1 a19.2.2.2.2.1⟩,
        ⟨Rect.unit (s := S1920) ![288] S16.size inb_S1920_S16_288, k0_pay257 a19.1 a19.2.2.2.1⟩,
        ⟨Rect.unit (s := S1920) ![1552] S16.size inb_S1920_S16_1552, k0_pay246 a18.2.2.1 a18.2.2.2.2.2⟩,
        ⟨Rect.unit (s := S1920) ![912] S16.size inb_S1920_S16_912, k0_pay245 a18.2.1 a18.2.2.2.2.1⟩,
        ⟨Rect.unit (s := S1920) ![272] S16.size inb_S1920_S16_272, k0_pay244 a18.1 a18.2.2.2.1⟩,
        ⟨Rect.unit (s := S1920) ![1536] S16.size inb_S1920_S16_1536, k0_pay233 (k0_pay230 a17.2.2.1 a17.2.2.2.2.2)⟩,
        ⟨Rect.unit (s := S1920) ![896] S16.size inb_S1920_S16_896, k0_pay232 (k0_pay229 a17.2.1 a17.2.2.2.2.1)⟩,
        ⟨Rect.unit (s := S1920) ![256] S16.size inb_S1920_S16_256, k0_pay231 a17.1 a17.2.2.2.1⟩,
        ⟨Rect.unit (s := S1920) ![1520] S16.size inb_S1920_S16_1520, k0_pay218 a16.2.2.1 a16.2.2.2.2.2⟩,
        ⟨Rect.unit (s := S1920) ![880] S16.size inb_S1920_S16_880, k0_pay217 a16.2.1 a16.2.2.2.2.1⟩,
        ⟨Rect.unit (s := S1920) ![240] S16.size inb_S1920_S16_240, k0_pay216 a16.1 a16.2.2.2.1⟩,
        ⟨Rect.unit (s := S1920) ![1504] S16.size inb_S1920_S16_1504, k0_pay205 a15.2.2.1 a15.2.2.2.2.2⟩,
        ⟨Rect.unit (s := S1920) ![864] S16.size inb_S1920_S16_864, k0_pay204 a15.2.1 a15.2.2.2.2.1⟩,
        ⟨Rect.unit (s := S1920) ![224] S16.size inb_S1920_S16_224, k0_pay203 a15.1 a15.2.2.2.1⟩,
        ⟨Rect.unit (s := S1920) ![1488] S16.size inb_S1920_S16_1488, k0_pay192 (k0_pay189 a14.2.2.1 a14.2.2.2.2.2)⟩,
        ⟨Rect.unit (s := S1920) ![848] S16.size inb_S1920_S16_848, k0_pay191 a14.2.1 a14.2.2.2.2.1⟩,
        ⟨Rect.unit (s := S1920) ![208] S16.size inb_S1920_S16_208, k0_pay190 a14.1 a14.2.2.2.1⟩,
        ⟨Rect.unit (s := S1920) ![1472] S16.size inb_S1920_S16_1472, k0_pay178 a13.2.2.1 a13.2.2.2.2.2⟩,
        ⟨Rect.unit (s := S1920) ![832] S16.size inb_S1920_S16_832, k0_pay177 a13.2.1 a13.2.2.2.2.1⟩,
        ⟨Rect.unit (s := S1920) ![192] S16.size inb_S1920_S16_192, k0_pay176 a13.1 a13.2.2.2.1⟩,
        ⟨Rect.unit (s := S1920) ![1456] S16.size inb_S1920_S16_1456, k0_pay165 a12.2.2.1 a12.2.2.2.2.2⟩,
        ⟨Rect.unit (s := S1920) ![816] S16.size inb_S1920_S16_816, k0_pay164 a12.2.1 a12.2.2.2.2.1⟩,
        ⟨Rect.unit (s := S1920) ![176] S16.size inb_S1920_S16_176, k0_pay163 a12.1 a12.2.2.2.1⟩,
        ⟨Rect.unit (s := S1920) ![1440] S16.size inb_S1920_S16_1440, k0_pay152 a11.2.2.1 a11.2.2.2.2.2⟩,
        ⟨Rect.unit (s := S1920) ![800] S16.size inb_S1920_S16_800, k0_pay151 a11.2.1 a11.2.2.2.2.1⟩,
        ⟨Rect.unit (s := S1920) ![160] S16.size inb_S1920_S16_160, k0_pay150 a11.1 a11.2.2.2.1⟩,
        ⟨Rect.unit (s := S1920) ![1424] S16.size inb_S1920_S16_1424, k0_pay139 (k0_pay136 a10.2.2.1 a10.2.2.2.2.2)⟩,
        ⟨Rect.unit (s := S1920) ![784] S16.size inb_S1920_S16_784, k0_pay138 (k0_pay135 a10.2.1 a10.2.2.2.2.1)⟩,
        ⟨Rect.unit (s := S1920) ![144] S16.size inb_S1920_S16_144, k0_pay137 (k0_pay134 a10.1 a10.2.2.2.1)⟩,
        ⟨Rect.unit (s := S1920) ![1408] S16.size inb_S1920_S16_1408, k0_pay123 a9.2.2.1 a9.2.2.2.2.2⟩,
        ⟨Rect.unit (s := S1920) ![768] S16.size inb_S1920_S16_768, k0_pay122 a9.2.1 a9.2.2.2.2.1⟩,
        ⟨Rect.unit (s := S1920) ![128] S16.size inb_S1920_S16_128, k0_pay121 a9.1 a9.2.2.2.1⟩,
        ⟨Rect.unit (s := S1920) ![1392] S16.size inb_S1920_S16_1392, k0_pay110 a8.2.2.1 a8.2.2.2.2.2⟩,
        ⟨Rect.unit (s := S1920) ![752] S16.size inb_S1920_S16_752, k0_pay109 a8.2.1 a8.2.2.2.2.1⟩,
        ⟨Rect.unit (s := S1920) ![112] S16.size inb_S1920_S16_112, k0_pay108 a8.1 a8.2.2.2.1⟩,
        ⟨Rect.unit (s := S1920) ![1376] S16.size inb_S1920_S16_1376, k0_pay97 (k0_pay94 a7.2.2.1 a7.2.2.2.2.2)⟩,
        ⟨Rect.unit (s := S1920) ![736] S16.size inb_S1920_S16_736, k0_pay96 (k0_pay93 a7.2.1 a7.2.2.2.2.1)⟩,
        ⟨Rect.unit (s := S1920) ![96] S16.size inb_S1920_S16_96, k0_pay95 a7.1 a7.2.2.2.1⟩,
        ⟨Rect.unit (s := S1920) ![1360] S16.size inb_S1920_S16_1360, k0_pay82 a6.2.2.1 a6.2.2.2.2.2⟩,
        ⟨Rect.unit (s := S1920) ![720] S16.size inb_S1920_S16_720, k0_pay81 a6.2.1 a6.2.2.2.2.1⟩,
        ⟨Rect.unit (s := S1920) ![80] S16.size inb_S1920_S16_80, k0_pay80 a6.1 a6.2.2.2.1⟩,
        ⟨Rect.unit (s := S1920) ![1344] S16.size inb_S1920_S16_1344, k0_pay69 a5.2.2.1 a5.2.2.2.2.2⟩,
        ⟨Rect.unit (s := S1920) ![704] S16.size inb_S1920_S16_704, k0_pay68 a5.2.1 a5.2.2.2.2.1⟩,
        ⟨Rect.unit (s := S1920) ![64] S16.size inb_S1920_S16_64, k0_pay67 a5.1 a5.2.2.2.1⟩,
        ⟨Rect.unit (s := S1920) ![1328] S16.size inb_S1920_S16_1328, k0_pay56 (k0_pay53 a4.2.2.1 a4.2.2.2.2.2)⟩,
        ⟨Rect.unit (s := S1920) ![688] S16.size inb_S1920_S16_688, k0_pay55 a4.2.1 a4.2.2.2.2.1⟩,
        ⟨Rect.unit (s := S1920) ![48] S16.size inb_S1920_S16_48, k0_pay54 a4.1 a4.2.2.2.1⟩,
        ⟨Rect.unit (s := S1920) ![1312] S16.size inb_S1920_S16_1312, k0_pay42 a3.2.2.1 a3.2.2.2.2.2⟩,
        ⟨Rect.unit (s := S1920) ![672] S16.size inb_S1920_S16_672, k0_pay41 a3.2.1 a3.2.2.2.2.1⟩,
        ⟨Rect.unit (s := S1920) ![32] S16.size inb_S1920_S16_32, k0_pay40 a3.1 a3.2.2.2.1⟩,
        ⟨Rect.unit (s := S1920) ![1296] S16.size inb_S1920_S16_1296, k0_pay29 a2.2.2.1 a2.2.2.2.2.2⟩,
        ⟨Rect.unit (s := S1920) ![656] S16.size inb_S1920_S16_656, k0_pay28 a2.2.1 a2.2.2.2.2.1⟩,
        ⟨Rect.unit (s := S1920) ![16] S16.size inb_S1920_S16_16, k0_pay27 a2.1 a2.2.2.2.1⟩,
        ⟨Rect.unit (s := S1920) ![1280] S16.size inb_S1920_S16_1280, k0_pay16 a1.2.2.1 a1.2.2.2.2.2⟩,
        ⟨Rect.unit (s := S1920) ![640] S16.size inb_S1920_S16_640, k0_pay15 a1.2.1 a1.2.2.2.2.1⟩,
        ⟨Rect.unit (s := S1920) ![0] S16.size inb_S1920_S16_0, k0_pay14 a1.1 a1.2.2.2.1⟩]))⟩]) :=
  tileSpec_of_stores L P T o0 fR ![a1, a2, a3, a4, a5, a6, a7, a8, a9, a10, a11, a12, a13, a14, a15, a16, a17, a18, a19, a20, a21, a22, a23, a24, a25, a26, a27, a28, a29, a30, a31, a32, a33, a34, a35, a36, a37, a38] (by
    intro j; fin_cases j
    · exact h1
    · exact h2
    · exact h3
    · exact h4
    · exact h5
    · exact h6
    · exact h7
    · exact h8
    · exact h9
    · exact h10
    · exact h11
    · exact h12
    · exact h13
    · exact h14
    · exact h15
    · exact h16
    · exact h17
    · exact h18
    · exact h19
    · exact h20
    · exact h21
    · exact h22
    · exact h23
    · exact h24
    · exact h25
    · exact h26
    · exact h27
    · exact h28
    · exact h29
    · exact h30
    · exact h31
    · exact h32
    · exact h33
    · exact h34
    · exact h35
    · exact h36
    · exact h37
    · exact h38)

end Cert.KernelIdeal.ScStores

end
-- ==== Proof.ScBody.lean ====
import proofs.«216000_g43989055045728_cont_8to1_b_1827_23_alg».proof.Proof.PayDefs
import proofs.«216000_g43989055045728_cont_8to1_b_1827_23_alg».proof.Proof.Gen.KernelIdeal.Skeleton
import proofs.«216000_g43989055045728_cont_8to1_b_1827_23_alg».proof.Proof.ScLoopAll
import proofs.«216000_g43989055045728_cont_8to1_b_1827_23_alg».proof.Proof.ScViews
import proofs.«216000_g43989055045728_cont_8to1_b_1827_23_alg».proof.Proof.ScStores
import Idealize.ShloMosaic.Lib.Batch
import Idealize.ShloMosaic.Lib.Tactic

noncomputable section

namespace Cert.KernelIdeal.ScBody

open Cert.KernelIdeal Cert.KernelIdeal.Gen Cert.KernelIdeal.PayDefs

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

abbrev cT : GSem nD τ sig := (tileThr d L, .dma cc0_scratch4.sem)
abbrev cA : GSem nD τ sig := (tileThr d L, .dma cc0_scratch5.sem)
abbrev cB : GSem nD τ sig := (tileThr d L, .dma cc0_scratch6.sem)
abbrev cO : GSem nD τ sig := (tileThr d L, .dma cc0_scratch7.sem)

theorem ownSems0_tile :
    (ownSems0 (tileThr d L) : sProp 𝕄)
      = iprop(semVal (cT d L) 0 ∗ semVal (cA d L) 0 ∗ semVal (cB d L) 0 ∗ semVal (cO d L) 0
          ∗ bigSep (((((ownCells (tileThr d L)).erase (cT d L)).erase (cA d L)).erase (cB d L)).erase (cO d L)) fun g => semVal g 0) := by
  unfold SparseCore.Cfg.ownSems0
  rw [SparseCore.bigSep_erase' ((mem_ownCells (g := cT d L)).mpr ⟨rfl, by
      show (SemLoc.dma cc0_scratch4.sem : SemLoc sig).isScoped .scVector = true; decide⟩),
    SparseCore.bigSep_erase' (Finset.mem_erase.mpr ⟨by simp [cT, cA]; decide, (mem_ownCells (g := cA d L)).mpr ⟨rfl, by
      show (SemLoc.dma cc0_scratch5.sem : SemLoc sig).isScoped .scVector = true; decide⟩⟩),
    SparseCore.bigSep_erase' (Finset.mem_erase.mpr ⟨by simp [cA, cB]; decide, Finset.mem_erase.mpr ⟨by simp [cT, cB]; decide,
      (mem_ownCells (g := cB d L)).mpr ⟨rfl, by show (SemLoc.dma cc0_scratch6.sem : SemLoc sig).isScoped .scVector = true; decide⟩⟩⟩),
    SparseCore.bigSep_erase' (Finset.mem_erase.mpr ⟨by simp [cB, cO]; decide, Finset.mem_erase.mpr ⟨by simp [cA, cO]; decide,
      Finset.mem_erase.mpr ⟨by simp [cT, cO]; decide,
      (mem_ownCells (g := cO d L)).mpr ⟨rfl, by show (SemLoc.dma cc0_scratch7.sem : SemLoc sig).isScoped .scVector = true; decide⟩⟩⟩⟩)]

theorem ownBufs_tile :
    (ownBufs (tileThr d L) : sProp 𝕄)
      = iprop((∃ f, (tileThr d L).loc cc0_scratch0 ↦{fullShare} f) ∗ (∃ f, (tileThr d L).loc cc0_scratch1 ↦{fullShare} f)
          ∗ (∃ f, (tileThr d L).loc cc0_scratch2 ↦{fullShare} f) ∗ (∃ f, (tileThr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

theorem pts_scratch (b : Ref sig .scVector) (f : Buf (Elt F) ((tileThr d L).loc b)) :
    ((Memref.whole b).view.loc (tileThr d L) ↦{fullShare} f : sProp 𝕄) = (tileThr d L).loc b ↦{fullShare} f := rfl

variable [FloatOps F] [∀ e, Nonempty (Elt F e)]

omit [FloatOps F] [∀ e, Nonempty (Elt F e)] in

theorem waits_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

omit [∀ e, Nonempty (Elt F e)] in

theorem holdsP_write (g : Cert.SpecSC.SP.Idx → F .f32) {κ : Kind} {sp : Space}
    (v : View sig κ sp S16x512 .f32) (prev : v.ty.Contents (Elt F)) (w : S16x512.Idx → F .f32) (pb : Fin 8) (pc : Fin 19) (wid : ℕ)
    (h : ScLoop.HoldsP g w pb pc wid) :
    ScLoop.HoldsP g (v.read (Elt F) (View.write (Elt F) v prev w Finset.univ)) pb pc wid := by
  rw [View.read_write_univ]; exact h

theorem pay3_zero (l : Fin 16) : (k0_pay3 (F := F)) (ValueIdx.ix1 l) = Cert.SpecSC.zeroF := rfl

omit [∀ e, Nonempty (Elt F e)] in

theorem holdsP_closed (g : Cert.SpecSC.SP.Idx → F .f32) (off : Fin 4 → ℕ) [C : ClosedOff off]
    (hinb : ∀ a, off a + S1x1x16x512.size a ≤ S8x19x512x512.size a) (b : Fin 8) (c : Fin 19)
    (hform : C.form = ![b.val, c.val, 32 * (L 1).val + 16 * (L 0).val, 0]) :
    ScLoop.HoldsP g (ReadAs.same.apply (View.read (Elt F)
      ((pV.slice (Rect.unit (s := S8x19x512x512) off S1x1x16x512.size hinb) (fun _ => rfl)).squeeze S16x512 squeezes_S1x1x16x512_S16x512).view g))
      b c (widOf L) :=
  ScViews.holdsP_of_off L g off hinb b c (C.eq.trans (hform.trans (by rw [ScViews.off_wid])))

omit [∀ e, Nonempty (Elt F e)] in

theorem sums_of (P : Cert.SpecSC.SP.Idx → F .f32) (T : Cert.SpecSC.ST.Idx → BitVec 32) (wid : ℕ) (b : Fin 8) (c : Fin 19) (ro : ℕ)
    (rp : S16x512.Idx → F .f32) (rt : S32x512.Idx → BitVec 32) (cw : BitVec 32) (N : ℕ) (hN : N = 256) (hcw : cw = Cert.SpecSC.cls c)
    (hP : ScLoop.HoldsP P rp b c wid) (hT : ScLoop.HoldsT T rt b wid ro) :
    ScStores.Sums P T wid b c (ScLoop.st rp rt (k0_pay3 (F := F)) cw ro N) := by
  subst hN; subst hcw
  intro l
  exact ScLoop.tile_of_st hP hT (k0_pay3 (F := F)) pay3_zero l

omit [∀ e, Nonempty (Elt F e)] in

theorem sums_m {κ : Kind} {sp : Space} (v : View sig κ sp S16x512 .f32) (prev : v.ty.Contents (Elt F))
    (off : Fin 4 → ℕ) [C : ClosedOff off] (hinb : ∀ a, off a + S1x1x16x512.size a ≤ S8x19x512x512.size a)
    (b : Fin 8) (c : Fin 19) (ro : ℕ) (rt : S32x512.Idx → BitVec 32) (cw : BitVec 32) (N : ℕ)
    (hform : C.form = ![b.val, c.val, 32 * (L 1).val + 16 * (L 0).val, 0]) (hN : N = 256) (hcw : cw = Cert.SpecSC.cls c)
    (hT : ScLoop.HoldsT (m (tLoc d)) rt b (widOf L) ro) :
    ScStores.Sums (m (pLoc d)) (m (tLoc d)) (widOf L) b c
      (ScLoop.st (v.read (Elt F) (View.write (Elt F) v prev (ReadAs.same.apply (View.read (Elt F)
        ((pV.slice (Rect.unit (s := S8x19x512x512) off S1x1x16x512.size hinb) (fun _ => rfl)).squeeze S16x512 squeezes_S1x1x16x512_S16x512).view
        (m (pLoc d)))) Finset.univ)) rt (k0_pay3 (F := F)) cw ro N) :=
  sums_of (F := F) (m (pLoc d)) (m (tLoc d)) (widOf L) b c ro _ rt cw N hN hcw
    (holdsP_write (F := F) (m (pLoc d)) v prev _ b c (widOf L) (holdsP_closed (F := F) L (m (pLoc d)) off hinb b c hform)) hT

set_option maxRecDepth 65536 in
set_option maxHeartbeats 8000000 in
theorem tile_body (O : CellTallies nD τ sig (HIx 1)) (W : Waits sig (HIx 1)) (hO : ∀ g, O g none = 0) :
    iprop(levAts (K (F := F)).L (K (F := F)).lev ∗ emp ∗ tileGo m d L
        ∗ scopedBufs (tileThr d L) ∗ scopedSems0 (tileThr d L) ∗ owes (tileThr d L) O W)
      ⊢ wp frame (wpE (defs₀ (F := F)) 𝒱₀ (tileThr d L) none) Set.univ
          (cc0__sc_partials L pV (Memref.isWhole_whole _) tV (Memref.isWhole_whole _) oV (Memref.isWhole_whole _)
            sT (Memref.isWhole_whole _) sA (Memref.isWhole_whole _) sB (Memref.isWhole_whole _) sR (Memref.isWhole_whole _)
            cc0_scratch4 cc0_scratch5 cc0_scratch6 cc0_scratch7)
          fun _ => iprop(tileTd m d L ∗ scopedBufs (tileThr d L) ∗ scopedSems0 (tileThr d L)
            ∗ ∃ W', ⌜∀ p ∈ W', p ∈ W ∨ p.2 = none⌝ ∗ owes (tileThr d L) O W') := by
  have planT : Transfers.BatchOf (tileThr d L) (SemLoc.dma (sig := sig) cc0_scratch4.sem) 2 (windows := true) := trivial
  simp only [cc0__sc_partials_eq_skeleton]; unfold cc0__sc_partials_skel
  rw [(K (F := F)).scopedBufs_V facts d (cV L) (jV L), SparseCore.Cfg.scopedSems0_V (Val := Elt F) d (cV L) (jV L),
    ownSems0_tile, ownBufs_tile]
  unfold tileGo
  iintro ⟨#Hlv, -, ⟨HP, HT, HOut⟩, ⟨⟨%fT, HsT⟩, ⟨%fA, HsA⟩, ⟨%fB, HsB⟩, ⟨%fR, HsR⟩, Hbufs⟩, ⟨HcT, HcA, HcB, HcO, Hsems⟩, HO⟩
  ihave Hmw := ((K (F := F)).mayWaits_none (thr := tileThr d L) hO) $$ Hlv
  ihave HsT' := (Entails.of_eq (pts_scratch (F := F) d L cc0_scratch0 _).symm) $$ HsT
  ihave HsA' := (Entails.of_eq (pts_scratch (F := F) d L cc0_scratch1 _).symm) $$ HsA
  ihave HsB' := (Entails.of_eq (pts_scratch (F := F) d L cc0_scratch2 _).symm) $$ HsB
  ihave HsR' := (Entails.of_eq (pts_scratch (F := F) d L cc0_scratch3 _).symm) $$ HsR
  ihave HP2 := (pointsTo_share (PosShare.mem_left_op_right (qL L))).1 $$ HP
  icases HP2 with ⟨HPa, HPb⟩
  ihave HT2 := (pointsTo_share (PosShare.mem_left_op_right (qL L))).1 $$ HT
  icases HT2 with ⟨HTa, HTb⟩
  sl_exec_parts
  sl_step
  isplitl [HPa HPb HTa HTb HOut]
  · unfold tileTd
    isplitl [HPa HPb]
    · iapply (pointsTo_share (PosShare.mem_left_op_right (qL L))).2
      isplitl [HPa]; · iexact HPa
      iexact HPb
    isplitl [HTa HTb]
    · iapply (pointsTo_share (PosShare.mem_left_op_right (qL L))).2
      isplitl [HTa]; · iexact HTa
      iexact HTb
    iexists _; isplitr
    rotate_left
    · iexact HOut
    · ipureintro
      sl_unfold_run_names
      have hT6 := ScViews.holdsT_lo (F := F) L (m (tLoc d)) (Memref.whole cc0_scratch0).view.junk inb_S32x512_S16x512_16_0 inb_S32x512_S16x512_0_0
        (k0_off1 L) (k0_off2 L) (k0_off1_inb L) (k0_off2_inb L) ((k0_off1_eq L).trans (by rw [ScViews.off_wid]))
      have hT7 := ScViews.holdsT_hi (F := F) L (m (tLoc d)) (Memref.whole cc0_scratch0).view.junk inb_S32x512_S16x512_16_0 inb_S32x512_S16x512_0_0
        (k0_off1 L) (k0_off2 L) (k0_off1_inb L) (k0_off2_inb L) ((k0_off2_eq L).trans (by rw [ScViews.off_wid]))
      refine ScStores.tileSpec_of_run L (m (pLoc d)) (m (tLoc d)) (m (oLoc d)) fR
        _ _ _ _ _ _ _ _ _ _ _ _ _ _ _ _ _ _ _ _ _ _ _ _ _ _ _ _ _ _ _ _ _ _ _ _ _ _
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
      iterate 19
        on_goal 1 => exact sums_m (F := F) m d L _ _ _ _ _ _ _ _ _ _ (by rfl) (by decide) rfl hT6
      all_goals
        exact sums_m (F := F) m d L _ _ _ _ _ _ _ _ _ _ (by rfl) (by decide) rfl hT7
  isplitl [HsT' HsA' HsB' HsR' Hbufs]
  · isplitl [HsT']; · iexists _; iapply (Entails.of_eq (pts_scratch (F := F) d L cc0_scratch0 _)); iexact HsT'
    isplitl [HsA']; · iexists _; iapply (Entails.of_eq (pts_scratch (F := F) d L cc0_scratch1 _)); iexact HsA'
    isplitl [HsB']; · iexists _; iapply (Entails.of_eq (pts_scratch (F := F) d L cc0_scratch2 _)); iexact HsB'
    isplitl [HsR']; · iexists _; iapply (Entails.of_eq (pts_scratch (F := F) d L cc0_scratch3 _)); iexact HsR'
    iexact Hbufs
  isplitl [HcT HcA HcB HcO Hsems]
  · isplitl [HcT]; · iexact HcT
    isplitl [HcA]; · iexact HcA
    isplitl [HcB]; · iexact HcB
    isplitl [HcO]; · iexact HcO
    iexact Hsems
  iexists _; isplitr
  rotate_left
  · iexact HO
  · ipureintro
    repeat (refine waits_insert _ ?_)
    exact fun p hp => .inl hp

end Tile

end Cert.KernelIdeal.ScBody

end
-- ==== Proof.TcData.lean ====
import proofs.«216000_g43989055045728_cont_8to1_b_1827_23_alg».proof.Proof.Gen.KernelIdeal.Launch
import proofs.«216000_g43989055045728_cont_8to1_b_1827_23_alg».proof.Proof.Gen.KernelIdeal.Points
import proofs.«216000_g43989055045728_cont_8to1_b_1827_23_alg».proof.Proof.PayDefs
import proofs.«216000_g43989055045728_cont_8to1_b_1827_23_alg».proof.Proof.SpecTC
import Idealize.ShloMosaic.Lib.Pipeline.Regions
import Idealize.ShloMosaic.Lib.Pipeline.FrameBody
import Idealize.ShloMosaic.Lib.Pipeline.Value
import Idealize.ShloMosaic.Lib.SparseCore.Threads

noncomputable section

namespace Cert.KernelIdeal.TcRegion

open Cert.KernelIdeal Cert.KernelIdeal.Gen Cert.KernelIdeal.PayDefs Cert.KernelIdeal.SpecTC
open Cert.KernelIdeal.Facts₀ Cert.KernelIdeal.Facts
open Idealize.ShloMosaic Idealize.ShloMosaic.TcCoe Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

abbrev adm : (p : Fin 1) → (pcfgs (F := F) p).Adm := fun p => (cfgs p).toPCfg_adm

theorem cellOf_inj' : Function.Injective (Pipeline.cellOf (nD := nD) (τ := τ) (Pipeline.pin (pcfgs (F := F)) adm)) :=
  Gen.cellOf_inj

theorem coords_half : ∀ t : Fin cfg1.N, ((grid1.coords t) 1).val = t.val % 2 :=
  (by decide +kernel : ∀ t : Fin grid1.N, ((grid1.coords t) 1).val = t.val % 2)
theorem cond_half : ∀ t : Fin cfg1.N, k1_cond2 (grid1.coords t) = 1#1 ↔ t.val % 2 = 1 :=
  (by decide +kernel : ∀ t : Fin grid1.N, k1_cond2 (grid1.coords t) = 1#1 ↔ t.val % 2 = 1)

theorem N_lt (t : Fin cfg1.N) : t.val < 12 := lt_of_lt_of_eq t.isLt (show cfg1.N = 12 from Gen.N_1)

def batchOf (n : ℕ) (h : n < 12) : Fin 8 := ⟨n / 2, by omega⟩

def halfOf (n : ℕ) : Fin 2 := ⟨n % 2, Nat.mod_lt _ (by decide)⟩

section Data

variable (d : Dev nD) (Pc : Buf (Elt F) (pLoc d)) (Tc : Buf (Elt F) (tLoc d)) (Oc : Buf (Elt F) ((SparseCore.T d).loc main_v1))
  (B : Set (SemLoc sig × HIx 1))

def arrA (w : Fin cfg1.W) : Buf (Elt F) ((cfg1.win w).arr.view.loc (d.tc : Thread nD τ)) :=
  match w with
  | ⟨0, _⟩ => Pc
  | ⟨1, _⟩ => Tc
  | ⟨2, _⟩ => Oc

def iblk (w : Fin cfg1.W) (t : Fin cfg1.N) : ((cfg1.win w).xblock (cfg1.grid.coords t)).Idx → Elt F (cfg1.win w).elt :=
  ((cfg1.win w).blk t).view.read (Elt F) (arrA d Pc Tc Oc w)

def nomHalf (b : Fin 8) : FVec F S19x8x512 .f32 := acc0 (nomParts (predBlock Pc b 0) (tgtBlock Tc b 0))
def isumHalf (b : Fin 8) : FVec F S19x8x512 .f32 := acc0 (isumParts (predBlock Pc b 0))
def tsumHalf (b : Fin 8) : FVec F S19x8x512 .f32 := acc0 (F := F) (tsumParts (tgtBlock Tc b 0))

def outBlk (b : Fin 8) : FVec F S1x1x128 .f32 := finishBlock (nomAcc Pc Tc b) (isumAcc Pc b) (tsumAcc (F := F) Tc b)

def ΦAcc (n : ℕ) (h : n < 12 + 1) : sProp 𝕄 :=
  if hn : n % 2 = 1 then
    iprop(owns (d.tc : Thread nD τ) (Memref.whole cc1_scratch0) fullShare (nomHalf d Pc Tc (batchOf n (by omega)))
      ∗ owns (d.tc : Thread nD τ) (Memref.whole cc1_scratch1) fullShare (isumHalf d Pc (batchOf n (by omega)))
      ∗ owns (d.tc : Thread nD τ) (Memref.whole cc1_scratch2) fullShare (tsumHalf d Tc (batchOf n (by omega))))
  else
    iprop((∃ a : Vec F S19x8x512 .f32, owns (d.tc : Thread nD τ) (Memref.whole cc1_scratch0) fullShare a)
      ∗ (∃ a : Vec F S19x8x512 .f32, owns (d.tc : Thread nD τ) (Memref.whole cc1_scratch1) fullShare a)
      ∗ (∃ a : Vec F S19x8x512 .f32, owns (d.tc : Thread nD τ) (Memref.whole cc1_scratch2) fullShare a))

def dats (_ : Fin 1) : Dat τ (Elt F) (HIx 1) ℕ UU ℕ cfg1 d where
  A w := arrA d Pc Tc Oc w
  after w t := match w with
    | ⟨0, _⟩ => iblk d Pc Tc Oc 0 t
    | ⟨1, _⟩ => iblk d Pc Tc Oc 1 t
    | ⟨2, _⟩ => outBlk d Pc Tc (batchOf t.val (N_lt t))
  Φ t := ΦAcc d Pc Tc t.val (lt_of_lt_of_eq t.isLt (congrArg (· + 1) (Gen.N_1 : grid1.N = 12)))
  q _ := fullShare
  owed _ := 0
  recorded _ := B

end Data

def planes (x : Vec F S1x19x256x512 .f32) : Fin 19 → FVec F S256x512 .f32 := fun c i => x (ix4 0 c (i 0) (i 1))

def tgts (y : Vec F S1x256x512 .i32) : IVec S256x512 32 := fun i => y (ix3 0 (i 0) (i 1))

end Cert.KernelIdeal.TcRegion

end
-- ==== Proof.TcIndex.lean ====
import proofs.«216000_g43989055045728_cont_8to1_b_1827_23_alg».proof.Proof.TcData

noncomputable section

namespace Cert.KernelIdeal.TcRegion

open Cert.KernelIdeal Cert.KernelIdeal.Gen Cert.KernelIdeal.PayDefs Cert.KernelIdeal.SpecTC
open Cert.KernelIdeal.Facts₀ Cert.KernelIdeal.Facts
open Idealize.ShloMosaic Idealize.ShloMosaic.TcCoe Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem index0 : ∀ (t : Fin cfg1.N) (a : Fin 4),
    (cfg1.win 0).index t a = if a = 0 then t.val / 2 else if a = 2 then t.val % 2 else 0 :=
  (by decide +kernel : ∀ (t : Fin grid1.N) (a : Fin 4),
    win1_0.index t a = if a = 0 then t.val / 2 else if a = 2 then t.val % 2 else 0)

theorem index1 : ∀ (t : Fin cfg1.N) (a : Fin 3),
    (cfg1.win 1).index t a = if a = 0 then t.val / 2 else if a = 1 then t.val % 2 else 0 :=
  (by decide +kernel : ∀ (t : Fin grid1.N) (a : Fin 3),
    win1_1.index t a = if a = 0 then t.val / 2 else if a = 1 then t.val % 2 else 0)

section
variable (d : Dev nD) (Pc : Buf (Elt F) (pLoc d)) (Tc : Buf (Elt F) (tLoc d)) (Oc : Buf (Elt F) ((SparseCore.T d).loc main_v1))
  (t : Fin cfg1.N)

theorem planes_iblk : planes (iblk d Pc Tc Oc 0 t) = predBlock Pc (batchOf t.val (N_lt t)) (halfOf t.val) := by
  funext c i
  unfold planes iblk predBlock arrA
  rw [View.read_apply]
  show Pc (((cfg1.win 0).blk t).view.emb (ix4 0 c (i 0) (i 1))) = _
  refine congrArg Pc (funext fun a => Fin.ext ?_)
  match a with
  | ⟨0, _⟩ =>
    refine (Window.rect_emb_val (cfg1.win 0) t (ix4 0 c (i 0) (i 1)) 0).trans ?_
    rw [index0 t 0, if_pos rfl]
    show t.val / 2 * 1 + 0 = t.val / 2
    omega
  | ⟨1, _⟩ =>
    refine (Window.rect_emb_val (cfg1.win 0) t (ix4 0 c (i 0) (i 1)) 1).trans ?_
    rw [index0 t 1, if_neg (by decide), if_neg (by decide)]
    show 0 * 19 + c.val = c.val
    omega
  | ⟨2, _⟩ =>
    refine (Window.rect_emb_val (cfg1.win 0) t (ix4 0 c (i 0) (i 1)) 2).trans ?_
    rw [index0 t 2, if_neg (by decide), if_pos rfl]
    show t.val % 2 * 256 + (i 0).val = 256 * (t.val % 2) + (i 0).val
    omega
  | ⟨3, _⟩ =>
    refine (Window.rect_emb_val (cfg1.win 0) t (ix4 0 c (i 0) (i 1)) 3).trans ?_
    rw [index0 t 3, if_neg (by decide), if_neg (by decide)]
    show 0 * 512 + (i 1).val = (i 1).val
    omega

theorem tgts_iblk : tgts (iblk d Pc Tc Oc 1 t) = tgtBlock Tc (batchOf t.val (N_lt t)) (halfOf t.val) := by
  funext i
  unfold tgts iblk tgtBlock arrA
  rw [View.read_apply]
  show Tc (((cfg1.win 1).blk t).view.emb (ix3 0 (i 0) (i 1))) = _
  refine congrArg Tc (funext fun a => Fin.ext ?_)
  match a with
  | ⟨0, _⟩ =>
    refine (Window.rect_emb_val (cfg1.win 1) t (ix3 0 (i 0) (i 1)) 0).trans ?_
    rw [index1 t 0, if_pos rfl]
    show t.val / 2 * 1 + 0 = t.val / 2
    omega
  | ⟨1, _⟩ =>
    refine (Window.rect_emb_val (cfg1.win 1) t (ix3 0 (i 0) (i 1)) 1).trans ?_
    rw [index1 t 1, if_neg (by decide), if_pos rfl]
    show t.val % 2 * 256 + (i 0).val = 256 * (t.val % 2) + (i 0).val
    omega
  | ⟨2, _⟩ =>
    refine (Window.rect_emb_val (cfg1.win 1) t (ix3 0 (i 0) (i 1)) 2).trans ?_
    rw [index1 t 2, if_neg (by decide), if_neg (by decide)]
    show 0 * 512 + (i 1).val = (i 1).val
    omega

end

end Cert.KernelIdeal.TcRegion

end
-- ==== Proof.TcRegion.lean ====
import proofs.«216000_g43989055045728_cont_8to1_b_1827_23_alg».proof.Proof.Gen.KernelIdeal.Launch
import proofs.«216000_g43989055045728_cont_8to1_b_1827_23_alg».proof.Proof.Gen.KernelIdeal.Points
import proofs.«216000_g43989055045728_cont_8to1_b_1827_23_alg».proof.Proof.PayDefs
import proofs.«216000_g43989055045728_cont_8to1_b_1827_23_alg».proof.Proof.SpecTC
import proofs.«216000_g43989055045728_cont_8to1_b_1827_23_alg».proof.Proof.TcData
import proofs.«216000_g43989055045728_cont_8to1_b_1827_23_alg».proof.Proof.TcIndex
import Idealize.ShloMosaic.Lib.Pipeline.Regions
import Idealize.ShloMosaic.Lib.Pipeline.FrameBody
import Idealize.ShloMosaic.Lib.Pipeline.Value
import Idealize.ShloMosaic.Lib.SparseCore.Threads

noncomputable section

namespace Cert.KernelIdeal.TcRegion

open Cert.KernelIdeal Cert.KernelIdeal.Gen Cert.KernelIdeal.PayDefs Cert.KernelIdeal.SpecTC
open Cert.KernelIdeal.Facts₀ Cert.KernelIdeal.Facts
open Idealize.ShloMosaic Idealize.ShloMosaic.TcCoe Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- What the body does at a grid point, on whole staging memrefs and the three scratch accumulators: at a first half the
    accumulators end at the half's sums over zero and the result block stays; at a second half they step from what
    they held and the result block is finished. -/
structure BodyRun : Prop where
  first : ∀ (d : Dev nD) (i : grid1.Coords) (arg2 : Memref sig .tc .vmem S1x19x256x512 .f32) (harg2 : arg2.IsWhole)
    (arg3 : Memref sig .tc .vmem S1x256x512 .i32) (harg3 : arg3.IsWhole) (arg4 : Memref sig .tc .vmem S1x1x128 .f32) (harg4 : arg4.IsWhole)
    (x : Vec F S1x19x256x512 .f32) (y : Vec F S1x256x512 .i32) (o : Vec F S1x1x128 .f32) (n0 i0 t0 : Vec F S19x8x512 .f32)
    (hi : (i 1).val = 0),
    (iprop(owns (d.tc : Thread nD τ) arg2 fullShare x ∗ owns (d.tc : Thread nD τ) arg3 fullShare y ∗ owns (d.tc : Thread nD τ) arg4 fullShare o
        ∗ owns (d.tc : Thread nD τ) (Memref.whole cc1_scratch0) fullShare n0 ∗ owns (d.tc : Thread nD τ) (Memref.whole cc1_scratch1) fullShare i0
        ∗ owns (d.tc : Thread nD τ) (Memref.whole cc1_scratch2) fullShare t0) : sProp 𝕄)
      ⊢ wp frame (wpE (defs₀ (F := F)) Variants.none (d.tc : Thread nD τ) none) Set.univ
          (cc1__dice_tc_body i arg2 harg2 arg3 harg3 arg4 harg4 (Memref.whole cc1_scratch0) (Memref.isWhole_whole _)
            (Memref.whole cc1_scratch1) (Memref.isWhole_whole _) (Memref.whole cc1_scratch2) (Memref.isWhole_whole _)) fun _ =>
          iprop(owns (d.tc : Thread nD τ) arg2 fullShare x ∗ owns (d.tc : Thread nD τ) arg3 fullShare y
            ∗ owns (d.tc : Thread nD τ) arg4 fullShare o
            ∗ owns (d.tc : Thread nD τ) (Memref.whole cc1_scratch0) fullShare (acc0 (nomParts (planes x) (tgts y)))
            ∗ owns (d.tc : Thread nD τ) (Memref.whole cc1_scratch1) fullShare (acc0 (isumParts (planes x)))
            ∗ owns (d.tc : Thread nD τ) (Memref.whole cc1_scratch2) fullShare (acc0 (F := F) (tsumParts (tgts y))))
  second : ∀ (d : Dev nD) (i : grid1.Coords) (arg2 : Memref sig .tc .vmem S1x19x256x512 .f32) (harg2 : arg2.IsWhole)
    (arg3 : Memref sig .tc .vmem S1x256x512 .i32) (harg3 : arg3.IsWhole) (arg4 : Memref sig .tc .vmem S1x1x128 .f32) (harg4 : arg4.IsWhole)
    (x : Vec F S1x19x256x512 .f32) (y : Vec F S1x256x512 .i32) (o : Vec F S1x1x128 .f32) (n0 i0 t0 : Vec F S19x8x512 .f32)
    (hi : (i 1).val = 1),
    (iprop(owns (d.tc : Thread nD τ) arg2 fullShare x ∗ owns (d.tc : Thread nD τ) arg3 fullShare y ∗ owns (d.tc : Thread nD τ) arg4 fullShare o
        ∗ owns (d.tc : Thread nD τ) (Memref.whole cc1_scratch0) fullShare n0 ∗ owns (d.tc : Thread nD τ) (Memref.whole cc1_scratch1) fullShare i0
        ∗ owns (d.tc : Thread nD τ) (Memref.whole cc1_scratch2) fullShare t0) : sProp 𝕄)
      ⊢ wp frame (wpE (defs₀ (F := F)) Variants.none (d.tc : Thread nD τ) none) Set.univ
          (cc1__dice_tc_body i arg2 harg2 arg3 harg3 arg4 harg4 (Memref.whole cc1_scratch0) (Memref.isWhole_whole _)
            (Memref.whole cc1_scratch1) (Memref.isWhole_whole _) (Memref.whole cc1_scratch2) (Memref.isWhole_whole _)) fun _ =>
          iprop(owns (d.tc : Thread nD τ) arg2 fullShare x ∗ owns (d.tc : Thread nD τ) arg3 fullShare y
            ∗ owns (d.tc : Thread nD τ) arg4 fullShare
                (finishBlock (addRows n0 (nomParts (planes x) (tgts y))) (addRows i0 (isumParts (planes x))) (addRows t0 (tsumParts (tgts y))))
            ∗ owns (d.tc : Thread nD τ) (Memref.whole cc1_scratch0) fullShare (addRows n0 (nomParts (planes x) (tgts y)))
            ∗ owns (d.tc : Thread nD τ) (Memref.whole cc1_scratch1) fullShare (addRows i0 (isumParts (planes x)))
            ∗ owns (d.tc : Thread nD τ) (Memref.whole cc1_scratch2) fullShare (addRows t0 (tsumParts (tgts y))))

section Region

variable (Vm : (ℓ : Loc nD τ sig) → Buf (Elt F) ℓ) (B : Dev nD → Set (SemLoc sig × HIx 1))
  (lv : GSem nD τ sig → HIx 1 → ℕ)

abbrev rLoc (d : Dev nD) : Loc nD τ sig := (SparseCore.T d).loc main_v1

def pdats (p : Fin 1) (d : Dev nD) : Dat τ (Elt F) (HIx 1) ℕ UU ℕ (Pipeline.pin (pcfgs (F := F)) adm p) d :=
  dats d (Vm (pLoc d)) (Vm (tLoc d)) (Vm (rLoc d)) (B d) p

local notation "cfgP" => Pipeline.pin (pcfgs (F := F)) adm 0

theorem Phi_even (d : Dev nD) (t : Fin (cfg1.N + 1)) (h : t.val % 2 = 0) : (pdats Vm B 0 d).Φ t =
    iprop((∃ a : Vec F S19x8x512 .f32, owns (d.tc : Thread nD τ) (Memref.whole cc1_scratch0) fullShare a)
      ∗ (∃ a : Vec F S19x8x512 .f32, owns (d.tc : Thread nD τ) (Memref.whole cc1_scratch1) fullShare a)
      ∗ (∃ a : Vec F S19x8x512 .f32, owns (d.tc : Thread nD τ) (Memref.whole cc1_scratch2) fullShare a)) := by
  rw [show (pdats Vm B 0 d).Φ t = ΦAcc d (Vm (pLoc d)) (Vm (tLoc d)) t.val (lt_of_lt_of_eq t.isLt (congrArg (· + 1) (Gen.N_1 : grid1.N = 12))) from rfl]
  unfold ΦAcc
  rw [dif_neg (by omega)]

theorem Phi_odd (d : Dev nD) (t : Fin (cfg1.N + 1)) (h : t.val % 2 = 1) (hlt : t.val < 12) : (pdats Vm B 0 d).Φ t =
    iprop(owns (d.tc : Thread nD τ) (Memref.whole cc1_scratch0) fullShare (nomHalf d (Vm (pLoc d)) (Vm (tLoc d)) (batchOf t.val hlt))
      ∗ owns (d.tc : Thread nD τ) (Memref.whole cc1_scratch1) fullShare (isumHalf d (Vm (pLoc d)) (batchOf t.val hlt))
      ∗ owns (d.tc : Thread nD τ) (Memref.whole cc1_scratch2) fullShare (tsumHalf d (Vm (tLoc d)) (batchOf t.val hlt))) := by
  rw [show (pdats Vm B 0 d).Φ t = ΦAcc d (Vm (pLoc d)) (Vm (tLoc d)) t.val (lt_of_lt_of_eq t.isLt (congrArg (· + 1) (Gen.N_1 : grid1.N = 12))) from rfl]
  unfold ΦAcc
  rw [dif_pos h]

theorem last_val : (Fin.last (Pipeline.pin (pcfgs (F := F)) adm 0).N).val = 12 := Gen.N_1

theorem after0 (d : Dev nD) (t : Fin cfg1.N) : (pdats Vm B 0 d).after 0 t = iblk d (Vm (pLoc d)) (Vm (tLoc d)) (Vm (rLoc d)) 0 t := by
  dsimp only [pdats, dats]
  rfl
theorem after1 (d : Dev nD) (t : Fin cfg1.N) : (pdats Vm B 0 d).after 1 t = iblk d (Vm (pLoc d)) (Vm (tLoc d)) (Vm (rLoc d)) 1 t := by
  dsimp only [pdats, dats]
  rfl
theorem after2 (d : Dev nD) (t : Fin cfg1.N) : (pdats Vm B 0 d).after 2 t = outBlk d (Vm (pLoc d)) (Vm (tLoc d)) (batchOf t.val (N_lt t)) := by
  dsimp only [pdats, dats]
  rfl

theorem before0 (d : Dev nD) (t : Fin cfg1.N) (x) : (pdats Vm B 0 d).before 0 t x = iblk d (Vm (pLoc d)) (Vm (tLoc d)) (Vm (rLoc d)) 0 t := by
  rw [(pdats Vm B 0 d).before_fetched 0 t (Gen.fetch1_0 t) x]
  unfold Dat.fetched Dat.blockOf iblk
  rfl
theorem before1 (d : Dev nD) (t : Fin cfg1.N) (x) : (pdats Vm B 0 d).before 1 t x = iblk d (Vm (pLoc d)) (Vm (tLoc d)) (Vm (rLoc d)) 1 t := by
  rw [(pdats Vm B 0 d).before_fetched 1 t (Gen.fetch1_1 t) x]
  unfold Dat.fetched Dat.blockOf iblk
  rfl

theorem batchOf_succ_even (n : ℕ) (h : n + 1 < 12) (hn : n % 2 = 0) : batchOf (n + 1) h = batchOf n (by omega) :=
  Fin.ext (by show (n + 1) / 2 = n / 2; omega)
theorem halfOf_even (n : ℕ) (hn : n % 2 = 0) : halfOf n = 0 := Fin.ext (by show n % 2 = 0; exact hn)
theorem halfOf_odd (n : ℕ) (hn : n % 2 = 1) : halfOf n = 1 := Fin.ext (by show n % 2 = 1; exact hn)

theorem Phi_succ_first (d : Dev nD) (t : Fin cfg1.N) (hpar : t.val % 2 = 0) : (pdats Vm B 0 d).Φ t.succ =
    iprop(owns (d.tc : Thread nD τ) (Memref.whole cc1_scratch0) fullShare
        (acc0 (nomParts (planes (iblk d (Vm (pLoc d)) (Vm (tLoc d)) (Vm (rLoc d)) 0 t)) (tgts (iblk d (Vm (pLoc d)) (Vm (tLoc d)) (Vm (rLoc d)) 1 t))))
      ∗ owns (d.tc : Thread nD τ) (Memref.whole cc1_scratch1) fullShare
        (acc0 (isumParts (planes (iblk d (Vm (pLoc d)) (Vm (tLoc d)) (Vm (rLoc d)) 0 t))))
      ∗ owns (d.tc : Thread nD τ) (Memref.whole cc1_scratch2) fullShare
        (acc0 (F := F) (tsumParts (tgts (iblk d (Vm (pLoc d)) (Vm (tLoc d)) (Vm (rLoc d)) 1 t))))) := by
  have hlt := N_lt t
  rw [Phi_odd Vm B d t.succ (by show (t.val + 1) % 2 = 1; omega) (by show t.val + 1 < 12; omega)]
  unfold nomHalf isumHalf tsumHalf
  rw [planes_iblk, tgts_iblk, halfOf_even _ hpar]
  rw [show batchOf (t.succ : Fin (cfg1.N + 1)).val (by show t.val + 1 < 12; omega) = batchOf t.val (N_lt t) from
    batchOf_succ_even t.val (by omega) hpar]

theorem outBlk_second (d : Dev nD) (t : Fin cfg1.N) (hodd : t.val % 2 = 1) :
    outBlk d (Vm (pLoc d)) (Vm (tLoc d)) (batchOf t.val (N_lt t)) =
      finishBlock
        (addRows (nomHalf d (Vm (pLoc d)) (Vm (tLoc d)) (batchOf t.val (N_lt t)))
          (nomParts (planes (iblk d (Vm (pLoc d)) (Vm (tLoc d)) (Vm (rLoc d)) 0 t)) (tgts (iblk d (Vm (pLoc d)) (Vm (tLoc d)) (Vm (rLoc d)) 1 t))))
        (addRows (isumHalf d (Vm (pLoc d)) (batchOf t.val (N_lt t))) (isumParts (planes (iblk d (Vm (pLoc d)) (Vm (tLoc d)) (Vm (rLoc d)) 0 t))))
        (addRows (tsumHalf d (Vm (tLoc d)) (batchOf t.val (N_lt t))) (tsumParts (tgts (iblk d (Vm (pLoc d)) (Vm (tLoc d)) (Vm (rLoc d)) 1 t)))) := by
  rw [planes_iblk, tgts_iblk, halfOf_odd _ hodd]
  rfl

set_option maxHeartbeats 800000 in

theorem sound_body (hrun : BodyRun (F := F)) (d : Dev nD) (t : Fin cfg1.N) :
    iprop((pdats Vm B 0 d).Φ t.castSucc ∗ (pdats Vm B 0 d).owesAt (none : HIx 1) t.castSucc
      ∗ (∃ x, owns (d.tc : Thread nD τ) (((cfgP).win 0).stage ((cfgP).slots t 0)) fullShare ((pdats Vm B 0 d).before 0 t x))
      ∗ (∃ x, owns (d.tc : Thread nD τ) (((cfgP).win 1).stage ((cfgP).slots t 1)) fullShare ((pdats Vm B 0 d).before 1 t x))
      ∗ (∃ x, owns (d.tc : Thread nD τ) (((cfgP).win 2).stage ((cfgP).slots t 2)) fullShare ((pdats Vm B 0 d).before 2 t x)))
    ⊢ wp frame (wpE (defs₀ (F := F)) Variants.none (d.tc : Thread nD τ) none) Set.univ (defs₀ (F := F) .tc (cfgP).body ((cfgP).bodyArgs t ((cfgP).slots t))) fun _ =>
      iprop((pdats Vm B 0 d).Φ t.succ ∗ (pdats Vm B 0 d).owesAt (none : HIx 1) t.succ
        ∗ owns (d.tc : Thread nD τ) (((cfgP).win 0).stage ((cfgP).slots t 0)) fullShare ((pdats Vm B 0 d).after 0 t)
        ∗ owns (d.tc : Thread nD τ) (((cfgP).win 1).stage ((cfgP).slots t 1)) fullShare ((pdats Vm B 0 d).after 1 t)
        ∗ (pdats Vm B 0 d).leavesExact 2 t) := by
  simp only [before0 Vm B d t, before1 Vm B d t]
  rw [after0, after1, show (pdats Vm B 0 d).owesAt (none : HIx 1) t.succ = (pdats Vm B 0 d).owesAt (none : HIx 1) t.castSucc from rfl]
  have hlt := N_lt t
  by_cases hpar : t.val % 2 = 0
  ·
    have hi0 : ((grid1.coords t) 1).val = 0 := (coords_half t).trans hpar
    have hidle : (cfgP).idle 2 ((cfgP).grid.coords t) = true := by
      have hc : ¬k1_cond2 (grid1.coords t) = 1#1 := fun h => by have := (cond_half t).mp h; omega
      show (!(k1_cond2 (grid1.coords t) == 1#1)) = true
      simp [hc]
    have hnf : ((cfgP).win 2).flush t = false := Bool.eq_false_iff.mpr fun h => by have := (Gen.flush1_2 t).mp h; omega
    rw [Dat.leavesExact_idle _ 2 t hidle hnf, Phi_even Vm B d t.castSucc hpar, Phi_succ_first Vm B d t hpar]
    iintro ⟨⟨⟨%a0, H0⟩, ⟨%a1, H1⟩, ⟨%a2, H2⟩⟩, HO, ⟨%x0, Hs0⟩, ⟨%x1, Hs1⟩, ⟨%x2, Hs2⟩⟩
    iapply (wp_wand_r frame _ Set.univ)
    isplitl [H0 H1 H2 Hs0 Hs1 Hs2]
    · iapply (hrun.first d (grid1.coords t) _ _ _ _ _ _ _ _ _ a0 a1 a2 hi0)
      isplitl [Hs0]; · iexact Hs0
      isplitl [Hs1]; · iexact Hs1
      isplitl [Hs2]; · iexact Hs2
      isplitl [H0]; · iexact H0
      isplitl [H1]; · iexact H1
      iexact H2
    · iintro %_ ⟨Hs0, Hs1, Hs2, H0, H1, H2⟩
      isplitl [H0 H1 H2]
      · isplitl [H0]; · iexact H0
        isplitl [H1]; · iexact H1
        iexact H2
      isplitl [HO]; · iexact HO
      isplitl [Hs0]; · iexact Hs0
      isplitl [Hs1]; · iexact Hs1
      iexists _; iexact Hs2
  ·
    have hodd : t.val % 2 = 1 := by omega
    have hi1 : ((grid1.coords t) 1).val = 1 := (coords_half t).trans hodd
    have hidle : (cfgP).idle 2 ((cfgP).grid.coords t) = false := by
      have hc : k1_cond2 (grid1.coords t) = 1#1 := (cond_half t).mpr hodd
      show (!(k1_cond2 (grid1.coords t) == 1#1)) = false
      simp [hc]
    rw [show (pdats Vm B 0 d).leavesExact 2 t
          = owns (d.tc : Thread nD τ) (((cfgP).win 2).stage ((cfgP).slots t 2)) fullShare ((pdats Vm B 0 d).after 2 t) from by
        unfold Dat.leavesExact; rw [hidle],
      after2, outBlk_second Vm d t hodd, Phi_odd Vm B d t.castSucc hodd hlt, Phi_even Vm B d t.succ (by show (t.val + 1) % 2 = 0; omega)]
    iintro ⟨⟨H0, H1, H2⟩, HO, ⟨%x0, Hs0⟩, ⟨%x1, Hs1⟩, ⟨%x2, Hs2⟩⟩
    iapply (wp_wand_r frame _ Set.univ)
    isplitl [H0 H1 H2 Hs0 Hs1 Hs2]
    · iapply (hrun.second d (grid1.coords t) _ _ _ _ _ _ _ _ _ _ _ _ hi1)
      isplitl [Hs0]; · iexact Hs0
      isplitl [Hs1]; · iexact Hs1
      isplitl [Hs2]; · iexact Hs2
      isplitl [H0]; · iexact H0
      isplitl [H1]; · iexact H1
      iexact H2
    · iintro %_ ⟨Hs0, Hs1, Hs2, H0, H1, H2⟩
      isplitl [H0 H1 H2]
      · isplitl [H0]; · iexists _; iexact H0
        isplitl [H1]; · iexists _; iexact H1
        iexists _; iexact H2
      isplitl [HO]; · iexact HO
      isplitl [Hs0]; · iexact Hs0
      isplitl [Hs1]; · iexact Hs1
      iexact Hs2

theorem body_obligation (hrun : BodyRun (F := F)) (d : Dev nD) :
    BodyObligation (pdats Vm B 0 d) (defs₀ (F := F)) Variants.none (none : HIx 1) Set.univ := fun t => by
  rw [Gen.bigSep_W1, Gen.bigSep_W1]
  exact sound_body Vm B hrun d t

def regPre (d : Dev nD) : sProp 𝕄 :=
  iprop((pLoc d ↦{fullShare} Vm (pLoc d)) ∗ (tLoc d ↦{fullShare} Vm (tLoc d)) ∗ (rLoc d ↦{fullShare} Vm (rLoc d))
    ∗ Pipeline.owesWithin d (0 : CellTallies nD τ sig (HIx 1)) (B d))

def regPost (d : Dev nD) : sProp 𝕄 :=
  iprop((pLoc d ↦{fullShare} Vm (pLoc d)) ∗ (tLoc d ↦{fullShare} Vm (tLoc d))
    ∗ (∃ out1 : Buf (Elt F) (rLoc d), ⌜SpecTC (Vm (pLoc d)) (Vm (tLoc d)) out1⌝ ∗ (rLoc d ↦{fullShare} out1))
    ∗ Pipeline.owesWithin d (0 : CellTallies nD τ sig (HIx 1)) (B d ∪ cfg1.waitPairs (none : HIx 1)))

theorem arrays_open (d : Dev nD) (Fa) :
    ((pdats Vm B 0 d).arrays Fa : sProp 𝕄) = iprop((pLoc d ↦{fullShare} Fa 0) ∗ (tLoc d ↦{fullShare} Fa 1) ∗ (rLoc d ↦{fullShare} Fa 2)) := by
  rw [Pipeline.arrays_eq (cfgs) (pdats Vm B) 0 d Gen.arr_whole1 ((pdats Vm B 0 d).share_full fun _ => rfl) Fa, Gen.bigSep_W1]

theorem prefHeld_none (d : Dev nD) (q) (pf) :
    (Pipeline.prefHeld (Ix := HIx 1) (Name := ℕ) (U := UU) (Lvl := ℕ) (Val := Elt F) (pcfgs (F := F) 0).pre d q pf : sProp 𝕄) = BI.emp :=
  bigSep_univ_eq_bigSepL [] (Finset.ext fun x => x.elim0) List.nodup_nil _

theorem index2 : ∀ (t : Fin cfg1.N) (a : Fin 3), (cfg1.win 2).index t a = if a = 0 then t.val / 2 else 0 :=
  (by decide +kernel : ∀ (t : Fin grid1.N) (a : Fin 3), win1_2.index t a = if a = 0 then t.val / 2 else 0)

theorem out_emb (t : Fin cfg1.N) (y : ((cfg1.win 2).xblock (cfg1.grid.coords t)).Idx) (a : Fin 3) :
    ((((cfg1.win 2).blk t).view.emb y) a : ℕ) = (if a = 0 then t.val / 2 else 0) * (cfg1.win 2).size a + y a := by
  rw [← index2 t a]; exact (cfg1.win 2).rect_emb_val t y a

theorem out_disj : ∀ t t' : Fin cfg1.N, (cfg1.win 2).flush t = true → (cfg1.win 2).flush t' = true → t ≠ t' →
    Disjoint ((cfg1.win 2).blk t).view.set ((cfg1.win 2).blk t').view.set := by
  intro t t' hf hf' hne
  rw [Gen.flush1_2] at hf hf'
  refine Finset.disjoint_left.mpr fun i hi hi' => ?_
  obtain ⟨y, -, rfl⟩ := Finset.mem_map.mp hi
  obtain ⟨y', -, e⟩ := Finset.mem_map.mp hi'
  have h0 := congrArg (fun j : S6x1x128.Idx => (j 0).val) e
  dsimp only at h0
  rw [out_emb t' y' 0, out_emb t y 0] at h0
  have hy : (y 0).val < 1 := (y 0).isLt
  have hy' : (y' 0).val < 1 := (y' 0).isLt
  simp only [if_true] at h0
  have h0' : t'.val / 2 * 1 + (y' 0).val = t.val / 2 * 1 + (y 0).val := h0
  exact hne (Fin.ext (by omega))

theorem arrAt_out (d : Dev nD) (b : Fin 6) (lane : Fin 128) :
    (pdats Vm B 0 d).arrAt 2 cfg1.N (ix3 b 0 lane)
      = outBlk d (Vm (pLoc d)) (Vm (tLoc d)) (Fin.castLE (by decide) b) (ix3 0 0 lane) := by
  have hN : 2 * b.val + 1 < cfg1.N := by rw [show cfg1.N = 12 from Gen.N_1]; omega
  have hf : (cfg1.win 2).flush ⟨2 * b.val + 1, hN⟩ = true := (Gen.flush1_2 _).mpr (by show (2 * b.val + 1) % 2 = 1; omega)
  have h := (pdats Vm B 0 d).arrAt_emb_eq_flushed 2 out_disj ⟨2 * b.val + 1, hN⟩ hf (ix3 0 0 lane)
  have he : ((cfg1.win 2).blk ⟨2 * b.val + 1, hN⟩).view.emb (ix3 0 0 lane) = ix3 b 0 lane := by
    funext a
    apply Fin.ext
    rw [out_emb]
    match a with
    | ⟨0, _⟩ => show (2 * b.val + 1) / 2 * 1 + 0 = b.val; omega
    | ⟨1, _⟩ => show 0 * 1 + 0 = 0; rfl
    | ⟨2, _⟩ => show 0 * 128 + lane.val = lane.val; omega
  rw [← he]
  refine h.trans ?_
  have hb : batchOf (2 * b.val + 1) (by omega) = Fin.castLE (by decide) b := Fin.ext (by show (2 * b.val + 1) / 2 = b.val; omega)
  rw [← hb]
  rfl

theorem specTC_arrAt (d : Dev nD) : SpecTC (Vm (pLoc d)) (Vm (tLoc d)) ((pdats Vm B 0 d).arrAt 2 cfg1.N) := by
  intro b lane
  rw [arrAt_out]
  rfl

def region (hrun : BodyRun (F := F)) :
    Pipeline.RegionSeg (pcfgs (F := F)) adm (pdats Vm B) (none : HIx 1) defs₀ 𝒱₀ (K (F := F)).L lv 0 where
  win := Gen.winFacts1.to₀
  block_pos := Gen.block_pos1
  stage_whole := Gen.stage_whole1
  K := PEmpty
  osem k := k.elim
  ho := Pipeline.OwnSemFacts.none _
  hbody d := (body_obligation Vm B hrun d).loose
  hwaits := Pipeline.hwaits_of_owed_zero _ _ _ _ _ lv 0 fun _ _ => rfl
  pre := regPre Vm B
  post := regPost Vm B
  X _ := iprop(emp)
  Y _ := iprop(emp)
  Z _ := iprop(emp)
  hentry d := by
    rw [Pipeline.ownSems0_none, arrays_open, prefHeld_none]
    unfold regPre
    iintro ⟨⟨HP, HT, HR, HO⟩, -, -⟩
    imodintro
    isplitl [HP HT HR]
    · isplitl [HP]; · iexact HP
      isplitl [HT]; · iexact HT
      iexact HR
    isplitr; · iempintro
    isplitl [HO]; · iapply (Pipeline.owesWithin_mono d _ Set.subset_union_left); iexact HO
    isplitr <;> iempintro
  hin d := by
    rw [Gen.scopedRest1_eq, Phi_even Vm B d 0 rfl]
    simp only [owns_whole]
    iintro ⟨-, -, H⟩; iexact H
  hout d := by
    rw [Pipeline.ownSems0_none, Gen.scopedRest1_eq, Phi_even Vm B d (Fin.last _) (by rw [last_val (F := F)])]
    simp only [owns_whole]
    iintro H
    isplitr; · iempintro
    isplitr; · iempintro
    iexact H
  hexit d := by
    rw [arrays_open]
    unfold regPost
    iintro ⟨⟨HP, HT, HR⟩, HO, -, -⟩
    imodintro
    isplitl [HP]
    · rw [(pdats Vm B 0 d).arrAt_in 0 rfl]; iexact HP
    isplitl [HT]
    · rw [(pdats Vm B 0 d).arrAt_in 1 rfl]; iexact HT
    isplitl [HR]
    · iexists _
      isplitr; · ipureintro; exact specTC_arrAt Vm B d
      iexact HR
    iexact HO

theorem wp_tc_region (hrun : BodyRun (F := F)) (d : Dev nD) (Φ : PUnit → sProp 𝕄) :
    iprop((iprop(boundary (SparseCore.T d) ∗ regPost Vm B d) -∗ Φ ⟨⟩)
        ∗ boundary (SparseCore.T d) ∗ regPre Vm B d ∗ levAts (K (F := F)).L lv
        ∗ Pipeline.cellsGhost (Pipeline.pin (pcfgs (F := F)) adm) ER 0 d ∗ Pipeline.toksInit (Pipeline.pin (pcfgs (F := F)) adm) ER 0 d)
      ⊢ wp frame (wpE ((K (F := F)).defs D) 𝒱 (SparseCore.T d) none) Set.univ
          (Prog.lift (.customCall (SparseCore.inner (Pipeline.entry 0)) ())) Φ := by
  have h := Pipeline.RegionSeg.wp (pcfgs (F := F)) adm (pdats Vm B) (none : HIx 1) cellOf_inj' ER defs₀ 𝒱₀ (K (F := F)).L lv
    (region Vm B lv hrun) d none (fun _ hu => nomatch hu) (fun _ => .ret ⟨⟩) Φ
  refine BIBase.Entails.trans ?_ (h.trans ((K (F := F)).wp_liftProg D 𝒱 (SparseCore.T d) Set.univ none _ Φ))
  iintro ⟨Hk, Hrest⟩
  isplitl [Hk]
  · iintro Hb
    rw [wp_ret]
    imodintro
    iapply Hk; iexact Hb
  · iexact Hrest

end Region

end Cert.KernelIdeal.TcRegion

end
-- ==== Proof.TcVal.lean ====
import proofs.«216000_g43989055045728_cont_8to1_b_1827_23_alg».proof.Proof.SpecTC
import Idealize.ShloMosaic.Lib.Tactic
import Idealize.ShloMosaic.Lib.WritesUnit
import Idealize.ShloMosaic.Lib.ValueLayout

noncomputable section

namespace Cert.KernelIdeal.TcVal

open Idealize.ShloMosaic Idealize.ShloMosaic.ValueIdx
open Cert.KernelIdeal.Facts₀ Cert.KernelIdeal.Facts

variable {F : FTy → Type} [FloatOps F] [Facts]

def planes (x : Vec F S1x19x256x512 .f32) : Fin 19 → FVec F S256x512 .f32 := fun c i => x (ix4 0 c (i 0) (i 1))

def tgts (y : Vec F S1x256x512 .i32) : IVec S256x512 32 := fun i => y (ix3 0 (i 0) (i 1))

theorem rowInb (c : Fin 19) : ∀ a, (![c.val, 0, 0] : Fin 3 → ℕ) a + S1x8x512.size a ≤ S19x8x512.size a := by
  intro a
  have := c.isLt
  match a with
  | ⟨0, _⟩ => show c.val + 1 ≤ 19; omega
  | ⟨1, _⟩ => show 0 + 8 ≤ 8; omega
  | ⟨2, _⟩ => show 0 + 512 ≤ 512; omega

theorem planeInb (c : Fin 19) : ∀ a, (![0, c.val, 0, 0] : Fin 4 → ℕ) a + S1x1x256x512.size a ≤ S1x19x256x512.size a := by
  intro a
  have := c.isLt
  match a with
  | ⟨0, _⟩ => show 0 + 1 ≤ 1; omega
  | ⟨1, _⟩ => show c.val + 1 ≤ 19; omega
  | ⟨2, _⟩ => show 0 + 256 ≤ 256; omega
  | ⟨3, _⟩ => show 0 + 512 ≤ 512; omega

abbrev rowRect (c : Fin 19) : Rect S19x8x512 := Rect.unit (s := S19x8x512) ![c.val, 0, 0] S1x8x512.size (rowInb c)

abbrev planeRect (c : Fin 19) : Rect S1x19x256x512 := Rect.unit (s := S1x19x256x512) ![0, c.val, 0, 0] S1x1x256x512.size (planeInb c)

def rowPay (part : FVec F S8x512 .f32) (row : Vec F S1x8x512 .f32) : FVec F S1x8x512 .f32 :=
  shapeCast S1x8x512 (addf (shapeCast S8x512 row shapeCasts_S1x8x512_S8x512) part) shapeCasts_S8x512_S1x8x512

theorem rowPay_apply (part : FVec F S8x512 .f32) (row : Vec F S1x8x512 .f32) (a : Fin 8) (b : Fin 512) :
    rowPay part row (ix3 0 a b) = FloatOps.addf (row (ix3 0 a b)) (part (ix2 a b)) := by
  unfold rowPay
  refine (shapeCast_ab_1ab_apply _ shapeCasts_S8x512_S1x8x512 (0 : Fin 1) a b).trans ?_
  show FloatOps.addf (shapeCast S8x512 row shapeCasts_S1x8x512_S8x512 (ix2 a b)) (part (ix2 a b)) = _
  rw [shapeCast_1ab_ab_apply row shapeCasts_S1x8x512_S8x512 a b]

def rowPieces (p : Fin 19 → FVec F S1x8x512 .f32) : List (View.Piece (Elt F) S19x8x512 .f32) :=
  [⟨rowRect 18, p 18⟩, ⟨rowRect 17, p 17⟩, ⟨rowRect 16, p 16⟩, ⟨rowRect 15, p 15⟩, ⟨rowRect 14, p 14⟩, ⟨rowRect 13, p 13⟩, ⟨rowRect 12, p 12⟩, ⟨rowRect 11, p 11⟩, ⟨rowRect 10, p 10⟩, ⟨rowRect 9, p 9⟩, ⟨rowRect 8, p 8⟩, ⟨rowRect 7, p 7⟩, ⟨rowRect 6, p 6⟩, ⟨rowRect 5, p 5⟩, ⟨rowRect 4, p 4⟩, ⟨rowRect 3, p 3⟩, ⟨rowRect 2, p 2⟩, ⟨rowRect 1, p 1⟩, ⟨rowRect 0, p 0⟩]

theorem rowPieces_eq_tilePieces (p : Fin 19 → FVec F S1x8x512 .f32) :
    rowPieces p = View.tilePieces (s := S19x8x512) (e := .f32) (Val := Elt F) S1x8x512.size
      (fun (i : Fin 19) => (![i.val, 0, 0] : Fin 3 → ℕ)) (fun i => rowInb i) p 19 (Nat.le_refl 19) := rfl

theorem read_rowPieces {κ : Kind} {sp : Space} (v : View sig κ sp S19x8x512 .f32) (f : v.ty.Contents (Elt F))
    (p : Fin 19 → FVec F S1x8x512 .f32) (c : Fin 19) (a : Fin 8) (b : Fin 512) :
    v.read (Elt F) (v.writes (Elt F) f (rowPieces p)) (ix3 c a b) = p c (ix3 0 a b) := by
  rw [rowPieces_eq_tilePieces]
  refine View.read_tilePieces v f S1x8x512.size (fun (i : Fin 19) => (![i.val, 0, 0] : Fin 3 → ℕ)) (fun i => rowInb i) p
    19 (Nat.le_refl 19) (ix3 c a b) c c.isLt (ix3 (0 : Fin 1) a b) (fun ax => ?_) ⟨0, by decide⟩ (fun i' hi' => ?_)
  · match ax with
    | ⟨0, _⟩ => show c.val = c.val + 0; omega
    | ⟨1, _⟩ => show a.val = 0 + a.val; omega
    | ⟨2, _⟩ => show b.val = 0 + b.val; omega
  · have hne : i'.val ≠ c.val := fun h => hi' (Fin.ext h)
    show c.val < i'.val ∨ i'.val + 1 ≤ c.val
    omega

theorem rowRect_idx (c : Fin 19) (a : Fin 8) (b : Fin 512) :
    (rowRect c).toLoadRect.idx (ix3 (0 : Fin 1) a b) = ix3 c a b := by
  funext ax
  refine Fin.ext ?_
  match ax with
  | ⟨0, _⟩ => show c.val + 1 * 0 = c.val; omega
  | ⟨1, _⟩ => show 0 + 1 * a.val = a.val; omega
  | ⟨2, _⟩ => show 0 + 1 * b.val = b.val; omega

theorem rowPay_readAt_apply {κ : Kind} {sp : Space} (v : View sig κ sp S19x8x512 .f32) (B : v.ty.Contents (Elt F))
    (part : Fin 19 → FVec F S8x512 .f32) (c : Fin 19) (a : Fin 8) (b : Fin 512) :
    rowPay (part c) (v.readAt (Elt F) (rowRect c).toLoadRect B) (ix3 0 a b)
      = SpecTC.addRows (v.read (Elt F) B) part (ix3 c a b) := by
  rw [rowPay_apply, View.readAt_apply, rowRect_idx]
  rfl

theorem scratch_rows {κ : Kind} {sp : Space} (v : View sig κ sp S19x8x512 .f32) (B : v.ty.Contents (Elt F))
    (part : Fin 19 → FVec F S8x512 .f32) :
    v.read (Elt F) (v.writes (Elt F) B (rowPieces fun c => rowPay (part c) (v.readAt (Elt F) (rowRect c).toLoadRect B)))
      = SpecTC.addRows (v.read (Elt F) B) part := by
  funext y
  obtain ⟨c, a, b, rfl⟩ : ∃ (c : Fin 19) (a : Fin 8) (b : Fin 512), y = ix3 c a b := ⟨y 0, y 1, y 2, eq_ix3 y⟩
  rw [read_rowPieces]
  exact rowPay_readAt_apply v B part c a b

theorem scratch_rows_cov {κ : Kind} {sp : Space} (v : View sig κ sp S19x8x512 .f32) (B : v.ty.Contents (Elt F))
    (part : Fin 19 → FVec F S8x512 .f32) :
    v.readCov (rowPieces fun c => rowPay (part c) (v.readAt (Elt F) (rowRect c).toLoadRect B))
        (Rect.unit (s := S19x8x512) ![0, 0, 0] S19x8x512.size inb_S19x8x512_S19x8x512_0_0_0).toLoadRect
      = SpecTC.addRows (v.read (Elt F) B) part := by
  funext y
  obtain ⟨c, a, b, rfl⟩ : ∃ (c : Fin 19) (a : Fin 8) (b : Fin 512), y = ix3 c a b := ⟨y 0, y 1, y 2, eq_ix3 y⟩
  have hidx : (Rect.unit (s := S19x8x512) ![0, 0, 0] S19x8x512.size inb_S19x8x512_S19x8x512_0_0_0).toLoadRect.idx (ix3 c a b)
      = ix3 c a b := by
    funext ax
    refine Fin.ext ?_
    match ax with
    | ⟨0, _⟩ => show 0 + 1 * c.val = c.val; omega
    | ⟨1, _⟩ => show 0 + 1 * a.val = a.val; omega
    | ⟨2, _⟩ => show 0 + 1 * b.val = b.val; omega
  unfold View.readCov
  rw [View.readAt_apply, hidx, read_rowPieces]
  exact rowPay_readAt_apply v B part c a b

theorem read_writes_unit_zero {κ : Kind} {sp : Space} {S : Shape} {e : EltTy} (v : View sig κ sp S e)
    (f : v.ty.Contents (Elt F)) {off : Fin S.rank → ℕ} (h0 : ∀ a, off a = 0) (inb : ∀ a, off a + S.size a ≤ S.size a)
    (w : S.Idx → Elt F e) :
    v.read (Elt F) (v.writes (Elt F) f [(⟨Rect.unit off S.size inb, w⟩ : View.Piece (Elt F) S e)]) = w := by
  funext y
  exact View.read_writes_cons_unit_of_mem v f inb w [] y y rfl (fun a => by rw [h0 a, Nat.zero_add])

theorem read_writes_whole {κ : Kind} {sp : Space} (v : View sig κ sp S19x8x512 .f32) (f : v.ty.Contents (Elt F))
    (w : FVec F S19x8x512 .f32) :
    v.read (Elt F) (v.writes (Elt F) f
        [⟨Rect.unit (s := S19x8x512) ![0, 0, 0] S19x8x512.size inb_S19x8x512_S19x8x512_0_0_0, w⟩]) = w :=
  read_writes_unit_zero v f (fun a => by
    match a with
    | ⟨0, _⟩ => rfl
    | ⟨1, _⟩ => rfl
    | ⟨2, _⟩ => rfl) inb_S19x8x512_S19x8x512_0_0_0 w

theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

theorem planeRect_idx (c : Fin 19) (i : Fin 256) (j : Fin 512) :
    (planeRect c).toLoadRect.idx (ix4 (0 : Fin 1) (0 : Fin 1) i j) = ix4 0 c i j := by
  funext ax
  refine Fin.ext ?_
  match ax with
  | ⟨0, _⟩ => show 0 + 1 * 0 = 0; omega
  | ⟨1, _⟩ => show c.val + 1 * 0 = c.val; omega
  | ⟨2, _⟩ => show 0 + 1 * i.val = i.val; omega
  | ⟨3, _⟩ => show 0 + 1 * j.val = j.val; omega

theorem plane_read {κ : Kind} {sp : Space} {m : Memref sig κ sp S1x19x256x512 .f32} (h : m.IsWhole)
    (x : Vec F S1x19x256x512 .f32) (c : Fin 19) :
    shapeCast S256x512 (m.view.readAt (Elt F) (planeRect c).toLoadRect (h.unread x)) shapeCasts_S1x1x256x512_S256x512
      = planes x c := by
  funext y
  obtain ⟨i, j, rfl⟩ : ∃ (i : Fin 256) (j : Fin 512), y = ix2 i j := ⟨y 0, y 1, eq_ix2 y⟩
  refine (shapeCast_11ab_ab_apply _ shapeCasts_S1x1x256x512_S256x512 i j).trans ?_
  rw [View.readAt_apply, planeRect_idx]
  exact congrFun (h.read_unread x) _

theorem tgts_read {κ : Kind} {sp : Space} {m : Memref sig κ sp S1x256x512 .i32} (h : m.IsWhole)
    (y : Vec F S1x256x512 .i32) :
    shapeCast S256x512 (m.view.readAt (Elt F)
        (Rect.unit (s := S1x256x512) ![0, 0, 0] S1x256x512.size inb_S1x256x512_S1x256x512_0_0_0).toLoadRect (h.unread y))
        shapeCasts_S1x256x512_S256x512
      = tgts y := by
  funext z
  obtain ⟨i, j, rfl⟩ : ∃ (i : Fin 256) (j : Fin 512), z = ix2 i j := ⟨z 0, z 1, eq_ix2 z⟩
  refine (shapeCast_1ab_ab_apply _ shapeCasts_S1x256x512_S256x512 i j).trans ?_
  have hidx : (Rect.unit (s := S1x256x512) ![0, 0, 0] S1x256x512.size inb_S1x256x512_S1x256x512_0_0_0).toLoadRect.idx
      (ix3 (0 : Fin 1) i j) = ix3 0 i j := by
    funext ax
    refine Fin.ext ?_
    match ax with
    | ⟨0, _⟩ => show 0 + 1 * 0 = 0; omega
    | ⟨1, _⟩ => show 0 + 1 * i.val = i.val; omega
    | ⟨2, _⟩ => show 0 + 1 * j.val = j.val; omega
  rw [View.readAt_apply, hidx]
  exact congrFun (h.read_unread y) _

theorem out_read {κ : Kind} {sp : Space} (v : View sig κ sp S1x1x128 .f32) (f : v.ty.Contents (Elt F))
    (w : FVec F S1x1x128 .f32) :
    v.read (Elt F) (v.writes (Elt F) f
        [⟨Rect.unit (s := S1x1x128) ![0, 0, 0] S1x1x128.size inb_S1x1x128_S1x1x128_0_0_0, w⟩]) = w :=
  read_writes_unit_zero v f (fun a => by
    match a with
    | ⟨0, _⟩ => rfl
    | ⟨1, _⟩ => rfl
    | ⟨2, _⟩ => rfl) inb_S1x1x128_S1x1x128_0_0_0 w

end Cert.KernelIdeal.TcVal
-- ==== Proof.TcBody.lean ====
import proofs.«216000_g43989055045728_cont_8to1_b_1827_23_alg».proof.Proof.Gen.KernelIdeal.Skeleton
import Idealize.ShloMosaic.Lib.Tactic
import Idealize.ShloMosaic.Lib.Pipeline.Frame
import proofs.«216000_g43989055045728_cont_8to1_b_1827_23_alg».proof.Proof.SpecTC
import proofs.«216000_g43989055045728_cont_8to1_b_1827_23_alg».proof.Proof.TcVal

noncomputable section

namespace Cert.KernelIdeal.TcBody

open Idealize.ShloMosaic Idealize.ShloMosaic.TcCoe Idealize.ShloMosaic.ValueIdx
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Tactic
open Cert.KernelIdeal.Facts₀ Cert.KernelIdeal.Facts
open Cert.KernelIdeal.Gen (cc1__dice_tc_body_eq_skeleton cc1__dice_tc_body_skel k1_pay2 k1_pay3 k1_pay4 k1_pay5)
open Cert.KernelIdeal.TcVal

variable {F : FTy → Type} [FloatOps F] [Facts]
variable {Ix : Type} [DecidableEq Ix] {Name : Type} [DecidableEq Name] {U : Type} [URA U] {Lvl : Type} [Preorder Lvl]

local notation "𝕄" => MT nD τ sig Ix (Elt F) Name U Lvl

theorem pay3_eq : (k1_pay3 : FVec F S19x8x512 .f32) = SpecTC.accZero := rfl
theorem pay4_eq : (k1_pay4 : FVec F S19x8x512 .f32) = SpecTC.accZero := rfl
theorem pay5_eq : (k1_pay5 : FVec F S19x8x512 .f32) = SpecTC.accZero := rfl

theorem pay2_eq (a b c : Vec F S19x8x512 .f32) : k1_pay2 a b c = SpecTC.finishBlock a b c := rfl

theorem read_rows_eq {κ : Kind} {sp : Space} (v : View sig κ sp S19x8x512 .f32) (B : v.ty.Contents (Elt F))
    (L : List (View.Piece (Elt F) S19x8x512 .f32)) (part raw : Fin 19 → FVec F S8x512 .f32)
    (hL : L = rowPieces fun c => rowPay (raw c) (v.readAt (Elt F) (rowRect c).toLoadRect B))
    (hraw : ∀ c, raw c = part c) :
    v.read (Elt F) (v.writes (Elt F) B L) = SpecTC.addRows (v.read (Elt F) B) part := by
  subst hL
  have hfun : (fun c => rowPay (raw c) (v.readAt (Elt F) (rowRect c).toLoadRect B))
      = fun c => rowPay (part c) (v.readAt (Elt F) (rowRect c).toLoadRect B) := funext fun c => by rw [hraw c]
  rw [hfun]; exact scratch_rows v B part

set_option maxHeartbeats 0 in
set_option maxRecDepth 100000 in

theorem run_first (𝒱₀ : Variants) (d : Dev nD) (i : grid1.Coords) (hs : (i 1).val = 0)
    (arg2 : Memref sig .tc .vmem S1x19x256x512 .f32) (harg2 : arg2.IsWhole)
    (arg3 : Memref sig .tc .vmem S1x256x512 .i32) (harg3 : arg3.IsWhole)
    (arg4 : Memref sig .tc .vmem S1x1x128 .f32) (harg4 : arg4.IsWhole)
    (x : Vec F S1x19x256x512 .f32) (y : Vec F S1x256x512 .i32) (o : Vec F S1x1x128 .f32)
    (n0 i0 t0 : Vec F S19x8x512 .f32) :
    (iprop(owns (d.tc : Thread nD τ) arg2 fullShare x ∗ owns d.tc arg3 fullShare y ∗ owns d.tc arg4 fullShare o
        ∗ owns d.tc (Memref.whole cc1_scratch0) fullShare n0 ∗ owns d.tc (Memref.whole cc1_scratch1) fullShare i0
        ∗ owns d.tc (Memref.whole cc1_scratch2) fullShare t0) : sProp 𝕄)
      ⊢ wp frame (wpE (defs₀ (F := F)) 𝒱₀ (d.tc : Thread nD τ) none) Set.univ
          (cc1__dice_tc_body (F := F) i arg2 harg2 arg3 harg3 arg4 harg4 (Memref.whole cc1_scratch0) (Memref.isWhole_whole _)
            (Memref.whole cc1_scratch1) (Memref.isWhole_whole _) (Memref.whole cc1_scratch2) (Memref.isWhole_whole _))
          fun _ => iprop(owns d.tc arg2 fullShare x ∗ owns d.tc arg3 fullShare y ∗ owns d.tc arg4 fullShare o
            ∗ owns d.tc (Memref.whole cc1_scratch0) fullShare (SpecTC.addRows SpecTC.accZero (SpecTC.nomParts (planes x) (tgts y)))
            ∗ owns d.tc (Memref.whole cc1_scratch1) fullShare (SpecTC.addRows SpecTC.accZero (SpecTC.isumParts (planes x)))
            ∗ owns d.tc (Memref.whole cc1_scratch2) fullShare (SpecTC.addRows SpecTC.accZero (SpecTC.tsumParts (tgts y)))) := by
  have h2 : ¬ k1_cond2 i = 1#1 := by simp only [k1_cond2, hs]; decide
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩⟩
  obtain rfl := harg2.eq_unread hf2
  obtain rfl := harg3.eq_unread hf3
  obtain rfl := harg4.eq_unread hf4
  obtain rfl := (Memref.isWhole_whole cc1_scratch0).eq_unread hf5
  obtain rfl := (Memref.isWhole_whole cc1_scratch1).eq_unread hf6
  obtain rfl := (Memref.isWhole_whole cc1_scratch2).eq_unread hf7
  rw [cc1__dice_tc_body_eq_skeleton]; unfold cc1__dice_tc_body_skel
  sl_exec_parts (disch := first | assumption | (simp only [hs]; decide))
  sl_step
  have hv2 : run_first.sl.v2 i = 1#1 := by
    show Scalar.cmpi .ne (Scalar.extui (Scalar.cmpi .eq (BitVec.ofNat 32 (i 1).val) 0#32)) 0#32 = 1#1
    rw [hs]; decide
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr; rotate_left
    · iexact H5
    · ipureintro
      refine (read_rows_eq _ _ _ (SpecTC.nomParts (planes x) (tgts y)) (fun c => SpecTC.nomPart (SpecTC.cls c) (shapeCast S256x512 (arg2.view.readAt (Elt F) (planeRect c).toLoadRect (harg2.unread x)) shapeCasts_S1x1x256x512_S256x512) (shapeCast S256x512 (arg3.view.readAt (Elt F)
            (Rect.unit (s := S1x256x512) ![0, 0, 0] S1x256x512.size inb_S1x256x512_S1x256x512_0_0_0).toLoadRect (harg3.unread y)) shapeCasts_S1x256x512_S256x512)) ?_ ?_).trans ?_
      · rfl
      · intro c; rw [plane_read harg2 x c, tgts_read harg3 y]; rfl
      · rw [dif_pos hv2, read_writes_whole, pay3_eq]
  isplitl [H6]
  · iexists _; isplitr; rotate_left
    · iexact H6
    · ipureintro
      refine (read_rows_eq _ _ _ (SpecTC.isumParts (planes x)) (fun c => SpecTC.isumPart (shapeCast S256x512 (arg2.view.readAt (Elt F) (planeRect c).toLoadRect (harg2.unread x)) shapeCasts_S1x1x256x512_S256x512)) ?_ ?_).trans ?_
      · rfl
      · intro c; rw [plane_read harg2 x c]; rfl
      · rw [dif_pos hv2, read_writes_whole, pay4_eq]
  iexists _; isplitr; rotate_left
  · iexact H7
  · ipureintro
    refine (read_rows_eq _ _ _ (SpecTC.tsumParts (F := F) (tgts y)) (fun c => SpecTC.tsumPart (SpecTC.cls c) (shapeCast S256x512 (arg3.view.readAt (Elt F)
          (Rect.unit (s := S1x256x512) ![0, 0, 0] S1x256x512.size inb_S1x256x512_S1x256x512_0_0_0).toLoadRect (harg3.unread y)) shapeCasts_S1x256x512_S256x512)) ?_ ?_).trans ?_
    · rfl
    · intro c; rw [tgts_read harg3 y]; rfl
    · rw [dif_pos hv2, read_writes_whole, pay5_eq]

set_option maxHeartbeats 0 in
set_option maxRecDepth 100000 in

theorem run_second (𝒱₀ : Variants) (d : Dev nD) (i : grid1.Coords) (hs : (i 1).val = 1)
    (arg2 : Memref sig .tc .vmem S1x19x256x512 .f32) (harg2 : arg2.IsWhole)
    (arg3 : Memref sig .tc .vmem S1x256x512 .i32) (harg3 : arg3.IsWhole)
    (arg4 : Memref sig .tc .vmem S1x1x128 .f32) (harg4 : arg4.IsWhole)
    (x : Vec F S1x19x256x512 .f32) (y : Vec F S1x256x512 .i32) (o : Vec F S1x1x128 .f32)
    (n0 i0 t0 : Vec F S19x8x512 .f32) :
    (iprop(owns (d.tc : Thread nD τ) arg2 fullShare x ∗ owns d.tc arg3 fullShare y ∗ owns d.tc arg4 fullShare o
        ∗ owns d.tc (Memref.whole cc1_scratch0) fullShare n0 ∗ owns d.tc (Memref.whole cc1_scratch1) fullShare i0
        ∗ owns d.tc (Memref.whole cc1_scratch2) fullShare t0) : sProp 𝕄)
      ⊢ wp frame (wpE (defs₀ (F := F)) 𝒱₀ (d.tc : Thread nD τ) none) Set.univ
          (cc1__dice_tc_body (F := F) i arg2 harg2 arg3 harg3 arg4 harg4 (Memref.whole cc1_scratch0) (Memref.isWhole_whole _)
            (Memref.whole cc1_scratch1) (Memref.isWhole_whole _) (Memref.whole cc1_scratch2) (Memref.isWhole_whole _))
          fun _ => iprop(owns d.tc arg2 fullShare x ∗ owns d.tc arg3 fullShare y
            ∗ owns d.tc arg4 fullShare (SpecTC.finishBlock
                (SpecTC.addRows n0 (SpecTC.nomParts (planes x) (tgts y)))
                (SpecTC.addRows i0 (SpecTC.isumParts (planes x)))
                (SpecTC.addRows t0 (SpecTC.tsumParts (tgts y))))
            ∗ owns d.tc (Memref.whole cc1_scratch0) fullShare (SpecTC.addRows n0 (SpecTC.nomParts (planes x) (tgts y)))
            ∗ owns d.tc (Memref.whole cc1_scratch1) fullShare (SpecTC.addRows i0 (SpecTC.isumParts (planes x)))
            ∗ owns d.tc (Memref.whole cc1_scratch2) fullShare (SpecTC.addRows t0 (SpecTC.tsumParts (tgts y)))) := by
  have h2 : k1_cond2 i = 1#1 := by simp only [k1_cond2, hs]; decide
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩⟩
  obtain rfl := harg2.eq_unread hf2
  obtain rfl := harg3.eq_unread hf3
  obtain rfl := harg4.eq_unread hf4
  obtain rfl := (Memref.isWhole_whole cc1_scratch0).eq_unread hf5
  obtain rfl := (Memref.isWhole_whole cc1_scratch1).eq_unread hf6
  obtain rfl := (Memref.isWhole_whole cc1_scratch2).eq_unread hf7
  rw [cc1__dice_tc_body_eq_skeleton]; unfold cc1__dice_tc_body_skel
  sl_exec_parts (disch := first | assumption | (simp only [hs]; decide))
  sl_step
  have hv2 : ¬ run_second.sl.v2 i = 1#1 := by
    show ¬ (Scalar.cmpi .ne (Scalar.extui (Scalar.cmpi .eq (BitVec.ofNat 32 (i 1).val) 0#32)) 0#32 = 1#1)
    rw [hs]; decide
  have hL0 : run_second.sl.H5_19 d i arg2 harg2 arg3 harg3 x y n0
      = rowPieces (fun c => rowPay (SpecTC.nomPart (SpecTC.cls c) (shapeCast S256x512 (arg2.view.readAt (Elt F) (planeRect c).toLoadRect (harg2.unread x)) shapeCasts_S1x1x256x512_S256x512) (shapeCast S256x512 (arg3.view.readAt (Elt F)
            (Rect.unit (s := S1x256x512) ![0, 0, 0] S1x256x512.size inb_S1x256x512_S1x256x512_0_0_0).toLoadRect (harg3.unread y)) shapeCasts_S1x256x512_S256x512))
          ((Memref.whole cc1_scratch0).view.readAt (Elt F) (rowRect c).toLoadRect
        (if hc : run_second.sl.v2 i = 1#1 then
          (Memref.whole cc1_scratch0).view.writes (Elt F) ((Memref.isWhole_whole cc1_scratch0).unread n0)
            [⟨Rect.unit (s := S19x8x512) ![0, 0, 0] S19x8x512.size inb_S19x8x512_S19x8x512_0_0_0, k1_pay3⟩]
        else (Memref.isWhole_whole cc1_scratch0).unread n0))) := rfl
  have hL1 : run_second.sl.H6_19 d i arg2 harg2 x i0
      = rowPieces (fun c => rowPay (SpecTC.isumPart (shapeCast S256x512 (arg2.view.readAt (Elt F) (planeRect c).toLoadRect (harg2.unread x)) shapeCasts_S1x1x256x512_S256x512))
          ((Memref.whole cc1_scratch1).view.readAt (Elt F) (rowRect c).toLoadRect
        (if hc : run_second.sl.v2 i = 1#1 then
          (Memref.whole cc1_scratch1).view.writes (Elt F) ((Memref.isWhole_whole cc1_scratch1).unread i0)
            [⟨Rect.unit (s := S19x8x512) ![0, 0, 0] S19x8x512.size inb_S19x8x512_S19x8x512_0_0_0, k1_pay4⟩]
        else (Memref.isWhole_whole cc1_scratch1).unread i0))) := rfl
  have hL2 : run_second.sl.H7_19 d i arg3 harg3 y t0
      = rowPieces (fun c => rowPay (SpecTC.tsumPart (SpecTC.cls c) (shapeCast S256x512 (arg3.view.readAt (Elt F)
            (Rect.unit (s := S1x256x512) ![0, 0, 0] S1x256x512.size inb_S1x256x512_S1x256x512_0_0_0).toLoadRect (harg3.unread y)) shapeCasts_S1x256x512_S256x512))
          ((Memref.whole cc1_scratch2).view.readAt (Elt F) (rowRect c).toLoadRect
        (if hc : run_second.sl.v2 i = 1#1 then
          (Memref.whole cc1_scratch2).view.writes (Elt F) ((Memref.isWhole_whole cc1_scratch2).unread t0)
            [⟨Rect.unit (s := S19x8x512) ![0, 0, 0] S19x8x512.size inb_S19x8x512_S19x8x512_0_0_0, k1_pay5⟩]
        else (Memref.isWhole_whole cc1_scratch2).unread t0))) := rfl
  have hM0 : run_second.sl.H5_19 d i arg2 harg2 arg3 harg3 x y n0
      = rowPieces (fun c => rowPay (SpecTC.nomPart (SpecTC.cls c) (planes x c) (tgts y))
          ((Memref.whole cc1_scratch0).view.readAt (Elt F) (rowRect c).toLoadRect ((Memref.isWhole_whole cc1_scratch0).unread n0))) := by
    rw [hL0, dif_neg hv2]
    refine congrArg rowPieces (funext fun c => ?_)
    dsimp only
    rw [plane_read harg2 x c, tgts_read harg3 y]
  have hM1 : run_second.sl.H6_19 d i arg2 harg2 x i0
      = rowPieces (fun c => rowPay (SpecTC.isumPart (planes x c))
          ((Memref.whole cc1_scratch1).view.readAt (Elt F) (rowRect c).toLoadRect ((Memref.isWhole_whole cc1_scratch1).unread i0))) := by
    rw [hL1, dif_neg hv2]
    refine congrArg rowPieces (funext fun c => ?_)
    dsimp only
    rw [plane_read harg2 x c]
  have hM2 : run_second.sl.H7_19 d i arg3 harg3 y t0
      = rowPieces (fun c => rowPay (SpecTC.tsumPart (SpecTC.cls c) (tgts y))
          ((Memref.whole cc1_scratch2).view.readAt (Elt F) (rowRect c).toLoadRect ((Memref.isWhole_whole cc1_scratch2).unread t0))) := by
    rw [hL2, dif_neg hv2]
    refine congrArg rowPieces (funext fun c => ?_)
    dsimp only
    rw [tgts_read harg3 y]
  have e5 : (Memref.whole cc1_scratch0).view.read (Elt F) ((Memref.whole cc1_scratch0).view.writes (Elt F)
        (if hc : run_second.sl.v2 i = 1#1 then
          (Memref.whole cc1_scratch0).view.writes (Elt F) ((Memref.isWhole_whole cc1_scratch0).unread n0)
            [⟨Rect.unit (s := S19x8x512) ![0, 0, 0] S19x8x512.size inb_S19x8x512_S19x8x512_0_0_0, k1_pay3⟩]
        else (Memref.isWhole_whole cc1_scratch0).unread n0)
        (run_second.sl.H5_19 d i arg2 harg2 arg3 harg3 x y n0))
      = SpecTC.addRows n0 (SpecTC.nomParts (planes x) (tgts y)) := by
    rw [hM0, dif_neg hv2]
    exact (scratch_rows (Memref.whole cc1_scratch0).view ((Memref.isWhole_whole cc1_scratch0).unread n0) (SpecTC.nomParts (planes x) (tgts y))).trans (by rw [hf5])
  have e6 : (Memref.whole cc1_scratch1).view.read (Elt F) ((Memref.whole cc1_scratch1).view.writes (Elt F)
        (if hc : run_second.sl.v2 i = 1#1 then
          (Memref.whole cc1_scratch1).view.writes (Elt F) ((Memref.isWhole_whole cc1_scratch1).unread i0)
            [⟨Rect.unit (s := S19x8x512) ![0, 0, 0] S19x8x512.size inb_S19x8x512_S19x8x512_0_0_0, k1_pay4⟩]
        else (Memref.isWhole_whole cc1_scratch1).unread i0)
        (run_second.sl.H6_19 d i arg2 harg2 x i0))
      = SpecTC.addRows i0 (SpecTC.isumParts (planes x)) := by
    rw [hM1, dif_neg hv2]
    exact (scratch_rows (Memref.whole cc1_scratch1).view ((Memref.isWhole_whole cc1_scratch1).unread i0) (SpecTC.isumParts (planes x))).trans (by rw [hf6])
  have e7 : (Memref.whole cc1_scratch2).view.read (Elt F) ((Memref.whole cc1_scratch2).view.writes (Elt F)
        (if hc : run_second.sl.v2 i = 1#1 then
          (Memref.whole cc1_scratch2).view.writes (Elt F) ((Memref.isWhole_whole cc1_scratch2).unread t0)
            [⟨Rect.unit (s := S19x8x512) ![0, 0, 0] S19x8x512.size inb_S19x8x512_S19x8x512_0_0_0, k1_pay5⟩]
        else (Memref.isWhole_whole cc1_scratch2).unread t0)
        (run_second.sl.H7_19 d i arg3 harg3 y t0))
      = SpecTC.addRows t0 (SpecTC.tsumParts (F := F) (tgts y)) := by
    rw [hM2, dif_neg hv2]
    exact (scratch_rows (Memref.whole cc1_scratch2).view ((Memref.isWhole_whole cc1_scratch2).unread t0) (SpecTC.tsumParts (F := F) (tgts y))).trans (by rw [hf7])
  have c5 : run_second.sl.v635 d i arg2 harg2 arg3 harg3 x y n0 = SpecTC.addRows n0 (SpecTC.nomParts (planes x) (tgts y)) := by
    show (Memref.whole cc1_scratch0).view.readCov (run_second.sl.H5_19 d i arg2 harg2 arg3 harg3 x y n0) (Rect.unit (s := S19x8x512) ![0, 0, 0] S19x8x512.size inb_S19x8x512_S19x8x512_0_0_0).toLoadRect = _
    rw [hM0]
    exact (scratch_rows_cov (Memref.whole cc1_scratch0).view ((Memref.isWhole_whole cc1_scratch0).unread n0) (SpecTC.nomParts (planes x) (tgts y))).trans (by rw [hf5])
  have c6 : run_second.sl.v637 d i arg2 harg2 x i0 = SpecTC.addRows i0 (SpecTC.isumParts (planes x)) := by
    show (Memref.whole cc1_scratch1).view.readCov (run_second.sl.H6_19 d i arg2 harg2 x i0) (Rect.unit (s := S19x8x512) ![0, 0, 0] S19x8x512.size inb_S19x8x512_S19x8x512_0_0_0).toLoadRect = _
    rw [hM1]
    exact (scratch_rows_cov (Memref.whole cc1_scratch1).view ((Memref.isWhole_whole cc1_scratch1).unread i0) (SpecTC.isumParts (planes x))).trans (by rw [hf6])
  have c7 : run_second.sl.v639 d i arg3 harg3 y t0 = SpecTC.addRows t0 (SpecTC.tsumParts (F := F) (tgts y)) := by
    show (Memref.whole cc1_scratch2).view.readCov (run_second.sl.H7_19 d i arg3 harg3 y t0) (Rect.unit (s := S19x8x512) ![0, 0, 0] S19x8x512.size inb_S19x8x512_S19x8x512_0_0_0).toLoadRect = _
    rw [hM2]
    exact (scratch_rows_cov (Memref.whole cc1_scratch2).view ((Memref.isWhole_whole cc1_scratch2).unread t0) (SpecTC.tsumParts (F := F) (tgts y))).trans (by rw [hf7])
  have e4 : arg4.view.read (Elt F) (arg4.view.writes (Elt F) (harg4.unread o)
        [⟨Rect.unit (s := S1x1x128) ![0, 0, 0] S1x1x128.size inb_S1x1x128_S1x1x128_0_0_0,
          k1_pay2 (run_second.sl.v635 d i arg2 harg2 arg3 harg3 x y n0) (run_second.sl.v637 d i arg2 harg2 x i0) (run_second.sl.v639 d i arg3 harg3 y t0)⟩])
      = SpecTC.finishBlock (SpecTC.addRows n0 (SpecTC.nomParts (planes x) (tgts y))) (SpecTC.addRows i0 (SpecTC.isumParts (planes x))) (SpecTC.addRows t0 (SpecTC.tsumParts (F := F) (tgts y))) := by
    rw [out_read, pay2_eq, c5, c6, c7]
  isplitl [H2]
  · iexists _; isplitr
    · ipureintro; exact hf2
    · iexact H2
  isplitl [H3]
  · iexists _; isplitr
    · ipureintro; exact hf3
    · iexact H3
  isplitl [H4]
  · iexists _; isplitr
    · ipureintro; exact e4
    · iexact H4
  isplitl [H5]
  · iexists _; isplitr
    · ipureintro; exact e5
    · iexact H5
  isplitl [H6]
  · iexists _; isplitr
    · ipureintro; exact e6
    · iexact H6
  iexists _; isplitr
  · ipureintro; exact e7
  · iexact H7

end Cert.KernelIdeal.TcBody
-- ==== Proof.TcBridge.lean ====
import proofs.«216000_g43989055045728_cont_8to1_b_1827_23_alg».proof.Proof.TcRegion
import proofs.«216000_g43989055045728_cont_8to1_b_1827_23_alg».proof.Proof.TcBody

noncomputable section

namespace Cert.KernelIdeal.TcBridge

open Cert.KernelIdeal Cert.KernelIdeal.Gen Cert.KernelIdeal.PayDefs Cert.KernelIdeal.SpecTC
open Cert.KernelIdeal.Facts₀ Cert.KernelIdeal.Facts
open Idealize.ShloMosaic Idealize.ShloMosaic.TcCoe Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem planes_eq (x : Vec F S1x19x256x512 .f32) : TcRegion.planes x = TcVal.planes x := rfl
theorem tgts_eq (y : Vec F S1x256x512 .i32) : TcRegion.tgts y = TcVal.tgts y := rfl

theorem bodyRun : TcRegion.BodyRun (F := F) where
  first d i arg2 harg2 arg3 harg3 arg4 harg4 x y o n0 i0 t0 hi := by
    simp only [planes_eq, tgts_eq]
    exact TcBody.run_first (F := F) (Ix := HIx 1) (Name := ℕ) (U := UU) (Lvl := ℕ) Variants.none d i hi
      arg2 harg2 arg3 harg3 arg4 harg4 x y o n0 i0 t0
  second d i arg2 harg2 arg3 harg3 arg4 harg4 x y o n0 i0 t0 hi := by
    simp only [planes_eq, tgts_eq]
    exact TcBody.run_second (F := F) (Ix := HIx 1) (Name := ℕ) (U := UU) (Lvl := ℕ) Variants.none d i hi
      arg2 harg2 arg3 harg3 arg4 harg4 x y o n0 i0 t0

end Cert.KernelIdeal.TcBridge

end
-- ==== Proof.HostTail.lean ====
import proofs.«216000_g43989055045728_cont_8to1_b_1827_23_alg».proof.KernelIdeal
import proofs.«216000_g43989055045728_cont_8to1_b_1827_23_alg».proof.Proof.Tail
import Idealize.ShloMosaic.Lib.StableHlo.Run

noncomputable section

namespace Cert.KernelIdeal.HostTail

open Idealize.ShloMosaic Idealize.SL.Sem Cert.KernelIdeal

variable {F : FTy → Type} [FloatOps F] [Facts]
open Facts₀ Facts

def hostOps : List (HloOp τ sig (Elt F)) :=
  [ StableHlo.unary main_v1 main_v2 ((extractStridedSlice S6x1x1 ![0, 0, 0] · slices_S6x1x128_S6x1x1_0_0_0) : (⟨S6x1x128, .f32⟩ : BufTy).Contents (Elt F) → (⟨S6x1x1, .f32⟩ : BufTy).Contents (Elt F)),
    StableHlo.reshape main_v2 main_v3 rfl shapeCasts_S6x1x1_S6,
    StableHlo.reshape main_v0 main_v4 rfl shapeCasts_S61440_S32x3x40x16,
    StableHlo.nullary main_cst (constant S_ .f32 0x00000000#32),
    StableHlo.binary main_v4 main_cst main_v5 ((fun x v => Host.reduceAdd x v reducesTo_S32x3x40x16_S3x40_d0_3 h_S_) : (⟨S32x3x40x16, .f32⟩ : BufTy).Contents (Elt F) → (⟨S_, .f32⟩ : BufTy).Contents (Elt F) → (⟨S3x40, .f32⟩ : BufTy).Contents (Elt F)),
    StableHlo.unary main_v5 main_v6 ((extractStridedSlice S1x38 ![0, 0] · slices_S3x40_S1x38_0_0) : (⟨S3x40, .f32⟩ : BufTy).Contents (Elt F) → (⟨S1x38, .f32⟩ : BufTy).Contents (Elt F)),
    StableHlo.reshape main_v6 main_v7 rfl shapeCasts_S1x38_S38,
    StableHlo.reshape main_v7 main_v8 rfl shapeCasts_S38_S2x19,
    StableHlo.unary main_v5 main_v9 ((extractStridedSlice S1x38 ![1, 0] · slices_S3x40_S1x38_1_0) : (⟨S3x40, .f32⟩ : BufTy).Contents (Elt F) → (⟨S1x38, .f32⟩ : BufTy).Contents (Elt F)),
    StableHlo.reshape main_v9 main_v10 rfl shapeCasts_S1x38_S38,
    StableHlo.reshape main_v10 main_v11 rfl shapeCasts_S38_S2x19,
    StableHlo.unary main_v5 main_v12 ((extractStridedSlice S1x38 ![2, 0] · slices_S3x40_S1x38_2_0) : (⟨S3x40, .f32⟩ : BufTy).Contents (Elt F) → (⟨S1x38, .f32⟩ : BufTy).Contents (Elt F)),
    StableHlo.reshape main_v12 main_v13 rfl shapeCasts_S1x38_S38,
    StableHlo.reshape main_v13 main_v14 rfl shapeCasts_S38_S2x19,
    StableHlo.nullary main_cst_0 (constant S_ .f32 0x40000000#32),
    StableHlo.unary main_cst_0 main_v15 (broadcastInDim S2x19 ![] bcast_S_S2x19 : (⟨S_, .f32⟩ : BufTy).Contents (Elt F) → (⟨S2x19, .f32⟩ : BufTy).Contents (Elt F)),
    StableHlo.binary main_v15 main_v8 main_v16 (mulf : (⟨S2x19, .f32⟩ : BufTy).Contents (Elt F) → (⟨S2x19, .f32⟩ : BufTy).Contents (Elt F) → (⟨S2x19, .f32⟩ : BufTy).Contents (Elt F)),
    StableHlo.nullary main_cst_1 (constant S_ .f32 0x3F800000#32),
    StableHlo.unary main_cst_1 main_v17 (broadcastInDim S2x19 ![] bcast_S_S2x19 : (⟨S_, .f32⟩ : BufTy).Contents (Elt F) → (⟨S2x19, .f32⟩ : BufTy).Contents (Elt F)),
    StableHlo.binary main_v16 main_v17 main_v18 (addf : (⟨S2x19, .f32⟩ : BufTy).Contents (Elt F) → (⟨S2x19, .f32⟩ : BufTy).Contents (Elt F) → (⟨S2x19, .f32⟩ : BufTy).Contents (Elt F)),
    StableHlo.binary main_v11 main_v14 main_v19 (addf : (⟨S2x19, .f32⟩ : BufTy).Contents (Elt F) → (⟨S2x19, .f32⟩ : BufTy).Contents (Elt F) → (⟨S2x19, .f32⟩ : BufTy).Contents (Elt F)),
    StableHlo.nullary main_cst_2 (constant S_ .f32 0x3F800000#32),
    StableHlo.unary main_cst_2 main_v20 (broadcastInDim S2x19 ![] bcast_S_S2x19 : (⟨S_, .f32⟩ : BufTy).Contents (Elt F) → (⟨S2x19, .f32⟩ : BufTy).Contents (Elt F)),
    StableHlo.binary main_v19 main_v20 main_v21 (addf : (⟨S2x19, .f32⟩ : BufTy).Contents (Elt F) → (⟨S2x19, .f32⟩ : BufTy).Contents (Elt F) → (⟨S2x19, .f32⟩ : BufTy).Contents (Elt F)),
    StableHlo.binary main_v18 main_v21 main_v22 (Host.divf : (⟨S2x19, .f32⟩ : BufTy).Contents (Elt F) → (⟨S2x19, .f32⟩ : BufTy).Contents (Elt F) → (⟨S2x19, .f32⟩ : BufTy).Contents (Elt F)),
    StableHlo.nullary main_cst_3 (constant S_ .f32 0x00000000#32),
    StableHlo.binary main_v22 main_cst_3 main_v23 ((fun x v => Host.reduceAdd x v reducesTo_S2x19_S2_d1 h_S_) : (⟨S2x19, .f32⟩ : BufTy).Contents (Elt F) → (⟨S_, .f32⟩ : BufTy).Contents (Elt F) → (⟨S2, .f32⟩ : BufTy).Contents (Elt F)),
    StableHlo.nullary main_cst_4 (constant S_ .f32 0x41980000#32),
    StableHlo.unary main_cst_4 main_v24 (broadcastInDim S2 ![] bcast_S_S2 : (⟨S_, .f32⟩ : BufTy).Contents (Elt F) → (⟨S2, .f32⟩ : BufTy).Contents (Elt F)),
    StableHlo.binary main_v23 main_v24 main_v25 (Host.divf : (⟨S2, .f32⟩ : BufTy).Contents (Elt F) → (⟨S2, .f32⟩ : BufTy).Contents (Elt F) → (⟨S2, .f32⟩ : BufTy).Contents (Elt F)),
    StableHlo.unary main_v25 main_v26 (Host.negf : (⟨S2, .f32⟩ : BufTy).Contents (Elt F) → (⟨S2, .f32⟩ : BufTy).Contents (Elt F)),
    StableHlo.binary main_v3 main_v26 main_v27 ((fun a b => concatenate S8 0 [⟨S6, a⟩, ⟨S2, b⟩] concatenates_S6_S2_S8_d0) : (⟨S6, .f32⟩ : BufTy).Contents (Elt F) → (⟨S2, .f32⟩ : BufTy).Contents (Elt F) → (⟨S8, .f32⟩ : BufTy).Contents (Elt F)) ]

theorem main_eq (d : Dev nD) :
    main (F := F) d
      = (sc.run d 0 >>= fun _ =>
          (Prog.lift (.customCall (SparseCore.inner (Pipeline.entry 0)) ()) >>= fun _ => StableHlo.seq hostOps)) := rfl

def tcArrays : Finset (DevRef τ sig) :=
  (Finset.univ.filter fun b : Ref sig .tc => ¬ b.isScoped).map ⟨Proc.devRef (τ := τ) .tc, Proc.devRef_injective _⟩

theorem mem_tcArrays {r : Ref sig .tc} (h : (Proc.devRef (τ := τ) .tc r : DevRef τ sig).isScoped = false) :
    Proc.devRef (τ := τ) .tc r ∈ tcArrays :=
  Finset.mem_map_of_mem _ (Finset.mem_filter.mpr ⟨Finset.mem_univ _, Bool.eq_false_iff.mp h⟩)

section Builders
variable {x y a b : Ref sig .tc}

theorem nullary_sub (v : y.ty.Contents (Elt F)) (hy) :
    (StableHlo.nullary (τ := τ) y v hy).bufs ⊆ tcArrays :=
  Finset.singleton_subset_iff.mpr (mem_tcArrays hy.2)
theorem unary_sub (f : x.ty.Contents (Elt F) → y.ty.Contents (Elt F)) (hx hy) :
    (StableHlo.unary (τ := τ) x y f hx hy).bufs ⊆ tcArrays :=
  Finset.insert_subset (mem_tcArrays hx.2) (Finset.singleton_subset_iff.mpr (mem_tcArrays hy.2))
theorem reshape_sub (he hn hx hy) :
    (StableHlo.reshape (τ := τ) (Val := Elt F) x y he hn hx hy).bufs ⊆ tcArrays :=
  Finset.insert_subset (mem_tcArrays hx.2) (Finset.singleton_subset_iff.mpr (mem_tcArrays hy.2))
theorem binary_sub (f : a.ty.Contents (Elt F) → b.ty.Contents (Elt F) → y.ty.Contents (Elt F)) (ha hb hy) :
    (StableHlo.binary (τ := τ) a b y f ha hb hy).bufs ⊆ tcArrays :=
  Finset.insert_subset (mem_tcArrays ha.2)
    (Finset.insert_subset (mem_tcArrays hb.2) (Finset.singleton_subset_iff.mpr (mem_tcArrays hy.2)))

end Builders

theorem hostOps_bufs : ∀ op ∈ hostOps (F := F), op.bufs ⊆ tcArrays := by
  unfold hostOps
  exact List.forall_iff_forall_mem.mp
    ⟨unary_sub .., reshape_sub .., reshape_sub .., nullary_sub .., binary_sub .., unary_sub .., reshape_sub .., reshape_sub .., unary_sub .., reshape_sub .., reshape_sub .., unary_sub .., reshape_sub .., reshape_sub .., nullary_sub .., unary_sub .., binary_sub .., nullary_sub .., unary_sub .., binary_sub .., binary_sub .., nullary_sub .., unary_sub .., binary_sub .., binary_sub .., nullary_sub .., binary_sub .., nullary_sub .., unary_sub .., binary_sub .., unary_sub .., binary_sub ..⟩

theorem hostOps_fresh : ∀ op ∈ hostOps (F := F), op.fresh = ∅ := by
  unfold hostOps
  exact List.forall_iff_forall_mem.mp
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

open Idealize.ShloMosaic.StableHlo in
set_option maxHeartbeats 2000000 in

theorem after_v27 (V : Valuation τ sig (Elt F)) :
    StableHlo.after (hostOps (F := F)) V (Proc.devRef .tc main_v27)
      = Cert.KernelIdeal.Tail.tailOf (V (Proc.devRef .tc main_v0)) (V (Proc.devRef .tc main_v1)) := by
  unfold hostOps
  after_results <;> rfl

open Idealize.ShloMosaic.StableHlo in
set_option maxHeartbeats 2000000 in

theorem after_arg0 (V : Valuation τ sig (Elt F)) :
    StableHlo.after (hostOps (F := F)) V (Proc.devRef .tc main_arg0) = V (Proc.devRef .tc main_arg0) := by
  unfold hostOps
  after_results <;> rfl

open Idealize.ShloMosaic.StableHlo in
set_option maxHeartbeats 2000000 in

theorem after_arg1 (V : Valuation τ sig (Elt F)) :
    StableHlo.after (hostOps (F := F)) V (Proc.devRef .tc main_arg1) = V (Proc.devRef .tc main_arg1) := by
  unfold hostOps
  after_results <;> rfl

end Cert.KernelIdeal.HostTail

end
-- ==== Proof.Run.lean ====
import proofs.«216000_g43989055045728_cont_8to1_b_1827_23_alg».proof.Proof.Launch
import proofs.«216000_g43989055045728_cont_8to1_b_1827_23_alg».proof.Proof.ScBody
import proofs.«216000_g43989055045728_cont_8to1_b_1827_23_alg».proof.Proof.TcRegion
import proofs.«216000_g43989055045728_cont_8to1_b_1827_23_alg».proof.Proof.TcBody
import proofs.«216000_g43989055045728_cont_8to1_b_1827_23_alg».proof.Proof.TcBridge
import proofs.«216000_g43989055045728_cont_8to1_b_1827_23_alg».proof.Proof.HostTail

noncomputable section

namespace Cert.KernelIdeal.Run

open Idealize.ShloMosaic Idealize.SL.Sem Cert.KernelIdeal

variable {F : FTy → Type} [FloatOps F]

theorem tileBody (m : (ℓ : Loc nD τ sig) → Buf (Elt F) ℓ) : Launch.TileBody m :=
  fun d L O W hO => ScBody.tile_body m d L O W hO

theorem tcRegion : Launch.TcRegion (F := F) :=
  fun Vm B lv d Φ => TcRegion.wp_tc_region Vm B lv TcBridge.bodyRun d Φ

def tailFacts : Launch.TailFacts F :=
  ⟨HostTail.hostOps, HostTail.main_eq, HostTail.hostOps_bufs, HostTail.hostOps_fresh,
    HostTail.after_v27, HostTail.after_arg0, HostTail.after_arg1⟩

theorem run [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ (Launch.QC m) :=
  Launch.run_main m ρ (tileBody m) tcRegion tailFacts

end Cert.KernelIdeal.Run

end
-- ==== Proof.KW.PayDefs.lean ====
import proofs.«216000_g43989055045728_cont_8to1_b_1827_23_alg».proof.Kernel
import proofs.«216000_g43989055045728_cont_8to1_b_1827_23_alg».proof.Proof.Gen.Kernel
import proofs.«216000_g43989055045728_cont_8to1_b_1827_23_alg».proof.Proof.SpecSC
import Idealize.ShloMosaic.Lib.SparseCore.Launch
import Idealize.ShloMosaic.Lib.Pipeline.Kit
import Idealize.ShloMosaic.Lib.Transfers

noncomputable section

namespace Cert.Kernel.PayDefs

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = grid0.bound 0 := rfl
theorem nSub_zero : (K (F := F)).nSub 0 = grid0.bound 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ

abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

def ER : Emb UP (MT nD τ sig (HIx 1) (Elt F) ℕ UU ℕ) :=
  (Emb.inl : Emb UP (UP × Counters)).trans
    ((Emb.inr : Emb (UP × Counters) UU).trans (uEmb (nD := nD) (sig := sig) (Ix := HIx 1) (Val := Elt F) (Name := ℕ) (U := UU) (Lvl := ℕ)).toEmb)

instance ER_landsIn : (ER : Emb UP 𝕄).LandsIn (upEmb : UEmb _ 𝕄) := by unfold ER; infer_instance

variable (m : (ℓ : Loc nD τ sig) → Buf (Elt F) ℓ) (ρ : Dev nD → PrngReg)

abbrev pLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

abbrev pV : Memref sig .scVector .hbm S8x19x512x512 .f32 := Memref.whole main_arg0_scv
abbrev tV : Memref sig .scVector .hbm S8x512x512 .i32 := Memref.whole main_arg1_scv
abbrev oV : Memref sig .scVector .hbm S61440 .f32 := Memref.whole main_v0_scv

abbrev sT : Memref sig .scVector .vmem S32x512 .i32 := Memref.whole cc0_scratch0
abbrev sA : Memref sig .scVector .vmem S16x512 .f32 := Memref.whole cc0_scratch1
abbrev sB : Memref sig .scVector .vmem S16x512 .f32 := Memref.whole cc0_scratch2
abbrev sR : Memref sig .scVector .vmem S1920 .f32 := Memref.whole cc0_scratch3

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

abbrev tileThr (d : Dev nD) (L : grid0.Coords) : Thread nD τ := V d (cV L) (jV L)

abbrev widOf (L : grid0.Coords) : ℕ := 2 * (L 1).val + (L 0).val

abbrev oSl (L : grid0.Coords) : Memref sig .scVector .hbm S1920 .f32 :=
  (oV).slice (Rect.unit (s := S61440) (k0_off193 L) S1920.size (k0_off193_inb L)) (fun _ => rfl)

abbrev oSet (L : grid0.Coords) : Finset S61440.Idx := (oSl L).view.set

def qC (c : ℕ) : PosShare TreeShare := Transfers.shareTokN fullShare c

def qT (c s : ℕ) : PosShare TreeShare := Transfers.shareTokN (qC c) s
abbrev qL (L : grid0.Coords) : PosShare TreeShare := qT (L 0).val (L 1).val

variable [FloatOps F]

def tileGo (d : Dev nD) (L : grid0.Coords) : sProp 𝕄 :=
  iprop(((pV).view.loc (tileThr d L) ↦{qL L} m (pLoc d))
    ∗ ((tV).view.loc (tileThr d L) ↦{qL L} m (tLoc d))
    ∗ ((oSl L).view.loc (tileThr d L) ↦[(oSl L).view.set]{fullShare} m (oLoc d)))

def tileTd (d : Dev nD) (L : grid0.Coords) : sProp 𝕄 :=
  iprop(((pV).view.loc (tileThr d L) ↦{qL L} m (pLoc d))
    ∗ ((tV).view.loc (tileThr d L) ↦{qL L} m (tLoc d))
    ∗ ∃ f : Buf (Elt F) (oLoc d), ⌜Cert.SpecSC.TileSpec (m (pLoc d)) (m (tLoc d)) (widOf L) f⌝
        ∗ ((oSl L).view.loc (tileThr d L) ↦[(oSl L).view.set]{fullShare} f))

def coreSt (d : Dev nD) (c : Fin (grid0.bound 0)) : sProp 𝕄 :=
  iprop((pLoc d ↦{qC c.val} m (pLoc d)) ∗ (tLoc d ↦{qC c.val} m (tLoc d))
    ∗ bigSep Finset.univ fun s : Fin (grid0.bound 1) => oLoc d ↦[oSet (coordsV c s)]{fullShare} m (oLoc d))

def coreDn (d : Dev nD) (c : Fin (grid0.bound 0)) : sProp 𝕄 :=
  iprop((pLoc d ↦{qC c.val} m (pLoc d)) ∗ (tLoc d ↦{qC c.val} m (tLoc d))
    ∗ bigSep Finset.univ fun s : Fin (grid0.bound 1) =>
        iprop(∃ f : Buf (Elt F) (oLoc d), ⌜Cert.SpecSC.TileSpec (m (pLoc d)) (m (tLoc d)) (widOf (coordsV c s)) f⌝
          ∗ oLoc d ↦[oSet (coordsV c s)]{fullShare} f))

instance tileGo_storable (d : Dev nD) (L : grid0.Coords) : BI.Storable (upEmb : UEmb _ 𝕄) (tileGo m d L) := by
  unfold tileGo; infer_instance
instance tileTd_storable (d : Dev nD) (L : grid0.Coords) : BI.Storable (upEmb : UEmb _ 𝕄) (tileTd m d L) := by
  unfold tileTd; infer_instance
instance coreSt_storable (d : Dev nD) (c : Fin (grid0.bound 0)) : BI.Storable (upEmb : UEmb _ 𝕄) (coreSt m d c) := by
  unfold coreSt; infer_instance
instance coreDn_storable (d : Dev nD) (c : Fin (grid0.bound 0)) : BI.Storable (upEmb : UEmb _ 𝕄) (coreDn m d c) := by
  unfold coreDn; infer_instance

def P : (K (F := F)).Pay (nD := nD) (Val := Elt F) (Name := ℕ) (U := UU) where
  st := fun q d c => match q with | 0 => coreSt m d (Fin.cast nCore_zero c)
  dn := fun q d c => match q with | 0 => coreDn m d (Fin.cast nCore_zero c)
  go := fun q d c i => match q with | 0 => tileGo m d (coordsV (Fin.cast nCore_zero c) (Fin.cast nSub_zero i))
  td := fun q d c i => match q with | 0 => tileTd m d (coordsV (Fin.cast nCore_zero c) (Fin.cast nSub_zero i))
  x := fun _ _ => iprop(emp)

instance P_storable : (P (F := F) m).IsStorable where
  st q d c := match q with | 0 => coreSt_storable m d _
  dn q d c := match q with | 0 => coreDn_storable m d _
  go q d c i := match q with | 0 => tileGo_storable m d _
  td q d c i := match q with | 0 => tileTd_storable m d _

theorem P_st (d : Dev nD) (c : Fin ((K (F := F)).nCore 0)) : (P m).st 0 d c = coreSt m d (Fin.cast nCore_zero c) := rfl
theorem P_dn (d : Dev nD) (c : Fin ((K (F := F)).nCore 0)) : (P m).dn 0 d c = coreDn m d (Fin.cast nCore_zero c) := rfl
theorem P_x (q : Fin 1) (thr : Thread nD τ) : (P (F := F) m).x q thr = iprop(emp) := rfl

end Cert.Kernel.PayDefs

end
-- ==== Proof.KW.Tail.lean ====
import proofs.«216000_g43989055045728_cont_8to1_b_1827_23_alg».proof.Kernel

noncomputable section

namespace Cert.Kernel.Tail

open Idealize.ShloMosaic Cert.Kernel

variable {F : FTy → Type} [FloatOps F] [Facts]
open Facts₀ Facts

def tcTail (out1 : FVec F S6x1x128 .f32) : FVec F S6 .f32 :=
  shapeCast S6 (extractStridedSlice S6x1x1 ![0, 0, 0] out1 slices_S6x1x128_S6x1x1_0_0_0) shapeCasts_S6x1x1_S6

def scSums (out0 : FVec F S61440 .f32) : FVec F S3x40 .f32 :=
  Host.reduceAdd (shapeCast S32x3x40x16 out0 shapeCasts_S61440_S32x3x40x16) (constant S_ .f32 0x00000000#32)
    reducesTo_S32x3x40x16_S3x40_d0_3 h_S_

def scNom (s : FVec F S3x40 .f32) : FVec F S2x19 .f32 :=
  shapeCast S2x19 (shapeCast S38 (extractStridedSlice S1x38 ![0, 0] s slices_S3x40_S1x38_0_0) shapeCasts_S1x38_S38) shapeCasts_S38_S2x19
def scIsum (s : FVec F S3x40 .f32) : FVec F S2x19 .f32 :=
  shapeCast S2x19 (shapeCast S38 (extractStridedSlice S1x38 ![1, 0] s slices_S3x40_S1x38_1_0) shapeCasts_S1x38_S38) shapeCasts_S38_S2x19
def scTsum (s : FVec F S3x40 .f32) : FVec F S2x19 .f32 :=
  shapeCast S2x19 (shapeCast S38 (extractStridedSlice S1x38 ![2, 0] s slices_S3x40_S1x38_2_0) shapeCasts_S1x38_S38) shapeCasts_S38_S2x19

def scFrac (nom isum tsum : FVec F S2x19 .f32) : FVec F S2x19 .f32 :=
  Host.divf
    (addf (mulf (broadcastInDim S2x19 ![] bcast_S_S2x19 (constant S_ .f32 0x40000000#32)) nom)
      (broadcastInDim S2x19 ![] bcast_S_S2x19 (constant S_ .f32 0x3F800000#32)))
    (addf (addf isum tsum) (broadcastInDim S2x19 ![] bcast_S_S2x19 (constant S_ .f32 0x3F800000#32)))

def scMean (frac : FVec F S2x19 .f32) : FVec F S2 .f32 :=
  Host.negf (Host.divf (Host.reduceAdd frac (constant S_ .f32 0x00000000#32) reducesTo_S2x19_S2_d1 h_S_)
    (broadcastInDim S2 ![] bcast_S_S2 (constant S_ .f32 0x41980000#32)))

def scTail (out0 : FVec F S61440 .f32) : FVec F S2 .f32 :=
  scMean (scFrac (scNom (scSums out0)) (scIsum (scSums out0)) (scTsum (scSums out0)))

def tailOf (out0 : FVec F S61440 .f32) (out1 : FVec F S6x1x128 .f32) : FVec F S8 .f32 :=
  concatenate S8 0 [⟨S6, tcTail out1⟩, ⟨S2, scTail out0⟩] concatenates_S6_S2_S8_d0

end Cert.Kernel.Tail

end
-- ==== Proof.KW.SpecTC.lean ====
import proofs.«216000_g43989055045728_cont_8to1_b_1827_23_alg».proof.Kernel
import Idealize.ShloMosaic.Lib.ValueIdx

noncomputable section

namespace Cert.Kernel.SpecTC

open Idealize.ShloMosaic Idealize.ShloMosaic.ValueIdx
open Cert.Kernel.Facts₀ Cert.Kernel.Facts

variable {F : FTy → Type} [FloatOps F] [Facts]

def cls (c : Fin 19) : BitVec 32 := BitVec.ofNat 32 c.val

def mask (c : BitVec 32) (T : IVec S256x512 32) : IVec S256x512 1 :=
  cmpi .eq T (broadcast S256x512 c)

def fold8 (x : FVec F S256x512 .f32) : FVec F S8x512 .f32 :=
  multiReduction .add [0] S8x512 (shapeCast S32x8x512 x shapeCasts_S256x512_S32x8x512)
    0x00000000#32 reduces_S32x8x512_S8x512 (.inl rfl) rfl

def nomPart (c : BitVec 32) (P : FVec F S256x512 .f32) (T : IVec S256x512 32) : FVec F S8x512 .f32 :=
  fold8 (select (mask c T) P (broadcast S256x512 (Scalar.ofBits .f32 0x00000000#32)))

def isumPart (P : FVec F S256x512 .f32) : FVec F S8x512 .f32 :=
  fold8 P

def tsumPart (c : BitVec 32) (T : IVec S256x512 32) : FVec F S8x512 .f32 :=
  fold8 (select (mask c T) (broadcast S256x512 (Scalar.ofBits .f32 0x3F800000#32))
    (broadcast S256x512 (Scalar.ofBits .f32 0x00000000#32)))

def addRows (acc : FVec F S19x8x512 .f32) (part : Fin 19 → FVec F S8x512 .f32) : FVec F S19x8x512 .f32 :=
  fun j => FloatOps.addf (acc j) (part (j 0) (ix2 (j 1) (j 2)))

def accZero : FVec F S19x8x512 .f32 :=
  broadcast S19x8x512 (Scalar.ofBits .f32 0x00000000#32)

def acc0 (p0 : Fin 19 → FVec F S8x512 .f32) : FVec F S19x8x512 .f32 :=
  addRows accZero p0

def acc1 (p0 p1 : Fin 19 → FVec F S8x512 .f32) : FVec F S19x8x512 .f32 :=
  addRows (acc0 p0) p1

def nomParts (Pb : Fin 19 → FVec F S256x512 .f32) (T : IVec S256x512 32) : Fin 19 → FVec F S8x512 .f32 :=
  fun c => nomPart (cls c) (Pb c) T

def isumParts (Pb : Fin 19 → FVec F S256x512 .f32) : Fin 19 → FVec F S8x512 .f32 :=
  fun c => isumPart (Pb c)

def tsumParts (T : IVec S256x512 32) : Fin 19 → FVec F S8x512 .f32 :=
  fun c => tsumPart (F := F) (cls c) T

def perClass (acc : FVec F S19x8x512 .f32) : FVec F S19 .f32 :=
  multiReduction .add [1, 2] S19 acc 0x00000000#32 reduces_S19x8x512_S19 (.inl rfl) rfl

def frac (nom isum tsum : FVec F S19 .f32) : FVec F S19 .f32 :=
  divf (addf (mulf (broadcast S19 (Scalar.ofBits .f32 0x40000000#32)) nom) (broadcast S19 (Scalar.ofBits .f32 0x3F800000#32)))
    (addf (addf isum tsum) (broadcast S19 (Scalar.ofBits .f32 0x3F800000#32)))

def laneSum (x : FVec F S19 .f32) : F .f32 :=
  extractAt ![0, 0]
    (shapeCast S1x1
      (multiReduction .add [1] S1 (shapeCast S1x19 x shapeCasts_S19_S1x19) 0x00000000#32 reduces_S1x19_S1 (.inl rfl) rfl)
      shapeCasts_S1_S1x1)
    inpos_S1x1_p0_0

def finish (nom isum tsum : FVec F S19x8x512 .f32) : F .f32 :=
  Scalar.divf
    (Scalar.subf (Scalar.ofBits .f32 0x00000000#32) (laneSum (frac (perClass nom) (perClass isum) (perClass tsum))))
    (Scalar.ofBits .f32 0x41980000#32)

def finishBlock (nom isum tsum : FVec F S19x8x512 .f32) : FVec F S1x1x128 .f32 :=
  shapeCast S1x1x128 (broadcast S128 (finish nom isum tsum)) shapeCasts_S128_S1x1x128

def predBlock (P : FVec F S8x19x512x512 .f32) (b : Fin 8) (s : Fin 2) (c : Fin 19) : FVec F S256x512 .f32 :=
  fun i => P (ix4 b c ⟨256 * s.val + (i 0).val, by have := idx2_lt0 i; have := s.isLt; omega⟩ (i 1))

def tgtBlock (T : IVec S8x512x512 32) (b : Fin 8) (s : Fin 2) : IVec S256x512 32 :=
  fun i => T (ix3 b ⟨256 * s.val + (i 0).val, by have := idx2_lt0 i; have := s.isLt; omega⟩ (i 1))

def nomAcc (P : FVec F S8x19x512x512 .f32) (T : IVec S8x512x512 32) (b : Fin 8) : FVec F S19x8x512 .f32 :=
  acc1 (nomParts (predBlock P b 0) (tgtBlock T b 0)) (nomParts (predBlock P b 1) (tgtBlock T b 1))

def isumAcc (P : FVec F S8x19x512x512 .f32) (b : Fin 8) : FVec F S19x8x512 .f32 :=
  acc1 (isumParts (predBlock P b 0)) (isumParts (predBlock P b 1))

def tsumAcc (T : IVec S8x512x512 32) (b : Fin 8) : FVec F S19x8x512 .f32 :=
  acc1 (F := F) (tsumParts (tgtBlock T b 0)) (tsumParts (tgtBlock T b 1))

def loss (P : FVec F S8x19x512x512 .f32) (T : IVec S8x512x512 32) (b : Fin 8) : F .f32 :=
  finish (nomAcc P T b) (isumAcc P b) (tsumAcc (F := F) T b)

def SpecTC (P : FVec F S8x19x512x512 .f32) (T : IVec S8x512x512 32) (out1 : FVec F S6x1x128 .f32) : Prop :=
  ∀ (b : Fin 6) (lane : Fin 128), out1 (ix3 b 0 lane) = loss P T (Fin.castLE (by decide) b)

end Cert.Kernel.SpecTC
-- ==== Proof.KW.Launch.lean ====
import proofs.«216000_g43989055045728_cont_8to1_b_1827_23_alg».proof.Proof.KW.PayDefs
import proofs.«216000_g43989055045728_cont_8to1_b_1827_23_alg».proof.Proof.KW.Tail
import proofs.«216000_g43989055045728_cont_8to1_b_1827_23_alg».proof.Proof.KW.SpecTC
import proofs.«216000_g43989055045728_cont_8to1_b_1827_23_alg».proof.Proof.Gen.Kernel.Launch
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Launch

open Cert.Kernel Cert.Kernel.Gen Cert.Kernel.PayDefs

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ tileGo m d L
        ∗ scopedBufs (tileThr d L) ∗ scopedSems0 (tileThr d L) ∗ owes (tileThr d L) O W)
      ⊢ wp frame (wpE (defs₀ (F := F)) 𝒱₀ (tileThr d L) none) Set.univ
          (cc0__sc_partials L pV (Memref.isWhole_whole _) tV (Memref.isWhole_whole _) oV (Memref.isWhole_whole _)
            sT (Memref.isWhole_whole _) sA (Memref.isWhole_whole _) sB (Memref.isWhole_whole _) sR (Memref.isWhole_whole _)
            cc0_scratch4 cc0_scratch5 cc0_scratch6 cc0_scratch7)
          fun _ => iprop(tileTd m d L ∗ scopedBufs (tileThr d L) ∗ scopedSems0 (tileThr d L)
            ∗ ∃ W', ⌜∀ p ∈ W', p ∈ W ∨ p.2 = none⌝ ∗ owes (tileThr d L) O W')

theorem defs₀_vector (c : Fin τ.nSC) (s : Fin τ.nSub) :
    defs₀ (F := F) (.scVector c s) 0 ()
      = SparseCore.onTile hcore0 hsub0 (fun c s => cc0__sc_partials (coordsV c s)
          pV (Memref.isWhole_whole _) tV (Memref.isWhole_whole _) oV (Memref.isWhole_whole _)
          sT (Memref.isWhole_whole _) sA (Memref.isWhole_whole _) sB (Memref.isWhole_whole _) sR (Memref.isWhole_whole _)
          cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hb : TileBody m) : (K (F := F)).TileObl (D (F := F)) 𝒱 (P m) v₀ 0 := by
  intro d c i O W hO _ _

  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

omit [FloatOps F] in
theorem oSet_eq (L : grid0.Coords) : oSet L = (Rect.unit (s := S61440) (k0_off193 L) S1920.size (k0_off193_inb L)).set := by
  show ((View.whole (main_v0_scv : Ref sig .scVector)).slice (Rect.unit (s := S61440) (k0_off193 L) S1920.size (k0_off193_inb L))).set = _
  rw [View.set_slice]; exact Finset.map_refl

omit [FloatOps F] in
theorem widOf_lt (L : grid0.Coords) : widOf L < 32 := by
  have h0 : (L 0).val < 2 := (L 0).isLt
  have h1 : (L 1).val < 16 := (L 1).isLt
  show 2 * (L 1).val + (L 0).val < 32
  omega

omit [FloatOps F] in

theorem mem_oSet {L : grid0.Coords} {i : S61440.Idx} : i ∈ oSet L ↔ 1920 * widOf L ≤ (i 0).val ∧ (i 0).val < 1920 * widOf L + 1920 := by
  rw [oSet_eq, Rect.mem_set_unit, k0_off193_eq]
  constructor
  · intro h; have := h 0
    simp only [Matrix.cons_val_zero, Matrix.cons_val_fin_one] at this
    show 1920 * (2 * (L 1).val + (L 0).val) ≤ _ ∧ _ < 1920 * (2 * (L 1).val + (L 0).val) + 1920
    have e : S1920.size 0 = 1920 := rfl
    omega
  · intro h a
    have ha : a = 0 := Subsingleton.elim _ _
    subst ha
    simp only [Matrix.cons_val_zero, Matrix.cons_val_fin_one]
    have h' : 1920 * (2 * (L 1).val + (L 0).val) ≤ (i 0).val ∧ (i 0).val < 1920 * (2 * (L 1).val + (L 0).val) + 1920 := h
    have e : S1920.size 0 = 1920 := rfl
    omega

abbrev Pt : Type := Fin (grid0.bound 0) × Fin (grid0.bound 1)
abbrev ptSet (d : Dev nD) (t : Pt) : Finset (Idx (oLoc d)) := oSet (coordsV t.1 t.2)

omit [FloatOps F] in
theorem widOf_coordsV (c : Fin (grid0.bound 0)) (s : Fin (grid0.bound 1)) : widOf (coordsV c s) = 2 * s.val + c.val := rfl

omit [FloatOps F] in
theorem slices_disjoint (d : Dev nD) : ∀ t ∈ (Finset.univ : Finset Pt), ∀ t' ∈ (Finset.univ : Finset Pt), t ≠ t' → Disjoint (ptSet d t) (ptSet d t') := by
  rintro ⟨c, s⟩ - ⟨c', s'⟩ - hne
  rw [Finset.disjoint_left]
  intro i hi1 hi2
  have hi := (mem_oSet (L := coordsV c s)).mp hi1
  have hi' := (mem_oSet (L := coordsV c' s')).mp hi2
  rw [widOf_coordsV] at hi hi'
  have hc : c.val < 2 := c.isLt
  have hc' : c'.val < 2 := c'.isLt
  apply hne
  have : 2 * s.val + c.val = 2 * s'.val + c'.val := by omega
  exact Prod.ext (Fin.ext (by show c.val = c'.val; omega)) (Fin.ext (by show s.val = s'.val; omega))

omit [FloatOps F] in
theorem slices_cover (d : Dev nD) : (Finset.univ : Finset Pt).biUnion (ptSet d) = Finset.univ := by
  ext i
  simp only [Finset.mem_biUnion, Finset.mem_univ, true_and, iff_true]
  have hi : (i 0).val < 61440 := (i 0).isLt
  refine ⟨(⟨((i 0).val / 1920) % 2, Nat.mod_lt _ (by decide)⟩, ⟨((i 0).val / 1920) / 2, ?_⟩), ?_⟩
  · show (i 0).val / 1920 / 2 < 16
    omega
  · rw [mem_oSet, widOf_coordsV]
    show 1920 * (2 * ((i 0).val / 1920 / 2) + (i 0).val / 1920 % 2) ≤ _ ∧ _ < 1920 * (2 * ((i 0).val / 1920 / 2) + (i 0).val / 1920 % 2) + 1920
    omega

omit [FloatOps F] in

theorem oPts_slices (d : Dev nD) (f : Buf (Elt F) (oLoc d)) :
    (oLoc d ↦{fullShare} f : sProp 𝕄)
      = bigSep Finset.univ fun c : Fin (grid0.bound 0) => bigSep Finset.univ fun s : Fin (grid0.bound 1) => oLoc d ↦[oSet (coordsV c s)]{fullShare} f := by
  calc (oLoc d ↦{fullShare} f : sProp 𝕄) = (oLoc d ↦[(Finset.univ : Finset Pt).biUnion (ptSet d)]{fullShare} f) := by rw [slices_cover]; try rfl
    _ = bigSep (Finset.univ : Finset Pt) fun t => oLoc d ↦[ptSet d t]{fullShare} f := pointsTo_biUnion _ (ptSet d) (slices_disjoint d)
    _ = bigSep ((Finset.univ : Finset (Fin (grid0.bound 0))) ×ˢ (Finset.univ : Finset (Fin (grid0.bound 1)))) fun t : Pt => oLoc d ↦[ptSet d t]{fullShare} f := by
      rw [Finset.univ_product_univ]
    _ = _ := SparseCore.bigSep_product _ _ _

theorem tileGo_eq (d : Dev nD) (c : Fin (grid0.bound 0)) (s : Fin (grid0.bound 1)) :
    tileGo m d (coordsV c s) = iprop((pLoc d ↦{Transfers.shareTok (qC c.val) (grid0.bound 1) s} m (pLoc d))
      ∗ (tLoc d ↦{Transfers.shareTok (qC c.val) (grid0.bound 1) s} m (tLoc d))
      ∗ (oLoc d ↦[oSet (coordsV c s)]{fullShare} m (oLoc d))) := rfl

theorem tileTd_eq (d : Dev nD) (c : Fin (grid0.bound 0)) (s : Fin (grid0.bound 1)) :
    tileTd m d (coordsV c s) = iprop((pLoc d ↦{Transfers.shareTok (qC c.val) (grid0.bound 1) s} m (pLoc d))
      ∗ (tLoc d ↦{Transfers.shareTok (qC c.val) (grid0.bound 1) s} m (tLoc d))
      ∗ ∃ f : Buf (Elt F) (oLoc d), ⌜Cert.SpecSC.TileSpec (m (pLoc d)) (m (tLoc d)) (widOf (coordsV c s)) f⌝
          ∗ (oLoc d ↦[oSet (coordsV c s)]{fullShare} f)) := rfl

theorem coreSplit (d : Dev nD) (c : Fin (grid0.bound 0)) :
    coreSt m d c ⊢ iprop((bigSep Finset.univ fun s : Fin (grid0.bound 1) => tileGo m d (coordsV c s))
      ∗ ((bigSep Finset.univ fun s : Fin (grid0.bound 1) => tileTd m d (coordsV c s)) -∗ coreDn m d c)) := by
  simp only [tileGo_eq, tileTd_eq]
  rw [bigSep_sep', bigSep_sep', bigSep_sep', bigSep_sep']
  unfold coreSt coreDn
  iintro ⟨Hp, Ht, Ho⟩
  ihave Hp' := (Transfers.pointsTo_toks_split (qC c.val) (grid0.bound 1)) $$ Hp
  icases Hp' with ⟨Hpr, Hps⟩
  ihave Ht' := (Transfers.pointsTo_toks_split (qC c.val) (grid0.bound 1)) $$ Ht
  icases Ht' with ⟨Htr, Hts⟩
  isplitl [Hps Hts Ho]
  · isplitl [Hps]; · iexact Hps
    isplitl [Hts]; · iexact Hts
    iexact Ho
  iintro ⟨Hps, Hts, Ho⟩
  isplitl [Hpr Hps]
  · iapply (Transfers.pointsTo_toks_join (qC c.val) (grid0.bound 1))
    isplitl [Hpr]; · iexact Hpr
    iexact Hps
  isplitl [Htr Hts]
  · iapply (Transfers.pointsTo_toks_join (qC c.val) (grid0.bound 1))
    isplitl [Htr]; · iexact Htr
    iexact Hts
  iexact Ho

omit [FloatOps F] in
theorem bigSep_tasks (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show coreSt m d (Fin.cast nCore_zero c) ⊢ |={Set.univ}=> iprop(
      (bigSep Finset.univ fun i : Fin ((K (F := F)).nSub 0) => tileGo m d (coordsV (Fin.cast nCore_zero c) (Fin.cast nSub_zero i)))
      ∗ ((bigSep Finset.univ fun i : Fin ((K (F := F)).nSub 0) => tileTd m d (coordsV (Fin.cast nCore_zero c) (Fin.cast nSub_zero i)))
          -∗ coreDn m d (Fin.cast nCore_zero c)))
  rw [bigSep_tasks (F := F) (fun s => tileGo m d (coordsV (Fin.cast nCore_zero c) s)),
    bigSep_tasks (F := F) (fun s => tileTd m d (coordsV (Fin.cast nCore_zero c) s))]
  iintro H; imodintro
  iapply (coreSplit m d (Fin.cast nCore_zero c)); iexact H

abbrev adm : (p : Fin 1) → (pcfgs (F := F) p).Adm := fun p => (cfgs p).toPCfg_adm
omit [FloatOps F] in
theorem cellOf_inj' : Function.Injective (Pipeline.cellOf (nD := nD) (τ := τ) (Pipeline.pin (pcfgs (F := F)) adm)) := Gen.cellOf_inj

def u₀ : UU :=
  (initOf (K (F := F)).hsCells (K (F := F)).hsToks,
    (initOf (Pipeline.cells (Pipeline.pin (pcfgs (F := F)) adm) cellOf_inj') (Pipeline.launchToks (Pipeline.pin (pcfgs (F := F)) adm) cellOf_inj'), 1))

def G (d : Dev nD) : sProp 𝕄 :=
  iprop((bigSep Finset.univ fun p : Fin 1 => Pipeline.cellsGhost (Pipeline.pin (pcfgs (F := F)) adm) ER p d)
    ∗ bigSep Finset.univ fun p : Fin 1 => Pipeline.toksInit (Pipeline.pin (pcfgs (F := F)) adm) ER p d)

omit [FloatOps F] in
theorem G_eq (d : Dev nD) : (G (F := F) d : sProp 𝕄)
    = iprop(Pipeline.cellsGhost (Pipeline.pin (pcfgs (F := F)) adm) ER 0 d ∗ Pipeline.toksInit (Pipeline.pin (pcfgs (F := F)) adm) ER 0 d) := by
  unfold G
  rw [bigSep_univ_of_subsingleton (0 : Fin 1), bigSep_univ_of_subsingleton (0 : Fin 1)]

omit [FloatOps F] in
theorem own_embR_split (b : UP) (c : Counters) :
    (BI.own ((embR : Emb (UP × Counters) 𝕄) (b, c)) : sProp 𝕄) ⊢ iprop(BI.own (ER b) ∗ BI.own ((embR : Emb (UP × Counters) 𝕄) (1, c))) :=
  BI.own_op_elim ((embR : Emb (UP × Counters) 𝕄).op_of_mem (Prod.mk_mem_op (URA.mem_op_one b) (URA.mem_one_op c)))

omit [FloatOps F] in
theorem ownU_split (a : UH) (b : UP) (c : Counters) : (ownU ((a, (b, c)) : UU) : sProp 𝕄) ⊢ iprop(BI.own (EH a) ∗ BI.own (ER b)) := by
  iintro Hu
  ihave H := (ownU_pair a (b, c)) $$ Hu
  icases H with ⟨HH, HR⟩
  isplitl [HH]; · iexact HH
  ihave H' := (own_embR_split b c) $$ HR
  icases H' with ⟨Hb, -⟩
  iexact Hb

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _ _) $$ Hu
  icases H with ⟨HH, HR⟩
  imod (Pipeline.fund_ghost (Pipeline.pin (pcfgs (F := F)) adm) ER cellOf_inj') $$ HR with ⟨Hg, Htok⟩
  imodintro
  isplitl [HH]; · iexact HH
  isplitl [Hg Htok]
  · unfold G
    rw [bigSep_sep']
    isplitl [Hg]; · iexact Hg
    iexact Htok
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

abbrev rLoc (d : Dev nD) : Loc nD τ sig := (SparseCore.T d).loc main_v1
abbrev vLoc (d : Dev nD) : Loc nD τ sig := (SparseCore.T d).loc main_v27

def regPre (Vm : (ℓ : Loc nD τ sig) → Buf (Elt F) ℓ) (B : Dev nD → Set (SemLoc sig × HIx 1)) (d : Dev nD) : sProp 𝕄 :=
  iprop((pLoc d ↦{fullShare} Vm (pLoc d)) ∗ (tLoc d ↦{fullShare} Vm (tLoc d)) ∗ (rLoc d ↦{fullShare} Vm (rLoc d))
    ∗ Pipeline.owesWithin d (0 : CellTallies nD τ sig (HIx 1)) (B d))

def regPost (Vm : (ℓ : Loc nD τ sig) → Buf (Elt F) ℓ) (B : Dev nD → Set (SemLoc sig × HIx 1)) (d : Dev nD) : sProp 𝕄 :=
  iprop((pLoc d ↦{fullShare} Vm (pLoc d)) ∗ (tLoc d ↦{fullShare} Vm (tLoc d))
    ∗ (∃ out1 : Buf (Elt F) (rLoc d), ⌜SpecTC.SpecTC (Vm (pLoc d)) (Vm (tLoc d)) out1⌝ ∗ (rLoc d ↦{fullShare} out1))
    ∗ Pipeline.owesWithin d (0 : CellTallies nD τ sig (HIx 1)) (B d ∪ cfg1.waitPairs (none : HIx 1)))

def TcRegion : Prop :=
  ∀ (Vm : (ℓ : Loc nD τ sig) → Buf (Elt F) ℓ) (B : Dev nD → Set (SemLoc sig × HIx 1)) (lv : GSem nD τ sig → HIx 1 → ℕ)
    (d : Dev nD) (Φ : PUnit → sProp 𝕄),
    iprop((iprop(boundary (SparseCore.T d) ∗ regPost Vm B d) -∗ Φ ⟨⟩) ∗ boundary (SparseCore.T d) ∗ regPre Vm B d ∗ levAts (K (F := F)).L lv
        ∗ Pipeline.cellsGhost (Pipeline.pin (pcfgs (F := F)) adm) ER 0 d ∗ Pipeline.toksInit (Pipeline.pin (pcfgs (F := F)) adm) ER 0 d)
      ⊢ wp frame (wpE ((K (F := F)).defs D) 𝒱 (SparseCore.T d) none) Set.univ (Prog.lift (.customCall (SparseCore.inner (Pipeline.entry 0)) ())) Φ

def tcArrays : Finset (DevRef τ sig) :=
  (Finset.univ.filter fun b : Ref sig .tc => ¬ b.isScoped).map ⟨Proc.devRef (τ := τ) .tc, Proc.devRef_injective _⟩

structure TailFacts (F : FTy → Type) [FloatOps F] where
  ops : List (HloOp τ sig (Elt F))
  main_eq : ∀ d : Dev nD, main (F := F) d
    = (sc.run d 0 >>= fun _ => (Prog.lift (.customCall (SparseCore.inner (Pipeline.entry 0)) ()) >>= fun _ => StableHlo.seq ops))
  bufs : ∀ op ∈ ops, op.bufs ⊆ tcArrays
  fresh : ∀ op ∈ ops, op.fresh = ∅
  v27 : ∀ V : Valuation τ sig (Elt F), StableHlo.after ops V (Proc.devRef .tc main_v27)
    = Tail.tailOf (V (Proc.devRef .tc main_v0)) (V (Proc.devRef .tc main_v1))
  arg0 : ∀ V : Valuation τ sig (Elt F), StableHlo.after ops V (Proc.devRef .tc main_arg0) = V (Proc.devRef .tc main_arg0)
  arg1 : ∀ V : Valuation τ sig (Elt F), StableHlo.after ops V (Proc.devRef .tc main_arg1) = V (Proc.devRef .tc main_arg1)

abbrev p' : DevRef τ sig := Proc.devRef .tc (main_arg0 : Ref sig .tc)
abbrev t' : DevRef τ sig := Proc.devRef .tc (main_arg1 : Ref sig .tc)
abbrev o' : DevRef τ sig := Proc.devRef .tc (main_v0 : Ref sig .tc)
abbrev r' : DevRef τ sig := Proc.devRef .tc (main_v1 : Ref sig .tc)
abbrev v' : DevRef τ sig := Proc.devRef .tc (main_v27 : Ref sig .tc)

def V0 (d : Dev nD) : Valuation τ sig (Elt F) := fun b => m (d, b)

omit [FloatOps F] in
theorem unscoped_held (d : Dev nD) :
    (unscopedBufs d (fun b => m ((SparseCore.T d).loc b)) : sProp 𝕄) = held (SparseCore.T d) tcArrays (V0 m d) := by
  unfold unscopedBufs held tcArrays
  rw [bigSep_map]; rfl

omit [FloatOps F] in
theorem mem_tcArrays {b : Ref sig .tc} (h : ¬ b.isScoped) : (Proc.devRef (τ := τ) .tc b) ∈ tcArrays :=
  Finset.mem_map_of_mem _ (Finset.mem_filter.mpr ⟨Finset.mem_univ _, h⟩)

abbrev T4 : Finset (DevRef τ sig) := {p', t', o', r'}
abbrev T3 : Finset (DevRef τ sig) := {p', t', v'}

omit [FloatOps F] in
theorem T4_sub : T4 ⊆ tcArrays := by
  intro b hb
  simp only [T4, Finset.mem_insert, Finset.mem_singleton] at hb
  rcases hb with rfl | rfl | rfl | rfl <;> exact mem_tcArrays (by decide)
omit [FloatOps F] in
theorem T3_sub : T3 ⊆ tcArrays := by
  intro b hb
  simp only [T3, Finset.mem_insert, Finset.mem_singleton] at hb
  rcases hb with rfl | rfl | rfl <;> exact mem_tcArrays (by decide)

omit [FloatOps F] in
theorem held_T4 (d : Dev nD) (W : Valuation τ sig (Elt F)) :
    (held (SparseCore.T d) T4 W : sProp 𝕄)
      = iprop((pLoc d ↦{fullShare} W p') ∗ (tLoc d ↦{fullShare} W t') ∗ (oLoc d ↦{fullShare} W o') ∗ (rLoc d ↦{fullShare} W r')) := by
  unfold held T4
  rw [SparseCore.bigSep_insert' (by decide), SparseCore.bigSep_insert' (by decide), SparseCore.bigSep_insert' (by decide), bigSep_singleton]
omit [FloatOps F] in
theorem held_T3 (d : Dev nD) (W : Valuation τ sig (Elt F)) :
    (held (SparseCore.T d) T3 W : sProp 𝕄)
      = iprop((pLoc d ↦{fullShare} W p') ∗ (tLoc d ↦{fullShare} W t') ∗ (vLoc d ↦{fullShare} W v')) := by
  unfold held T3
  rw [SparseCore.bigSep_insert' (by decide), SparseCore.bigSep_insert' (by decide), bigSep_singleton]

omit [FloatOps F] in
theorem held_all4 (d : Dev nD) (W : Valuation τ sig (Elt F)) :
    (held (SparseCore.T d) tcArrays W : sProp 𝕄)
      = iprop(((pLoc d ↦{fullShare} W p') ∗ (tLoc d ↦{fullShare} W t') ∗ (oLoc d ↦{fullShare} W o') ∗ (rLoc d ↦{fullShare} W r'))
          ∗ held (SparseCore.T d) (tcArrays \ T4) W) := by
  rw [StableHlo.held_sub_split (SparseCore.T d) T4_sub W, held_T4]
omit [FloatOps F] in
theorem held_all3 (d : Dev nD) (W : Valuation τ sig (Elt F)) :
    (held (SparseCore.T d) tcArrays W : sProp 𝕄)
      = iprop(((pLoc d ↦{fullShare} W p') ∗ (tLoc d ↦{fullShare} W t') ∗ (vLoc d ↦{fullShare} W v'))
          ∗ held (SparseCore.T d) (tcArrays \ T3) W) := by
  rw [StableHlo.held_sub_split (SparseCore.T d) T3_sub W, held_T3]

def V2 (d : Dev nD) (g : Buf (Elt F) (oLoc d)) (out1 : Buf (Elt F) (rLoc d)) : Valuation τ sig (Elt F) :=
  Function.update (Function.update (V0 m d) o' g) r' out1

omit [FloatOps F] in
theorem V2_p (d : Dev nD) (g : Buf (Elt F) (oLoc d)) (out1 : Buf (Elt F) (rLoc d)) : V2 m d g out1 p' = m (pLoc d) :=
  (Function.update_of_ne (show p' ≠ r' by decide) _ _).trans (Function.update_of_ne (show p' ≠ o' by decide) _ _)
omit [FloatOps F] in
theorem V2_t (d : Dev nD) (g : Buf (Elt F) (oLoc d)) (out1 : Buf (Elt F) (rLoc d)) : V2 m d g out1 t' = m (tLoc d) :=
  (Function.update_of_ne (show t' ≠ r' by decide) _ _).trans (Function.update_of_ne (show t' ≠ o' by decide) _ _)
omit [FloatOps F] in
theorem V2_o (d : Dev nD) (g : Buf (Elt F) (oLoc d)) (out1 : Buf (Elt F) (rLoc d)) : V2 m d g out1 o' = g :=
  (Function.update_of_ne (show o' ≠ r' by decide) _ _).trans (Function.update_self _ _ _)
omit [FloatOps F] in
theorem V2_r (d : Dev nD) (g : Buf (Elt F) (oLoc d)) (out1 : Buf (Elt F) (rLoc d)) : V2 m d g out1 r' = out1 :=
  Function.update_self _ _ _
omit [FloatOps F] in
theorem V2_rest (d : Dev nD) (g : Buf (Elt F) (oLoc d)) (out1 : Buf (Elt F) (rLoc d)) :
    (held (SparseCore.T d) (tcArrays \ T4) (V2 m d g out1) : sProp 𝕄) = held (SparseCore.T d) (tcArrays \ T4) (V0 m d) :=
  StableHlo.held_congr (SparseCore.T d) fun b hb => by
    have hb' := (Finset.mem_sdiff.mp hb).2
    simp only [T4, Finset.mem_insert, Finset.mem_singleton, not_or] at hb'
    unfold V2
    rw [Function.update_of_ne hb'.2.2.2, Function.update_of_ne hb'.2.2.1]

omit [FloatOps F] in
theorem ix_mem_oSet (L : grid0.Coords) (k : ℕ) (h1 : 1920 * widOf L ≤ k) (h2 : k < 1920 * widOf L + 1920) :
    (ValueIdx.ix1 (Cert.SpecSC.fin61440 k) : S61440.Idx) ∈ oSet L := by
  rw [mem_oSet]
  show 1920 * widOf L ≤ k % 61440 ∧ k % 61440 < 1920 * widOf L + 1920
  have := widOf_lt L
  omega

theorem tileSpec_congr {Pp : Cert.SpecSC.SP.Idx → F .f32} {Tt : Cert.SpecSC.ST.Idx → BitVec 32} (L : grid0.Coords)
    {f g : Cert.SpecSC.SO.Idx → F .f32} (h : ∀ i ∈ oSet L, g i = f i) (hf : Cert.SpecSC.TileSpec Pp Tt (widOf L) f) :
    Cert.SpecSC.TileSpec Pp Tt (widOf L) g := by
  intro j l
  have hj : j.val < 38 := j.isLt
  have hl : l.val < 16 := l.isLt
  obtain ⟨h1, h2, h3⟩ := hf j l
  refine ⟨(h _ (ix_mem_oSet L _ (by omega) (by omega))).trans h1, (h _ (ix_mem_oSet L _ (by omega) (by omega))).trans h2,
    (h _ (ix_mem_oSet L _ (by omega) (by omega))).trans h3⟩

theorem oSlices_join (d : Dev nD) (φ : Pt → Buf (Elt F) (oLoc d) → Prop) :
    (bigSep Finset.univ fun c : Fin (grid0.bound 0) => bigSep Finset.univ fun s : Fin (grid0.bound 1) =>
        iprop(∃ f : Buf (Elt F) (oLoc d), ⌜φ (c, s) f⌝ ∗ oLoc d ↦[oSet (coordsV c s)]{fullShare} f))
      ⊢ (iprop(∃ g : Buf (Elt F) (oLoc d), ⌜∀ t : Pt, ∃ f, φ t f ∧ ∀ i ∈ ptSet d t, g i = f i⌝ ∗ oLoc d ↦{fullShare} g) : sProp 𝕄) := by
  rw [← bigSep_univ_prod (fun t : Pt => iprop(∃ f : Buf (Elt F) (oLoc d), ⌜φ t f⌝ ∗ oLoc d ↦[ptSet d t]{fullShare} f))]
  refine (bigSep_exists_pi Finset.univ (fun (t : Pt) (f : Buf (Elt F) (oLoc d)) => iprop(⌜φ t f⌝ ∗ oLoc d ↦[ptSet d t]{fullShare} f))).trans ?_
  iintro ⟨%fs, H⟩
  ihave H' := (bigSep_pure_sep Finset.univ (fun t => φ t (fs t)) (fun t => (oLoc d ↦[ptSet d t]{fullShare} fs t : sProp 𝕄))) $$ H
  icases H' with ⟨%hφ, H⟩
  ihave H'' := (pointsTo_biUnion_join Finset.univ (ptSet d) fs (fs (⟨0, by decide⟩, ⟨0, by decide⟩)) (slices_disjoint d)) $$ H
  icases H'' with ⟨%g, %hg, Hg⟩
  rw [slices_cover]
  iexists g; isplitr
  · ipureintro; intro t; exact ⟨fs t, hφ t (Finset.mem_univ t), fun i hi => hg t (Finset.mem_univ t) i hi⟩
  · iexact Hg

theorem specSC_of_slices (d : Dev nD) {g : Buf (Elt F) (oLoc d)}
    (hg : ∀ t : Pt, ∃ f : Buf (Elt F) (oLoc d), Cert.SpecSC.TileSpec (m (pLoc d)) (m (tLoc d)) (widOf (coordsV t.1 t.2)) f ∧ ∀ i ∈ ptSet d t, g i = f i) :
    Cert.SpecSC.SpecSC (m (pLoc d)) (m (tLoc d)) g := by
  refine Cert.SpecSC.specSC_of_tiles _ _ fun wid => ?_
  have hw : wid.val < 32 := wid.isLt
  obtain ⟨f, hf, hgf⟩ := hg (⟨wid.val % 2, Nat.mod_lt _ (by decide)⟩, ⟨wid.val / 2, by show wid.val / 2 < 16; omega⟩)
  have e : widOf (coordsV (⟨wid.val % 2, Nat.mod_lt _ (by decide)⟩ : Fin (grid0.bound 0)) (⟨wid.val / 2, by show wid.val / 2 < 16; omega⟩ : Fin (grid0.bound 1))) = wid.val := by
    rw [widOf_coordsV]; show 2 * (wid.val / 2) + wid.val % 2 = wid.val; omega
  have := tileSpec_congr (L := coordsV (⟨wid.val % 2, Nat.mod_lt _ (by decide)⟩ : Fin (grid0.bound 0)) (⟨wid.val / 2, by show wid.val / 2 < 16; omega⟩ : Fin (grid0.bound 1))) hgf hf
  rw [e] at this
  exact this

omit [FloatOps F] in
theorem bigSep_cores (Φ : Fin (grid0.bound 0) → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P m).st 0 d c)
      = iprop((bigSep Finset.univ fun c : Fin (grid0.bound 0) => pLoc d ↦{Transfers.shareTok fullShare (grid0.bound 0) c} m (pLoc d))
        ∗ (bigSep Finset.univ fun c : Fin (grid0.bound 0) => tLoc d ↦{Transfers.shareTok fullShare (grid0.bound 0) c} m (tLoc d))
        ∗ bigSep Finset.univ fun c : Fin (grid0.bound 0) => bigSep Finset.univ fun s : Fin (grid0.bound 1) => oLoc d ↦[oSet (coordsV c s)]{fullShare} m (oLoc d)) := by
  simp only [P_st]
  rw [bigSep_cores (F := F) (fun c => coreSt m d c), ← bigSep_sep', ← bigSep_sep']
  rfl

theorem dn0_eq (d : Dev nD) :
    (bigSep Finset.univ fun c : Fin ((K (F := F)).nCore 0) => (P m).dn 0 d c)
      = iprop((bigSep Finset.univ fun c : Fin (grid0.bound 0) => pLoc d ↦{Transfers.shareTok fullShare (grid0.bound 0) c} m (pLoc d))
        ∗ (bigSep Finset.univ fun c : Fin (grid0.bound 0) => tLoc d ↦{Transfers.shareTok fullShare (grid0.bound 0) c} m (tLoc d))
        ∗ bigSep Finset.univ fun c : Fin (grid0.bound 0) => bigSep Finset.univ fun s : Fin (grid0.bound 1) =>
            iprop(∃ f : Buf (Elt F) (oLoc d), ⌜Cert.SpecSC.TileSpec (m (pLoc d)) (m (tLoc d)) (widOf (coordsV c s)) f⌝
              ∗ oLoc d ↦[oSet (coordsV c s)]{fullShare} f)) := by
  simp only [P_dn]
  rw [bigSep_cores (F := F) (fun c => coreDn m d c), ← bigSep_sep', ← bigSep_sep']
  rfl

def Bd (d : Dev nD) : Set (SemLoc sig × HIx 1) := {p | (K (F := F)).lev (SparseCore.T d, p.1) p.2 ≤ 8}

omit [FloatOps F] in

theorem tcSt_region (d : Dev nD) :
    ((K (F := F)).tcSt EH d 1 : sProp 𝕄)
      ⊢ iprop(Pipeline.owesWithin d (0 : CellTallies nD τ sig (HIx 1)) (Bd (F := F) d)
        ∗ (Pipeline.owesWithin d (0 : CellTallies nD τ sig (HIx 1)) (Bd (F := F) d ∪ cfg1.waitPairs (none : HIx 1)) -∗ (K (F := F)).tcSt EH d 1)) := by
  unfold SparseCore.Cfg.tcSt
  rw [(K (F := F)).Otc_end d (le_refl 1)]
  iintro ⟨⟨%W, %hW, HO⟩, Hrest⟩
  isplitl [HO]
  · iexists W; isplitr
    · ipureintro; intro p hp; exact hW p (Finset.mem_coe.mp hp)
    · iexact HO
  iintro ⟨%W', %hW', HO⟩
  isplitl [HO]
  · iexists W'; isplitr
    · ipureintro; intro p hp
      rcases hW' (Finset.mem_coe.mpr hp) with h | ⟨w, s, rfl⟩
      · exact h
      · show (K (F := F)).lev _ none ≤ 8 * 1
        rw [SparseCore.Cfg.lev_none]; exact Nat.zero_le _
    · iexact HO
  · iexact Hrest

omit [FloatOps F] in
theorem tcSt_region' (d : Dev nD) :
    ((K (F := F)).tcSt EH d ((0 : Fin 1).val + 1) : sProp 𝕄)
      ⊢ iprop(Pipeline.owesWithin d (0 : CellTallies nD τ sig (HIx 1)) (Bd (F := F) d)
        ∗ (Pipeline.owesWithin d (0 : CellTallies nD τ sig (HIx 1)) (Bd (F := F) d ∪ cfg1.waitPairs (none : HIx 1)) -∗ (K (F := F)).tcSt EH d 1)) :=
  tcSt_region d

def FIN (d : Dev nD) : sProp 𝕄 :=
  iprop(∃ (out0 : Buf (Elt F) (oLoc d)) (out1 : Buf (Elt F) (rLoc d)),
    ⌜Cert.SpecSC.SpecSC (m (pLoc d)) (m (tLoc d)) out0 ∧ SpecTC.SpecTC (m (pLoc d)) (m (tLoc d)) out1⌝
    ∗ (pLoc d ↦{fullShare} m (pLoc d)) ∗ (tLoc d ↦{fullShare} m (tLoc d)) ∗ (vLoc d ↦{fullShare} (Tail.tailOf out0 out1)))

theorem hmain (htc : TcRegion (F := F)) (ht : TailFacts F) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, held_all4, G_eq, ht.main_eq d, wp_bind]
  iintro ⟨#Hctx, Hst, ⟨Hb, ⟨⟨Hp, Ht, Ho, Hr⟩, Hrest⟩, -, -⟩, Hg, Htok⟩
  ihave Hlev := (SparseCore.Cfg.ctx_levAts κ) $$ Hctx

  ihave Hp' := (Transfers.pointsTo_toks_split fullShare (grid0.bound 0)) $$ Hp
  icases Hp' with ⟨Hpr, Hps⟩
  ihave Ht' := (Transfers.pointsTo_toks_split fullShare (grid0.bound 0)) $$ Ht
  icases Ht' with ⟨Htr, Hts⟩
  ihave Ho' := (Entails.of_eq (oPts_slices d _)) $$ Ho
  iapply ((K (F := F)).wp_run (D (F := F)) 𝒱 (EH := EH) (P := P m) κ d 0) $$ [Hst Hps Hts Ho' Hb Hr Hrest Hg Htok Hpr Htr Hlev]
  isplitr; · iexact Hctx
  isplitl [Hst]; · iexact Hst
  isplitl [Hps Hts Ho']
  · rw [st0_eq]
    isplitl [Hps]; · iexact Hps
    isplitl [Hts]; · iexact Hts
    iexact Ho'
  iintro ⟨Hst, Hdn⟩
  ihave Hdn' := (Entails.of_eq (dn0_eq m d)) $$ Hdn
  icases Hdn' with ⟨Hps, Hts, Hos⟩
  ihave Hp := (Transfers.pointsTo_toks_join fullShare (grid0.bound 0)) $$ [Hpr Hps]
  · isplitl [Hpr]; · iexact Hpr
    iexact Hps
  ihave Ht := (Transfers.pointsTo_toks_join fullShare (grid0.bound 0)) $$ [Htr Hts]
  · isplitl [Htr]; · iexact Htr
    iexact Hts
  ihave Ho := (oSlices_join d (fun t f => Cert.SpecSC.TileSpec (m (pLoc d)) (m (tLoc d)) (widOf (coordsV t.1 t.2)) f)) $$ Hos
  icases Ho with ⟨%g, %hg, Ho⟩
  have hSC := specSC_of_slices m d hg

  ihave Hst' := (tcSt_region' d) $$ Hst
  icases Hst' with ⟨HO, Hback⟩

  rw [wp_bind]
  iapply (htc m (Bd (F := F)) (K (F := F)).lev d _) $$ [Hb Hp Ht Hr HO Hg Htok Hlev Ho Hrest Hback]
  isplitr [Hb Hp Ht Hr HO Hg Htok Hlev]
  swap
  · isplitl [Hb]; · iexact Hb
    isplitl [Hp Ht Hr HO]
    · unfold regPre
      isplitl [Hp]; · iexact Hp
      isplitl [Ht]; · iexact Ht
      isplitl [Hr]; · iexact Hr
      iexact HO
    isplitl [Hlev]; · iexact Hlev
    isplitl [Hg]; · iexact Hg
    iexact Htok
  iintro ⟨Hb, Hpost⟩
  unfold regPost
  icases Hpost with ⟨Hp, Ht, ⟨%out1, %hTC, Hr⟩, HO⟩
  ihave Hst := Hback $$ HO

  rw [← Prog.bind_pure (StableHlo.seq ht.ops)]
  iapply (StableHlo.wp_seq 𝒱 none Set.univ d tcArrays (fun u => pure u) ht.ops ht.bufs ht.fresh (V2 m d g out1)) $$ [Hb Hp Ht Ho Hr Hrest]
  · isplitl [Hb]; · iexact Hb
    rw [held_all4, V2_p, V2_t, V2_o, V2_r, V2_rest]
    isplitr [Hrest]
    · isplitl [Hp]; · iexact Hp
      isplitl [Ht]; · iexact Ht
      isplitl [Ho]; · iexact Ho
      iexact Hr
    · iexact Hrest
  iintro ⟨Hb, Hheld⟩
  ihave Hh := (Entails.of_eq (held_all3 d _)) $$ Hheld
  icases Hh with ⟨⟨Hp, Ht, Hv⟩, -⟩
  rw [Prog.pure_eq_ret, wp_ret]; imodintro
  isplitl [Hst]; · iexact Hst
  unfold FIN
  iexists g; iexists out1
  isplitr; · ipureintro; exact ⟨hSC, hTC⟩
  rw [ht.arg0, ht.arg1, ht.v27, V2_p, V2_t, V2_o, V2_r]
  isplitl [Hp]; · iexact Hp
  isplitl [Ht]; · iexact Ht
  iexact Hv

def fq (d : Dev nD) (s' : Phys nD τ sig (Elt F)) : Prop :=
  (∃ (out0 : Buf (Elt F) (oLoc d)) (out1 : Buf (Elt F) (rLoc d)),
      Cert.SpecSC.SpecSC (m (pLoc d)) (m (tLoc d)) out0 ∧ SpecTC.SpecTC (m (pLoc d)) (m (tLoc d)) out1
        ∧ s'.mem.mem (vLoc d) = Tail.tailOf out0 out1)
    ∧ s'.mem.mem (pLoc d) = m (pLoc d) ∧ s'.mem.mem (tLoc d) = m (tLoc d)

theorem hfin (d : Dev nD) (s' : Phys nD τ sig (Elt F)) : iprop(FIN m d ∗ SI s') ⊢ (⌜fq m d s'⌝ : sProp 𝕄) := by
  unfold FIN
  iintro ⟨⟨%out0, %out1, %hS, Hp, Ht, Hv⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := vLoc d) (I := Finset.univ) (q := fullShare) (f := Tail.tailOf out0 out1)) $$ [HSI Hv]
  · isplitl [HSI] <;> iassumption
  icases H with %h3
  ipureintro
  exact ⟨⟨out0, out1, hS.1, hS.2, funext fun i => h3 i (Finset.mem_univ i)⟩, funext fun i => h1 i (Finset.mem_univ i), funext fun i => h2 i (Finset.mem_univ i)⟩

def QC : PUnit × MemSt nD τ sig (Elt F) → Prop := fun r => ∀ c : Dev nD,
  (∃ (out0 : Buf (Elt F) (oLoc c)) (out1 : Buf (Elt F) (rLoc c)),
      Cert.SpecSC.SpecSC (m (pLoc c)) (m (tLoc c)) out0 ∧ SpecTC.SpecTC (m (pLoc c)) (m (tLoc c)) out1
        ∧ r.2.mem (vLoc c) = Tail.tailOf out0 out1)
    ∧ r.2.mem (pLoc c) = m (pLoc c) ∧ r.2.mem (tLoc c) = m (tLoc c)

theorem run_main [∀ e, Nonempty (Elt F e)] (hb : TileBody m) (htc : TcRegion (F := F)) (ht : TailFacts F) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (G (F := F)) (FIN m) (u₀ (F := F)) (sep_elim_left.trans (hu₀ m)) (hmain m ρ htc ht) (fq m) (hfin m) (QC m) (fun _ h => h)

end Cert.Kernel.Launch

end
-- ==== Proof.KW.ScLoop.lean ====
/-
  One trip of a pair's loop adds, lane by lane, the masked prediction, the prediction and the mask read off the two
  buffers into six carried vectors; `st` is that recursion over the trips, `inv` holds both buffers and says the carried
  vectors are `st` at the trip, and `trip` proves one trip once, for any buffer half, target rows and class word.
-/
import proofs.«216000_g43989055045728_cont_8to1_b_1827_23_alg».proof.Proof.Gen.Kernel.Skeleton
import proofs.«216000_g43989055045728_cont_8to1_b_1827_23_alg».proof.Proof.SpecSC
import proofs.«216000_g43989055045728_cont_8to1_b_1827_23_alg».proof.Proof.KW.PayDefs
import Idealize.ShloMosaic.Lib.ValueLayout
import Idealize.ShloMosaic.Lib.SparseCore
import Idealize.ShloMosaic.Lib.Exec
import Idealize.ShloMosaic.Rules.Step

set_option warn.classDefReducibility false

noncomputable section

namespace Cert.Kernel.ScLoop

open Cert.Kernel Cert.Kernel.Gen
open Cert.SpecSC

open Idealize.ShloMosaic Idealize.ShloMosaic.ValueIdx
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

def fin16 (n : Nat) : Fin 16 := ⟨n % 16, Nat.mod_lt _ (by decide)⟩
def fin32 (n : Nat) : Fin 32 := ⟨n % 32, Nat.mod_lt _ (by decide)⟩

abbrev Acc (F : FTy → Type) : Type :=
  FVec F S16 .f32 × FVec F S16 .f32 × FVec F S16 .f32 × FVec F S16 .f32 × FVec F S16 .f32 × FVec F S16 .f32

section Pure

variable (rp : S16x512.Idx → F .f32) (rt : S32x512.Idx → BitVec 32)

def pRd (v col : Nat) : F .f32 := rp (ix2 (fin16 (v / 16)) (fin512 (32 * (v % 16) + col)))

def tRd (ro v col : Nat) : BitVec 32 := rt (ix2 (fin32 (ro + v / 16)) (fin512 (32 * (v % 16) + col)))

def bNom (cw : BitVec 32) (ro col v : Nat) : F .f32 := FloatOps.mulf (pRd rp v col) (m01 cw (tRd rt ro v col))
def bIsum (col v : Nat) : F .f32 := pRd rp v col
def bTsum (cw : BitVec 32) (ro col v : Nat) : F .f32 := m01 (F := F) cw (tRd rt ro v col)

def Lanes (cw : BitVec 32) (ro k : Nat) (acc : Acc F) : Prop :=
  ∀ l : Fin 16,
    acc.1 (ix1 l) = accum (bNom rp rt cw ro l.val) k
    ∧ acc.2.1 (ix1 l) = accum (bIsum rp l.val) k
    ∧ acc.2.2.1 (ix1 l) = accum (bTsum (F := F) rt cw ro l.val) k
    ∧ acc.2.2.2.1 (ix1 l) = accum (bNom rp rt cw ro (l.val + 16)) k
    ∧ acc.2.2.2.2.1 (ix1 l) = accum (bIsum rp (l.val + 16)) k
    ∧ acc.2.2.2.2.2 (ix1 l) = accum (bTsum (F := F) rt cw ro (l.val + 16)) k

def stStep (cw : BitVec 32) (ro k : Nat) (a : Acc F) : Acc F :=
  (fun j => FloatOps.addf (a.1 j) (bNom rp rt cw ro (j 0).val k),
   fun j => FloatOps.addf (a.2.1 j) (bIsum rp (j 0).val k),
   fun j => FloatOps.addf (a.2.2.1 j) (bTsum (F := F) rt cw ro (j 0).val k),
   fun j => FloatOps.addf (a.2.2.2.1 j) (bNom rp rt cw ro ((j 0).val + 16) k),
   fun j => FloatOps.addf (a.2.2.2.2.1 j) (bIsum rp ((j 0).val + 16) k),
   fun j => FloatOps.addf (a.2.2.2.2.2 j) (bTsum (F := F) rt cw ro ((j 0).val + 16) k))

/-- The carried vectors before trip k, all six started from z. -/
def st (z : FVec F S16 .f32) (cw : BitVec 32) (ro : Nat) : Nat → Acc F
  | 0 => (z, z, z, z, z, z)
  | k + 1 => stStep rp rt cw ro k (st z cw ro k)

theorem st_lanes (z : FVec F S16 .f32) (hz : ∀ l : Fin 16, z (ix1 l) = zeroF) (cw : BitVec 32) (ro : Nat) :
    ∀ k, Lanes rp rt cw ro k (st rp rt z cw ro k)
  | 0 => fun l => ⟨hz l, hz l, hz l, hz l, hz l, hz l⟩
  | k + 1 => fun l => by
    obtain ⟨h0, h1, h2, h3, h4, h5⟩ := st_lanes z hz cw ro k l
    refine ⟨?_, ?_, ?_, ?_, ?_, ?_⟩
    · show FloatOps.addf ((st rp rt z cw ro k).1 (ix1 l)) _ = FloatOps.addf _ _; rw [h0]
    · show FloatOps.addf ((st rp rt z cw ro k).2.1 (ix1 l)) _ = FloatOps.addf _ _; rw [h1]
    · show FloatOps.addf ((st rp rt z cw ro k).2.2.1 (ix1 l)) _ = FloatOps.addf _ _; rw [h2]
    · show FloatOps.addf ((st rp rt z cw ro k).2.2.2.1 (ix1 l)) _ = FloatOps.addf _ _; rw [h3]
    · show FloatOps.addf ((st rp rt z cw ro k).2.2.2.2.1 (ix1 l)) _ = FloatOps.addf _ _; rw [h4]
    · show FloatOps.addf ((st rp rt z cw ro k).2.2.2.2.2 (ix1 l)) _ = FloatOps.addf _ _; rw [h5]

theorem step_eq (cw : BitVec 32) (ro k : Nat)
    (a0 a1 a2 a3 a4 a5 b0 b1 b2 b3 b4 b5 : FVec F S16 .f32) (v1 v2 : Vec F S1x16 .f32) (w1 w2 : Vec F S1x16 .i32)
    (hv1 : ∀ l : Fin 16, v1 (ix2 (0 : Fin 1) l) = pRd rp k l.val)
    (hw1 : ∀ l : Fin 16, w1 (ix2 (0 : Fin 1) l) = tRd rt ro k l.val)
    (hv2 : ∀ l : Fin 16, v2 (ix2 (0 : Fin 1) l) = pRd rp k (l.val + 16))
    (hw2 : ∀ l : Fin 16, w2 (ix2 (0 : Fin 1) l) = tRd rt ro k (l.val + 16))
    (hb0 : ∀ l : Fin 16, b0 (ix1 l) = FloatOps.addf (a0 (ix1 l)) (FloatOps.mulf (v1 (ix2 (0 : Fin 1) l)) (m01 cw (w1 (ix2 (0 : Fin 1) l)))))
    (hb1 : ∀ l : Fin 16, b1 (ix1 l) = FloatOps.addf (a1 (ix1 l)) (v1 (ix2 (0 : Fin 1) l)))
    (hb2 : ∀ l : Fin 16, b2 (ix1 l) = FloatOps.addf (a2 (ix1 l)) (m01 cw (w1 (ix2 (0 : Fin 1) l))))
    (hb3 : ∀ l : Fin 16, b3 (ix1 l) = FloatOps.addf (a3 (ix1 l)) (FloatOps.mulf (v2 (ix2 (0 : Fin 1) l)) (m01 cw (w2 (ix2 (0 : Fin 1) l)))))
    (hb4 : ∀ l : Fin 16, b4 (ix1 l) = FloatOps.addf (a4 (ix1 l)) (v2 (ix2 (0 : Fin 1) l)))
    (hb5 : ∀ l : Fin 16, b5 (ix1 l) = FloatOps.addf (a5 (ix1 l)) (m01 cw (w2 (ix2 (0 : Fin 1) l)))) :
    (b0, b1, b2, b3, b4, b5) = stStep rp rt cw ro k (a0, a1, a2, a3, a4, a5) := by
  have e0 : b0 = (stStep rp rt cw ro k (a0, a1, a2, a3, a4, a5)).1 := by
    funext j; obtain ⟨l, rfl⟩ : ∃ l : Fin 16, j = ix1 l := ⟨j 0, eq_ix1 j⟩
    rw [hb0, hv1, hw1]; rfl
  have e1 : b1 = (stStep rp rt cw ro k (a0, a1, a2, a3, a4, a5)).2.1 := by
    funext j; obtain ⟨l, rfl⟩ : ∃ l : Fin 16, j = ix1 l := ⟨j 0, eq_ix1 j⟩
    rw [hb1, hv1]; rfl
  have e2 : b2 = (stStep rp rt cw ro k (a0, a1, a2, a3, a4, a5)).2.2.1 := by
    funext j; obtain ⟨l, rfl⟩ : ∃ l : Fin 16, j = ix1 l := ⟨j 0, eq_ix1 j⟩
    rw [hb2, hw1]; rfl
  have e3 : b3 = (stStep rp rt cw ro k (a0, a1, a2, a3, a4, a5)).2.2.2.1 := by
    funext j; obtain ⟨l, rfl⟩ : ∃ l : Fin 16, j = ix1 l := ⟨j 0, eq_ix1 j⟩
    rw [hb3, hv2, hw2]; rfl
  have e4 : b4 = (stStep rp rt cw ro k (a0, a1, a2, a3, a4, a5)).2.2.2.2.1 := by
    funext j; obtain ⟨l, rfl⟩ : ∃ l : Fin 16, j = ix1 l := ⟨j 0, eq_ix1 j⟩
    rw [hb4, hv2]; rfl
  have e5 : b5 = (stStep rp rt cw ro k (a0, a1, a2, a3, a4, a5)).2.2.2.2.2 := by
    funext j; obtain ⟨l, rfl⟩ : ∃ l : Fin 16, j = ix1 l := ⟨j 0, eq_ix1 j⟩
    rw [hb5, hw2]; rfl
  rw [e0, e1, e2, e3, e4, e5]

end Pure

theorem unit_idx {n0 n1 : Nat} (off : Fin 2 → Nat)
    (inb : ∀ a, off a + S1x16.size a ≤ (⟨2, ![n0, n1]⟩ : Shape).size a) (l : Fin 16)
    (r : Fin n0) (x : Fin n1) (hr : r.val = off 0) (hx : x.val = off 1 + l.val) :
    (Rect.unit (s := ⟨2, ![n0, n1]⟩) off S1x16.size inb).toLoadRect.idx (ix2 (0 : Fin 1) l) = ix2 r x := by
  funext a
  apply Fin.ext
  rw [LoadRect.idx_apply]
  match a with
  | ⟨0, _⟩ => show off 0 + 1 * 0 = r.val; omega
  | ⟨1, _⟩ => show off 1 + 1 * l.val = x.val; omega

theorem readAt_unit16 {Val : EltTy → Type} {sig : RefSig} {κ : Kind} {sp : Space} {n0 n1 : Nat} {e : EltTy}
    (v : View sig κ sp (⟨2, ![n0, n1]⟩ : Shape) e) (off : Fin 2 → Nat)
    (inb : ∀ a, off a + S1x16.size a ≤ (⟨2, ![n0, n1]⟩ : Shape).size a) (f : v.ty.Contents Val) (l : Fin 16)
    (r : Fin n0) (x : Fin n1) (hr : r.val = off 0) (hx : x.val = off 1 + l.val) :
    v.readAt Val (Rect.unit (s := ⟨2, ![n0, n1]⟩) off S1x16.size inb).toLoadRect f (ix2 (0 : Fin 1) l)
      = v.read Val f (ix2 r x) := by
  rw [View.readAt_apply, unit_idx off inb l r x hr hx]

section Inv

variable {Ix : Type} [DecidableEq Ix] {U : Type} [URA U] {Lvl : Type} [Preorder Lvl]

/-- Before trip k both buffers are held at their contents and the carried vectors are the state at k. -/
def inv (c : Thread nD τ) (mP : Memref sig c.2.kind .vmem S16x512 .f32) (mT : Memref sig c.2.kind .vmem S32x512 .i32)
    (qP qT : PosShare TreeShare) (fb : Buf (Elt F) (mP.view.loc c)) (ft : Buf (Elt F) (mT.view.loc c))
    (z : FVec F S16 .f32) (cw : BitVec 32) (ro : Nat) (k : Nat) (acc : Acc F) : sProp (MT nD τ sig Ix (Elt F) ℕ U Lvl) :=
  iprop(⌜acc = st (mP.view.read (Elt F) fb) (mT.view.read (Elt F) ft) z cw ro k⌝
    ∗ (mP.view.loc c ↦{qP} fb) ∗ (mT.view.loc c ↦{qT} ft))

end Inv

/-! ## One trip, for every pair -/

section Trip

/-- A trip's load offsets as the kernel computes them from the trip's number: the row from k / 16, the column from 32 (k mod 16). -/
def off (row col : BitVec 32 → BitVec 32) (k : Nat) : Fin 2 → Nat :=
  ![(Scalar.indexCast (row (Scalar.shrsi (Scf.iv 0#32 1#32 k) 4#32)) : Index).toNat,
    (Scalar.indexCast (col (Scalar.muli (Scalar.andi (Scf.iv 0#32 1#32 k) 15#32) 32#32)) : Index).toNat]

theorem off_P0 : ∀ k, k < 256 → off id id k = ![k / 16, 32 * (k % 16)] := by decide +kernel
theorem off_P16 : ∀ k, k < 256 → off id (Scalar.addi · 16#32) k = ![k / 16, 32 * (k % 16) + 16] := by decide +kernel
theorem off_T0 (ro : Nat) (h : ro = 0 ∨ ro = 16) :
    ∀ k, k < 256 → off (Scalar.addi (BitVec.ofNat 32 ro)) id k = ![ro + k / 16, 32 * (k % 16)] := by
  rcases h with rfl | rfl <;> decide +kernel
theorem off_T16 (ro : Nat) (h : ro = 0 ∨ ro = 16) :
    ∀ k, k < 256 → off (Scalar.addi (BitVec.ofNat 32 ro)) (Scalar.addi · 16#32) k = ![ro + k / 16, 32 * (k % 16) + 16] := by
  rcases h with rfl | rfl <;> decide +kernel

/-- A loaded 1 x 16 row as a 16-vector, and the 0/1 vector of its lanes equal to the class word. -/
def vCast (v : Vec F S1x16 .f32) : FVec F S16 .f32 := shapeCast S16 v shapeCasts_S1x16_S16
def vMask (cw : BitVec 32) (w : Vec F S1x16 .i32) : FVec F S16 .f32 :=
  select (cmpi .eq (shapeCast S16 w shapeCasts_S1x16_S16 : IVec S16 32) (broadcast S16 cw))
    (broadcast S16 (Scalar.ofBits .f32 0x3F800000#32 : F .f32)) (broadcast S16 (Scalar.ofBits .f32 0x00000000#32 : F .f32))

section Pay
variable (cw : BitVec 32) (a : FVec F S16 .f32) (v : Vec F S1x16 .f32) (w : Vec F S1x16 .i32) (l : Fin 16)

theorem nom_lane : addf a (mulf (vCast v) (vMask cw w)) (ix1 l)
    = FloatOps.addf (a (ix1 l)) (FloatOps.mulf (v (ix2 (0 : Fin 1) l)) (m01 cw (w (ix2 (0 : Fin 1) l)))) := by
  simp only [vCast, vMask, addf, mulf, select, cmpi, broadcast, shapeCast_1a_a_apply]; rfl
theorem isum_lane : addf a (vCast v) (ix1 l) = FloatOps.addf (a (ix1 l)) (v (ix2 (0 : Fin 1) l)) := by
  simp only [vCast, addf, shapeCast_1a_a_apply]
theorem tsum_lane : addf a (vMask (F := F) cw w) (ix1 l) = FloatOps.addf (a (ix1 l)) (m01 cw (w (ix2 (0 : Fin 1) l))) := by
  simp only [vMask, addf, select, cmpi, broadcast, shapeCast_1a_a_apply]; rfl
end Pay

variable {Ix : Type} [DecidableEq Ix] {U : Type} [URA U] {Lvl : Type} [Preorder Lvl]

/-- One trip takes the invariant to the invariant, whichever buffer half, target rows and class word the loop walks.
    The offsets and their bounds are read off the loop's body; they are the kernel's word arithmetic on the trip's
    number, so the four loads read the rows the state's step reads, and the six sums add what it adds. -/
theorem trip {n : Nat} (hn : n ≤ 256) (c : Thread nD τ) (mP : Memref sig c.2.kind .vmem S16x512 .f32) (mT : Memref sig c.2.kind .vmem S32x512 .i32)
    {defs : Defs nD τ sig (Elt F) Λ₀} (𝒱 : Variants) (bd : Option 𝒱.V) (E : Set ℕ) (qP qT : PosShare TreeShare)
    (fb : Buf (Elt F) (mP.view.loc c)) (ft : Buf (Elt F) (mT.view.loc c)) (z : FVec F S16 .f32)
    (cw : BitVec 32) (ro : Nat) (k : Fin n) {o1 o2 o3 o4 : Fin 2 → Nat}
    {i1 : ∀ a, o1 a + S1x16.size a ≤ S16x512.size a} {i2 : ∀ a, o2 a + S1x16.size a ≤ S32x512.size a}
    {i3 : ∀ a, o3 a + S1x16.size a ≤ S16x512.size a} {i4 : ∀ a, o4 a + S1x16.size a ≤ S32x512.size a}
    (a0 a1 a2 a3 a4 a5 : FVec F S16 .f32) (hro : ro = 0 ∨ ro = 16 := by decide)
    (h1 : o1 = off id id k := by exact rfl) (h2 : o2 = off (Scalar.addi (BitVec.ofNat 32 ro)) id k := by exact rfl)
    (h3 : o3 = off id (Scalar.addi · 16#32) k := by exact rfl)
    (h4 : o4 = off (Scalar.addi (BitVec.ofNat 32 ro)) (Scalar.addi · 16#32) k := by exact rfl) :
    inv (Ix := Ix) (U := U) (Lvl := Lvl) c mP mT qP qT fb ft z cw ro k (a0, a1, a2, a3, a4, a5)
      ⊢ wp frame (wpE defs 𝒱 c bd) E
          (show Prog (TpuEff nD τ sig (Elt F) Λ₀ c.2) (Acc F) from do
            let v : Vec F S1x16 .f32 ← Prog.lift (.load mP (Rect.unit (s := S16x512) o1 S1x16.size i1).toLoadRect (View.loadsAt_vmem h_S1x16))
            let w : Vec F S1x16 .i32 ← Prog.lift (.load mT (Rect.unit (s := S32x512) o2 S1x16.size i2).toLoadRect (View.loadsAt_vmem h_S1x16))
            let v' : Vec F S1x16 .f32 ← Prog.lift (.load mP (Rect.unit (s := S16x512) o3 S1x16.size i3).toLoadRect (View.loadsAt_vmem h_S1x16))
            let w' : Vec F S1x16 .i32 ← Prog.lift (.load mT (Rect.unit (s := S32x512) o4 S1x16.size i4).toLoadRect (View.loadsAt_vmem h_S1x16))
            pure (addf a0 (mulf (vCast v) (vMask cw w)), addf a1 (vCast v), addf a2 (vMask cw w),
              addf a3 (mulf (vCast v') (vMask cw w')), addf a4 (vCast v'), addf a5 (vMask cw w')))
          (inv c mP mT qP qT fb ft z cw ro (k.val + 1)) := by
  have hk := Nat.lt_of_lt_of_le k.isLt hn
  have hr : ro ≤ 16 := by rcases hro with rfl | rfl <;> decide
  replace h1 := h1.trans (off_P0 k hk)
  replace h2 := h2.trans (off_T0 ro hro k hk)
  replace h3 := h3.trans (off_P16 k hk)
  replace h4 := h4.trans (off_T16 ro hro k hk)
  subst h1 h2 h3 h4
  unfold inv
  simp only [Prog.lift, Prog.bind_op, Prog.bind_ret, Prog.pure_eq_ret]
  iintro ⟨%hacc, HP, HT⟩
  iapply (wp_load 𝒱 c bd E (m := mP) (Finset.subset_univ _)) $$ HP; iintro HP
  iapply (wp_load 𝒱 c bd E (m := mT) (Finset.subset_univ _)) $$ HT; iintro HT
  iapply (wp_load 𝒱 c bd E (m := mP) (Finset.subset_univ _)) $$ HP; iintro HP
  iapply (wp_load 𝒱 c bd E (m := mT) (Finset.subset_univ _)) $$ HT; iintro HT
  rw [wp_ret]; imodintro
  isplitr
  · ipureintro
    show _ = stStep (mP.view.read (Elt F) fb) (mT.view.read (Elt F) ft) cw ro k
      (st (mP.view.read (Elt F) fb) (mT.view.read (Elt F) ft) z cw ro k)
    rw [← hacc]
    refine step_eq _ _ cw ro k a0 a1 a2 a3 a4 a5 _ _ _ _ _ _ _ _ _ _ ?_ ?_ ?_ ?_
      (nom_lane cw a0 _ _) (isum_lane a1 _) (tsum_lane cw a2 _) (nom_lane cw a3 _ _) (isum_lane a4 _) (tsum_lane cw a5 _)
    · intro l
      exact readAt_unit16 mP.view _ _ fb l _ _ (by show (k.val / 16) % 16 = k.val / 16; omega)
        (by show (32 * (k.val % 16) + l.val) % 512 = 32 * (k.val % 16) + l.val; omega)
    · intro l
      exact readAt_unit16 mT.view _ _ ft l _ _ (by show (ro + k.val / 16) % 32 = ro + k.val / 16; omega)
        (by show (32 * (k.val % 16) + l.val) % 512 = 32 * (k.val % 16) + l.val; omega)
    · intro l
      exact readAt_unit16 mP.view _ _ fb l _ _ (by show (k.val / 16) % 16 = k.val / 16; omega)
        (by show (32 * (k.val % 16) + (l.val + 16)) % 512 = 32 * (k.val % 16) + 16 + l.val; omega)
    · intro l
      exact readAt_unit16 mT.view _ _ ft l _ _ (by show (ro + k.val / 16) % 32 = ro + k.val / 16; omega)
        (by show (32 * (k.val % 16) + (l.val + 16)) % 512 = 32 * (k.val % 16) + 16 + l.val; omega)
  isplitl [HP]
  · iexact HP
  · iexact HT

open Cert.Kernel.PayDefs in
/-- The class of a pair's loop on tile (d, L): the loop's bounds and body as the program has them, its six sums started from z. -/
abbrev TileLoop (d : Dev nD) (L : grid0.Coords) (z : FVec F S16 .f32) (lp : Scf.Loop 32) (ok : lp.OK)
    (body : Fin lp.trips → Acc F → Prog (TpuEff nD τ sig (Elt F) Λ₀ (tileThr d L).2) (Acc F)) :=
  LoopInv (M := MT nD τ sig (HIx 1) (Elt F) ℕ UU ℕ) frame (wpE (defs₀ (F := F)) 𝒱₀ (tileThr d L) none) Set.univ
    lp.lb lp.ub lp.st ok (z, z, z, z, z, z) body

end Trip

section Spec

variable (P : SP.Idx → F .f32) (T : ST.Idx → BitVec 32)
variable (rp : S16x512.Idx → F .f32) (rt : S32x512.Idx → BitVec 32)

theorem accum_congr {g g' : Nat → F .f32} : ∀ k, (∀ v, v < k → g v = g' v) → accum g k = accum g' k
  | 0, _ => rfl
  | k + 1, h => by
    show FloatOps.addf (accum g k) (g k) = FloatOps.addf (accum g' k) (g' k)
    rw [accum_congr k (fun v hv => h v (Nat.lt_succ_of_lt hv)), h k (Nat.lt_succ_self k)]

def HoldsP (b : Fin 8) (c : Fin 19) (wid : Nat) : Prop :=
  ∀ (r : Fin 16) (x : Fin 512), rp (ix2 r x) = P (ix4 b c (fin512 (16 * wid + r.val)) x)
def HoldsT (b : Fin 8) (wid ro : Nat) : Prop :=
  ∀ (r : Fin 16) (x : Fin 512), rt (ix2 (fin32 (ro + r.val)) x) = T (ix3 b (fin512 (16 * wid + r.val)) x)

variable {P T rp rt}

theorem pRd_eq {b : Fin 8} {c : Fin 19} {wid : Nat} (hP : HoldsP P rp b c wid) (v col : Nat) (hv : v < 256) :
    pRd rp v col = pAt P b c wid v col := by
  have e : (fin16 (v / 16)).val = v / 16 := by show (v / 16) % 16 = v / 16; omega
  have h := hP (fin16 (v / 16)) (fin512 (32 * (v % 16) + col))
  rw [e] at h
  exact h

theorem tRd_eq {b : Fin 8} {wid ro : Nat} (hT : HoldsT T rt b wid ro) (v col : Nat) (hv : v < 256) :
    tRd rt ro v col = tAt T b wid v col := by
  have e : (fin16 (v / 16)).val = v / 16 := by show (v / 16) % 16 = v / 16; omega
  have h := hT (fin16 (v / 16)) (fin512 (32 * (v % 16) + col))
  rw [e] at h
  exact h

theorem bNom_eq {b : Fin 8} {c : Fin 19} {wid ro : Nat} (hP : HoldsP P rp b c wid) (hT : HoldsT T rt b wid ro) (col v : Nat) (hv : v < 256) :
    bNom rp rt (cls c) ro col v = gNom P T b c wid col v := by
  unfold bNom gNom; rw [pRd_eq hP v col hv, tRd_eq hT v col hv]
theorem bIsum_eq {b : Fin 8} {c : Fin 19} {wid : Nat} (hP : HoldsP P rp b c wid) (col v : Nat) (hv : v < 256) :
    bIsum rp col v = gIsum P b c wid col v := by
  unfold bIsum gIsum; exact pRd_eq hP v col hv
theorem bTsum_eq {b : Fin 8} {c : Fin 19} {wid ro : Nat} (hT : HoldsT T rt b wid ro) (col v : Nat) (hv : v < 256) :
    bTsum (F := F) rt (cls c) ro col v = gTsum (F := F) T b c wid col v := by
  unfold bTsum gTsum; rw [tRd_eq hT v col hv]

/-- With the slices in the buffers, the state after 256 trips adds up, pairwise, to the tile's three sums of the pair. -/
theorem tile_of_st {b : Fin 8} {c : Fin 19} {wid ro : Nat} (hP : HoldsP P rp b c wid) (hT : HoldsT T rt b wid ro)
    (z : FVec F S16 .f32) (hz : ∀ l : Fin 16, z (ix1 l) = zeroF) (l : Fin 16) :
    FloatOps.addf ((st rp rt z (cls c) ro 256).1 (ix1 l)) ((st rp rt z (cls c) ro 256).2.2.2.1 (ix1 l)) = tileNom P T b c wid l.val
    ∧ FloatOps.addf ((st rp rt z (cls c) ro 256).2.1 (ix1 l)) ((st rp rt z (cls c) ro 256).2.2.2.2.1 (ix1 l)) = tileIsum P b c wid l.val
    ∧ FloatOps.addf ((st rp rt z (cls c) ro 256).2.2.1 (ix1 l)) ((st rp rt z (cls c) ro 256).2.2.2.2.2 (ix1 l)) = tileTsum (F := F) T b c wid l.val := by
  obtain ⟨h0, h1, h2, h3, h4, h5⟩ := st_lanes rp rt z hz (cls c) ro 256 l
  rw [h0, h1, h2, h3, h4, h5]
  refine ⟨?_, ?_, ?_⟩
  · unfold tileNom
    rw [accum_congr 256 (fun v hv => bNom_eq hP hT l.val v hv), accum_congr 256 (fun v hv => bNom_eq hP hT (l.val + 16) v hv)]
  · unfold tileIsum
    rw [accum_congr 256 (fun v hv => bIsum_eq (c := c) hP l.val v hv), accum_congr 256 (fun v hv => bIsum_eq (c := c) hP (l.val + 16) v hv)]
  · unfold tileTsum
    rw [accum_congr 256 (fun v hv => bTsum_eq (c := c) hT l.val v hv), accum_congr 256 (fun v hv => bTsum_eq (c := c) hT (l.val + 16) v hv)]

theorem sum_cast_lane (x y : FVec F S16 .f32) (h : S16.ShapeCasts S16) (l : Fin 16) :
    shapeCast S16 (addf x y) h (ix1 l) = FloatOps.addf (x (ix1 l)) (y (ix1 l)) := by
  rw [shapeCast_self]; rfl

end Spec

end Cert.Kernel.ScLoop

end
-- ==== Proof.KW.ScLoopAll.lean ====
import proofs.«216000_g43989055045728_cont_8to1_b_1827_23_alg».proof.Proof.KW.ScLoop

set_option warn.classDefReducibility false

noncomputable section

namespace Cert.Kernel.ScLoop

open Cert.Kernel Cert.Kernel.Gen Cert.Kernel.PayDefs
open Idealize.ShloMosaic
open Idealize.ShloMosaic.SparseCore.Cfg (HIx)
open Idealize.SL Idealize.SL.RA Idealize.SL.Sem

variable {F : FTy → Type} [FloatOps F]
variable (d : Dev nD) (L : grid0.Coords) (qP qT : PosShare TreeShare)
  (ft : Buf (Elt F) (sT.view.loc (tileThr d L))) (z : FVec F S16 .f32)

@[sl_loop] def loopInv1 (fb : Buf (Elt F) (sA.view.loc (tileThr d L))) :
    TileLoop d L z k0_t1_loop k0_t1_ok
      (k0_t1_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7) where
  inv := inv (tileThr d L) sA sT qP qT fb ft z 0#32 0
  step := fun k ⟨a0, a1, a2, a3, a4, a5⟩ =>
    trip k0_t1_abs.2.1 (tileThr d L) sA sT 𝒱₀ none Set.univ qP qT fb ft z 0#32 0 k a0 a1 a2 a3 a4 a5

@[sl_loop] def loopInv2 (fb : Buf (Elt F) (sB.view.loc (tileThr d L))) (v31 : FVec F S16 .f32) :
    TileLoop d L z k0_t2_loop k0_t2_ok
      (k0_t2_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 1#32 0
  step := fun k ⟨a0, a1, a2, a3, a4, a5⟩ =>
    trip k0_t2_abs.2.1 (tileThr d L) sB sT 𝒱₀ none Set.univ qP qT fb ft z 1#32 0 k a0 a1 a2 a3 a4 a5

@[sl_loop] def loopInv3 (fb : Buf (Elt F) (sA.view.loc (tileThr d L))) (v31 : FVec F S16 .f32) (c0_i32_58 : BitVec 32) (c1_i32_60 : BitVec 32) :
    TileLoop d L z k0_t3_loop k0_t3_ok
      (k0_t3_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_58 c1_i32_60) where
  inv := inv (tileThr d L) sA sT qP qT fb ft z 2#32 0
  step := fun k ⟨a0, a1, a2, a3, a4, a5⟩ =>
    trip k0_t3_abs.2.1 (tileThr d L) sA sT 𝒱₀ none Set.univ qP qT fb ft z 2#32 0 k a0 a1 a2 a3 a4 a5

@[sl_loop] def loopInv4 (fb : Buf (Elt F) (sB.view.loc (tileThr d L))) (v31 : FVec F S16 .f32) (c0_i32_58 : BitVec 32) (c1_i32_60 : BitVec 32) :
    TileLoop d L z k0_t4_loop k0_t4_ok
      (k0_t4_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_58 c1_i32_60) where
  inv := inv (tileThr d L) sB sT qP qT fb ft z 3#32 0
  step := fun k ⟨a0, a1, a2, a3, a4, a5⟩ =>
    trip k0_t4_abs.2.1 (tileThr d L) sB sT 𝒱₀ none Set.univ qP qT fb ft z 3#32 0 k a0 a1 a2 a3 a4 a5

@[sl_loop] def loopInv5 (fb : Buf (Elt F) (sA.view.loc (tileThr d L))) (v31 : FVec F S16 .f32) (v110 : FVec F S16 .f32) :
    TileLoop d L z k0_t5_loop k0_t5_ok
      (k0_t5_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v110) where
  inv := inv (tileThr d L) sA sT qP qT fb ft z 4#32 0
  step := fun k ⟨a0, a1, a2, a3, a4, a5⟩ =>
    trip k0_t5_abs.2.1 (tileThr d L) sA sT 𝒱₀ none Set.univ qP qT fb ft z 4#32 0 k a0 a1 a2 a3 a4 a5

@[sl_loop] def loopInv6 (fb : Buf (Elt F) (sB.view.loc (tileThr d L))) (v31 : FVec F S16 .f32) :
    TileLoop d L z k0_t6_loop k0_t6_ok
      (k0_t6_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 5#32 0
  step := fun k ⟨a0, a1, a2, a3, a4, a5⟩ =>
    trip k0_t6_abs.2.1 (tileThr d L) sB sT 𝒱₀ none Set.univ qP qT fb ft z 5#32 0 k a0 a1 a2 a3 a4 a5

@[sl_loop] def loopInv7 (fb : Buf (Elt F) (sA.view.loc (tileThr d L))) (v31 : FVec F S16 .f32) :
    TileLoop d L z k0_t7_loop k0_t7_ok
      (k0_t7_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sA sT qP qT fb ft z 6#32 0
  step := fun k ⟨a0, a1, a2, a3, a4, a5⟩ =>
    trip k0_t7_abs.2.1 (tileThr d L) sA sT 𝒱₀ none Set.univ qP qT fb ft z 6#32 0 k a0 a1 a2 a3 a4 a5

@[sl_loop] def loopInv8 (fb : Buf (Elt F) (sB.view.loc (tileThr d L))) (v31 : FVec F S16 .f32) (v175 : FVec F S16 .f32) (v176 : FVec F S16 .f32) (v180 : Vec F S16 .f32) :
    TileLoop d L z k0_t8_loop k0_t8_ok
      (k0_t8_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v175 v176 v180) where
  inv := inv (tileThr d L) sB sT qP qT fb ft z 7#32 0
  step := fun k ⟨a0, a1, a2, a3, a4, a5⟩ =>
    trip k0_t8_abs.2.1 (tileThr d L) sB sT 𝒱₀ none Set.univ qP qT fb ft z 7#32 0 k a0 a1 a2 a3 a4 a5

@[sl_loop] def loopInv9 (fb : Buf (Elt F) (sA.view.loc (tileThr d L))) (v31 : FVec F S16 .f32) :
    TileLoop d L z k0_t9_loop k0_t9_ok
      (k0_t9_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sA sT qP qT fb ft z 8#32 0
  step := fun k ⟨a0, a1, a2, a3, a4, a5⟩ =>
    trip k0_t9_abs.2.1 (tileThr d L) sA sT 𝒱₀ none Set.univ qP qT fb ft z 8#32 0 k a0 a1 a2 a3 a4 a5

@[sl_loop] def loopInv10 (fb : Buf (Elt F) (sB.view.loc (tileThr d L))) (v31 : FVec F S16 .f32) :
    TileLoop d L z k0_t10_loop k0_t10_ok
      (k0_t10_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 9#32 0
  step := fun k ⟨a0, a1, a2, a3, a4, a5⟩ =>
    trip k0_t10_abs.2.1 (tileThr d L) sB sT 𝒱₀ none Set.univ qP qT fb ft z 9#32 0 k a0 a1 a2 a3 a4 a5

@[sl_loop] def loopInv11 (fb : Buf (Elt F) (sA.view.loc (tileThr d L))) (v31 : FVec F S16 .f32) (v240 : FVec F S16 .f32) (v241 : FVec F S16 .f32) (v242 : FVec F S16 .f32) :
    TileLoop d L z k0_t11_loop k0_t11_ok
      (k0_t11_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v240 v241 v242) where
  inv := inv (tileThr d L) sA sT qP qT fb ft z 10#32 0
  step := fun k ⟨a0, a1, a2, a3, a4, a5⟩ =>
    trip k0_t11_abs.2.1 (tileThr d L) sA sT 𝒱₀ none Set.univ qP qT fb ft z 10#32 0 k a0 a1 a2 a3 a4 a5

@[sl_loop] def loopInv12 (fb : Buf (Elt F) (sB.view.loc (tileThr d L))) (v31 : FVec F S16 .f32) :
    TileLoop d L z k0_t12_loop k0_t12_ok
      (k0_t12_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 11#32 0
  step := fun k ⟨a0, a1, a2, a3, a4, a5⟩ =>
    trip k0_t12_abs.2.1 (tileThr d L) sB sT 𝒱₀ none Set.univ qP qT fb ft z 11#32 0 k a0 a1 a2 a3 a4 a5

@[sl_loop] def loopInv13 (fb : Buf (Elt F) (sA.view.loc (tileThr d L))) (v31 : FVec F S16 .f32) (c0_i32_170 : BitVec 32) (c1_i32_172 : BitVec 32) :
    TileLoop d L z k0_t13_loop k0_t13_ok
      (k0_t13_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_170 c1_i32_172) where
  inv := inv (tileThr d L) sA sT qP qT fb ft z 12#32 0
  step := fun k ⟨a0, a1, a2, a3, a4, a5⟩ =>
    trip k0_t13_abs.2.1 (tileThr d L) sA sT 𝒱₀ none Set.univ qP qT fb ft z 12#32 0 k a0 a1 a2 a3 a4 a5

@[sl_loop] def loopInv14 (fb : Buf (Elt F) (sB.view.loc (tileThr d L))) (v31 : FVec F S16 .f32) (c0_i32_170 : BitVec 32) (c1_i32_172 : BitVec 32) :
    TileLoop d L z k0_t14_loop k0_t14_ok
      (k0_t14_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_170 c1_i32_172) where
  inv := inv (tileThr d L) sB sT qP qT fb ft z 13#32 0
  step := fun k ⟨a0, a1, a2, a3, a4, a5⟩ =>
    trip k0_t14_abs.2.1 (tileThr d L) sB sT 𝒱₀ none Set.univ qP qT fb ft z 13#32 0 k a0 a1 a2 a3 a4 a5

@[sl_loop] def loopInv15 (fb : Buf (Elt F) (sA.view.loc (tileThr d L))) (v31 : FVec F S16 .f32) (v330 : FVec F S16 .f32) :
    TileLoop d L z k0_t15_loop k0_t15_ok
      (k0_t15_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v330) where
  inv := inv (tileThr d L) sA sT qP qT fb ft z 14#32 0
  step := fun k ⟨a0, a1, a2, a3, a4, a5⟩ =>
    trip k0_t15_abs.2.1 (tileThr d L) sA sT 𝒱₀ none Set.univ qP qT fb ft z 14#32 0 k a0 a1 a2 a3 a4 a5

@[sl_loop] def loopInv16 (fb : Buf (Elt F) (sB.view.loc (tileThr d L))) (v31 : FVec F S16 .f32) :
    TileLoop d L z k0_t16_loop k0_t16_ok
      (k0_t16_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 15#32 0
  step := fun k ⟨a0, a1, a2, a3, a4, a5⟩ =>
    trip k0_t16_abs.2.1 (tileThr d L) sB sT 𝒱₀ none Set.univ qP qT fb ft z 15#32 0 k a0 a1 a2 a3 a4 a5

@[sl_loop] def loopInv17 (fb : Buf (Elt F) (sA.view.loc (tileThr d L))) (v31 : FVec F S16 .f32) :
    TileLoop d L z k0_t17_loop k0_t17_ok
      (k0_t17_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sA sT qP qT fb ft z 16#32 0
  step := fun k ⟨a0, a1, a2, a3, a4, a5⟩ =>
    trip k0_t17_abs.2.1 (tileThr d L) sA sT 𝒱₀ none Set.univ qP qT fb ft z 16#32 0 k a0 a1 a2 a3 a4 a5

@[sl_loop] def loopInv18 (fb : Buf (Elt F) (sB.view.loc (tileThr d L))) (v31 : FVec F S16 .f32) (v395 : FVec F S16 .f32) (v396 : FVec F S16 .f32) (v400 : Vec F S16 .f32) :
    TileLoop d L z k0_t18_loop k0_t18_ok
      (k0_t18_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v395 v396 v400) where
  inv := inv (tileThr d L) sB sT qP qT fb ft z 17#32 0
  step := fun k ⟨a0, a1, a2, a3, a4, a5⟩ =>
    trip k0_t18_abs.2.1 (tileThr d L) sB sT 𝒱₀ none Set.univ qP qT fb ft z 17#32 0 k a0 a1 a2 a3 a4 a5

@[sl_loop] def loopInv19 (fb : Buf (Elt F) (sA.view.loc (tileThr d L))) (v31 : FVec F S16 .f32) :
    TileLoop d L z k0_t19_loop k0_t19_ok
      (k0_t19_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sA sT qP qT fb ft z 18#32 0
  step := fun k ⟨a0, a1, a2, a3, a4, a5⟩ =>
    trip k0_t19_abs.2.1 (tileThr d L) sA sT 𝒱₀ none Set.univ qP qT fb ft z 18#32 0 k a0 a1 a2 a3 a4 a5

@[sl_loop] def loopInv20 (fb : Buf (Elt F) (sB.view.loc (tileThr d L))) (v31 : FVec F S16 .f32) :
    TileLoop d L z k0_t20_loop k0_t20_ok
      (k0_t20_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 0#32 16
  step := fun k ⟨a0, a1, a2, a3, a4, a5⟩ =>
    trip k0_t20_abs.2.1 (tileThr d L) sB sT 𝒱₀ none Set.univ qP qT fb ft z 0#32 16 k a0 a1 a2 a3 a4 a5

@[sl_loop] def loopInv21 (fb : Buf (Elt F) (sA.view.loc (tileThr d L))) (v31 : FVec F S16 .f32) (v460 : FVec F S16 .f32) (v461 : FVec F S16 .f32) (v462 : FVec F S16 .f32) :
    TileLoop d L z k0_t21_loop k0_t21_ok
      (k0_t21_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v460 v461 v462) where
  inv := inv (tileThr d L) sA sT qP qT fb ft z 1#32 16
  step := fun k ⟨a0, a1, a2, a3, a4, a5⟩ =>
    trip k0_t21_abs.2.1 (tileThr d L) sA sT 𝒱₀ none Set.univ qP qT fb ft z 1#32 16 k a0 a1 a2 a3 a4 a5

@[sl_loop] def loopInv22 (fb : Buf (Elt F) (sB.view.loc (tileThr d L))) (v31 : FVec F S16 .f32) :
    TileLoop d L z k0_t22_loop k0_t22_ok
      (k0_t22_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 2#32 16
  step := fun k ⟨a0, a1, a2, a3, a4, a5⟩ =>
    trip k0_t22_abs.2.1 (tileThr d L) sB sT 𝒱₀ none Set.univ qP qT fb ft z 2#32 16 k a0 a1 a2 a3 a4 a5

@[sl_loop] def loopInv23 (fb : Buf (Elt F) (sA.view.loc (tileThr d L))) (v31 : FVec F S16 .f32) (c0_i32_286 : BitVec 32) (c1_i32_288 : BitVec 32) :
    TileLoop d L z k0_t23_loop k0_t23_ok
      (k0_t23_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_286 c1_i32_288) where
  inv := inv (tileThr d L) sA sT qP qT fb ft z 3#32 16
  step := fun k ⟨a0, a1, a2, a3, a4, a5⟩ =>
    trip k0_t23_abs.2.1 (tileThr d L) sA sT 𝒱₀ none Set.univ qP qT fb ft z 3#32 16 k a0 a1 a2 a3 a4 a5

@[sl_loop] def loopInv24 (fb : Buf (Elt F) (sB.view.loc (tileThr d L))) (v31 : FVec F S16 .f32) (c0_i32_286 : BitVec 32) (c1_i32_288 : BitVec 32) :
    TileLoop d L z k0_t24_loop k0_t24_ok
      (k0_t24_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_286 c1_i32_288) where
  inv := inv (tileThr d L) sB sT qP qT fb ft z 4#32 16
  step := fun k ⟨a0, a1, a2, a3, a4, a5⟩ =>
    trip k0_t24_abs.2.1 (tileThr d L) sB sT 𝒱₀ none Set.univ qP qT fb ft z 4#32 16 k a0 a1 a2 a3 a4 a5

@[sl_loop] def loopInv25 (fb : Buf (Elt F) (sA.view.loc (tileThr d L))) (v31 : FVec F S16 .f32) (v550 : FVec F S16 .f32) :
    TileLoop d L z k0_t25_loop k0_t25_ok
      (k0_t25_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v550) where
  inv := inv (tileThr d L) sA sT qP qT fb ft z 5#32 16
  step := fun k ⟨a0, a1, a2, a3, a4, a5⟩ =>
    trip k0_t25_abs.2.1 (tileThr d L) sA sT 𝒱₀ none Set.univ qP qT fb ft z 5#32 16 k a0 a1 a2 a3 a4 a5

@[sl_loop] def loopInv26 (fb : Buf (Elt F) (sB.view.loc (tileThr d L))) (v31 : FVec F S16 .f32) :
    TileLoop d L z k0_t26_loop k0_t26_ok
      (k0_t26_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 6#32 16
  step := fun k ⟨a0, a1, a2, a3, a4, a5⟩ =>
    trip k0_t26_abs.2.1 (tileThr d L) sB sT 𝒱₀ none Set.univ qP qT fb ft z 6#32 16 k a0 a1 a2 a3 a4 a5

@[sl_loop] def loopInv27 (fb : Buf (Elt F) (sA.view.loc (tileThr d L))) (v31 : FVec F S16 .f32) :
    TileLoop d L z k0_t27_loop k0_t27_ok
      (k0_t27_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sA sT qP qT fb ft z 7#32 16
  step := fun k ⟨a0, a1, a2, a3, a4, a5⟩ =>
    trip k0_t27_abs.2.1 (tileThr d L) sA sT 𝒱₀ none Set.univ qP qT fb ft z 7#32 16 k a0 a1 a2 a3 a4 a5

@[sl_loop] def loopInv28 (fb : Buf (Elt F) (sB.view.loc (tileThr d L))) (v31 : FVec F S16 .f32) (v615 : FVec F S16 .f32) (v616 : FVec F S16 .f32) (v620 : Vec F S16 .f32) :
    TileLoop d L z k0_t28_loop k0_t28_ok
      (k0_t28_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v615 v616 v620) where
  inv := inv (tileThr d L) sB sT qP qT fb ft z 8#32 16
  step := fun k ⟨a0, a1, a2, a3, a4, a5⟩ =>
    trip k0_t28_abs.2.1 (tileThr d L) sB sT 𝒱₀ none Set.univ qP qT fb ft z 8#32 16 k a0 a1 a2 a3 a4 a5

@[sl_loop] def loopInv29 (fb : Buf (Elt F) (sA.view.loc (tileThr d L))) (v31 : FVec F S16 .f32) :
    TileLoop d L z k0_t29_loop k0_t29_ok
      (k0_t29_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sA sT qP qT fb ft z 9#32 16
  step := fun k ⟨a0, a1, a2, a3, a4, a5⟩ =>
    trip k0_t29_abs.2.1 (tileThr d L) sA sT 𝒱₀ none Set.univ qP qT fb ft z 9#32 16 k a0 a1 a2 a3 a4 a5

@[sl_loop] def loopInv30 (fb : Buf (Elt F) (sB.view.loc (tileThr d L))) (v31 : FVec F S16 .f32) :
    TileLoop d L z k0_t30_loop k0_t30_ok
      (k0_t30_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 10#32 16
  step := fun k ⟨a0, a1, a2, a3, a4, a5⟩ =>
    trip k0_t30_abs.2.1 (tileThr d L) sB sT 𝒱₀ none Set.univ qP qT fb ft z 10#32 16 k a0 a1 a2 a3 a4 a5

@[sl_loop] def loopInv31 (fb : Buf (Elt F) (sA.view.loc (tileThr d L))) (v31 : FVec F S16 .f32) (v680 : FVec F S16 .f32) (v681 : FVec F S16 .f32) (v682 : FVec F S16 .f32) :
    TileLoop d L z k0_t31_loop k0_t31_ok
      (k0_t31_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v680 v681 v682) where
  inv := inv (tileThr d L) sA sT qP qT fb ft z 11#32 16
  step := fun k ⟨a0, a1, a2, a3, a4, a5⟩ =>
    trip k0_t31_abs.2.1 (tileThr d L) sA sT 𝒱₀ none Set.univ qP qT fb ft z 11#32 16 k a0 a1 a2 a3 a4 a5

@[sl_loop] def loopInv32 (fb : Buf (Elt F) (sB.view.loc (tileThr d L))) (v31 : FVec F S16 .f32) :
    TileLoop d L z k0_t32_loop k0_t32_ok
      (k0_t32_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 12#32 16
  step := fun k ⟨a0, a1, a2, a3, a4, a5⟩ =>
    trip k0_t32_abs.2.1 (tileThr d L) sB sT 𝒱₀ none Set.univ qP qT fb ft z 12#32 16 k a0 a1 a2 a3 a4 a5

@[sl_loop] def loopInv33 (fb : Buf (Elt F) (sA.view.loc (tileThr d L))) (v31 : FVec F S16 .f32) (c0_i32_406 : BitVec 32) (c1_i32_408 : BitVec 32) :
    TileLoop d L z k0_t33_loop k0_t33_ok
      (k0_t33_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_406 c1_i32_408) where
  inv := inv (tileThr d L) sA sT qP qT fb ft z 13#32 16
  step := fun k ⟨a0, a1, a2, a3, a4, a5⟩ =>
    trip k0_t33_abs.2.1 (tileThr d L) sA sT 𝒱₀ none Set.univ qP qT fb ft z 13#32 16 k a0 a1 a2 a3 a4 a5

@[sl_loop] def loopInv34 (fb : Buf (Elt F) (sB.view.loc (tileThr d L))) (v31 : FVec F S16 .f32) (c0_i32_406 : BitVec 32) (c1_i32_408 : BitVec 32) :
    TileLoop d L z k0_t34_loop k0_t34_ok
      (k0_t34_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 c0_i32_406 c1_i32_408) where
  inv := inv (tileThr d L) sB sT qP qT fb ft z 14#32 16
  step := fun k ⟨a0, a1, a2, a3, a4, a5⟩ =>
    trip k0_t34_abs.2.1 (tileThr d L) sB sT 𝒱₀ none Set.univ qP qT fb ft z 14#32 16 k a0 a1 a2 a3 a4 a5

@[sl_loop] def loopInv35 (fb : Buf (Elt F) (sA.view.loc (tileThr d L))) (v31 : FVec F S16 .f32) (v770 : FVec F S16 .f32) :
    TileLoop d L z k0_t35_loop k0_t35_ok
      (k0_t35_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31 v770) where
  inv := inv (tileThr d L) sA sT qP qT fb ft z 15#32 16
  step := fun k ⟨a0, a1, a2, a3, a4, a5⟩ =>
    trip k0_t35_abs.2.1 (tileThr d L) sA sT 𝒱₀ none Set.univ qP qT fb ft z 15#32 16 k a0 a1 a2 a3 a4 a5

@[sl_loop] def loopInv36 (fb : Buf (Elt F) (sB.view.loc (tileThr d L))) (v31 : FVec F S16 .f32) :
    TileLoop d L z k0_t36_loop k0_t36_ok
      (k0_t36_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sB sT qP qT fb ft z 16#32 16
  step := fun k ⟨a0, a1, a2, a3, a4, a5⟩ =>
    trip k0_t36_abs.2.1 (tileThr d L) sB sT 𝒱₀ none Set.univ qP qT fb ft z 16#32 16 k a0 a1 a2 a3 a4 a5

@[sl_loop] def loopInv37 (fb : Buf (Elt F) (sA.view.loc (tileThr d L))) (v31 : FVec F S16 .f32) :
    TileLoop d L z k0_t37_loop k0_t37_ok
      (k0_t37_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7 v31) where
  inv := inv (tileThr d L) sA sT qP qT fb ft z 17#32 16
  step := fun k ⟨a0, a1, a2, a3, a4, a5⟩ =>
    trip k0_t37_abs.2.1 (tileThr d L) sA sT 𝒱₀ none Set.univ qP qT fb ft z 17#32 16 k a0 a1 a2 a3 a4 a5

@[sl_loop] def loopInv38 (fb : Buf (Elt F) (sB.view.loc (tileThr d L))) :
    TileLoop d L z k0_t38_loop k0_t38_ok
      (k0_t38_body L pV (Memref.isWhole_whole _) tV (Memref.isWhole_whole _) oV (Memref.isWhole_whole _) sT (Memref.isWhole_whole _) sA (Memref.isWhole_whole _) sB (Memref.isWhole_whole _) sR (Memref.isWhole_whole _) cc0_scratch4 cc0_scratch5 cc0_scratch6 cc0_scratch7) where
  inv := inv (tileThr d L) sB sT qP qT fb ft z 18#32 16
  step := fun k ⟨a0, a1, a2, a3, a4, a5⟩ =>
    trip k0_t38_abs.2.1 (tileThr d L) sB sT 𝒱₀ none Set.univ qP qT fb ft z 18#32 16 k a0 a1 a2 a3 a4 a5

end Cert.Kernel.ScLoop

end
-- ==== Proof.KW.ScViews.lean ====
import proofs.«216000_g43989055045728_cont_8to1_b_1827_23_alg».proof.Proof.KW.PayDefs
import proofs.«216000_g43989055045728_cont_8to1_b_1827_23_alg».proof.Proof.KW.ScLoop
import Idealize.ShloMosaic.Lib.ValueLayout
import Idealize.ShloMosaic.Lib.Writes

noncomputable section

namespace Cert.Kernel.ScViews

open Cert.Kernel Cert.Kernel.Gen Cert.Kernel.PayDefs Cert.Kernel.ScLoop
open Cert.SpecSC

open Idealize.ShloMosaic Idealize.ShloMosaic.ValueIdx

variable {F : FTy → Type}

theorem wid_lt (L : grid0.Coords) : widOf L < 32 := by
  have h0 : (L 0).val < 2 := (L 0).isLt
  have h1 : (L 1).val < 16 := (L 1).isLt
  show 2 * (L 1).val + (L 0).val < 32
  omega

theorem holdsP_of_off (L : grid0.Coords) (g : SP.Idx → F .f32) (off : Fin 4 → ℕ)
    (hinb : ∀ a, off a + S1x1x16x512.size a ≤ S8x19x512x512.size a) (b : Fin 8) (c : Fin 19)
    (hoff : off = ![b.val, c.val, 16 * widOf L, 0]) :
    HoldsP g (ReadAs.same.apply (View.read (Elt F)
      ((pV.slice (Rect.unit (s := S8x19x512x512) off S1x1x16x512.size hinb) (fun _ => rfl)).squeeze S16x512 squeezes_S1x1x16x512_S16x512).view g))
      b c (widOf L) := by
  intro r x
  have hw := wid_lt L
  rw [ReadAs.apply_same, View.read_apply]
  show g _ = g _
  congr 1
  funext a
  apply Fin.ext
  simp only [Memref.view_squeeze, Memref.view_slice, View.emb_reshape, View.emb_slice, Function.Embedding.trans_apply,
    Equiv.coe_toEmbedding]
  rw [reshapeEquiv_ix2_11ab]
  subst hoff
  revert a
  show ∀ a : Fin 4, _
  intro a
  fin_cases a
  · show b.val + 1 * 0 = b.val; omega
  · show c.val + 1 * 0 = c.val; omega
  · show 16 * widOf L + 1 * r.val = (16 * widOf L + r.val) % 512; omega
  · show 0 + 1 * x.val = x.val; omega

theorem readT_of_off (L : grid0.Coords) (g : ST.Idx → BitVec 32) (off : Fin 3 → ℕ)
    (hinb : ∀ a, off a + S1x16x512.size a ≤ S8x512x512.size a) (b : Fin 8)
    (hoff : off = ![b.val, 16 * widOf L, 0]) (r : Fin 16) (x : Fin 512) :
    ReadAs.same.apply (View.read (Elt F)
      ((tV.slice (Rect.unit (s := S8x512x512) off S1x16x512.size hinb) (fun _ => rfl)).squeeze S16x512 squeezes_S1x16x512_S16x512).view g)
      (ix2 r x) = g (ix3 b (fin512 (16 * widOf L + r.val)) x) := by
  have hw := wid_lt L
  rw [ReadAs.apply_same, View.read_apply]
  show g _ = g _
  congr 1
  funext a
  apply Fin.ext
  simp only [Memref.view_squeeze, Memref.view_slice, View.emb_reshape, View.emb_slice, Function.Embedding.trans_apply,
    Equiv.coe_toEmbedding]
  rw [reshapeEquiv_ix2_1ab]
  subst hoff
  revert a
  show ∀ a : Fin 3, _
  intro a
  fin_cases a
  · show b.val + 1 * 0 = b.val; omega
  · show 16 * widOf L + 1 * r.val = (16 * widOf L + r.val) % 512; omega
  · show 0 + 1 * x.val = x.val; omega

theorem read_sT_lo (f0 : sT.view.ty.Contents (Elt F)) (h16 : ∀ a, (![16, 0] : Fin 2 → ℕ) a + S16x512.size a ≤ S32x512.size a)
    (h0 : ∀ a, (![0, 0] : Fin 2 → ℕ) a + S16x512.size a ≤ S32x512.size a) (d1 d0 : S16x512.Idx → BitVec 32) (r : Fin 16) (x : Fin 512) :
    sT.view.read (Elt F) (sT.view.writes (Elt F) f0 [⟨Rect.unit (s := S32x512) ![16, 0] S16x512.size h16, d1⟩, ⟨Rect.unit (s := S32x512) ![0, 0] S16x512.size h0, d0⟩])
      (ix2 (fin32 (0 + r.val)) x) = d0 (ix2 r x) := by
  have hy : (ix2 (fin32 (0 + r.val)) x : S32x512.Idx) = (Rect.unit (s := S32x512) ![0, 0] S16x512.size h0).emb (ix2 r x) := by
    funext a; apply Fin.ext; revert a; show ∀ a : Fin 2, _; intro a; fin_cases a
    · show (0 + r.val) % 32 = 0 + 1 * r.val; have := r.isLt; omega
    · show x.val = 0 + 1 * x.val; omega
  rw [View.writes_cons, View.read_slice_write_of_not_mem _ _ _ _ (by
    rw [Rect.map_emb_univ, Rect.mem_set_unit]
    intro h
    have h' := (h (0 : Fin 2)).1
    have h'' : 16 ≤ (0 + r.val) % 32 := h'
    have := r.isLt
    omega), hy, View.read_writes_cons_emb]

theorem read_sT_hi (f0 : sT.view.ty.Contents (Elt F)) (h16 : ∀ a, (![16, 0] : Fin 2 → ℕ) a + S16x512.size a ≤ S32x512.size a)
    (h0 : ∀ a, (![0, 0] : Fin 2 → ℕ) a + S16x512.size a ≤ S32x512.size a) (d1 d0 : S16x512.Idx → BitVec 32) (r : Fin 16) (x : Fin 512) :
    sT.view.read (Elt F) (sT.view.writes (Elt F) f0 [⟨Rect.unit (s := S32x512) ![16, 0] S16x512.size h16, d1⟩, ⟨Rect.unit (s := S32x512) ![0, 0] S16x512.size h0, d0⟩])
      (ix2 (fin32 (16 + r.val)) x) = d1 (ix2 r x) := by
  have hy : (ix2 (fin32 (16 + r.val)) x : S32x512.Idx) = (Rect.unit (s := S32x512) ![16, 0] S16x512.size h16).emb (ix2 r x) := by
    funext a; apply Fin.ext; revert a; show ∀ a : Fin 2, _; intro a; fin_cases a
    · show (16 + r.val) % 32 = 16 + 1 * r.val; have := r.isLt; omega
    · show x.val = 0 + 1 * x.val; omega
  rw [hy, View.read_writes_cons_emb]

theorem holdsT_lo (L : grid0.Coords) (g : ST.Idx → BitVec 32) (f0 : sT.view.ty.Contents (Elt F)) (h16 h0)
    (off1 off2 : Fin 3 → ℕ) (hinb1 hinb2) (hoff1 : off1 = ![6, 16 * widOf L, 0]) :
    HoldsT g (sT.view.read (Elt F) (sT.view.writes (Elt F) f0
      [⟨Rect.unit (s := S32x512) ![16, 0] S16x512.size h16, ReadAs.same.apply (View.read (Elt F)
          ((tV.slice (Rect.unit (s := S8x512x512) off2 S1x16x512.size hinb2) (fun _ => rfl)).squeeze S16x512 squeezes_S1x16x512_S16x512).view g)⟩,
       ⟨Rect.unit (s := S32x512) ![0, 0] S16x512.size h0, ReadAs.same.apply (View.read (Elt F)
          ((tV.slice (Rect.unit (s := S8x512x512) off1 S1x16x512.size hinb1) (fun _ => rfl)).squeeze S16x512 squeezes_S1x16x512_S16x512).view g)⟩]))
      (6 : Fin 8) (widOf L) 0 := by
  intro r x
  rw [read_sT_lo]
  exact readT_of_off (F := F) L g off1 hinb1 6 hoff1 r x

theorem holdsT_hi (L : grid0.Coords) (g : ST.Idx → BitVec 32) (f0 : sT.view.ty.Contents (Elt F)) (h16 h0)
    (off1 off2 : Fin 3 → ℕ) (hinb1 hinb2) (hoff2 : off2 = ![7, 16 * widOf L, 0]) :
    HoldsT g (sT.view.read (Elt F) (sT.view.writes (Elt F) f0
      [⟨Rect.unit (s := S32x512) ![16, 0] S16x512.size h16, ReadAs.same.apply (View.read (Elt F)
          ((tV.slice (Rect.unit (s := S8x512x512) off2 S1x16x512.size hinb2) (fun _ => rfl)).squeeze S16x512 squeezes_S1x16x512_S16x512).view g)⟩,
       ⟨Rect.unit (s := S32x512) ![0, 0] S16x512.size h0, ReadAs.same.apply (View.read (Elt F)
          ((tV.slice (Rect.unit (s := S8x512x512) off1 S1x16x512.size hinb1) (fun _ => rfl)).squeeze S16x512 squeezes_S1x16x512_S16x512).view g)⟩]))
      (7 : Fin 8) (widOf L) 16 := by
  intro r x
  rw [read_sT_hi]
  exact readT_of_off (F := F) L g off2 hinb2 7 hoff2 r x

theorem off_wid (L : grid0.Coords) : 32 * (L 1).val + 16 * (L 0).val = 16 * widOf L := by
  show 32 * (L 1).val + 16 * (L 0).val = 16 * (2 * (L 1).val + (L 0).val); omega

end Cert.Kernel.ScViews

end
-- ==== Proof.KW.ScVal.lean ====
import proofs.«216000_g43989055045728_cont_8to1_b_1827_23_alg».proof.Proof.SpecSC
import proofs.«216000_g43989055045728_cont_8to1_b_1827_23_alg».proof.Proof.KW.ScLoop
import proofs.«216000_g43989055045728_cont_8to1_b_1827_23_alg».proof.Proof.KW.PayDefs
import Idealize.ShloMosaic.Lib.Writes
import Idealize.ShloMosaic.Lib.ValueIdx

noncomputable section

namespace Cert.Kernel.ScVal

open Cert.Kernel Cert.Kernel.Gen Cert.Kernel.PayDefs
open Cert.SpecSC
open Cert.Kernel.ScLoop (Acc sum_cast_lane)
open Idealize.ShloMosaic Idealize.ShloMosaic.ValueIdx

variable {F : FTy → Type} [FloatOps F]

theorem inb16 (n : Nat) (h : n + 16 ≤ 1920) : ∀ a, (![n] : Fin 1 → Nat) a + S16.size a ≤ S1920.size a :=
  Rect.inb₁ (d := ![1920]) (off := ![n]) (size := ![16]) h

def piece (n : Nat) (h : n + 16 ≤ 1920) (x y : FVec F S16 .f32) : View.Piece (Elt F) S1920 .f32 :=
  ⟨Rect.unit (s := S1920) ![n] S16.size (inb16 n h), shapeCast S16 (addf x y) shapeCasts_S16_S16⟩

def pieces3 (j : Nat) (hj : j < 38) (a : Acc F) : List (View.Piece (Elt F) S1920 .f32) :=
  [piece ((80 + j) * 16) (by omega) a.2.2.1 a.2.2.2.2.2, piece ((40 + j) * 16) (by omega) a.2.1 a.2.2.2.2.1,
    piece (j * 16) (by omega) a.1 a.2.2.2.1]

def storeListTo (A : Fin 38 → Acc F) : (n : Nat) → n ≤ 38 → List (View.Piece (Elt F) S1920 .f32)
  | 0, _ => []
  | n + 1, h => pieces3 n h (A ⟨n, h⟩) ++ storeListTo A n (Nat.le_of_succ_le h)

def storeList (A : Fin 38 → Acc F) : List (View.Piece (Elt F) S1920 .f32) := storeListTo A 38 (Nat.le_refl _)

def laneSum (k : Nat) (a : Acc F) (l : Fin 16) : F .f32 :=
  match k with
  | 0 => FloatOps.addf (a.1 (ix1 l)) (a.2.2.2.1 (ix1 l))
  | 1 => FloatOps.addf (a.2.1 (ix1 l)) (a.2.2.2.2.1 (ix1 l))
  | _ => FloatOps.addf (a.2.2.1 (ix1 l)) (a.2.2.2.2.2 (ix1 l))

def resAt (A : Fin 38 → Acc F) (y : S1920.Idx) : F .f32 :=
  if h : ((y 0).val / 16) % 40 < 38 then
    laneSum ((y 0).val / 640) (A ⟨((y 0).val / 16) % 40, h⟩) ⟨(y 0).val % 16, Nat.mod_lt _ (by decide)⟩
  else zeroF

theorem mem_storeListTo (A : Fin 38 → Acc F) : ∀ (n : Nat) (hn : n ≤ 38) (p : View.Piece (Elt F) S1920 .f32), p ∈ storeListTo A n hn →
    ∃ (j : Nat) (hj : j < 38), j < n ∧ (p = piece (j * 16) (by omega) (A ⟨j, hj⟩).1 (A ⟨j, hj⟩).2.2.2.1
      ∨ p = piece ((40 + j) * 16) (by omega) (A ⟨j, hj⟩).2.1 (A ⟨j, hj⟩).2.2.2.2.1
      ∨ p = piece ((80 + j) * 16) (by omega) (A ⟨j, hj⟩).2.2.1 (A ⟨j, hj⟩).2.2.2.2.2)
  | 0, _, p, hp => absurd hp List.not_mem_nil
  | n + 1, hn, p, hp => by
    rw [storeListTo, List.mem_append] at hp
    rcases hp with hp | hp
    · refine ⟨n, hn, Nat.lt_succ_self n, ?_⟩
      simp only [pieces3, List.mem_cons, List.not_mem_nil, or_false] at hp
      rcases hp with rfl | rfl | rfl
      · exact Or.inr (Or.inr rfl)
      · exact Or.inr (Or.inl rfl)
      · exact Or.inl rfl
    · obtain ⟨j, hj, hjn, h⟩ := mem_storeListTo A n (Nat.le_of_succ_le hn) p hp
      exact ⟨j, hj, Nat.lt_succ_of_lt hjn, h⟩

theorem resAt_apply (A : Fin 38 → Acc F) (k j : Nat) (hk : k < 3) (hj : j < 38) (l : Fin 16) (y : S1920.Idx)
    (hy : (y 0).val = (k * 40 + j) * 16 + l.val) : resAt A y = laneSum k (A ⟨j, hj⟩) l := by
  have hq : ((k * 40 + j) * 16 + l.val) / 16 % 40 = j := by omega
  have hk' : ((k * 40 + j) * 16 + l.val) / 640 = k := by omega
  have hl : ((k * 40 + j) * 16 + l.val) % 16 = l.val := by omega
  have hq' : ((y 0).val / 16) % 40 = j := by rw [hy]; exact hq
  have hk'' : (y 0).val / 640 = k := by rw [hy]; exact hk'
  have hl' : (y 0).val % 16 = l.val := by rw [hy]; exact hl
  unfold resAt
  rw [dif_pos (by rw [hq']; exact hj)]
  have e1 : (⟨((y 0).val / 16) % 40, by rw [hq']; exact hj⟩ : Fin 38) = ⟨j, hj⟩ := Fin.ext hq'
  have e2 : (⟨(y 0).val % 16, Nat.mod_lt _ (by decide)⟩ : Fin 16) = l := Fin.ext hl'
  rw [e1, e2, hk'']

theorem piece_eq_resAt (A : Fin 38 → Acc F) (k j : Nat) (hk : k < 3) (hj : j < 38) (n : Nat) (hn : n = (k * 40 + j) * 16)
    (h16 : n + 16 ≤ 1920) (x y : FVec F S16 .f32)
    (hxy : ∀ l : Fin 16, FloatOps.addf (x (ix1 l)) (y (ix1 l)) = laneSum k (A ⟨j, hj⟩) l)
    (i : (piece (F := F) n h16 x y).1.shape.Idx) :
    (piece n h16 x y).2 i = resAt A ((piece (F := F) n h16 x y).1.emb i) := by
  subst hn
  obtain ⟨l, rfl⟩ : ∃ l : Fin 16, i = ix1 l := ⟨i 0, eq_ix1 i⟩
  rw [resAt_apply A k j hk hj l _ (by show (k * 40 + j) * 16 + 1 * l.val = _; omega)]
  show shapeCast S16 (addf x y) shapeCasts_S16_S16 (ix1 l) = _
  rw [sum_cast_lane, hxy]

theorem storeList_pieces (A : Fin 38 → Acc F) :
    ∀ p ∈ storeList A, ∀ x : p.1.shape.Idx, p.2 x = resAt A (p.1.emb x) := by
  intro p hp
  obtain ⟨j, hj, _, h | h | h⟩ := mem_storeListTo A 38 (Nat.le_refl _) p hp
  · subst h; exact piece_eq_resAt A 0 j (by decide) hj _ (by omega) _ _ _ (fun _ => rfl)
  · subst h; exact piece_eq_resAt A 1 j (by decide) hj _ (by omega) _ _ _ (fun _ => rfl)
  · subst h; exact piece_eq_resAt A 2 j (by decide) hj _ (by omega) _ _ _ (fun _ => rfl)

theorem pieces3_mem (A : Fin 38 → Acc F) : ∀ (n : Nat) (hn : n ≤ 38) (j : Nat) (hj : j < 38), j < n →
    ∀ p ∈ pieces3 j hj (A ⟨j, hj⟩), p ∈ storeListTo A n hn
  | 0, _, _, _, h, _, _ => absurd h (Nat.not_lt_zero _)
  | n + 1, hn, j, hj, h, p, hp => by
    rw [storeListTo, List.mem_append]
    rcases Nat.lt_succ_iff_lt_or_eq.mp h with h' | rfl
    · exact Or.inr (pieces3_mem A n (Nat.le_of_succ_le hn) j hj h' p hp)
    · exact Or.inl hp

theorem read_stores (A : Fin 38 → Acc F) (fR : sR.view.ty.Contents (Elt F)) (k j : Nat) (hk : k < 3) (hj : j < 38) (l : Fin 16)
    (h : (k * 40 + j) * 16 + l.val < 1920) :
    sR.view.read (Elt F) (sR.view.writes (Elt F) fR (storeList A)) (ix1 ⟨(k * 40 + j) * 16 + l.val, h⟩)
      = laneSum k (A ⟨j, hj⟩) l := by
  rw [View.read_writes_apply_of_pieces sR.view fR (resAt A) (storeList A) (storeList_pieces A) _ ?_]
  · exact resAt_apply A k j hk hj l _ rfl
  · have hl := l.isLt
    have hm : ∀ (n : Nat) (h16 : n + 16 ≤ 1920) (x y : FVec F S16 .f32), n = (k * 40 + j) * 16 → piece n h16 x y ∈ pieces3 j hj (A ⟨j, hj⟩) →
        ∃ p ∈ storeList A, (ix1 ⟨(k * 40 + j) * 16 + l.val, h⟩ : S1920.Idx) ∈ p.1.set := by
      intro n h16 x y hn hp
      refine ⟨_, pieces3_mem A 38 (Nat.le_refl _) j hj hj _ hp, ?_⟩
      show (ix1 ⟨(k * 40 + j) * 16 + l.val, h⟩ : S1920.Idx) ∈ (Rect.unit (s := S1920) ![n] S16.size (inb16 n h16)).set
      refine Rect.mem_set_unit.mpr fun a => ?_
      obtain rfl : a = 0 := Subsingleton.elim _ _
      show n ≤ (k * 40 + j) * 16 + l.val ∧ (k * 40 + j) * 16 + l.val < n + 16
      omega
    have hk3 : k = 0 ∨ k = 1 ∨ k = 2 := by omega
    rcases hk3 with rfl | rfl | rfl
    · exact hm (j * 16) (by omega) (A ⟨j, hj⟩).1 (A ⟨j, hj⟩).2.2.2.1 (by omega)
        (List.mem_cons_of_mem _ (List.mem_cons_of_mem _ List.mem_cons_self))
    · exact hm ((40 + j) * 16) (by omega) (A ⟨j, hj⟩).2.1 (A ⟨j, hj⟩).2.2.2.2.1 (by omega)
        (List.mem_cons_of_mem _ List.mem_cons_self)
    · exact hm ((80 + j) * 16) (by omega) (A ⟨j, hj⟩).2.2.1 (A ⟨j, hj⟩).2.2.2.2.2 (by omega) List.mem_cons_self

theorem widOf_lt (L : grid0.Coords) : widOf L < 32 := by
  have h0 : (L 0).val < 2 := (L 0).isLt
  have h1 : (L 1).val < 16 := (L 1).isLt
  show 2 * (L 1).val + (L 0).val < 32
  omega

set_option maxHeartbeats 2000000 in

theorem out_apply (L : grid0.Coords) (o0 : (oSl L).view.ty.Contents (Elt F)) (fR : sR.view.ty.Contents (Elt F)) (A : Fin 38 → Acc F)
    (k : Nat) (hk : k < 3) (j : Fin 38) (l : Fin 16) :
    (oSl L).view.writes (Elt F) o0 [⟨Rect.whole S1920, ReadAs.same.apply (sR.view.read (Elt F) (sR.view.writes (Elt F) fR (storeList A)))⟩]
        (ix1 (fin61440 (widOf L * 1920 + (k * 40 + j.val) * 16 + l.val)))
      = laneSum k (A j) l := by
  have hw := widOf_lt L
  have hj := j.isLt
  have hl := l.isLt
  have h : (k * 40 + j.val) * 16 + l.val < 1920 := by omega
  have hidx : (ix1 (fin61440 (widOf L * 1920 + (k * 40 + j.val) * 16 + l.val)) : S61440.Idx)
      = (oSl L).view.emb ((Rect.whole S1920).emb (ix1 ⟨(k * 40 + j.val) * 16 + l.val, h⟩)) := by
    funext a
    obtain rfl : a = 0 := Subsingleton.elim _ _
    refine Fin.ext ?_
    show (widOf L * 1920 + (k * 40 + j.val) * 16 + l.val) % 61440 = k0_off193 L 0 + 1 * (0 + 1 * ((k * 40 + j.val) * 16 + l.val))
    rw [k0_off193_eq]
    show _ = 3840 * (L 1).val + 1920 * (L 0).val + _
    have : widOf L = 2 * (L 1).val + (L 0).val := rfl
    omega
  rw [hidx]
  show (oSl L).view.read (Elt F) ((oSl L).view.writes (Elt F) o0 [⟨Rect.whole S1920, _⟩]) ((Rect.whole S1920).emb _) = _
  rw [View.read_writes_cons_emb]
  exact read_stores A fR k j.val hk j.isLt l h

set_option maxHeartbeats 2000000 in

theorem tileSpec_of_stores (L : grid0.Coords) (P : SP.Idx → F .f32) (T : ST.Idx → BitVec 32)
    (o0 : (oSl L).view.ty.Contents (Elt F)) (fR : sR.view.ty.Contents (Elt F)) (A : Fin 38 → Acc F)
    (hA : ∀ (j : Fin 38) (l : Fin 16),
      FloatOps.addf ((A j).1 (ix1 l)) ((A j).2.2.2.1 (ix1 l)) = tileNom P T (pairB j) (pairC j) (widOf L) l.val
      ∧ FloatOps.addf ((A j).2.1 (ix1 l)) ((A j).2.2.2.2.1 (ix1 l)) = tileIsum P (pairB j) (pairC j) (widOf L) l.val
      ∧ FloatOps.addf ((A j).2.2.1 (ix1 l)) ((A j).2.2.2.2.2 (ix1 l)) = tileTsum (F := F) T (pairB j) (pairC j) (widOf L) l.val) :
    TileSpec P T (widOf L) ((oSl L).view.writes (Elt F) o0
      [⟨Rect.whole S1920, ReadAs.same.apply (sR.view.read (Elt F) (sR.view.writes (Elt F) fR (storeList A)))⟩]) := by
  intro j l
  exact ⟨(out_apply L o0 fR A 0 (by decide) j l).trans (hA j l).1, (out_apply L o0 fR A 1 (by decide) j l).trans (hA j l).2.1,
    (out_apply L o0 fR A 2 (by decide) j l).trans (hA j l).2.2⟩

end Cert.Kernel.ScVal

end
-- ==== Proof.KW.ScStores.lean ====
/-
  The tile's 114 sixteen-lane stores into its result scratch, as the body makes them (the last one first), and the one
  copy of the scratch into the tile's slice of the partial sums: once every pair's carried vectors add up, lane by
  lane, to the tile's three sums of the pair, the slice meets the tile's specification.
-/
import proofs.«216000_g43989055045728_cont_8to1_b_1827_23_alg».proof.Proof.KW.ScVal
import proofs.«216000_g43989055045728_cont_8to1_b_1827_23_alg».proof.Proof.Gen.Kernel.Skeleton

set_option maxRecDepth 65536

noncomputable section

namespace Cert.Kernel.ScStores

open Cert.Kernel Cert.Kernel.Gen Cert.Kernel.PayDefs Cert.Kernel.ScLoop Cert.Kernel.ScVal
open Cert.SpecSC

open Idealize.ShloMosaic Idealize.ShloMosaic.ValueIdx

variable {F : FTy → Type} [FloatOps F]

/-- A pair's six carried vectors add up, lane by lane, to the tile's three sums of the pair (b, c). -/
def Sums (P : SP.Idx → F .f32) (T : ST.Idx → BitVec 32) (wid : ℕ) (b : Fin 8) (c : Fin 19) (a : Acc F) : Prop :=
  ∀ l : Fin 16,
    FloatOps.addf (a.1 (ix1 l)) (a.2.2.2.1 (ix1 l)) = tileNom P T b c wid l.val
    ∧ FloatOps.addf (a.2.1 (ix1 l)) (a.2.2.2.2.1 (ix1 l)) = tileIsum P b c wid l.val
    ∧ FloatOps.addf (a.2.2.1 (ix1 l)) (a.2.2.2.2.2 (ix1 l)) = tileTsum (F := F) T b c wid l.val

theorem tileSpec_of_run (L : grid0.Coords) (P : SP.Idx → F .f32) (T : ST.Idx → BitVec 32)
    (o0 : (oSl L).view.ty.Contents (Elt F)) (fR : sR.view.ty.Contents (Elt F))
    (a1 a2 a3 a4 a5 a6 a7 a8 a9 a10 a11 a12 a13 a14 a15 a16 a17 a18 a19 a20 a21 a22 a23 a24 a25 a26 a27 a28 a29 a30 a31 a32 a33 a34 a35 a36 a37 a38 : Acc F)
    (h1 : Sums P T (widOf L) 6 0 a1)
    (h2 : Sums P T (widOf L) 6 1 a2)
    (h3 : Sums P T (widOf L) 6 2 a3)
    (h4 : Sums P T (widOf L) 6 3 a4)
    (h5 : Sums P T (widOf L) 6 4 a5)
    (h6 : Sums P T (widOf L) 6 5 a6)
    (h7 : Sums P T (widOf L) 6 6 a7)
    (h8 : Sums P T (widOf L) 6 7 a8)
    (h9 : Sums P T (widOf L) 6 8 a9)
    (h10 : Sums P T (widOf L) 6 9 a10)
    (h11 : Sums P T (widOf L) 6 10 a11)
    (h12 : Sums P T (widOf L) 6 11 a12)
    (h13 : Sums P T (widOf L) 6 12 a13)
    (h14 : Sums P T (widOf L) 6 13 a14)
    (h15 : Sums P T (widOf L) 6 14 a15)
    (h16 : Sums P T (widOf L) 6 15 a16)
    (h17 : Sums P T (widOf L) 6 16 a17)
    (h18 : Sums P T (widOf L) 6 17 a18)
    (h19 : Sums P T (widOf L) 6 18 a19)
    (h20 : Sums P T (widOf L) 7 0 a20)
    (h21 : Sums P T (widOf L) 7 1 a21)
    (h22 : Sums P T (widOf L) 7 2 a22)
    (h23 : Sums P T (widOf L) 7 3 a23)
    (h24 : Sums P T (widOf L) 7 4 a24)
    (h25 : Sums P T (widOf L) 7 5 a25)
    (h26 : Sums P T (widOf L) 7 6 a26)
    (h27 : Sums P T (widOf L) 7 7 a27)
    (h28 : Sums P T (widOf L) 7 8 a28)
    (h29 : Sums P T (widOf L) 7 9 a29)
    (h30 : Sums P T (widOf L) 7 10 a30)
    (h31 : Sums P T (widOf L) 7 11 a31)
    (h32 : Sums P T (widOf L) 7 12 a32)
    (h33 : Sums P T (widOf L) 7 13 a33)
    (h34 : Sums P T (widOf L) 7 14 a34)
    (h35 : Sums P T (widOf L) 7 15 a35)
    (h36 : Sums P T (widOf L) 7 16 a36)
    (h37 : Sums P T (widOf L) 7 17 a37)
    (h38 : Sums P T (widOf L) 7 18 a38) :
    TileSpec P T (widOf L) ((oSl L).view.writes (Elt F) o0
      [⟨Rect.whole S1920, ReadAs.same.apply (View.read (Elt F) sR.view ((Memref.whole cc0_scratch3).view.writes (Elt F) fR [
        ⟨Rect.unit (s := S1920) ![1872] S16.size inb_S1920_S16_1872, k0_pay2 (k0_pay517 a38.2.2.1 a38.2.2.2.2.2)⟩,
        ⟨Rect.unit (s := S1920) ![1232] S16.size inb_S1920_S16_1232, k0_pay1 (k0_pay516 a38.2.1 a38.2.2.2.2.1)⟩,
        ⟨Rect.unit (s := S1920) ![592] S16.size inb_S1920_S16_592, k0_pay518 a38.1 a38.2.2.2.1⟩,
        ⟨Rect.unit (s := S1920) ![1856] S16.size inb_S1920_S16_1856, k0_pay505 (k0_pay502 a37.2.2.1 a37.2.2.2.2.2)⟩,
        ⟨Rect.unit (s := S1920) ![1216] S16.size inb_S1920_S16_1216, k0_pay504 (k0_pay501 a37.2.1 a37.2.2.2.2.1)⟩,
        ⟨Rect.unit (s := S1920) ![576] S16.size inb_S1920_S16_576, k0_pay503 a37.1 a37.2.2.2.1⟩,
        ⟨Rect.unit (s := S1920) ![1840] S16.size inb_S1920_S16_1840, k0_pay490 a36.2.2.1 a36.2.2.2.2.2⟩,
        ⟨Rect.unit (s := S1920) ![1200] S16.size inb_S1920_S16_1200, k0_pay489 a36.2.1 a36.2.2.2.2.1⟩,
        ⟨Rect.unit (s := S1920) ![560] S16.size inb_S1920_S16_560, k0_pay488 a36.1 a36.2.2.2.1⟩,
        ⟨Rect.unit (s := S1920) ![1824] S16.size inb_S1920_S16_1824, k0_pay477 a35.2.2.1 a35.2.2.2.2.2⟩,
        ⟨Rect.unit (s := S1920) ![1184] S16.size inb_S1920_S16_1184, k0_pay476 a35.2.1 a35.2.2.2.2.1⟩,
        ⟨Rect.unit (s := S1920) ![544] S16.size inb_S1920_S16_544, k0_pay475 a35.1 a35.2.2.2.1⟩,
        ⟨Rect.unit (s := S1920) ![1808] S16.size inb_S1920_S16_1808, k0_pay464 (k0_pay461 a34.2.2.1 a34.2.2.2.2.2)⟩,
        ⟨Rect.unit (s := S1920) ![1168] S16.size inb_S1920_S16_1168, k0_pay463 a34.2.1 a34.2.2.2.2.1⟩,
        ⟨Rect.unit (s := S1920) ![528] S16.size inb_S1920_S16_528, k0_pay462 a34.1 a34.2.2.2.1⟩,
        ⟨Rect.unit (s := S1920) ![1792] S16.size inb_S1920_S16_1792, k0_pay450 a33.2.2.1 a33.2.2.2.2.2⟩,
        ⟨Rect.unit (s := S1920) ![1152] S16.size inb_S1920_S16_1152, k0_pay449 a33.2.1 a33.2.2.2.2.1⟩,
        ⟨Rect.unit (s := S1920) ![512] S16.size inb_S1920_S16_512, k0_pay448 a33.1 a33.2.2.2.1⟩,
        ⟨Rect.unit (s := S1920) ![1776] S16.size inb_S1920_S16_1776, k0_pay437 a32.2.2.1 a32.2.2.2.2.2⟩,
        ⟨Rect.unit (s := S1920) ![1136] S16.size inb_S1920_S16_1136, k0_pay436 a32.2.1 a32.2.2.2.2.1⟩,
        ⟨Rect.unit (s := S1920) ![496] S16.size inb_S1920_S16_496, k0_pay435 a32.1 a32.2.2.2.1⟩,
        ⟨Rect.unit (s := S1920) ![1760] S16.size inb_S1920_S16_1760, k0_pay424 a31.2.2.1 a31.2.2.2.2.2⟩,
        ⟨Rect.unit (s := S1920) ![1120] S16.size inb_S1920_S16_1120, k0_pay423 a31.2.1 a31.2.2.2.2.1⟩,
        ⟨Rect.unit (s := S1920) ![480] S16.size inb_S1920_S16_480, k0_pay422 a31.1 a31.2.2.2.1⟩,
        ⟨Rect.unit (s := S1920) ![1744] S16.size inb_S1920_S16_1744, k0_pay411 (k0_pay408 a30.2.2.1 a30.2.2.2.2.2)⟩,
        ⟨Rect.unit (s := S1920) ![1104] S16.size inb_S1920_S16_1104, k0_pay410 (k0_pay407 a30.2.1 a30.2.2.2.2.1)⟩,
        ⟨Rect.unit (s := S1920) ![464] S16.size inb_S1920_S16_464, k0_pay409 (k0_pay406 a30.1 a30.2.2.2.1)⟩,
        ⟨Rect.unit (s := S1920) ![1728] S16.size inb_S1920_S16_1728, k0_pay395 a29.2.2.1 a29.2.2.2.2.2⟩,
        ⟨Rect.unit (s := S1920) ![1088] S16.size inb_S1920_S16_1088, k0_pay394 a29.2.1 a29.2.2.2.2.1⟩,
        ⟨Rect.unit (s := S1920) ![448] S16.size inb_S1920_S16_448, k0_pay393 a29.1 a29.2.2.2.1⟩,
        ⟨Rect.unit (s := S1920) ![1712] S16.size inb_S1920_S16_1712, k0_pay382 a28.2.2.1 a28.2.2.2.2.2⟩,
        ⟨Rect.unit (s := S1920) ![1072] S16.size inb_S1920_S16_1072, k0_pay381 a28.2.1 a28.2.2.2.2.1⟩,
        ⟨Rect.unit (s := S1920) ![432] S16.size inb_S1920_S16_432, k0_pay380 a28.1 a28.2.2.2.1⟩,
        ⟨Rect.unit (s := S1920) ![1696] S16.size inb_S1920_S16_1696, k0_pay369 (k0_pay366 a27.2.2.1 a27.2.2.2.2.2)⟩,
        ⟨Rect.unit (s := S1920) ![1056] S16.size inb_S1920_S16_1056, k0_pay368 (k0_pay365 a27.2.1 a27.2.2.2.2.1)⟩,
        ⟨Rect.unit (s := S1920) ![416] S16.size inb_S1920_S16_416, k0_pay367 a27.1 a27.2.2.2.1⟩,
        ⟨Rect.unit (s := S1920) ![1680] S16.size inb_S1920_S16_1680, k0_pay354 a26.2.2.1 a26.2.2.2.2.2⟩,
        ⟨Rect.unit (s := S1920) ![1040] S16.size inb_S1920_S16_1040, k0_pay353 a26.2.1 a26.2.2.2.2.1⟩,
        ⟨Rect.unit (s := S1920) ![400] S16.size inb_S1920_S16_400, k0_pay352 a26.1 a26.2.2.2.1⟩,
        ⟨Rect.unit (s := S1920) ![1664] S16.size inb_S1920_S16_1664, k0_pay341 a25.2.2.1 a25.2.2.2.2.2⟩,
        ⟨Rect.unit (s := S1920) ![1024] S16.size inb_S1920_S16_1024, k0_pay340 a25.2.1 a25.2.2.2.2.1⟩,
        ⟨Rect.unit (s := S1920) ![384] S16.size inb_S1920_S16_384, k0_pay339 a25.1 a25.2.2.2.1⟩,
        ⟨Rect.unit (s := S1920) ![1648] S16.size inb_S1920_S16_1648, k0_pay328 (k0_pay325 a24.2.2.1 a24.2.2.2.2.2)⟩,
        ⟨Rect.unit (s := S1920) ![1008] S16.size inb_S1920_S16_1008, k0_pay327 a24.2.1 a24.2.2.2.2.1⟩,
        ⟨Rect.unit (s := S1920) ![368] S16.size inb_S1920_S16_368, k0_pay326 a24.1 a24.2.2.2.1⟩,
        ⟨Rect.unit (s := S1920) ![1632] S16.size inb_S1920_S16_1632, k0_pay314 a23.2.2.1 a23.2.2.2.2.2⟩,
        ⟨Rect.unit (s := S1920) ![992] S16.size inb_S1920_S16_992, k0_pay313 a23.2.1 a23.2.2.2.2.1⟩,
        ⟨Rect.unit (s := S1920) ![352] S16.size inb_S1920_S16_352, k0_pay312 a23.1 a23.2.2.2.1⟩,
        ⟨Rect.unit (s := S1920) ![1616] S16.size inb_S1920_S16_1616, k0_pay301 a22.2.2.1 a22.2.2.2.2.2⟩,
        ⟨Rect.unit (s := S1920) ![976] S16.size inb_S1920_S16_976, k0_pay300 a22.2.1 a22.2.2.2.2.1⟩,
        ⟨Rect.unit (s := S1920) ![336] S16.size inb_S1920_S16_336, k0_pay299 a22.1 a22.2.2.2.1⟩,
        ⟨Rect.unit (s := S1920) ![1600] S16.size inb_S1920_S16_1600, k0_pay288 a21.2.2.1 a21.2.2.2.2.2⟩,
        ⟨Rect.unit (s := S1920) ![960] S16.size inb_S1920_S16_960, k0_pay287 a21.2.1 a21.2.2.2.2.1⟩,
        ⟨Rect.unit (s := S1920) ![320] S16.size inb_S1920_S16_320, k0_pay286 a21.1 a21.2.2.2.1⟩,
        ⟨Rect.unit (s := S1920) ![1584] S16.size inb_S1920_S16_1584, k0_pay275 (k0_pay272 a20.2.2.1 a20.2.2.2.2.2)⟩,
        ⟨Rect.unit (s := S1920) ![944] S16.size inb_S1920_S16_944, k0_pay274 (k0_pay271 a20.2.1 a20.2.2.2.2.1)⟩,
        ⟨Rect.unit (s := S1920) ![304] S16.size inb_S1920_S16_304, k0_pay273 (k0_pay270 a20.1 a20.2.2.2.1)⟩,
        ⟨Rect.unit (s := S1920) ![1568] S16.size inb_S1920_S16_1568, k0_pay259 a19.2.2.1 a19.2.2.2.2.2⟩,
        ⟨Rect.unit (s := S1920) ![928] S16.size inb_S1920_S16_928, k0_pay258 a19.2.1 a19.2.2.2.2.1⟩,
        ⟨Rect.unit (s := S1920) ![288] S16.size inb_S1920_S16_288, k0_pay257 a19.1 a19.2.2.2.1⟩,
        ⟨Rect.unit (s := S1920) ![1552] S16.size inb_S1920_S16_1552, k0_pay246 a18.2.2.1 a18.2.2.2.2.2⟩,
        ⟨Rect.unit (s := S1920) ![912] S16.size inb_S1920_S16_912, k0_pay245 a18.2.1 a18.2.2.2.2.1⟩,
        ⟨Rect.unit (s := S1920) ![272] S16.size inb_S1920_S16_272, k0_pay244 a18.1 a18.2.2.2.1⟩,
        ⟨Rect.unit (s := S1920) ![1536] S16.size inb_S1920_S16_1536, k0_pay233 (k0_pay230 a17.2.2.1 a17.2.2.2.2.2)⟩,
        ⟨Rect.unit (s := S1920) ![896] S16.size inb_S1920_S16_896, k0_pay232 (k0_pay229 a17.2.1 a17.2.2.2.2.1)⟩,
        ⟨Rect.unit (s := S1920) ![256] S16.size inb_S1920_S16_256, k0_pay231 a17.1 a17.2.2.2.1⟩,
        ⟨Rect.unit (s := S1920) ![1520] S16.size inb_S1920_S16_1520, k0_pay218 a16.2.2.1 a16.2.2.2.2.2⟩,
        ⟨Rect.unit (s := S1920) ![880] S16.size inb_S1920_S16_880, k0_pay217 a16.2.1 a16.2.2.2.2.1⟩,
        ⟨Rect.unit (s := S1920) ![240] S16.size inb_S1920_S16_240, k0_pay216 a16.1 a16.2.2.2.1⟩,
        ⟨Rect.unit (s := S1920) ![1504] S16.size inb_S1920_S16_1504, k0_pay205 a15.2.2.1 a15.2.2.2.2.2⟩,
        ⟨Rect.unit (s := S1920) ![864] S16.size inb_S1920_S16_864, k0_pay204 a15.2.1 a15.2.2.2.2.1⟩,
        ⟨Rect.unit (s := S1920) ![224] S16.size inb_S1920_S16_224, k0_pay203 a15.1 a15.2.2.2.1⟩,
        ⟨Rect.unit (s := S1920) ![1488] S16.size inb_S1920_S16_1488, k0_pay192 (k0_pay189 a14.2.2.1 a14.2.2.2.2.2)⟩,
        ⟨Rect.unit (s := S1920) ![848] S16.size inb_S1920_S16_848, k0_pay191 a14.2.1 a14.2.2.2.2.1⟩,
        ⟨Rect.unit (s := S1920) ![208] S16.size inb_S1920_S16_208, k0_pay190 a14.1 a14.2.2.2.1⟩,
        ⟨Rect.unit (s := S1920) ![1472] S16.size inb_S1920_S16_1472, k0_pay178 a13.2.2.1 a13.2.2.2.2.2⟩,
        ⟨Rect.unit (s := S1920) ![832] S16.size inb_S1920_S16_832, k0_pay177 a13.2.1 a13.2.2.2.2.1⟩,
        ⟨Rect.unit (s := S1920) ![192] S16.size inb_S1920_S16_192, k0_pay176 a13.1 a13.2.2.2.1⟩,
        ⟨Rect.unit (s := S1920) ![1456] S16.size inb_S1920_S16_1456, k0_pay165 a12.2.2.1 a12.2.2.2.2.2⟩,
        ⟨Rect.unit (s := S1920) ![816] S16.size inb_S1920_S16_816, k0_pay164 a12.2.1 a12.2.2.2.2.1⟩,
        ⟨Rect.unit (s := S1920) ![176] S16.size inb_S1920_S16_176, k0_pay163 a12.1 a12.2.2.2.1⟩,
        ⟨Rect.unit (s := S1920) ![1440] S16.size inb_S1920_S16_1440, k0_pay152 a11.2.2.1 a11.2.2.2.2.2⟩,
        ⟨Rect.unit (s := S1920) ![800] S16.size inb_S1920_S16_800, k0_pay151 a11.2.1 a11.2.2.2.2.1⟩,
        ⟨Rect.unit (s := S1920) ![160] S16.size inb_S1920_S16_160, k0_pay150 a11.1 a11.2.2.2.1⟩,
        ⟨Rect.unit (s := S1920) ![1424] S16.size inb_S1920_S16_1424, k0_pay139 (k0_pay136 a10.2.2.1 a10.2.2.2.2.2)⟩,
        ⟨Rect.unit (s := S1920) ![784] S16.size inb_S1920_S16_784, k0_pay138 (k0_pay135 a10.2.1 a10.2.2.2.2.1)⟩,
        ⟨Rect.unit (s := S1920) ![144] S16.size inb_S1920_S16_144, k0_pay137 (k0_pay134 a10.1 a10.2.2.2.1)⟩,
        ⟨Rect.unit (s := S1920) ![1408] S16.size inb_S1920_S16_1408, k0_pay123 a9.2.2.1 a9.2.2.2.2.2⟩,
        ⟨Rect.unit (s := S1920) ![768] S16.size inb_S1920_S16_768, k0_pay122 a9.2.1 a9.2.2.2.2.1⟩,
        ⟨Rect.unit (s := S1920) ![128] S16.size inb_S1920_S16_128, k0_pay121 a9.1 a9.2.2.2.1⟩,
        ⟨Rect.unit (s := S1920) ![1392] S16.size inb_S1920_S16_1392, k0_pay110 a8.2.2.1 a8.2.2.2.2.2⟩,
        ⟨Rect.unit (s := S1920) ![752] S16.size inb_S1920_S16_752, k0_pay109 a8.2.1 a8.2.2.2.2.1⟩,
        ⟨Rect.unit (s := S1920) ![112] S16.size inb_S1920_S16_112, k0_pay108 a8.1 a8.2.2.2.1⟩,
        ⟨Rect.unit (s := S1920) ![1376] S16.size inb_S1920_S16_1376, k0_pay97 (k0_pay94 a7.2.2.1 a7.2.2.2.2.2)⟩,
        ⟨Rect.unit (s := S1920) ![736] S16.size inb_S1920_S16_736, k0_pay96 (k0_pay93 a7.2.1 a7.2.2.2.2.1)⟩,
        ⟨Rect.unit (s := S1920) ![96] S16.size inb_S1920_S16_96, k0_pay95 a7.1 a7.2.2.2.1⟩,
        ⟨Rect.unit (s := S1920) ![1360] S16.size inb_S1920_S16_1360, k0_pay82 a6.2.2.1 a6.2.2.2.2.2⟩,
        ⟨Rect.unit (s := S1920) ![720] S16.size inb_S1920_S16_720, k0_pay81 a6.2.1 a6.2.2.2.2.1⟩,
        ⟨Rect.unit (s := S1920) ![80] S16.size inb_S1920_S16_80, k0_pay80 a6.1 a6.2.2.2.1⟩,
        ⟨Rect.unit (s := S1920) ![1344] S16.size inb_S1920_S16_1344, k0_pay69 a5.2.2.1 a5.2.2.2.2.2⟩,
        ⟨Rect.unit (s := S1920) ![704] S16.size inb_S1920_S16_704, k0_pay68 a5.2.1 a5.2.2.2.2.1⟩,
        ⟨Rect.unit (s := S1920) ![64] S16.size inb_S1920_S16_64, k0_pay67 a5.1 a5.2.2.2.1⟩,
        ⟨Rect.unit (s := S1920) ![1328] S16.size inb_S1920_S16_1328, k0_pay56 (k0_pay53 a4.2.2.1 a4.2.2.2.2.2)⟩,
        ⟨Rect.unit (s := S1920) ![688] S16.size inb_S1920_S16_688, k0_pay55 a4.2.1 a4.2.2.2.2.1⟩,
        ⟨Rect.unit (s := S1920) ![48] S16.size inb_S1920_S16_48, k0_pay54 a4.1 a4.2.2.2.1⟩,
        ⟨Rect.unit (s := S1920) ![1312] S16.size inb_S1920_S16_1312, k0_pay42 a3.2.2.1 a3.2.2.2.2.2⟩,
        ⟨Rect.unit (s := S1920) ![672] S16.size inb_S1920_S16_672, k0_pay41 a3.2.1 a3.2.2.2.2.1⟩,
        ⟨Rect.unit (s := S1920) ![32] S16.size inb_S1920_S16_32, k0_pay40 a3.1 a3.2.2.2.1⟩,
        ⟨Rect.unit (s := S1920) ![1296] S16.size inb_S1920_S16_1296, k0_pay29 a2.2.2.1 a2.2.2.2.2.2⟩,
        ⟨Rect.unit (s := S1920) ![656] S16.size inb_S1920_S16_656, k0_pay28 a2.2.1 a2.2.2.2.2.1⟩,
        ⟨Rect.unit (s := S1920) ![16] S16.size inb_S1920_S16_16, k0_pay27 a2.1 a2.2.2.2.1⟩,
        ⟨Rect.unit (s := S1920) ![1280] S16.size inb_S1920_S16_1280, k0_pay16 a1.2.2.1 a1.2.2.2.2.2⟩,
        ⟨Rect.unit (s := S1920) ![640] S16.size inb_S1920_S16_640, k0_pay15 a1.2.1 a1.2.2.2.2.1⟩,
        ⟨Rect.unit (s := S1920) ![0] S16.size inb_S1920_S16_0, k0_pay14 a1.1 a1.2.2.2.1⟩]))⟩]) :=
  tileSpec_of_stores L P T o0 fR ![a1, a2, a3, a4, a5, a6, a7, a8, a9, a10, a11, a12, a13, a14, a15, a16, a17, a18, a19, a20, a21, a22, a23, a24, a25, a26, a27, a28, a29, a30, a31, a32, a33, a34, a35, a36, a37, a38] (by
    intro j; fin_cases j
    · exact h1
    · exact h2
    · exact h3
    · exact h4
    · exact h5
    · exact h6
    · exact h7
    · exact h8
    · exact h9
    · exact h10
    · exact h11
    · exact h12
    · exact h13
    · exact h14
    · exact h15
    · exact h16
    · exact h17
    · exact h18
    · exact h19
    · exact h20
    · exact h21
    · exact h22
    · exact h23
    · exact h24
    · exact h25
    · exact h26
    · exact h27
    · exact h28
    · exact h29
    · exact h30
    · exact h31
    · exact h32
    · exact h33
    · exact h34
    · exact h35
    · exact h36
    · exact h37
    · exact h38)

end Cert.Kernel.ScStores

end
-- ==== Proof.KW.ScBody.lean ====
import proofs.«216000_g43989055045728_cont_8to1_b_1827_23_alg».proof.Proof.KW.PayDefs
import proofs.«216000_g43989055045728_cont_8to1_b_1827_23_alg».proof.Proof.Gen.Kernel.Skeleton
import proofs.«216000_g43989055045728_cont_8to1_b_1827_23_alg».proof.Proof.KW.ScLoopAll
import proofs.«216000_g43989055045728_cont_8to1_b_1827_23_alg».proof.Proof.KW.ScViews
import proofs.«216000_g43989055045728_cont_8to1_b_1827_23_alg».proof.Proof.KW.ScStores
import Idealize.ShloMosaic.Lib.Batch
import Idealize.ShloMosaic.Lib.Tactic

noncomputable section

namespace Cert.Kernel.ScBody

open Cert.Kernel Cert.Kernel.Gen Cert.Kernel.PayDefs

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

abbrev cT : GSem nD τ sig := (tileThr d L, .dma cc0_scratch4.sem)
abbrev cA : GSem nD τ sig := (tileThr d L, .dma cc0_scratch5.sem)
abbrev cB : GSem nD τ sig := (tileThr d L, .dma cc0_scratch6.sem)
abbrev cO : GSem nD τ sig := (tileThr d L, .dma cc0_scratch7.sem)

theorem ownSems0_tile :
    (ownSems0 (tileThr d L) : sProp 𝕄)
      = iprop(semVal (cT d L) 0 ∗ semVal (cA d L) 0 ∗ semVal (cB d L) 0 ∗ semVal (cO d L) 0
          ∗ bigSep (((((ownCells (tileThr d L)).erase (cT d L)).erase (cA d L)).erase (cB d L)).erase (cO d L)) fun g => semVal g 0) := by
  unfold SparseCore.Cfg.ownSems0
  rw [SparseCore.bigSep_erase' ((mem_ownCells (g := cT d L)).mpr ⟨rfl, by
      show (SemLoc.dma cc0_scratch4.sem : SemLoc sig).isScoped .scVector = true; decide⟩),
    SparseCore.bigSep_erase' (Finset.mem_erase.mpr ⟨by simp [cT, cA]; decide, (mem_ownCells (g := cA d L)).mpr ⟨rfl, by
      show (SemLoc.dma cc0_scratch5.sem : SemLoc sig).isScoped .scVector = true; decide⟩⟩),
    SparseCore.bigSep_erase' (Finset.mem_erase.mpr ⟨by simp [cA, cB]; decide, Finset.mem_erase.mpr ⟨by simp [cT, cB]; decide,
      (mem_ownCells (g := cB d L)).mpr ⟨rfl, by show (SemLoc.dma cc0_scratch6.sem : SemLoc sig).isScoped .scVector = true; decide⟩⟩⟩),
    SparseCore.bigSep_erase' (Finset.mem_erase.mpr ⟨by simp [cB, cO]; decide, Finset.mem_erase.mpr ⟨by simp [cA, cO]; decide,
      Finset.mem_erase.mpr ⟨by simp [cT, cO]; decide,
      (mem_ownCells (g := cO d L)).mpr ⟨rfl, by show (SemLoc.dma cc0_scratch7.sem : SemLoc sig).isScoped .scVector = true; decide⟩⟩⟩⟩)]

theorem ownBufs_tile :
    (ownBufs (tileThr d L) : sProp 𝕄)
      = iprop((∃ f, (tileThr d L).loc cc0_scratch0 ↦{fullShare} f) ∗ (∃ f, (tileThr d L).loc cc0_scratch1 ↦{fullShare} f)
          ∗ (∃ f, (tileThr d L).loc cc0_scratch2 ↦{fullShare} f) ∗ (∃ f, (tileThr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

theorem pts_scratch (b : Ref sig .scVector) (f : Buf (Elt F) ((tileThr d L).loc b)) :
    ((Memref.whole b).view.loc (tileThr d L) ↦{fullShare} f : sProp 𝕄) = (tileThr d L).loc b ↦{fullShare} f := rfl

variable [FloatOps F] [∀ e, Nonempty (Elt F e)]

omit [FloatOps F] [∀ e, Nonempty (Elt F e)] in

theorem waits_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

omit [∀ e, Nonempty (Elt F e)] in

theorem holdsP_write (g : Cert.SpecSC.SP.Idx → F .f32) {κ : Kind} {sp : Space}
    (v : View sig κ sp S16x512 .f32) (prev : v.ty.Contents (Elt F)) (w : S16x512.Idx → F .f32) (pb : Fin 8) (pc : Fin 19) (wid : ℕ)
    (h : ScLoop.HoldsP g w pb pc wid) :
    ScLoop.HoldsP g (v.read (Elt F) (View.write (Elt F) v prev w Finset.univ)) pb pc wid := by
  rw [View.read_write_univ]; exact h

theorem pay3_zero (l : Fin 16) : (k0_pay3 (F := F)) (ValueIdx.ix1 l) = Cert.SpecSC.zeroF := rfl

omit [∀ e, Nonempty (Elt F e)] in

theorem holdsP_closed (g : Cert.SpecSC.SP.Idx → F .f32) (off : Fin 4 → ℕ) [C : ClosedOff off]
    (hinb : ∀ a, off a + S1x1x16x512.size a ≤ S8x19x512x512.size a) (b : Fin 8) (c : Fin 19)
    (hform : C.form = ![b.val, c.val, 32 * (L 1).val + 16 * (L 0).val, 0]) :
    ScLoop.HoldsP g (ReadAs.same.apply (View.read (Elt F)
      ((pV.slice (Rect.unit (s := S8x19x512x512) off S1x1x16x512.size hinb) (fun _ => rfl)).squeeze S16x512 squeezes_S1x1x16x512_S16x512).view g))
      b c (widOf L) :=
  ScViews.holdsP_of_off L g off hinb b c (C.eq.trans (hform.trans (by rw [ScViews.off_wid])))

omit [∀ e, Nonempty (Elt F e)] in

theorem sums_of (P : Cert.SpecSC.SP.Idx → F .f32) (T : Cert.SpecSC.ST.Idx → BitVec 32) (wid : ℕ) (b : Fin 8) (c : Fin 19) (ro : ℕ)
    (rp : S16x512.Idx → F .f32) (rt : S32x512.Idx → BitVec 32) (cw : BitVec 32) (N : ℕ) (hN : N = 256) (hcw : cw = Cert.SpecSC.cls c)
    (hP : ScLoop.HoldsP P rp b c wid) (hT : ScLoop.HoldsT T rt b wid ro) :
    ScStores.Sums P T wid b c (ScLoop.st rp rt (k0_pay3 (F := F)) cw ro N) := by
  subst hN; subst hcw
  intro l
  exact ScLoop.tile_of_st hP hT (k0_pay3 (F := F)) pay3_zero l

omit [∀ e, Nonempty (Elt F e)] in

theorem sums_m {κ : Kind} {sp : Space} (v : View sig κ sp S16x512 .f32) (prev : v.ty.Contents (Elt F))
    (off : Fin 4 → ℕ) [C : ClosedOff off] (hinb : ∀ a, off a + S1x1x16x512.size a ≤ S8x19x512x512.size a)
    (b : Fin 8) (c : Fin 19) (ro : ℕ) (rt : S32x512.Idx → BitVec 32) (cw : BitVec 32) (N : ℕ)
    (hform : C.form = ![b.val, c.val, 32 * (L 1).val + 16 * (L 0).val, 0]) (hN : N = 256) (hcw : cw = Cert.SpecSC.cls c)
    (hT : ScLoop.HoldsT (m (tLoc d)) rt b (widOf L) ro) :
    ScStores.Sums (m (pLoc d)) (m (tLoc d)) (widOf L) b c
      (ScLoop.st (v.read (Elt F) (View.write (Elt F) v prev (ReadAs.same.apply (View.read (Elt F)
        ((pV.slice (Rect.unit (s := S8x19x512x512) off S1x1x16x512.size hinb) (fun _ => rfl)).squeeze S16x512 squeezes_S1x1x16x512_S16x512).view
        (m (pLoc d)))) Finset.univ)) rt (k0_pay3 (F := F)) cw ro N) :=
  sums_of (F := F) (m (pLoc d)) (m (tLoc d)) (widOf L) b c ro _ rt cw N hN hcw
    (holdsP_write (F := F) (m (pLoc d)) v prev _ b c (widOf L) (holdsP_closed (F := F) L (m (pLoc d)) off hinb b c hform)) hT

set_option maxRecDepth 65536 in
set_option maxHeartbeats 8000000 in
theorem tile_body (O : CellTallies nD τ sig (HIx 1)) (W : Waits sig (HIx 1)) (hO : ∀ g, O g none = 0) :
    iprop(levAts (K (F := F)).L (K (F := F)).lev ∗ emp ∗ tileGo m d L
        ∗ scopedBufs (tileThr d L) ∗ scopedSems0 (tileThr d L) ∗ owes (tileThr d L) O W)
      ⊢ wp frame (wpE (defs₀ (F := F)) 𝒱₀ (tileThr d L) none) Set.univ
          (cc0__sc_partials L pV (Memref.isWhole_whole _) tV (Memref.isWhole_whole _) oV (Memref.isWhole_whole _)
            sT (Memref.isWhole_whole _) sA (Memref.isWhole_whole _) sB (Memref.isWhole_whole _) sR (Memref.isWhole_whole _)
            cc0_scratch4 cc0_scratch5 cc0_scratch6 cc0_scratch7)
          fun _ => iprop(tileTd m d L ∗ scopedBufs (tileThr d L) ∗ scopedSems0 (tileThr d L)
            ∗ ∃ W', ⌜∀ p ∈ W', p ∈ W ∨ p.2 = none⌝ ∗ owes (tileThr d L) O W') := by
  have planT : Transfers.BatchOf (tileThr d L) (SemLoc.dma (sig := sig) cc0_scratch4.sem) 2 (windows := true) := trivial
  simp only [cc0__sc_partials_eq_skeleton]; unfold cc0__sc_partials_skel
  rw [(K (F := F)).scopedBufs_V facts d (cV L) (jV L), SparseCore.Cfg.scopedSems0_V (Val := Elt F) d (cV L) (jV L),
    ownSems0_tile, ownBufs_tile]
  unfold tileGo
  iintro ⟨#Hlv, -, ⟨HP, HT, HOut⟩, ⟨⟨%fT, HsT⟩, ⟨%fA, HsA⟩, ⟨%fB, HsB⟩, ⟨%fR, HsR⟩, Hbufs⟩, ⟨HcT, HcA, HcB, HcO, Hsems⟩, HO⟩
  ihave Hmw := ((K (F := F)).mayWaits_none (thr := tileThr d L) hO) $$ Hlv
  ihave HsT' := (Entails.of_eq (pts_scratch (F := F) d L cc0_scratch0 _).symm) $$ HsT
  ihave HsA' := (Entails.of_eq (pts_scratch (F := F) d L cc0_scratch1 _).symm) $$ HsA
  ihave HsB' := (Entails.of_eq (pts_scratch (F := F) d L cc0_scratch2 _).symm) $$ HsB
  ihave HsR' := (Entails.of_eq (pts_scratch (F := F) d L cc0_scratch3 _).symm) $$ HsR
  ihave HP2 := (pointsTo_share (PosShare.mem_left_op_right (qL L))).1 $$ HP
  icases HP2 with ⟨HPa, HPb⟩
  ihave HT2 := (pointsTo_share (PosShare.mem_left_op_right (qL L))).1 $$ HT
  icases HT2 with ⟨HTa, HTb⟩
  sl_exec_parts
  sl_step
  isplitl [HPa HPb HTa HTb HOut]
  · unfold tileTd
    isplitl [HPa HPb]
    · iapply (pointsTo_share (PosShare.mem_left_op_right (qL L))).2
      isplitl [HPa]; · iexact HPa
      iexact HPb
    isplitl [HTa HTb]
    · iapply (pointsTo_share (PosShare.mem_left_op_right (qL L))).2
      isplitl [HTa]; · iexact HTa
      iexact HTb
    iexists _; isplitr
    rotate_left
    · iexact HOut
    · ipureintro
      sl_unfold_run_names
      have hT6 := ScViews.holdsT_lo (F := F) L (m (tLoc d)) (Memref.whole cc0_scratch0).view.junk inb_S32x512_S16x512_16_0 inb_S32x512_S16x512_0_0
        (k0_off1 L) (k0_off2 L) (k0_off1_inb L) (k0_off2_inb L) ((k0_off1_eq L).trans (by rw [ScViews.off_wid]))
      have hT7 := ScViews.holdsT_hi (F := F) L (m (tLoc d)) (Memref.whole cc0_scratch0).view.junk inb_S32x512_S16x512_16_0 inb_S32x512_S16x512_0_0
        (k0_off1 L) (k0_off2 L) (k0_off1_inb L) (k0_off2_inb L) ((k0_off2_eq L).trans (by rw [ScViews.off_wid]))
      refine ScStores.tileSpec_of_run L (m (pLoc d)) (m (tLoc d)) (m (oLoc d)) fR
        _ _ _ _ _ _ _ _ _ _ _ _ _ _ _ _ _ _ _ _ _ _ _ _ _ _ _ _ _ _ _ _ _ _ _ _ _ _
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
      iterate 19
        on_goal 1 => exact sums_m (F := F) m d L _ _ _ _ _ _ _ _ _ _ (by rfl) (by decide) rfl hT6
      all_goals
        exact sums_m (F := F) m d L _ _ _ _ _ _ _ _ _ _ (by rfl) (by decide) rfl hT7
  isplitl [HsT' HsA' HsB' HsR' Hbufs]
  · isplitl [HsT']; · iexists _; iapply (Entails.of_eq (pts_scratch (F := F) d L cc0_scratch0 _)); iexact HsT'
    isplitl [HsA']; · iexists _; iapply (Entails.of_eq (pts_scratch (F := F) d L cc0_scratch1 _)); iexact HsA'
    isplitl [HsB']; · iexists _; iapply (Entails.of_eq (pts_scratch (F := F) d L cc0_scratch2 _)); iexact HsB'
    isplitl [HsR']; · iexists _; iapply (Entails.of_eq (pts_scratch (F := F) d L cc0_scratch3 _)); iexact HsR'
    iexact Hbufs
  isplitl [HcT HcA HcB HcO Hsems]
  · isplitl [HcT]; · iexact HcT
    isplitl [HcA]; · iexact HcA
    isplitl [HcB]; · iexact HcB
    isplitl [HcO]; · iexact HcO
    iexact Hsems
  iexists _; isplitr
  rotate_left
  · iexact HO
  · ipureintro
    repeat (refine waits_insert _ ?_)
    exact fun p hp => .inl hp

end Tile

end Cert.Kernel.ScBody

end
-- ==== Proof.KW.TcData.lean ====
import proofs.«216000_g43989055045728_cont_8to1_b_1827_23_alg».proof.Proof.Gen.Kernel.Launch
import proofs.«216000_g43989055045728_cont_8to1_b_1827_23_alg».proof.Proof.Gen.Kernel.Points
import proofs.«216000_g43989055045728_cont_8to1_b_1827_23_alg».proof.Proof.KW.PayDefs
import proofs.«216000_g43989055045728_cont_8to1_b_1827_23_alg».proof.Proof.KW.SpecTC
import Idealize.ShloMosaic.Lib.Pipeline.Regions
import Idealize.ShloMosaic.Lib.Pipeline.FrameBody
import Idealize.ShloMosaic.Lib.Pipeline.Value
import Idealize.ShloMosaic.Lib.SparseCore.Threads

noncomputable section

namespace Cert.Kernel.TcRegion

open Cert.Kernel Cert.Kernel.Gen Cert.Kernel.PayDefs Cert.Kernel.SpecTC
open Cert.Kernel.Facts₀ Cert.Kernel.Facts
open Idealize.ShloMosaic Idealize.ShloMosaic.TcCoe Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

abbrev adm : (p : Fin 1) → (pcfgs (F := F) p).Adm := fun p => (cfgs p).toPCfg_adm

theorem cellOf_inj' : Function.Injective (Pipeline.cellOf (nD := nD) (τ := τ) (Pipeline.pin (pcfgs (F := F)) adm)) :=
  Gen.cellOf_inj

theorem coords_half : ∀ t : Fin cfg1.N, ((grid1.coords t) 1).val = t.val % 2 :=
  (by decide +kernel : ∀ t : Fin grid1.N, ((grid1.coords t) 1).val = t.val % 2)
theorem cond_half : ∀ t : Fin cfg1.N, k1_cond2 (grid1.coords t) = 1#1 ↔ t.val % 2 = 1 :=
  (by decide +kernel : ∀ t : Fin grid1.N, k1_cond2 (grid1.coords t) = 1#1 ↔ t.val % 2 = 1)

theorem N_lt (t : Fin cfg1.N) : t.val < 12 := lt_of_lt_of_eq t.isLt (show cfg1.N = 12 from Gen.N_1)

def batchOf (n : ℕ) (h : n < 12) : Fin 8 := ⟨n / 2, by omega⟩

def halfOf (n : ℕ) : Fin 2 := ⟨n % 2, Nat.mod_lt _ (by decide)⟩

section Data

variable (d : Dev nD) (Pc : Buf (Elt F) (pLoc d)) (Tc : Buf (Elt F) (tLoc d)) (Oc : Buf (Elt F) ((SparseCore.T d).loc main_v1))
  (B : Set (SemLoc sig × HIx 1))

def arrA (w : Fin cfg1.W) : Buf (Elt F) ((cfg1.win w).arr.view.loc (d.tc : Thread nD τ)) :=
  match w with
  | ⟨0, _⟩ => Pc
  | ⟨1, _⟩ => Tc
  | ⟨2, _⟩ => Oc

def iblk (w : Fin cfg1.W) (t : Fin cfg1.N) : ((cfg1.win w).xblock (cfg1.grid.coords t)).Idx → Elt F (cfg1.win w).elt :=
  ((cfg1.win w).blk t).view.read (Elt F) (arrA d Pc Tc Oc w)

def nomHalf (b : Fin 8) : FVec F S19x8x512 .f32 := acc0 (nomParts (predBlock Pc b 0) (tgtBlock Tc b 0))
def isumHalf (b : Fin 8) : FVec F S19x8x512 .f32 := acc0 (isumParts (predBlock Pc b 0))
def tsumHalf (b : Fin 8) : FVec F S19x8x512 .f32 := acc0 (F := F) (tsumParts (tgtBlock Tc b 0))

def outBlk (b : Fin 8) : FVec F S1x1x128 .f32 := finishBlock (nomAcc Pc Tc b) (isumAcc Pc b) (tsumAcc (F := F) Tc b)

def ΦAcc (n : ℕ) (h : n < 12 + 1) : sProp 𝕄 :=
  if hn : n % 2 = 1 then
    iprop(owns (d.tc : Thread nD τ) (Memref.whole cc1_scratch0) fullShare (nomHalf d Pc Tc (batchOf n (by omega)))
      ∗ owns (d.tc : Thread nD τ) (Memref.whole cc1_scratch1) fullShare (isumHalf d Pc (batchOf n (by omega)))
      ∗ owns (d.tc : Thread nD τ) (Memref.whole cc1_scratch2) fullShare (tsumHalf d Tc (batchOf n (by omega))))
  else
    iprop((∃ a : Vec F S19x8x512 .f32, owns (d.tc : Thread nD τ) (Memref.whole cc1_scratch0) fullShare a)
      ∗ (∃ a : Vec F S19x8x512 .f32, owns (d.tc : Thread nD τ) (Memref.whole cc1_scratch1) fullShare a)
      ∗ (∃ a : Vec F S19x8x512 .f32, owns (d.tc : Thread nD τ) (Memref.whole cc1_scratch2) fullShare a))

def dats (_ : Fin 1) : Dat τ (Elt F) (HIx 1) ℕ UU ℕ cfg1 d where
  A w := arrA d Pc Tc Oc w
  after w t := match w with
    | ⟨0, _⟩ => iblk d Pc Tc Oc 0 t
    | ⟨1, _⟩ => iblk d Pc Tc Oc 1 t
    | ⟨2, _⟩ => outBlk d Pc Tc (batchOf t.val (N_lt t))
  Φ t := ΦAcc d Pc Tc t.val (lt_of_lt_of_eq t.isLt (congrArg (· + 1) (Gen.N_1 : grid1.N = 12)))
  q _ := fullShare
  owed _ := 0
  recorded _ := B

end Data

def planes (x : Vec F S1x19x256x512 .f32) : Fin 19 → FVec F S256x512 .f32 := fun c i => x (ix4 0 c (i 0) (i 1))

def tgts (y : Vec F S1x256x512 .i32) : IVec S256x512 32 := fun i => y (ix3 0 (i 0) (i 1))

end Cert.Kernel.TcRegion

end
-- ==== Proof.KW.TcIndex.lean ====
import proofs.«216000_g43989055045728_cont_8to1_b_1827_23_alg».proof.Proof.KW.TcData

noncomputable section

namespace Cert.Kernel.TcRegion

open Cert.Kernel Cert.Kernel.Gen Cert.Kernel.PayDefs Cert.Kernel.SpecTC
open Cert.Kernel.Facts₀ Cert.Kernel.Facts
open Idealize.ShloMosaic Idealize.ShloMosaic.TcCoe Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem index0 : ∀ (t : Fin cfg1.N) (a : Fin 4),
    (cfg1.win 0).index t a = if a = 0 then t.val / 2 else if a = 2 then t.val % 2 else 0 :=
  (by decide +kernel : ∀ (t : Fin grid1.N) (a : Fin 4),
    win1_0.index t a = if a = 0 then t.val / 2 else if a = 2 then t.val % 2 else 0)

theorem index1 : ∀ (t : Fin cfg1.N) (a : Fin 3),
    (cfg1.win 1).index t a = if a = 0 then t.val / 2 else if a = 1 then t.val % 2 else 0 :=
  (by decide +kernel : ∀ (t : Fin grid1.N) (a : Fin 3),
    win1_1.index t a = if a = 0 then t.val / 2 else if a = 1 then t.val % 2 else 0)

section
variable (d : Dev nD) (Pc : Buf (Elt F) (pLoc d)) (Tc : Buf (Elt F) (tLoc d)) (Oc : Buf (Elt F) ((SparseCore.T d).loc main_v1))
  (t : Fin cfg1.N)

theorem planes_iblk : planes (iblk d Pc Tc Oc 0 t) = predBlock Pc (batchOf t.val (N_lt t)) (halfOf t.val) := by
  funext c i
  unfold planes iblk predBlock arrA
  rw [View.read_apply]
  show Pc (((cfg1.win 0).blk t).view.emb (ix4 0 c (i 0) (i 1))) = _
  refine congrArg Pc (funext fun a => Fin.ext ?_)
  match a with
  | ⟨0, _⟩ =>
    refine (Window.rect_emb_val (cfg1.win 0) t (ix4 0 c (i 0) (i 1)) 0).trans ?_
    rw [index0 t 0, if_pos rfl]
    show t.val / 2 * 1 + 0 = t.val / 2
    omega
  | ⟨1, _⟩ =>
    refine (Window.rect_emb_val (cfg1.win 0) t (ix4 0 c (i 0) (i 1)) 1).trans ?_
    rw [index0 t 1, if_neg (by decide), if_neg (by decide)]
    show 0 * 19 + c.val = c.val
    omega
  | ⟨2, _⟩ =>
    refine (Window.rect_emb_val (cfg1.win 0) t (ix4 0 c (i 0) (i 1)) 2).trans ?_
    rw [index0 t 2, if_neg (by decide), if_pos rfl]
    show t.val % 2 * 256 + (i 0).val = 256 * (t.val % 2) + (i 0).val
    omega
  | ⟨3, _⟩ =>
    refine (Window.rect_emb_val (cfg1.win 0) t (ix4 0 c (i 0) (i 1)) 3).trans ?_
    rw [index0 t 3, if_neg (by decide), if_neg (by decide)]
    show 0 * 512 + (i 1).val = (i 1).val
    omega

theorem tgts_iblk : tgts (iblk d Pc Tc Oc 1 t) = tgtBlock Tc (batchOf t.val (N_lt t)) (halfOf t.val) := by
  funext i
  unfold tgts iblk tgtBlock arrA
  rw [View.read_apply]
  show Tc (((cfg1.win 1).blk t).view.emb (ix3 0 (i 0) (i 1))) = _
  refine congrArg Tc (funext fun a => Fin.ext ?_)
  match a with
  | ⟨0, _⟩ =>
    refine (Window.rect_emb_val (cfg1.win 1) t (ix3 0 (i 0) (i 1)) 0).trans ?_
    rw [index1 t 0, if_pos rfl]
    show t.val / 2 * 1 + 0 = t.val / 2
    omega
  | ⟨1, _⟩ =>
    refine (Window.rect_emb_val (cfg1.win 1) t (ix3 0 (i 0) (i 1)) 1).trans ?_
    rw [index1 t 1, if_neg (by decide), if_pos rfl]
    show t.val % 2 * 256 + (i 0).val = 256 * (t.val % 2) + (i 0).val
    omega
  | ⟨2, _⟩ =>
    refine (Window.rect_emb_val (cfg1.win 1) t (ix3 0 (i 0) (i 1)) 2).trans ?_
    rw [index1 t 2, if_neg (by decide), if_neg (by decide)]
    show 0 * 512 + (i 1).val = (i 1).val
    omega

end

end Cert.Kernel.TcRegion

end
-- ==== Proof.KW.TcRegion.lean ====
import proofs.«216000_g43989055045728_cont_8to1_b_1827_23_alg».proof.Proof.Gen.Kernel.Launch
import proofs.«216000_g43989055045728_cont_8to1_b_1827_23_alg».proof.Proof.Gen.Kernel.Points
import proofs.«216000_g43989055045728_cont_8to1_b_1827_23_alg».proof.Proof.KW.PayDefs
import proofs.«216000_g43989055045728_cont_8to1_b_1827_23_alg».proof.Proof.KW.SpecTC
import proofs.«216000_g43989055045728_cont_8to1_b_1827_23_alg».proof.Proof.KW.TcData
import proofs.«216000_g43989055045728_cont_8to1_b_1827_23_alg».proof.Proof.KW.TcIndex
import Idealize.ShloMosaic.Lib.Pipeline.Regions
import Idealize.ShloMosaic.Lib.Pipeline.FrameBody
import Idealize.ShloMosaic.Lib.Pipeline.Value
import Idealize.ShloMosaic.Lib.SparseCore.Threads

noncomputable section

namespace Cert.Kernel.TcRegion

open Cert.Kernel Cert.Kernel.Gen Cert.Kernel.PayDefs Cert.Kernel.SpecTC
open Cert.Kernel.Facts₀ Cert.Kernel.Facts
open Idealize.ShloMosaic Idealize.ShloMosaic.TcCoe Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- What the body does at a grid point, on whole staging memrefs and the three scratch accumulators: at a first half the
    accumulators end at the half's sums over zero and the result block stays; at a second half they step from what
    they held and the result block is finished. -/
structure BodyRun : Prop where
  first : ∀ (d : Dev nD) (i : grid1.Coords) (arg2 : Memref sig .tc .vmem S1x19x256x512 .f32) (harg2 : arg2.IsWhole)
    (arg3 : Memref sig .tc .vmem S1x256x512 .i32) (harg3 : arg3.IsWhole) (arg4 : Memref sig .tc .vmem S1x1x128 .f32) (harg4 : arg4.IsWhole)
    (x : Vec F S1x19x256x512 .f32) (y : Vec F S1x256x512 .i32) (o : Vec F S1x1x128 .f32) (n0 i0 t0 : Vec F S19x8x512 .f32)
    (hi : (i 1).val = 0),
    (iprop(owns (d.tc : Thread nD τ) arg2 fullShare x ∗ owns (d.tc : Thread nD τ) arg3 fullShare y ∗ owns (d.tc : Thread nD τ) arg4 fullShare o
        ∗ owns (d.tc : Thread nD τ) (Memref.whole cc1_scratch0) fullShare n0 ∗ owns (d.tc : Thread nD τ) (Memref.whole cc1_scratch1) fullShare i0
        ∗ owns (d.tc : Thread nD τ) (Memref.whole cc1_scratch2) fullShare t0) : sProp 𝕄)
      ⊢ wp frame (wpE (defs₀ (F := F)) Variants.none (d.tc : Thread nD τ) none) Set.univ
          (cc1__dice_tc_body i arg2 harg2 arg3 harg3 arg4 harg4 (Memref.whole cc1_scratch0) (Memref.isWhole_whole _)
            (Memref.whole cc1_scratch1) (Memref.isWhole_whole _) (Memref.whole cc1_scratch2) (Memref.isWhole_whole _)) fun _ =>
          iprop(owns (d.tc : Thread nD τ) arg2 fullShare x ∗ owns (d.tc : Thread nD τ) arg3 fullShare y
            ∗ owns (d.tc : Thread nD τ) arg4 fullShare o
            ∗ owns (d.tc : Thread nD τ) (Memref.whole cc1_scratch0) fullShare (acc0 (nomParts (planes x) (tgts y)))
            ∗ owns (d.tc : Thread nD τ) (Memref.whole cc1_scratch1) fullShare (acc0 (isumParts (planes x)))
            ∗ owns (d.tc : Thread nD τ) (Memref.whole cc1_scratch2) fullShare (acc0 (F := F) (tsumParts (tgts y))))
  second : ∀ (d : Dev nD) (i : grid1.Coords) (arg2 : Memref sig .tc .vmem S1x19x256x512 .f32) (harg2 : arg2.IsWhole)
    (arg3 : Memref sig .tc .vmem S1x256x512 .i32) (harg3 : arg3.IsWhole) (arg4 : Memref sig .tc .vmem S1x1x128 .f32) (harg4 : arg4.IsWhole)
    (x : Vec F S1x19x256x512 .f32) (y : Vec F S1x256x512 .i32) (o : Vec F S1x1x128 .f32) (n0 i0 t0 : Vec F S19x8x512 .f32)
    (hi : (i 1).val = 1),
    (iprop(owns (d.tc : Thread nD τ) arg2 fullShare x ∗ owns (d.tc : Thread nD τ) arg3 fullShare y ∗ owns (d.tc : Thread nD τ) arg4 fullShare o
        ∗ owns (d.tc : Thread nD τ) (Memref.whole cc1_scratch0) fullShare n0 ∗ owns (d.tc : Thread nD τ) (Memref.whole cc1_scratch1) fullShare i0
        ∗ owns (d.tc : Thread nD τ) (Memref.whole cc1_scratch2) fullShare t0) : sProp 𝕄)
      ⊢ wp frame (wpE (defs₀ (F := F)) Variants.none (d.tc : Thread nD τ) none) Set.univ
          (cc1__dice_tc_body i arg2 harg2 arg3 harg3 arg4 harg4 (Memref.whole cc1_scratch0) (Memref.isWhole_whole _)
            (Memref.whole cc1_scratch1) (Memref.isWhole_whole _) (Memref.whole cc1_scratch2) (Memref.isWhole_whole _)) fun _ =>
          iprop(owns (d.tc : Thread nD τ) arg2 fullShare x ∗ owns (d.tc : Thread nD τ) arg3 fullShare y
            ∗ owns (d.tc : Thread nD τ) arg4 fullShare
                (finishBlock (addRows n0 (nomParts (planes x) (tgts y))) (addRows i0 (isumParts (planes x))) (addRows t0 (tsumParts (tgts y))))
            ∗ owns (d.tc : Thread nD τ) (Memref.whole cc1_scratch0) fullShare (addRows n0 (nomParts (planes x) (tgts y)))
            ∗ owns (d.tc : Thread nD τ) (Memref.whole cc1_scratch1) fullShare (addRows i0 (isumParts (planes x)))
            ∗ owns (d.tc : Thread nD τ) (Memref.whole cc1_scratch2) fullShare (addRows t0 (tsumParts (tgts y))))

section Region

variable (Vm : (ℓ : Loc nD τ sig) → Buf (Elt F) ℓ) (B : Dev nD → Set (SemLoc sig × HIx 1))
  (lv : GSem nD τ sig → HIx 1 → ℕ)

abbrev rLoc (d : Dev nD) : Loc nD τ sig := (SparseCore.T d).loc main_v1

def pdats (p : Fin 1) (d : Dev nD) : Dat τ (Elt F) (HIx 1) ℕ UU ℕ (Pipeline.pin (pcfgs (F := F)) adm p) d :=
  dats d (Vm (pLoc d)) (Vm (tLoc d)) (Vm (rLoc d)) (B d) p

local notation "cfgP" => Pipeline.pin (pcfgs (F := F)) adm 0

theorem Phi_even (d : Dev nD) (t : Fin (cfg1.N + 1)) (h : t.val % 2 = 0) : (pdats Vm B 0 d).Φ t =
    iprop((∃ a : Vec F S19x8x512 .f32, owns (d.tc : Thread nD τ) (Memref.whole cc1_scratch0) fullShare a)
      ∗ (∃ a : Vec F S19x8x512 .f32, owns (d.tc : Thread nD τ) (Memref.whole cc1_scratch1) fullShare a)
      ∗ (∃ a : Vec F S19x8x512 .f32, owns (d.tc : Thread nD τ) (Memref.whole cc1_scratch2) fullShare a)) := by
  rw [show (pdats Vm B 0 d).Φ t = ΦAcc d (Vm (pLoc d)) (Vm (tLoc d)) t.val (lt_of_lt_of_eq t.isLt (congrArg (· + 1) (Gen.N_1 : grid1.N = 12))) from rfl]
  unfold ΦAcc
  rw [dif_neg (by omega)]

theorem Phi_odd (d : Dev nD) (t : Fin (cfg1.N + 1)) (h : t.val % 2 = 1) (hlt : t.val < 12) : (pdats Vm B 0 d).Φ t =
    iprop(owns (d.tc : Thread nD τ) (Memref.whole cc1_scratch0) fullShare (nomHalf d (Vm (pLoc d)) (Vm (tLoc d)) (batchOf t.val hlt))
      ∗ owns (d.tc : Thread nD τ) (Memref.whole cc1_scratch1) fullShare (isumHalf d (Vm (pLoc d)) (batchOf t.val hlt))
      ∗ owns (d.tc : Thread nD τ) (Memref.whole cc1_scratch2) fullShare (tsumHalf d (Vm (tLoc d)) (batchOf t.val hlt))) := by
  rw [show (pdats Vm B 0 d).Φ t = ΦAcc d (Vm (pLoc d)) (Vm (tLoc d)) t.val (lt_of_lt_of_eq t.isLt (congrArg (· + 1) (Gen.N_1 : grid1.N = 12))) from rfl]
  unfold ΦAcc
  rw [dif_pos h]

theorem last_val : (Fin.last (Pipeline.pin (pcfgs (F := F)) adm 0).N).val = 12 := Gen.N_1

theorem after0 (d : Dev nD) (t : Fin cfg1.N) : (pdats Vm B 0 d).after 0 t = iblk d (Vm (pLoc d)) (Vm (tLoc d)) (Vm (rLoc d)) 0 t := by
  dsimp only [pdats, dats]
  rfl
theorem after1 (d : Dev nD) (t : Fin cfg1.N) : (pdats Vm B 0 d).after 1 t = iblk d (Vm (pLoc d)) (Vm (tLoc d)) (Vm (rLoc d)) 1 t := by
  dsimp only [pdats, dats]
  rfl
theorem after2 (d : Dev nD) (t : Fin cfg1.N) : (pdats Vm B 0 d).after 2 t = outBlk d (Vm (pLoc d)) (Vm (tLoc d)) (batchOf t.val (N_lt t)) := by
  dsimp only [pdats, dats]
  rfl

theorem before0 (d : Dev nD) (t : Fin cfg1.N) (x) : (pdats Vm B 0 d).before 0 t x = iblk d (Vm (pLoc d)) (Vm (tLoc d)) (Vm (rLoc d)) 0 t := by
  rw [(pdats Vm B 0 d).before_fetched 0 t (Gen.fetch1_0 t) x]
  unfold Dat.fetched Dat.blockOf iblk
  rfl
theorem before1 (d : Dev nD) (t : Fin cfg1.N) (x) : (pdats Vm B 0 d).before 1 t x = iblk d (Vm (pLoc d)) (Vm (tLoc d)) (Vm (rLoc d)) 1 t := by
  rw [(pdats Vm B 0 d).before_fetched 1 t (Gen.fetch1_1 t) x]
  unfold Dat.fetched Dat.blockOf iblk
  rfl

theorem batchOf_succ_even (n : ℕ) (h : n + 1 < 12) (hn : n % 2 = 0) : batchOf (n + 1) h = batchOf n (by omega) :=
  Fin.ext (by show (n + 1) / 2 = n / 2; omega)
theorem halfOf_even (n : ℕ) (hn : n % 2 = 0) : halfOf n = 0 := Fin.ext (by show n % 2 = 0; exact hn)
theorem halfOf_odd (n : ℕ) (hn : n % 2 = 1) : halfOf n = 1 := Fin.ext (by show n % 2 = 1; exact hn)

theorem Phi_succ_first (d : Dev nD) (t : Fin cfg1.N) (hpar : t.val % 2 = 0) : (pdats Vm B 0 d).Φ t.succ =
    iprop(owns (d.tc : Thread nD τ) (Memref.whole cc1_scratch0) fullShare
        (acc0 (nomParts (planes (iblk d (Vm (pLoc d)) (Vm (tLoc d)) (Vm (rLoc d)) 0 t)) (tgts (iblk d (Vm (pLoc d)) (Vm (tLoc d)) (Vm (rLoc d)) 1 t))))
      ∗ owns (d.tc : Thread nD τ) (Memref.whole cc1_scratch1) fullShare
        (acc0 (isumParts (planes (iblk d (Vm (pLoc d)) (Vm (tLoc d)) (Vm (rLoc d)) 0 t))))
      ∗ owns (d.tc : Thread nD τ) (Memref.whole cc1_scratch2) fullShare
        (acc0 (F := F) (tsumParts (tgts (iblk d (Vm (pLoc d)) (Vm (tLoc d)) (Vm (rLoc d)) 1 t))))) := by
  have hlt := N_lt t
  rw [Phi_odd Vm B d t.succ (by show (t.val + 1) % 2 = 1; omega) (by show t.val + 1 < 12; omega)]
  unfold nomHalf isumHalf tsumHalf
  rw [planes_iblk, tgts_iblk, halfOf_even _ hpar]
  rw [show batchOf (t.succ : Fin (cfg1.N + 1)).val (by show t.val + 1 < 12; omega) = batchOf t.val (N_lt t) from
    batchOf_succ_even t.val (by omega) hpar]

theorem outBlk_second (d : Dev nD) (t : Fin cfg1.N) (hodd : t.val % 2 = 1) :
    outBlk d (Vm (pLoc d)) (Vm (tLoc d)) (batchOf t.val (N_lt t)) =
      finishBlock
        (addRows (nomHalf d (Vm (pLoc d)) (Vm (tLoc d)) (batchOf t.val (N_lt t)))
          (nomParts (planes (iblk d (Vm (pLoc d)) (Vm (tLoc d)) (Vm (rLoc d)) 0 t)) (tgts (iblk d (Vm (pLoc d)) (Vm (tLoc d)) (Vm (rLoc d)) 1 t))))
        (addRows (isumHalf d (Vm (pLoc d)) (batchOf t.val (N_lt t))) (isumParts (planes (iblk d (Vm (pLoc d)) (Vm (tLoc d)) (Vm (rLoc d)) 0 t))))
        (addRows (tsumHalf d (Vm (tLoc d)) (batchOf t.val (N_lt t))) (tsumParts (tgts (iblk d (Vm (pLoc d)) (Vm (tLoc d)) (Vm (rLoc d)) 1 t)))) := by
  rw [planes_iblk, tgts_iblk, halfOf_odd _ hodd]
  rfl

set_option maxHeartbeats 800000 in

theorem sound_body (hrun : BodyRun (F := F)) (d : Dev nD) (t : Fin cfg1.N) :
    iprop((pdats Vm B 0 d).Φ t.castSucc ∗ (pdats Vm B 0 d).owesAt (none : HIx 1) t.castSucc
      ∗ (∃ x, owns (d.tc : Thread nD τ) (((cfgP).win 0).stage ((cfgP).slots t 0)) fullShare ((pdats Vm B 0 d).before 0 t x))
      ∗ (∃ x, owns (d.tc : Thread nD τ) (((cfgP).win 1).stage ((cfgP).slots t 1)) fullShare ((pdats Vm B 0 d).before 1 t x))
      ∗ (∃ x, owns (d.tc : Thread nD τ) (((cfgP).win 2).stage ((cfgP).slots t 2)) fullShare ((pdats Vm B 0 d).before 2 t x)))
    ⊢ wp frame (wpE (defs₀ (F := F)) Variants.none (d.tc : Thread nD τ) none) Set.univ (defs₀ (F := F) .tc (cfgP).body ((cfgP).bodyArgs t ((cfgP).slots t))) fun _ =>
      iprop((pdats Vm B 0 d).Φ t.succ ∗ (pdats Vm B 0 d).owesAt (none : HIx 1) t.succ
        ∗ owns (d.tc : Thread nD τ) (((cfgP).win 0).stage ((cfgP).slots t 0)) fullShare ((pdats Vm B 0 d).after 0 t)
        ∗ owns (d.tc : Thread nD τ) (((cfgP).win 1).stage ((cfgP).slots t 1)) fullShare ((pdats Vm B 0 d).after 1 t)
        ∗ (pdats Vm B 0 d).leavesExact 2 t) := by
  simp only [before0 Vm B d t, before1 Vm B d t]
  rw [after0, after1, show (pdats Vm B 0 d).owesAt (none : HIx 1) t.succ = (pdats Vm B 0 d).owesAt (none : HIx 1) t.castSucc from rfl]
  have hlt := N_lt t
  by_cases hpar : t.val % 2 = 0
  ·
    have hi0 : ((grid1.coords t) 1).val = 0 := (coords_half t).trans hpar
    have hidle : (cfgP).idle 2 ((cfgP).grid.coords t) = true := by
      have hc : ¬k1_cond2 (grid1.coords t) = 1#1 := fun h => by have := (cond_half t).mp h; omega
      show (!(k1_cond2 (grid1.coords t) == 1#1)) = true
      simp [hc]
    have hnf : ((cfgP).win 2).flush t = false := Bool.eq_false_iff.mpr fun h => by have := (Gen.flush1_2 t).mp h; omega
    rw [Dat.leavesExact_idle _ 2 t hidle hnf, Phi_even Vm B d t.castSucc hpar, Phi_succ_first Vm B d t hpar]
    iintro ⟨⟨⟨%a0, H0⟩, ⟨%a1, H1⟩, ⟨%a2, H2⟩⟩, HO, ⟨%x0, Hs0⟩, ⟨%x1, Hs1⟩, ⟨%x2, Hs2⟩⟩
    iapply (wp_wand_r frame _ Set.univ)
    isplitl [H0 H1 H2 Hs0 Hs1 Hs2]
    · iapply (hrun.first d (grid1.coords t) _ _ _ _ _ _ _ _ _ a0 a1 a2 hi0)
      isplitl [Hs0]; · iexact Hs0
      isplitl [Hs1]; · iexact Hs1
      isplitl [Hs2]; · iexact Hs2
      isplitl [H0]; · iexact H0
      isplitl [H1]; · iexact H1
      iexact H2
    · iintro %_ ⟨Hs0, Hs1, Hs2, H0, H1, H2⟩
      isplitl [H0 H1 H2]
      · isplitl [H0]; · iexact H0
        isplitl [H1]; · iexact H1
        iexact H2
      isplitl [HO]; · iexact HO
      isplitl [Hs0]; · iexact Hs0
      isplitl [Hs1]; · iexact Hs1
      iexists _; iexact Hs2
  ·
    have hodd : t.val % 2 = 1 := by omega
    have hi1 : ((grid1.coords t) 1).val = 1 := (coords_half t).trans hodd
    have hidle : (cfgP).idle 2 ((cfgP).grid.coords t) = false := by
      have hc : k1_cond2 (grid1.coords t) = 1#1 := (cond_half t).mpr hodd
      show (!(k1_cond2 (grid1.coords t) == 1#1)) = false
      simp [hc]
    rw [show (pdats Vm B 0 d).leavesExact 2 t
          = owns (d.tc : Thread nD τ) (((cfgP).win 2).stage ((cfgP).slots t 2)) fullShare ((pdats Vm B 0 d).after 2 t) from by
        unfold Dat.leavesExact; rw [hidle],
      after2, outBlk_second Vm d t hodd, Phi_odd Vm B d t.castSucc hodd hlt, Phi_even Vm B d t.succ (by show (t.val + 1) % 2 = 0; omega)]
    iintro ⟨⟨H0, H1, H2⟩, HO, ⟨%x0, Hs0⟩, ⟨%x1, Hs1⟩, ⟨%x2, Hs2⟩⟩
    iapply (wp_wand_r frame _ Set.univ)
    isplitl [H0 H1 H2 Hs0 Hs1 Hs2]
    · iapply (hrun.second d (grid1.coords t) _ _ _ _ _ _ _ _ _ _ _ _ hi1)
      isplitl [Hs0]; · iexact Hs0
      isplitl [Hs1]; · iexact Hs1
      isplitl [Hs2]; · iexact Hs2
      isplitl [H0]; · iexact H0
      isplitl [H1]; · iexact H1
      iexact H2
    · iintro %_ ⟨Hs0, Hs1, Hs2, H0, H1, H2⟩
      isplitl [H0 H1 H2]
      · isplitl [H0]; · iexists _; iexact H0
        isplitl [H1]; · iexists _; iexact H1
        iexists _; iexact H2
      isplitl [HO]; · iexact HO
      isplitl [Hs0]; · iexact Hs0
      isplitl [Hs1]; · iexact Hs1
      iexact Hs2

theorem body_obligation (hrun : BodyRun (F := F)) (d : Dev nD) :
    BodyObligation (pdats Vm B 0 d) (defs₀ (F := F)) Variants.none (none : HIx 1) Set.univ := fun t => by
  rw [Gen.bigSep_W1, Gen.bigSep_W1]
  exact sound_body Vm B hrun d t

def regPre (d : Dev nD) : sProp 𝕄 :=
  iprop((pLoc d ↦{fullShare} Vm (pLoc d)) ∗ (tLoc d ↦{fullShare} Vm (tLoc d)) ∗ (rLoc d ↦{fullShare} Vm (rLoc d))
    ∗ Pipeline.owesWithin d (0 : CellTallies nD τ sig (HIx 1)) (B d))

def regPost (d : Dev nD) : sProp 𝕄 :=
  iprop((pLoc d ↦{fullShare} Vm (pLoc d)) ∗ (tLoc d ↦{fullShare} Vm (tLoc d))
    ∗ (∃ out1 : Buf (Elt F) (rLoc d), ⌜SpecTC (Vm (pLoc d)) (Vm (tLoc d)) out1⌝ ∗ (rLoc d ↦{fullShare} out1))
    ∗ Pipeline.owesWithin d (0 : CellTallies nD τ sig (HIx 1)) (B d ∪ cfg1.waitPairs (none : HIx 1)))

theorem arrays_open (d : Dev nD) (Fa) :
    ((pdats Vm B 0 d).arrays Fa : sProp 𝕄) = iprop((pLoc d ↦{fullShare} Fa 0) ∗ (tLoc d ↦{fullShare} Fa 1) ∗ (rLoc d ↦{fullShare} Fa 2)) := by
  rw [Pipeline.arrays_eq (cfgs) (pdats Vm B) 0 d Gen.arr_whole1 ((pdats Vm B 0 d).share_full fun _ => rfl) Fa, Gen.bigSep_W1]

theorem prefHeld_none (d : Dev nD) (q) (pf) :
    (Pipeline.prefHeld (Ix := HIx 1) (Name := ℕ) (U := UU) (Lvl := ℕ) (Val := Elt F) (pcfgs (F := F) 0).pre d q pf : sProp 𝕄) = BI.emp :=
  bigSep_univ_eq_bigSepL [] (Finset.ext fun x => x.elim0) List.nodup_nil _

theorem index2 : ∀ (t : Fin cfg1.N) (a : Fin 3), (cfg1.win 2).index t a = if a = 0 then t.val / 2 else 0 :=
  (by decide +kernel : ∀ (t : Fin grid1.N) (a : Fin 3), win1_2.index t a = if a = 0 then t.val / 2 else 0)

theorem out_emb (t : Fin cfg1.N) (y : ((cfg1.win 2).xblock (cfg1.grid.coords t)).Idx) (a : Fin 3) :
    ((((cfg1.win 2).blk t).view.emb y) a : ℕ) = (if a = 0 then t.val / 2 else 0) * (cfg1.win 2).size a + y a := by
  rw [← index2 t a]; exact (cfg1.win 2).rect_emb_val t y a

theorem out_disj : ∀ t t' : Fin cfg1.N, (cfg1.win 2).flush t = true → (cfg1.win 2).flush t' = true → t ≠ t' →
    Disjoint ((cfg1.win 2).blk t).view.set ((cfg1.win 2).blk t').view.set := by
  intro t t' hf hf' hne
  rw [Gen.flush1_2] at hf hf'
  refine Finset.disjoint_left.mpr fun i hi hi' => ?_
  obtain ⟨y, -, rfl⟩ := Finset.mem_map.mp hi
  obtain ⟨y', -, e⟩ := Finset.mem_map.mp hi'
  have h0 := congrArg (fun j : S6x1x128.Idx => (j 0).val) e
  dsimp only at h0
  rw [out_emb t' y' 0, out_emb t y 0] at h0
  have hy : (y 0).val < 1 := (y 0).isLt
  have hy' : (y' 0).val < 1 := (y' 0).isLt
  simp only [if_true] at h0
  have h0' : t'.val / 2 * 1 + (y' 0).val = t.val / 2 * 1 + (y 0).val := h0
  exact hne (Fin.ext (by omega))

theorem arrAt_out (d : Dev nD) (b : Fin 6) (lane : Fin 128) :
    (pdats Vm B 0 d).arrAt 2 cfg1.N (ix3 b 0 lane)
      = outBlk d (Vm (pLoc d)) (Vm (tLoc d)) (Fin.castLE (by decide) b) (ix3 0 0 lane) := by
  have hN : 2 * b.val + 1 < cfg1.N := by rw [show cfg1.N = 12 from Gen.N_1]; omega
  have hf : (cfg1.win 2).flush ⟨2 * b.val + 1, hN⟩ = true := (Gen.flush1_2 _).mpr (by show (2 * b.val + 1) % 2 = 1; omega)
  have h := (pdats Vm B 0 d).arrAt_emb_eq_flushed 2 out_disj ⟨2 * b.val + 1, hN⟩ hf (ix3 0 0 lane)
  have he : ((cfg1.win 2).blk ⟨2 * b.val + 1, hN⟩).view.emb (ix3 0 0 lane) = ix3 b 0 lane := by
    funext a
    apply Fin.ext
    rw [out_emb]
    match a with
    | ⟨0, _⟩ => show (2 * b.val + 1) / 2 * 1 + 0 = b.val; omega
    | ⟨1, _⟩ => show 0 * 1 + 0 = 0; rfl
    | ⟨2, _⟩ => show 0 * 128 + lane.val = lane.val; omega
  rw [← he]
  refine h.trans ?_
  have hb : batchOf (2 * b.val + 1) (by omega) = Fin.castLE (by decide) b := Fin.ext (by show (2 * b.val + 1) / 2 = b.val; omega)
  rw [← hb]
  rfl

theorem specTC_arrAt (d : Dev nD) : SpecTC (Vm (pLoc d)) (Vm (tLoc d)) ((pdats Vm B 0 d).arrAt 2 cfg1.N) := by
  intro b lane
  rw [arrAt_out]
  rfl

def region (hrun : BodyRun (F := F)) :
    Pipeline.RegionSeg (pcfgs (F := F)) adm (pdats Vm B) (none : HIx 1) defs₀ 𝒱₀ (K (F := F)).L lv 0 where
  win := Gen.winFacts1.to₀
  block_pos := Gen.block_pos1
  stage_whole := Gen.stage_whole1
  K := PEmpty
  osem k := k.elim
  ho := Pipeline.OwnSemFacts.none _
  hbody d := (body_obligation Vm B hrun d).loose
  hwaits := Pipeline.hwaits_of_owed_zero _ _ _ _ _ lv 0 fun _ _ => rfl
  pre := regPre Vm B
  post := regPost Vm B
  X _ := iprop(emp)
  Y _ := iprop(emp)
  Z _ := iprop(emp)
  hentry d := by
    rw [Pipeline.ownSems0_none, arrays_open, prefHeld_none]
    unfold regPre
    iintro ⟨⟨HP, HT, HR, HO⟩, -, -⟩
    imodintro
    isplitl [HP HT HR]
    · isplitl [HP]; · iexact HP
      isplitl [HT]; · iexact HT
      iexact HR
    isplitr; · iempintro
    isplitl [HO]; · iapply (Pipeline.owesWithin_mono d _ Set.subset_union_left); iexact HO
    isplitr <;> iempintro
  hin d := by
    rw [Gen.scopedRest1_eq, Phi_even Vm B d 0 rfl]
    simp only [owns_whole]
    iintro ⟨-, -, H⟩; iexact H
  hout d := by
    rw [Pipeline.ownSems0_none, Gen.scopedRest1_eq, Phi_even Vm B d (Fin.last _) (by rw [last_val (F := F)])]
    simp only [owns_whole]
    iintro H
    isplitr; · iempintro
    isplitr; · iempintro
    iexact H
  hexit d := by
    rw [arrays_open]
    unfold regPost
    iintro ⟨⟨HP, HT, HR⟩, HO, -, -⟩
    imodintro
    isplitl [HP]
    · rw [(pdats Vm B 0 d).arrAt_in 0 rfl]; iexact HP
    isplitl [HT]
    · rw [(pdats Vm B 0 d).arrAt_in 1 rfl]; iexact HT
    isplitl [HR]
    · iexists _
      isplitr; · ipureintro; exact specTC_arrAt Vm B d
      iexact HR
    iexact HO

theorem wp_tc_region (hrun : BodyRun (F := F)) (d : Dev nD) (Φ : PUnit → sProp 𝕄) :
    iprop((iprop(boundary (SparseCore.T d) ∗ regPost Vm B d) -∗ Φ ⟨⟩)
        ∗ boundary (SparseCore.T d) ∗ regPre Vm B d ∗ levAts (K (F := F)).L lv
        ∗ Pipeline.cellsGhost (Pipeline.pin (pcfgs (F := F)) adm) ER 0 d ∗ Pipeline.toksInit (Pipeline.pin (pcfgs (F := F)) adm) ER 0 d)
      ⊢ wp frame (wpE ((K (F := F)).defs D) 𝒱 (SparseCore.T d) none) Set.univ
          (Prog.lift (.customCall (SparseCore.inner (Pipeline.entry 0)) ())) Φ := by
  have h := Pipeline.RegionSeg.wp (pcfgs (F := F)) adm (pdats Vm B) (none : HIx 1) cellOf_inj' ER defs₀ 𝒱₀ (K (F := F)).L lv
    (region Vm B lv hrun) d none (fun _ hu => nomatch hu) (fun _ => .ret ⟨⟩) Φ
  refine BIBase.Entails.trans ?_ (h.trans ((K (F := F)).wp_liftProg D 𝒱 (SparseCore.T d) Set.univ none _ Φ))
  iintro ⟨Hk, Hrest⟩
  isplitl [Hk]
  · iintro Hb
    rw [wp_ret]
    imodintro
    iapply Hk; iexact Hb
  · iexact Hrest

end Region

end Cert.Kernel.TcRegion

end
-- ==== Proof.KW.TcVal.lean ====
import proofs.«216000_g43989055045728_cont_8to1_b_1827_23_alg».proof.Proof.KW.SpecTC
import Idealize.ShloMosaic.Lib.Tactic
import Idealize.ShloMosaic.Lib.WritesUnit
import Idealize.ShloMosaic.Lib.ValueLayout

noncomputable section

namespace Cert.Kernel.TcVal

open Idealize.ShloMosaic Idealize.ShloMosaic.ValueIdx
open Cert.Kernel.Facts₀ Cert.Kernel.Facts

variable {F : FTy → Type} [FloatOps F] [Facts]

def planes (x : Vec F S1x19x256x512 .f32) : Fin 19 → FVec F S256x512 .f32 := fun c i => x (ix4 0 c (i 0) (i 1))

def tgts (y : Vec F S1x256x512 .i32) : IVec S256x512 32 := fun i => y (ix3 0 (i 0) (i 1))

theorem rowInb (c : Fin 19) : ∀ a, (![c.val, 0, 0] : Fin 3 → ℕ) a + S1x8x512.size a ≤ S19x8x512.size a := by
  intro a
  have := c.isLt
  match a with
  | ⟨0, _⟩ => show c.val + 1 ≤ 19; omega
  | ⟨1, _⟩ => show 0 + 8 ≤ 8; omega
  | ⟨2, _⟩ => show 0 + 512 ≤ 512; omega

theorem planeInb (c : Fin 19) : ∀ a, (![0, c.val, 0, 0] : Fin 4 → ℕ) a + S1x1x256x512.size a ≤ S1x19x256x512.size a := by
  intro a
  have := c.isLt
  match a with
  | ⟨0, _⟩ => show 0 + 1 ≤ 1; omega
  | ⟨1, _⟩ => show c.val + 1 ≤ 19; omega
  | ⟨2, _⟩ => show 0 + 256 ≤ 256; omega
  | ⟨3, _⟩ => show 0 + 512 ≤ 512; omega

abbrev rowRect (c : Fin 19) : Rect S19x8x512 := Rect.unit (s := S19x8x512) ![c.val, 0, 0] S1x8x512.size (rowInb c)

abbrev planeRect (c : Fin 19) : Rect S1x19x256x512 := Rect.unit (s := S1x19x256x512) ![0, c.val, 0, 0] S1x1x256x512.size (planeInb c)

def rowPay (part : FVec F S8x512 .f32) (row : Vec F S1x8x512 .f32) : FVec F S1x8x512 .f32 :=
  shapeCast S1x8x512 (addf (shapeCast S8x512 row shapeCasts_S1x8x512_S8x512) part) shapeCasts_S8x512_S1x8x512

theorem rowPay_apply (part : FVec F S8x512 .f32) (row : Vec F S1x8x512 .f32) (a : Fin 8) (b : Fin 512) :
    rowPay part row (ix3 0 a b) = FloatOps.addf (row (ix3 0 a b)) (part (ix2 a b)) := by
  unfold rowPay
  refine (shapeCast_ab_1ab_apply _ shapeCasts_S8x512_S1x8x512 (0 : Fin 1) a b).trans ?_
  show FloatOps.addf (shapeCast S8x512 row shapeCasts_S1x8x512_S8x512 (ix2 a b)) (part (ix2 a b)) = _
  rw [shapeCast_1ab_ab_apply row shapeCasts_S1x8x512_S8x512 a b]

def rowPieces (p : Fin 19 → FVec F S1x8x512 .f32) : List (View.Piece (Elt F) S19x8x512 .f32) :=
  [⟨rowRect 18, p 18⟩, ⟨rowRect 17, p 17⟩, ⟨rowRect 16, p 16⟩, ⟨rowRect 15, p 15⟩, ⟨rowRect 14, p 14⟩, ⟨rowRect 13, p 13⟩, ⟨rowRect 12, p 12⟩, ⟨rowRect 11, p 11⟩, ⟨rowRect 10, p 10⟩, ⟨rowRect 9, p 9⟩, ⟨rowRect 8, p 8⟩, ⟨rowRect 7, p 7⟩, ⟨rowRect 6, p 6⟩, ⟨rowRect 5, p 5⟩, ⟨rowRect 4, p 4⟩, ⟨rowRect 3, p 3⟩, ⟨rowRect 2, p 2⟩, ⟨rowRect 1, p 1⟩, ⟨rowRect 0, p 0⟩]

theorem rowPieces_eq_tilePieces (p : Fin 19 → FVec F S1x8x512 .f32) :
    rowPieces p = View.tilePieces (s := S19x8x512) (e := .f32) (Val := Elt F) S1x8x512.size
      (fun (i : Fin 19) => (![i.val, 0, 0] : Fin 3 → ℕ)) (fun i => rowInb i) p 19 (Nat.le_refl 19) := rfl

theorem read_rowPieces {κ : Kind} {sp : Space} (v : View sig κ sp S19x8x512 .f32) (f : v.ty.Contents (Elt F))
    (p : Fin 19 → FVec F S1x8x512 .f32) (c : Fin 19) (a : Fin 8) (b : Fin 512) :
    v.read (Elt F) (v.writes (Elt F) f (rowPieces p)) (ix3 c a b) = p c (ix3 0 a b) := by
  rw [rowPieces_eq_tilePieces]
  refine View.read_tilePieces v f S1x8x512.size (fun (i : Fin 19) => (![i.val, 0, 0] : Fin 3 → ℕ)) (fun i => rowInb i) p
    19 (Nat.le_refl 19) (ix3 c a b) c c.isLt (ix3 (0 : Fin 1) a b) (fun ax => ?_) ⟨0, by decide⟩ (fun i' hi' => ?_)
  · match ax with
    | ⟨0, _⟩ => show c.val = c.val + 0; omega
    | ⟨1, _⟩ => show a.val = 0 + a.val; omega
    | ⟨2, _⟩ => show b.val = 0 + b.val; omega
  · have hne : i'.val ≠ c.val := fun h => hi' (Fin.ext h)
    show c.val < i'.val ∨ i'.val + 1 ≤ c.val
    omega

theorem rowRect_idx (c : Fin 19) (a : Fin 8) (b : Fin 512) :
    (rowRect c).toLoadRect.idx (ix3 (0 : Fin 1) a b) = ix3 c a b := by
  funext ax
  refine Fin.ext ?_
  match ax with
  | ⟨0, _⟩ => show c.val + 1 * 0 = c.val; omega
  | ⟨1, _⟩ => show 0 + 1 * a.val = a.val; omega
  | ⟨2, _⟩ => show 0 + 1 * b.val = b.val; omega

theorem rowPay_readAt_apply {κ : Kind} {sp : Space} (v : View sig κ sp S19x8x512 .f32) (B : v.ty.Contents (Elt F))
    (part : Fin 19 → FVec F S8x512 .f32) (c : Fin 19) (a : Fin 8) (b : Fin 512) :
    rowPay (part c) (v.readAt (Elt F) (rowRect c).toLoadRect B) (ix3 0 a b)
      = SpecTC.addRows (v.read (Elt F) B) part (ix3 c a b) := by
  rw [rowPay_apply, View.readAt_apply, rowRect_idx]
  rfl

theorem scratch_rows {κ : Kind} {sp : Space} (v : View sig κ sp S19x8x512 .f32) (B : v.ty.Contents (Elt F))
    (part : Fin 19 → FVec F S8x512 .f32) :
    v.read (Elt F) (v.writes (Elt F) B (rowPieces fun c => rowPay (part c) (v.readAt (Elt F) (rowRect c).toLoadRect B)))
      = SpecTC.addRows (v.read (Elt F) B) part := by
  funext y
  obtain ⟨c, a, b, rfl⟩ : ∃ (c : Fin 19) (a : Fin 8) (b : Fin 512), y = ix3 c a b := ⟨y 0, y 1, y 2, eq_ix3 y⟩
  rw [read_rowPieces]
  exact rowPay_readAt_apply v B part c a b

theorem scratch_rows_cov {κ : Kind} {sp : Space} (v : View sig κ sp S19x8x512 .f32) (B : v.ty.Contents (Elt F))
    (part : Fin 19 → FVec F S8x512 .f32) :
    v.readCov (rowPieces fun c => rowPay (part c) (v.readAt (Elt F) (rowRect c).toLoadRect B))
        (Rect.unit (s := S19x8x512) ![0, 0, 0] S19x8x512.size inb_S19x8x512_S19x8x512_0_0_0).toLoadRect
      = SpecTC.addRows (v.read (Elt F) B) part := by
  funext y
  obtain ⟨c, a, b, rfl⟩ : ∃ (c : Fin 19) (a : Fin 8) (b : Fin 512), y = ix3 c a b := ⟨y 0, y 1, y 2, eq_ix3 y⟩
  have hidx : (Rect.unit (s := S19x8x512) ![0, 0, 0] S19x8x512.size inb_S19x8x512_S19x8x512_0_0_0).toLoadRect.idx (ix3 c a b)
      = ix3 c a b := by
    funext ax
    refine Fin.ext ?_
    match ax with
    | ⟨0, _⟩ => show 0 + 1 * c.val = c.val; omega
    | ⟨1, _⟩ => show 0 + 1 * a.val = a.val; omega
    | ⟨2, _⟩ => show 0 + 1 * b.val = b.val; omega
  unfold View.readCov
  rw [View.readAt_apply, hidx, read_rowPieces]
  exact rowPay_readAt_apply v B part c a b

theorem read_writes_unit_zero {κ : Kind} {sp : Space} {S : Shape} {e : EltTy} (v : View sig κ sp S e)
    (f : v.ty.Contents (Elt F)) {off : Fin S.rank → ℕ} (h0 : ∀ a, off a = 0) (inb : ∀ a, off a + S.size a ≤ S.size a)
    (w : S.Idx → Elt F e) :
    v.read (Elt F) (v.writes (Elt F) f [(⟨Rect.unit off S.size inb, w⟩ : View.Piece (Elt F) S e)]) = w := by
  funext y
  exact View.read_writes_cons_unit_of_mem v f inb w [] y y rfl (fun a => by rw [h0 a, Nat.zero_add])

theorem read_writes_whole {κ : Kind} {sp : Space} (v : View sig κ sp S19x8x512 .f32) (f : v.ty.Contents (Elt F))
    (w : FVec F S19x8x512 .f32) :
    v.read (Elt F) (v.writes (Elt F) f
        [⟨Rect.unit (s := S19x8x512) ![0, 0, 0] S19x8x512.size inb_S19x8x512_S19x8x512_0_0_0, w⟩]) = w :=
  read_writes_unit_zero v f (fun a => by
    match a with
    | ⟨0, _⟩ => rfl
    | ⟨1, _⟩ => rfl
    | ⟨2, _⟩ => rfl) inb_S19x8x512_S19x8x512_0_0_0 w

theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

theorem planeRect_idx (c : Fin 19) (i : Fin 256) (j : Fin 512) :
    (planeRect c).toLoadRect.idx (ix4 (0 : Fin 1) (0 : Fin 1) i j) = ix4 0 c i j := by
  funext ax
  refine Fin.ext ?_
  match ax with
  | ⟨0, _⟩ => show 0 + 1 * 0 = 0; omega
  | ⟨1, _⟩ => show c.val + 1 * 0 = c.val; omega
  | ⟨2, _⟩ => show 0 + 1 * i.val = i.val; omega
  | ⟨3, _⟩ => show 0 + 1 * j.val = j.val; omega

theorem plane_read {κ : Kind} {sp : Space} {m : Memref sig κ sp S1x19x256x512 .f32} (h : m.IsWhole)
    (x : Vec F S1x19x256x512 .f32) (c : Fin 19) :
    shapeCast S256x512 (m.view.readAt (Elt F) (planeRect c).toLoadRect (h.unread x)) shapeCasts_S1x1x256x512_S256x512
      = planes x c := by
  funext y
  obtain ⟨i, j, rfl⟩ : ∃ (i : Fin 256) (j : Fin 512), y = ix2 i j := ⟨y 0, y 1, eq_ix2 y⟩
  refine (shapeCast_11ab_ab_apply _ shapeCasts_S1x1x256x512_S256x512 i j).trans ?_
  rw [View.readAt_apply, planeRect_idx]
  exact congrFun (h.read_unread x) _

theorem tgts_read {κ : Kind} {sp : Space} {m : Memref sig κ sp S1x256x512 .i32} (h : m.IsWhole)
    (y : Vec F S1x256x512 .i32) :
    shapeCast S256x512 (m.view.readAt (Elt F)
        (Rect.unit (s := S1x256x512) ![0, 0, 0] S1x256x512.size inb_S1x256x512_S1x256x512_0_0_0).toLoadRect (h.unread y))
        shapeCasts_S1x256x512_S256x512
      = tgts y := by
  funext z
  obtain ⟨i, j, rfl⟩ : ∃ (i : Fin 256) (j : Fin 512), z = ix2 i j := ⟨z 0, z 1, eq_ix2 z⟩
  refine (shapeCast_1ab_ab_apply _ shapeCasts_S1x256x512_S256x512 i j).trans ?_
  have hidx : (Rect.unit (s := S1x256x512) ![0, 0, 0] S1x256x512.size inb_S1x256x512_S1x256x512_0_0_0).toLoadRect.idx
      (ix3 (0 : Fin 1) i j) = ix3 0 i j := by
    funext ax
    refine Fin.ext ?_
    match ax with
    | ⟨0, _⟩ => show 0 + 1 * 0 = 0; omega
    | ⟨1, _⟩ => show 0 + 1 * i.val = i.val; omega
    | ⟨2, _⟩ => show 0 + 1 * j.val = j.val; omega
  rw [View.readAt_apply, hidx]
  exact congrFun (h.read_unread y) _

theorem out_read {κ : Kind} {sp : Space} (v : View sig κ sp S1x1x128 .f32) (f : v.ty.Contents (Elt F))
    (w : FVec F S1x1x128 .f32) :
    v.read (Elt F) (v.writes (Elt F) f
        [⟨Rect.unit (s := S1x1x128) ![0, 0, 0] S1x1x128.size inb_S1x1x128_S1x1x128_0_0_0, w⟩]) = w :=
  read_writes_unit_zero v f (fun a => by
    match a with
    | ⟨0, _⟩ => rfl
    | ⟨1, _⟩ => rfl
    | ⟨2, _⟩ => rfl) inb_S1x1x128_S1x1x128_0_0_0 w

end Cert.Kernel.TcVal
-- ==== Proof.KW.TcBody.lean ====
import proofs.«216000_g43989055045728_cont_8to1_b_1827_23_alg».proof.Proof.Gen.Kernel.Skeleton
import Idealize.ShloMosaic.Lib.Tactic
import Idealize.ShloMosaic.Lib.Pipeline.Frame
import proofs.«216000_g43989055045728_cont_8to1_b_1827_23_alg».proof.Proof.KW.SpecTC
import proofs.«216000_g43989055045728_cont_8to1_b_1827_23_alg».proof.Proof.KW.TcVal

noncomputable section

namespace Cert.Kernel.TcBody

open Idealize.ShloMosaic Idealize.ShloMosaic.TcCoe Idealize.ShloMosaic.ValueIdx
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Tactic
open Cert.Kernel.Facts₀ Cert.Kernel.Facts
open Cert.Kernel.Gen (cc1__dice_tc_body_eq_skeleton cc1__dice_tc_body_skel k1_pay2 k1_pay3 k1_pay4 k1_pay5)
open Cert.Kernel.TcVal

variable {F : FTy → Type} [FloatOps F] [Facts]
variable {Ix : Type} [DecidableEq Ix] {Name : Type} [DecidableEq Name] {U : Type} [URA U] {Lvl : Type} [Preorder Lvl]

local notation "𝕄" => MT nD τ sig Ix (Elt F) Name U Lvl

theorem pay3_eq : (k1_pay3 : FVec F S19x8x512 .f32) = SpecTC.accZero := rfl
theorem pay4_eq : (k1_pay4 : FVec F S19x8x512 .f32) = SpecTC.accZero := rfl
theorem pay5_eq : (k1_pay5 : FVec F S19x8x512 .f32) = SpecTC.accZero := rfl

theorem pay2_eq (a b c : Vec F S19x8x512 .f32) : k1_pay2 a b c = SpecTC.finishBlock a b c := rfl

theorem read_rows_eq {κ : Kind} {sp : Space} (v : View sig κ sp S19x8x512 .f32) (B : v.ty.Contents (Elt F))
    (L : List (View.Piece (Elt F) S19x8x512 .f32)) (part raw : Fin 19 → FVec F S8x512 .f32)
    (hL : L = rowPieces fun c => rowPay (raw c) (v.readAt (Elt F) (rowRect c).toLoadRect B))
    (hraw : ∀ c, raw c = part c) :
    v.read (Elt F) (v.writes (Elt F) B L) = SpecTC.addRows (v.read (Elt F) B) part := by
  subst hL
  have hfun : (fun c => rowPay (raw c) (v.readAt (Elt F) (rowRect c).toLoadRect B))
      = fun c => rowPay (part c) (v.readAt (Elt F) (rowRect c).toLoadRect B) := funext fun c => by rw [hraw c]
  rw [hfun]; exact scratch_rows v B part

set_option maxHeartbeats 0 in
set_option maxRecDepth 100000 in

theorem run_first (𝒱₀ : Variants) (d : Dev nD) (i : grid1.Coords) (hs : (i 1).val = 0)
    (arg2 : Memref sig .tc .vmem S1x19x256x512 .f32) (harg2 : arg2.IsWhole)
    (arg3 : Memref sig .tc .vmem S1x256x512 .i32) (harg3 : arg3.IsWhole)
    (arg4 : Memref sig .tc .vmem S1x1x128 .f32) (harg4 : arg4.IsWhole)
    (x : Vec F S1x19x256x512 .f32) (y : Vec F S1x256x512 .i32) (o : Vec F S1x1x128 .f32)
    (n0 i0 t0 : Vec F S19x8x512 .f32) :
    (iprop(owns (d.tc : Thread nD τ) arg2 fullShare x ∗ owns d.tc arg3 fullShare y ∗ owns d.tc arg4 fullShare o
        ∗ owns d.tc (Memref.whole cc1_scratch0) fullShare n0 ∗ owns d.tc (Memref.whole cc1_scratch1) fullShare i0
        ∗ owns d.tc (Memref.whole cc1_scratch2) fullShare t0) : sProp 𝕄)
      ⊢ wp frame (wpE (defs₀ (F := F)) 𝒱₀ (d.tc : Thread nD τ) none) Set.univ
          (cc1__dice_tc_body (F := F) i arg2 harg2 arg3 harg3 arg4 harg4 (Memref.whole cc1_scratch0) (Memref.isWhole_whole _)
            (Memref.whole cc1_scratch1) (Memref.isWhole_whole _) (Memref.whole cc1_scratch2) (Memref.isWhole_whole _))
          fun _ => iprop(owns d.tc arg2 fullShare x ∗ owns d.tc arg3 fullShare y ∗ owns d.tc arg4 fullShare o
            ∗ owns d.tc (Memref.whole cc1_scratch0) fullShare (SpecTC.addRows SpecTC.accZero (SpecTC.nomParts (planes x) (tgts y)))
            ∗ owns d.tc (Memref.whole cc1_scratch1) fullShare (SpecTC.addRows SpecTC.accZero (SpecTC.isumParts (planes x)))
            ∗ owns d.tc (Memref.whole cc1_scratch2) fullShare (SpecTC.addRows SpecTC.accZero (SpecTC.tsumParts (tgts y)))) := by
  have h2 : ¬ k1_cond2 i = 1#1 := by simp only [k1_cond2, hs]; decide
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩⟩
  obtain rfl := harg2.eq_unread hf2
  obtain rfl := harg3.eq_unread hf3
  obtain rfl := harg4.eq_unread hf4
  obtain rfl := (Memref.isWhole_whole cc1_scratch0).eq_unread hf5
  obtain rfl := (Memref.isWhole_whole cc1_scratch1).eq_unread hf6
  obtain rfl := (Memref.isWhole_whole cc1_scratch2).eq_unread hf7
  rw [cc1__dice_tc_body_eq_skeleton]; unfold cc1__dice_tc_body_skel
  sl_exec_parts (disch := first | assumption | (simp only [hs]; decide))
  sl_step
  have hv2 : run_first.sl.v2 i = 1#1 := by
    show Scalar.cmpi .ne (Scalar.extui (Scalar.cmpi .eq (BitVec.ofNat 32 (i 1).val) 0#32)) 0#32 = 1#1
    rw [hs]; decide
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr; rotate_left
    · iexact H5
    · ipureintro
      refine (read_rows_eq _ _ _ (SpecTC.nomParts (planes x) (tgts y)) (fun c => SpecTC.nomPart (SpecTC.cls c) (shapeCast S256x512 (arg2.view.readAt (Elt F) (planeRect c).toLoadRect (harg2.unread x)) shapeCasts_S1x1x256x512_S256x512) (shapeCast S256x512 (arg3.view.readAt (Elt F)
            (Rect.unit (s := S1x256x512) ![0, 0, 0] S1x256x512.size inb_S1x256x512_S1x256x512_0_0_0).toLoadRect (harg3.unread y)) shapeCasts_S1x256x512_S256x512)) ?_ ?_).trans ?_
      · rfl
      · intro c; rw [plane_read harg2 x c, tgts_read harg3 y]; rfl
      · rw [dif_pos hv2, read_writes_whole, pay3_eq]
  isplitl [H6]
  · iexists _; isplitr; rotate_left
    · iexact H6
    · ipureintro
      refine (read_rows_eq _ _ _ (SpecTC.isumParts (planes x)) (fun c => SpecTC.isumPart (shapeCast S256x512 (arg2.view.readAt (Elt F) (planeRect c).toLoadRect (harg2.unread x)) shapeCasts_S1x1x256x512_S256x512)) ?_ ?_).trans ?_
      · rfl
      · intro c; rw [plane_read harg2 x c]; rfl
      · rw [dif_pos hv2, read_writes_whole, pay4_eq]
  iexists _; isplitr; rotate_left
  · iexact H7
  · ipureintro
    refine (read_rows_eq _ _ _ (SpecTC.tsumParts (F := F) (tgts y)) (fun c => SpecTC.tsumPart (SpecTC.cls c) (shapeCast S256x512 (arg3.view.readAt (Elt F)
          (Rect.unit (s := S1x256x512) ![0, 0, 0] S1x256x512.size inb_S1x256x512_S1x256x512_0_0_0).toLoadRect (harg3.unread y)) shapeCasts_S1x256x512_S256x512)) ?_ ?_).trans ?_
    · rfl
    · intro c; rw [tgts_read harg3 y]; rfl
    · rw [dif_pos hv2, read_writes_whole, pay5_eq]

set_option maxHeartbeats 0 in
set_option maxRecDepth 100000 in

theorem run_second (𝒱₀ : Variants) (d : Dev nD) (i : grid1.Coords) (hs : (i 1).val = 1)
    (arg2 : Memref sig .tc .vmem S1x19x256x512 .f32) (harg2 : arg2.IsWhole)
    (arg3 : Memref sig .tc .vmem S1x256x512 .i32) (harg3 : arg3.IsWhole)
    (arg4 : Memref sig .tc .vmem S1x1x128 .f32) (harg4 : arg4.IsWhole)
    (x : Vec F S1x19x256x512 .f32) (y : Vec F S1x256x512 .i32) (o : Vec F S1x1x128 .f32)
    (n0 i0 t0 : Vec F S19x8x512 .f32) :
    (iprop(owns (d.tc : Thread nD τ) arg2 fullShare x ∗ owns d.tc arg3 fullShare y ∗ owns d.tc arg4 fullShare o
        ∗ owns d.tc (Memref.whole cc1_scratch0) fullShare n0 ∗ owns d.tc (Memref.whole cc1_scratch1) fullShare i0
        ∗ owns d.tc (Memref.whole cc1_scratch2) fullShare t0) : sProp 𝕄)
      ⊢ wp frame (wpE (defs₀ (F := F)) 𝒱₀ (d.tc : Thread nD τ) none) Set.univ
          (cc1__dice_tc_body (F := F) i arg2 harg2 arg3 harg3 arg4 harg4 (Memref.whole cc1_scratch0) (Memref.isWhole_whole _)
            (Memref.whole cc1_scratch1) (Memref.isWhole_whole _) (Memref.whole cc1_scratch2) (Memref.isWhole_whole _))
          fun _ => iprop(owns d.tc arg2 fullShare x ∗ owns d.tc arg3 fullShare y
            ∗ owns d.tc arg4 fullShare (SpecTC.finishBlock
                (SpecTC.addRows n0 (SpecTC.nomParts (planes x) (tgts y)))
                (SpecTC.addRows i0 (SpecTC.isumParts (planes x)))
                (SpecTC.addRows t0 (SpecTC.tsumParts (tgts y))))
            ∗ owns d.tc (Memref.whole cc1_scratch0) fullShare (SpecTC.addRows n0 (SpecTC.nomParts (planes x) (tgts y)))
            ∗ owns d.tc (Memref.whole cc1_scratch1) fullShare (SpecTC.addRows i0 (SpecTC.isumParts (planes x)))
            ∗ owns d.tc (Memref.whole cc1_scratch2) fullShare (SpecTC.addRows t0 (SpecTC.tsumParts (tgts y)))) := by
  have h2 : k1_cond2 i = 1#1 := by simp only [k1_cond2, hs]; decide
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩⟩
  obtain rfl := harg2.eq_unread hf2
  obtain rfl := harg3.eq_unread hf3
  obtain rfl := harg4.eq_unread hf4
  obtain rfl := (Memref.isWhole_whole cc1_scratch0).eq_unread hf5
  obtain rfl := (Memref.isWhole_whole cc1_scratch1).eq_unread hf6
  obtain rfl := (Memref.isWhole_whole cc1_scratch2).eq_unread hf7
  rw [cc1__dice_tc_body_eq_skeleton]; unfold cc1__dice_tc_body_skel
  sl_exec_parts (disch := first | assumption | (simp only [hs]; decide))
  sl_step
  have hv2 : ¬ run_second.sl.v2 i = 1#1 := by
    show ¬ (Scalar.cmpi .ne (Scalar.extui (Scalar.cmpi .eq (BitVec.ofNat 32 (i 1).val) 0#32)) 0#32 = 1#1)
    rw [hs]; decide
  have hL0 : run_second.sl.H5_19 d i arg2 harg2 arg3 harg3 x y n0
      = rowPieces (fun c => rowPay (SpecTC.nomPart (SpecTC.cls c) (shapeCast S256x512 (arg2.view.readAt (Elt F) (planeRect c).toLoadRect (harg2.unread x)) shapeCasts_S1x1x256x512_S256x512) (shapeCast S256x512 (arg3.view.readAt (Elt F)
            (Rect.unit (s := S1x256x512) ![0, 0, 0] S1x256x512.size inb_S1x256x512_S1x256x512_0_0_0).toLoadRect (harg3.unread y)) shapeCasts_S1x256x512_S256x512))
          ((Memref.whole cc1_scratch0).view.readAt (Elt F) (rowRect c).toLoadRect
        (if hc : run_second.sl.v2 i = 1#1 then
          (Memref.whole cc1_scratch0).view.writes (Elt F) ((Memref.isWhole_whole cc1_scratch0).unread n0)
            [⟨Rect.unit (s := S19x8x512) ![0, 0, 0] S19x8x512.size inb_S19x8x512_S19x8x512_0_0_0, k1_pay3⟩]
        else (Memref.isWhole_whole cc1_scratch0).unread n0))) := rfl
  have hL1 : run_second.sl.H6_19 d i arg2 harg2 x i0
      = rowPieces (fun c => rowPay (SpecTC.isumPart (shapeCast S256x512 (arg2.view.readAt (Elt F) (planeRect c).toLoadRect (harg2.unread x)) shapeCasts_S1x1x256x512_S256x512))
          ((Memref.whole cc1_scratch1).view.readAt (Elt F) (rowRect c).toLoadRect
        (if hc : run_second.sl.v2 i = 1#1 then
          (Memref.whole cc1_scratch1).view.writes (Elt F) ((Memref.isWhole_whole cc1_scratch1).unread i0)
            [⟨Rect.unit (s := S19x8x512) ![0, 0, 0] S19x8x512.size inb_S19x8x512_S19x8x512_0_0_0, k1_pay4⟩]
        else (Memref.isWhole_whole cc1_scratch1).unread i0))) := rfl
  have hL2 : run_second.sl.H7_19 d i arg3 harg3 y t0
      = rowPieces (fun c => rowPay (SpecTC.tsumPart (SpecTC.cls c) (shapeCast S256x512 (arg3.view.readAt (Elt F)
            (Rect.unit (s := S1x256x512) ![0, 0, 0] S1x256x512.size inb_S1x256x512_S1x256x512_0_0_0).toLoadRect (harg3.unread y)) shapeCasts_S1x256x512_S256x512))
          ((Memref.whole cc1_scratch2).view.readAt (Elt F) (rowRect c).toLoadRect
        (if hc : run_second.sl.v2 i = 1#1 then
          (Memref.whole cc1_scratch2).view.writes (Elt F) ((Memref.isWhole_whole cc1_scratch2).unread t0)
            [⟨Rect.unit (s := S19x8x512) ![0, 0, 0] S19x8x512.size inb_S19x8x512_S19x8x512_0_0_0, k1_pay5⟩]
        else (Memref.isWhole_whole cc1_scratch2).unread t0))) := rfl
  have hM0 : run_second.sl.H5_19 d i arg2 harg2 arg3 harg3 x y n0
      = rowPieces (fun c => rowPay (SpecTC.nomPart (SpecTC.cls c) (planes x c) (tgts y))
          ((Memref.whole cc1_scratch0).view.readAt (Elt F) (rowRect c).toLoadRect ((Memref.isWhole_whole cc1_scratch0).unread n0))) := by
    rw [hL0, dif_neg hv2]
    refine congrArg rowPieces (funext fun c => ?_)
    dsimp only
    rw [plane_read harg2 x c, tgts_read harg3 y]
  have hM1 : run_second.sl.H6_19 d i arg2 harg2 x i0
      = rowPieces (fun c => rowPay (SpecTC.isumPart (planes x c))
          ((Memref.whole cc1_scratch1).view.readAt (Elt F) (rowRect c).toLoadRect ((Memref.isWhole_whole cc1_scratch1).unread i0))) := by
    rw [hL1, dif_neg hv2]
    refine congrArg rowPieces (funext fun c => ?_)
    dsimp only
    rw [plane_read harg2 x c]
  have hM2 : run_second.sl.H7_19 d i arg3 harg3 y t0
      = rowPieces (fun c => rowPay (SpecTC.tsumPart (SpecTC.cls c) (tgts y))
          ((Memref.whole cc1_scratch2).view.readAt (Elt F) (rowRect c).toLoadRect ((Memref.isWhole_whole cc1_scratch2).unread t0))) := by
    rw [hL2, dif_neg hv2]
    refine congrArg rowPieces (funext fun c => ?_)
    dsimp only
    rw [tgts_read harg3 y]
  have e5 : (Memref.whole cc1_scratch0).view.read (Elt F) ((Memref.whole cc1_scratch0).view.writes (Elt F)
        (if hc : run_second.sl.v2 i = 1#1 then
          (Memref.whole cc1_scratch0).view.writes (Elt F) ((Memref.isWhole_whole cc1_scratch0).unread n0)
            [⟨Rect.unit (s := S19x8x512) ![0, 0, 0] S19x8x512.size inb_S19x8x512_S19x8x512_0_0_0, k1_pay3⟩]
        else (Memref.isWhole_whole cc1_scratch0).unread n0)
        (run_second.sl.H5_19 d i arg2 harg2 arg3 harg3 x y n0))
      = SpecTC.addRows n0 (SpecTC.nomParts (planes x) (tgts y)) := by
    rw [hM0, dif_neg hv2]
    exact (scratch_rows (Memref.whole cc1_scratch0).view ((Memref.isWhole_whole cc1_scratch0).unread n0) (SpecTC.nomParts (planes x) (tgts y))).trans (by rw [hf5])
  have e6 : (Memref.whole cc1_scratch1).view.read (Elt F) ((Memref.whole cc1_scratch1).view.writes (Elt F)
        (if hc : run_second.sl.v2 i = 1#1 then
          (Memref.whole cc1_scratch1).view.writes (Elt F) ((Memref.isWhole_whole cc1_scratch1).unread i0)
            [⟨Rect.unit (s := S19x8x512) ![0, 0, 0] S19x8x512.size inb_S19x8x512_S19x8x512_0_0_0, k1_pay4⟩]
        else (Memref.isWhole_whole cc1_scratch1).unread i0)
        (run_second.sl.H6_19 d i arg2 harg2 x i0))
      = SpecTC.addRows i0 (SpecTC.isumParts (planes x)) := by
    rw [hM1, dif_neg hv2]
    exact (scratch_rows (Memref.whole cc1_scratch1).view ((Memref.isWhole_whole cc1_scratch1).unread i0) (SpecTC.isumParts (planes x))).trans (by rw [hf6])
  have e7 : (Memref.whole cc1_scratch2).view.read (Elt F) ((Memref.whole cc1_scratch2).view.writes (Elt F)
        (if hc : run_second.sl.v2 i = 1#1 then
          (Memref.whole cc1_scratch2).view.writes (Elt F) ((Memref.isWhole_whole cc1_scratch2).unread t0)
            [⟨Rect.unit (s := S19x8x512) ![0, 0, 0] S19x8x512.size inb_S19x8x512_S19x8x512_0_0_0, k1_pay5⟩]
        else (Memref.isWhole_whole cc1_scratch2).unread t0)
        (run_second.sl.H7_19 d i arg3 harg3 y t0))
      = SpecTC.addRows t0 (SpecTC.tsumParts (F := F) (tgts y)) := by
    rw [hM2, dif_neg hv2]
    exact (scratch_rows (Memref.whole cc1_scratch2).view ((Memref.isWhole_whole cc1_scratch2).unread t0) (SpecTC.tsumParts (F := F) (tgts y))).trans (by rw [hf7])
  have c5 : run_second.sl.v635 d i arg2 harg2 arg3 harg3 x y n0 = SpecTC.addRows n0 (SpecTC.nomParts (planes x) (tgts y)) := by
    show (Memref.whole cc1_scratch0).view.readCov (run_second.sl.H5_19 d i arg2 harg2 arg3 harg3 x y n0) (Rect.unit (s := S19x8x512) ![0, 0, 0] S19x8x512.size inb_S19x8x512_S19x8x512_0_0_0).toLoadRect = _
    rw [hM0]
    exact (scratch_rows_cov (Memref.whole cc1_scratch0).view ((Memref.isWhole_whole cc1_scratch0).unread n0) (SpecTC.nomParts (planes x) (tgts y))).trans (by rw [hf5])
  have c6 : run_second.sl.v637 d i arg2 harg2 x i0 = SpecTC.addRows i0 (SpecTC.isumParts (planes x)) := by
    show (Memref.whole cc1_scratch1).view.readCov (run_second.sl.H6_19 d i arg2 harg2 x i0) (Rect.unit (s := S19x8x512) ![0, 0, 0] S19x8x512.size inb_S19x8x512_S19x8x512_0_0_0).toLoadRect = _
    rw [hM1]
    exact (scratch_rows_cov (Memref.whole cc1_scratch1).view ((Memref.isWhole_whole cc1_scratch1).unread i0) (SpecTC.isumParts (planes x))).trans (by rw [hf6])
  have c7 : run_second.sl.v639 d i arg3 harg3 y t0 = SpecTC.addRows t0 (SpecTC.tsumParts (F := F) (tgts y)) := by
    show (Memref.whole cc1_scratch2).view.readCov (run_second.sl.H7_19 d i arg3 harg3 y t0) (Rect.unit (s := S19x8x512) ![0, 0, 0] S19x8x512.size inb_S19x8x512_S19x8x512_0_0_0).toLoadRect = _
    rw [hM2]
    exact (scratch_rows_cov (Memref.whole cc1_scratch2).view ((Memref.isWhole_whole cc1_scratch2).unread t0) (SpecTC.tsumParts (F := F) (tgts y))).trans (by rw [hf7])
  have e4 : arg4.view.read (Elt F) (arg4.view.writes (Elt F) (harg4.unread o)
        [⟨Rect.unit (s := S1x1x128) ![0, 0, 0] S1x1x128.size inb_S1x1x128_S1x1x128_0_0_0,
          k1_pay2 (run_second.sl.v635 d i arg2 harg2 arg3 harg3 x y n0) (run_second.sl.v637 d i arg2 harg2 x i0) (run_second.sl.v639 d i arg3 harg3 y t0)⟩])
      = SpecTC.finishBlock (SpecTC.addRows n0 (SpecTC.nomParts (planes x) (tgts y))) (SpecTC.addRows i0 (SpecTC.isumParts (planes x))) (SpecTC.addRows t0 (SpecTC.tsumParts (F := F) (tgts y))) := by
    rw [out_read, pay2_eq, c5, c6, c7]
  isplitl [H2]
  · iexists _; isplitr
    · ipureintro; exact hf2
    · iexact H2
  isplitl [H3]
  · iexists _; isplitr
    · ipureintro; exact hf3
    · iexact H3
  isplitl [H4]
  · iexists _; isplitr
    · ipureintro; exact e4
    · iexact H4
  isplitl [H5]
  · iexists _; isplitr
    · ipureintro; exact e5
    · iexact H5
  isplitl [H6]
  · iexists _; isplitr
    · ipureintro; exact e6
    · iexact H6
  iexists _; isplitr
  · ipureintro; exact e7
  · iexact H7

end Cert.Kernel.TcBody
-- ==== Proof.KW.TcBridge.lean ====
import proofs.«216000_g43989055045728_cont_8to1_b_1827_23_alg».proof.Proof.KW.TcRegion
import proofs.«216000_g43989055045728_cont_8to1_b_1827_23_alg».proof.Proof.KW.TcBody

noncomputable section

namespace Cert.Kernel.TcBridge

open Cert.Kernel Cert.Kernel.Gen Cert.Kernel.PayDefs Cert.Kernel.SpecTC
open Cert.Kernel.Facts₀ Cert.Kernel.Facts
open Idealize.ShloMosaic Idealize.ShloMosaic.TcCoe Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem planes_eq (x : Vec F S1x19x256x512 .f32) : TcRegion.planes x = TcVal.planes x := rfl
theorem tgts_eq (y : Vec F S1x256x512 .i32) : TcRegion.tgts y = TcVal.tgts y := rfl

theorem bodyRun : TcRegion.BodyRun (F := F) where
  first d i arg2 harg2 arg3 harg3 arg4 harg4 x y o n0 i0 t0 hi := by
    simp only [planes_eq, tgts_eq]
    exact TcBody.run_first (F := F) (Ix := HIx 1) (Name := ℕ) (U := UU) (Lvl := ℕ) Variants.none d i hi
      arg2 harg2 arg3 harg3 arg4 harg4 x y o n0 i0 t0
  second d i arg2 harg2 arg3 harg3 arg4 harg4 x y o n0 i0 t0 hi := by
    simp only [planes_eq, tgts_eq]
    exact TcBody.run_second (F := F) (Ix := HIx 1) (Name := ℕ) (U := UU) (Lvl := ℕ) Variants.none d i hi
      arg2 harg2 arg3 harg3 arg4 harg4 x y o n0 i0 t0

end Cert.Kernel.TcBridge

end
-- ==== Proof.KW.HostTail.lean ====
import proofs.«216000_g43989055045728_cont_8to1_b_1827_23_alg».proof.Kernel
import proofs.«216000_g43989055045728_cont_8to1_b_1827_23_alg».proof.Proof.KW.Tail
import Idealize.ShloMosaic.Lib.StableHlo.Run

noncomputable section

namespace Cert.Kernel.HostTail

open Idealize.ShloMosaic Idealize.SL.Sem Cert.Kernel

variable {F : FTy → Type} [FloatOps F] [Facts]
open Facts₀ Facts

def hostOps : List (HloOp τ sig (Elt F)) :=
  [ StableHlo.unary main_v1 main_v2 ((extractStridedSlice S6x1x1 ![0, 0, 0] · slices_S6x1x128_S6x1x1_0_0_0) : (⟨S6x1x128, .f32⟩ : BufTy).Contents (Elt F) → (⟨S6x1x1, .f32⟩ : BufTy).Contents (Elt F)),
    StableHlo.reshape main_v2 main_v3 rfl shapeCasts_S6x1x1_S6,
    StableHlo.reshape main_v0 main_v4 rfl shapeCasts_S61440_S32x3x40x16,
    StableHlo.nullary main_cst (constant S_ .f32 0x00000000#32),
    StableHlo.binary main_v4 main_cst main_v5 ((fun x v => Host.reduceAdd x v reducesTo_S32x3x40x16_S3x40_d0_3 h_S_) : (⟨S32x3x40x16, .f32⟩ : BufTy).Contents (Elt F) → (⟨S_, .f32⟩ : BufTy).Contents (Elt F) → (⟨S3x40, .f32⟩ : BufTy).Contents (Elt F)),
    StableHlo.unary main_v5 main_v6 ((extractStridedSlice S1x38 ![0, 0] · slices_S3x40_S1x38_0_0) : (⟨S3x40, .f32⟩ : BufTy).Contents (Elt F) → (⟨S1x38, .f32⟩ : BufTy).Contents (Elt F)),
    StableHlo.reshape main_v6 main_v7 rfl shapeCasts_S1x38_S38,
    StableHlo.reshape main_v7 main_v8 rfl shapeCasts_S38_S2x19,
    StableHlo.unary main_v5 main_v9 ((extractStridedSlice S1x38 ![1, 0] · slices_S3x40_S1x38_1_0) : (⟨S3x40, .f32⟩ : BufTy).Contents (Elt F) → (⟨S1x38, .f32⟩ : BufTy).Contents (Elt F)),
    StableHlo.reshape main_v9 main_v10 rfl shapeCasts_S1x38_S38,
    StableHlo.reshape main_v10 main_v11 rfl shapeCasts_S38_S2x19,
    StableHlo.unary main_v5 main_v12 ((extractStridedSlice S1x38 ![2, 0] · slices_S3x40_S1x38_2_0) : (⟨S3x40, .f32⟩ : BufTy).Contents (Elt F) → (⟨S1x38, .f32⟩ : BufTy).Contents (Elt F)),
    StableHlo.reshape main_v12 main_v13 rfl shapeCasts_S1x38_S38,
    StableHlo.reshape main_v13 main_v14 rfl shapeCasts_S38_S2x19,
    StableHlo.nullary main_cst_0 (constant S_ .f32 0x40000000#32),
    StableHlo.unary main_cst_0 main_v15 (broadcastInDim S2x19 ![] bcast_S_S2x19 : (⟨S_, .f32⟩ : BufTy).Contents (Elt F) → (⟨S2x19, .f32⟩ : BufTy).Contents (Elt F)),
    StableHlo.binary main_v15 main_v8 main_v16 (mulf : (⟨S2x19, .f32⟩ : BufTy).Contents (Elt F) → (⟨S2x19, .f32⟩ : BufTy).Contents (Elt F) → (⟨S2x19, .f32⟩ : BufTy).Contents (Elt F)),
    StableHlo.nullary main_cst_1 (constant S_ .f32 0x3F800000#32),
    StableHlo.unary main_cst_1 main_v17 (broadcastInDim S2x19 ![] bcast_S_S2x19 : (⟨S_, .f32⟩ : BufTy).Contents (Elt F) → (⟨S2x19, .f32⟩ : BufTy).Contents (Elt F)),
    StableHlo.binary main_v16 main_v17 main_v18 (addf : (⟨S2x19, .f32⟩ : BufTy).Contents (Elt F) → (⟨S2x19, .f32⟩ : BufTy).Contents (Elt F) → (⟨S2x19, .f32⟩ : BufTy).Contents (Elt F)),
    StableHlo.binary main_v11 main_v14 main_v19 (addf : (⟨S2x19, .f32⟩ : BufTy).Contents (Elt F) → (⟨S2x19, .f32⟩ : BufTy).Contents (Elt F) → (⟨S2x19, .f32⟩ : BufTy).Contents (Elt F)),
    StableHlo.nullary main_cst_2 (constant S_ .f32 0x3F800000#32),
    StableHlo.unary main_cst_2 main_v20 (broadcastInDim S2x19 ![] bcast_S_S2x19 : (⟨S_, .f32⟩ : BufTy).Contents (Elt F) → (⟨S2x19, .f32⟩ : BufTy).Contents (Elt F)),
    StableHlo.binary main_v19 main_v20 main_v21 (addf : (⟨S2x19, .f32⟩ : BufTy).Contents (Elt F) → (⟨S2x19, .f32⟩ : BufTy).Contents (Elt F) → (⟨S2x19, .f32⟩ : BufTy).Contents (Elt F)),
    StableHlo.binary main_v18 main_v21 main_v22 (Host.divf : (⟨S2x19, .f32⟩ : BufTy).Contents (Elt F) → (⟨S2x19, .f32⟩ : BufTy).Contents (Elt F) → (⟨S2x19, .f32⟩ : BufTy).Contents (Elt F)),
    StableHlo.nullary main_cst_3 (constant S_ .f32 0x00000000#32),
    StableHlo.binary main_v22 main_cst_3 main_v23 ((fun x v => Host.reduceAdd x v reducesTo_S2x19_S2_d1 h_S_) : (⟨S2x19, .f32⟩ : BufTy).Contents (Elt F) → (⟨S_, .f32⟩ : BufTy).Contents (Elt F) → (⟨S2, .f32⟩ : BufTy).Contents (Elt F)),
    StableHlo.nullary main_cst_4 (constant S_ .f32 0x41980000#32),
    StableHlo.unary main_cst_4 main_v24 (broadcastInDim S2 ![] bcast_S_S2 : (⟨S_, .f32⟩ : BufTy).Contents (Elt F) → (⟨S2, .f32⟩ : BufTy).Contents (Elt F)),
    StableHlo.binary main_v23 main_v24 main_v25 (Host.divf : (⟨S2, .f32⟩ : BufTy).Contents (Elt F) → (⟨S2, .f32⟩ : BufTy).Contents (Elt F) → (⟨S2, .f32⟩ : BufTy).Contents (Elt F)),
    StableHlo.unary main_v25 main_v26 (Host.negf : (⟨S2, .f32⟩ : BufTy).Contents (Elt F) → (⟨S2, .f32⟩ : BufTy).Contents (Elt F)),
    StableHlo.binary main_v3 main_v26 main_v27 ((fun a b => concatenate S8 0 [⟨S6, a⟩, ⟨S2, b⟩] concatenates_S6_S2_S8_d0) : (⟨S6, .f32⟩ : BufTy).Contents (Elt F) → (⟨S2, .f32⟩ : BufTy).Contents (Elt F) → (⟨S8, .f32⟩ : BufTy).Contents (Elt F)) ]

theorem main_eq (d : Dev nD) :
    main (F := F) d
      = (sc.run d 0 >>= fun _ =>
          (Prog.lift (.customCall (SparseCore.inner (Pipeline.entry 0)) ()) >>= fun _ => StableHlo.seq hostOps)) := rfl

def tcArrays : Finset (DevRef τ sig) :=
  (Finset.univ.filter fun b : Ref sig .tc => ¬ b.isScoped).map ⟨Proc.devRef (τ := τ) .tc, Proc.devRef_injective _⟩

theorem mem_tcArrays {r : Ref sig .tc} (h : (Proc.devRef (τ := τ) .tc r : DevRef τ sig).isScoped = false) :
    Proc.devRef (τ := τ) .tc r ∈ tcArrays :=
  Finset.mem_map_of_mem _ (Finset.mem_filter.mpr ⟨Finset.mem_univ _, Bool.eq_false_iff.mp h⟩)

section Builders
variable {x y a b : Ref sig .tc}

theorem nullary_sub (v : y.ty.Contents (Elt F)) (hy) :
    (StableHlo.nullary (τ := τ) y v hy).bufs ⊆ tcArrays :=
  Finset.singleton_subset_iff.mpr (mem_tcArrays hy.2)
theorem unary_sub (f : x.ty.Contents (Elt F) → y.ty.Contents (Elt F)) (hx hy) :
    (StableHlo.unary (τ := τ) x y f hx hy).bufs ⊆ tcArrays :=
  Finset.insert_subset (mem_tcArrays hx.2) (Finset.singleton_subset_iff.mpr (mem_tcArrays hy.2))
theorem reshape_sub (he hn hx hy) :
    (StableHlo.reshape (τ := τ) (Val := Elt F) x y he hn hx hy).bufs ⊆ tcArrays :=
  Finset.insert_subset (mem_tcArrays hx.2) (Finset.singleton_subset_iff.mpr (mem_tcArrays hy.2))
theorem binary_sub (f : a.ty.Contents (Elt F) → b.ty.Contents (Elt F) → y.ty.Contents (Elt F)) (ha hb hy) :
    (StableHlo.binary (τ := τ) a b y f ha hb hy).bufs ⊆ tcArrays :=
  Finset.insert_subset (mem_tcArrays ha.2)
    (Finset.insert_subset (mem_tcArrays hb.2) (Finset.singleton_subset_iff.mpr (mem_tcArrays hy.2)))

end Builders

theorem hostOps_bufs : ∀ op ∈ hostOps (F := F), op.bufs ⊆ tcArrays := by
  unfold hostOps
  exact List.forall_iff_forall_mem.mp
    ⟨unary_sub .., reshape_sub .., reshape_sub .., nullary_sub .., binary_sub .., unary_sub .., reshape_sub .., reshape_sub .., unary_sub .., reshape_sub .., reshape_sub .., unary_sub .., reshape_sub .., reshape_sub .., nullary_sub .., unary_sub .., binary_sub .., nullary_sub .., unary_sub .., binary_sub .., binary_sub .., nullary_sub .., unary_sub .., binary_sub .., binary_sub .., nullary_sub .., binary_sub .., nullary_sub .., unary_sub .., binary_sub .., unary_sub .., binary_sub ..⟩

theorem hostOps_fresh : ∀ op ∈ hostOps (F := F), op.fresh = ∅ := by
  unfold hostOps
  exact List.forall_iff_forall_mem.mp
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

open Idealize.ShloMosaic.StableHlo in
set_option maxHeartbeats 2000000 in

theorem after_v27 (V : Valuation τ sig (Elt F)) :
    StableHlo.after (hostOps (F := F)) V (Proc.devRef .tc main_v27)
      = Cert.Kernel.Tail.tailOf (V (Proc.devRef .tc main_v0)) (V (Proc.devRef .tc main_v1)) := by
  unfold hostOps
  after_results <;> rfl

open Idealize.ShloMosaic.StableHlo in
set_option maxHeartbeats 2000000 in

theorem after_arg0 (V : Valuation τ sig (Elt F)) :
    StableHlo.after (hostOps (F := F)) V (Proc.devRef .tc main_arg0) = V (Proc.devRef .tc main_arg0) := by
  unfold hostOps
  after_results <;> rfl

open Idealize.ShloMosaic.StableHlo in
set_option maxHeartbeats 2000000 in

theorem after_arg1 (V : Valuation τ sig (Elt F)) :
    StableHlo.after (hostOps (F := F)) V (Proc.devRef .tc main_arg1) = V (Proc.devRef .tc main_arg1) := by
  unfold hostOps
  after_results <;> rfl

end Cert.Kernel.HostTail

end
-- ==== Proof.KW.Run.lean ====
import proofs.«216000_g43989055045728_cont_8to1_b_1827_23_alg».proof.Proof.KW.Launch
import proofs.«216000_g43989055045728_cont_8to1_b_1827_23_alg».proof.Proof.KW.ScBody
import proofs.«216000_g43989055045728_cont_8to1_b_1827_23_alg».proof.Proof.KW.TcRegion
import proofs.«216000_g43989055045728_cont_8to1_b_1827_23_alg».proof.Proof.KW.TcBody
import proofs.«216000_g43989055045728_cont_8to1_b_1827_23_alg».proof.Proof.KW.TcBridge
import proofs.«216000_g43989055045728_cont_8to1_b_1827_23_alg».proof.Proof.KW.HostTail

noncomputable section

namespace Cert.Kernel.Run

open Idealize.ShloMosaic Idealize.SL.Sem Cert.Kernel

variable {F : FTy → Type} [FloatOps F]

theorem tileBody (m : (ℓ : Loc nD τ sig) → Buf (Elt F) ℓ) : Launch.TileBody m :=
  fun d L O W hO => ScBody.tile_body m d L O W hO

theorem tcRegion : Launch.TcRegion (F := F) :=
  fun Vm B lv d Φ => TcRegion.wp_tc_region Vm B lv TcBridge.bodyRun d Φ

def tailFacts : Launch.TailFacts F :=
  ⟨HostTail.hostOps, HostTail.main_eq, HostTail.hostOps_bufs, HostTail.hostOps_fresh,
    HostTail.after_v27, HostTail.after_arg0, HostTail.after_arg1⟩

theorem run [∀ e, Nonempty (Elt F e)] (m : (ℓ : Loc nD τ sig) → Buf (Elt F) ℓ) (ρ : Dev nD → PrngReg) :
    θ_run (Cert.Kernel.defs (F := F)) (Cert.Kernel.threads (F := F)) ⟨m, fun _ => 0, ρ⟩ (Launch.QC m) :=
  Launch.run_main m ρ (tileBody m) tcRegion tailFacts

end Cert.Kernel.Run

end
-- ==== Proof.MathSpec.lean ====
import Idealize.ShloMosaic.PureOps.Ideal
import Idealize.ShloMosaic.Lib.ValueIdx

noncomputable section

namespace Cert.MathSpec

open Idealize.ShloMosaic Idealize.ShloMosaic.ValueIdx

abbrev SP : Shape := ⟨4, ![8, 19, 512, 512]⟩
abbrev ST : Shape := ⟨3, ![8, 512, 512]⟩

def ind (T : ST.Idx → BitVec 32) (b : Fin 8) (c : Fin 19) (h w : Fin 512) : EReal :=
  if T (ix3 b h w) = BitVec.ofNat 32 c.val then 1 else 0

def nom (P : SP.Idx → EReal) (T : ST.Idx → BitVec 32) (b : Fin 8) (c : Fin 19) : EReal :=
  ∑ h : Fin 512, ∑ w : Fin 512, P (ix4 b c h w) * ind T b c h w

def isum (P : SP.Idx → EReal) (b : Fin 8) (c : Fin 19) : EReal :=
  ∑ h : Fin 512, ∑ w : Fin 512, P (ix4 b c h w)

def tsum (T : ST.Idx → BitVec 32) (b : Fin 8) (c : Fin 19) : EReal :=
  ∑ h : Fin 512, ∑ w : Fin 512, ind T b c h w

def frac (P : SP.Idx → EReal) (T : ST.Idx → BitVec 32) (b : Fin 8) (c : Fin 19) : EReal :=
  Ideal.div (2 * nom P T b c + 1) (isum P b c + tsum T b c + 1)

def loss (P : SP.Idx → EReal) (T : ST.Idx → BitVec 32) (b : Fin 8) : EReal :=
  -(Ideal.div (∑ c : Fin 19, frac P T b c) 19)

end Cert.MathSpec

end
-- ==== Proof.RefSide.lean ====
import proofs.«216000_g43989055045728_cont_8to1_b_1827_23_alg».proof.Defs
import proofs.«216000_g43989055045728_cont_8to1_b_1827_23_alg».proof.Proof.Gen.ReferenceIdeal
import proofs.«216000_g43989055045728_cont_8to1_b_1827_23_alg».proof.Proof.Gen.ReferenceIdeal.Run
import proofs.«216000_g43989055045728_cont_8to1_b_1827_23_alg».proof.Proof.Gen.ReferenceIdeal.Read
import proofs.«216000_g43989055045728_cont_8to1_b_1827_23_alg».proof.Proof.MathSpec
import Idealize.ShloMosaic.Lib.ValueIdx
import Idealize.ShloMosaic.Lib.IdealHost
import Idealize.ShloMosaic.Lib.Pipeline.Value
import Idealize.ShloMosaic.PureOps.Ideal.Laws
import Idealize.ShloMosaic.Lib.StableHlo.Run

noncomputable section

namespace Cert.ReferenceIdeal.RefSide

open Cert.ReferenceIdeal Cert.ReferenceIdeal.Gen Idealize.ShloMosaic Idealize.ShloMosaic.TcCoe Idealize.SL.Sem Idealize.ShloMosaic.StableHlo Idealize.ShloMosaic.ValueIdx

theorem ref_frame [hPre : Cert.Pre_input_domain.Facts] :
    Cert.frame_ReferenceIdeal (hReferenceIdeal := Cert.ReferenceIdeal.Gen.facts) (hPre_input_domain := hPre) :=
  fun m ρ _ => (θ_run Cert.ReferenceIdeal.defs _ _).mono (fun _ h c => (h c).2)
    (Cert.ReferenceIdeal.Value.run (F := Ideal) m ρ)

theorem drop_ix4 (b : Fin 8) (c : Fin 19) (h w : Fin 512) :
    reducesTo_S8x19x512x512_S8x19_d2_3.drop (ix4 b c h w) = ix2 b c := by
  funext a
  match a with
  | ⟨0, _⟩ => exact Fin.ext (Shape.ReducesTo.drop_apply_val_of_eq reducesTo_S8x19x512x512_S8x19_d2_3 (ix4 b c h w) 0 0)
  | ⟨1, _⟩ => exact Fin.ext (Shape.ReducesTo.drop_apply_val_of_eq reducesTo_S8x19x512x512_S8x19_d2_3 (ix4 b c h w) 1 1)

theorem eq_ix4_of_drop (i : S8x19x512x512.Idx) (j : S8x19.Idx)
    (hd : reducesTo_S8x19x512x512_S8x19_d2_3.drop i = j) : ix4 (j 0) (j 1) (i 2) (i 3) = i := by
  subst hd
  funext a
  match a with
  | ⟨0, _⟩ => exact Fin.ext (Shape.ReducesTo.drop_apply_val_of_eq _ i 0 0)
  | ⟨1, _⟩ => exact Fin.ext (Shape.ReducesTo.drop_apply_val_of_eq _ i 1 1)
  | ⟨2, _⟩ => rfl
  | ⟨3, _⟩ => rfl

theorem sum_places (x : S8x19x512x512.Idx → EReal) (init : EReal) (j : S8x19.Idx) :
    Ideal.hostReduceAdd reducesTo_S8x19x512x512_S8x19_d2_3 x init j
      = init + ∑ h : Fin 512, ∑ w : Fin 512, x (ix4 (j 0) (j 1) h w) := by
  unfold Ideal.hostReduceAdd
  refine congrArg (init + ·) ?_
  rw [← Finset.sum_product']
  refine Finset.sum_bij' (fun i _ => ((i 2 : Fin 512), (i 3 : Fin 512))) (fun p _ => ix4 (j 0) (j 1) p.1 p.2)
    (fun _ _ => Finset.mem_product.mpr ⟨Finset.mem_univ _, Finset.mem_univ _⟩) ?_ ?_ ?_ ?_
  · intro p _
    refine Finset.mem_filter.mpr ⟨Finset.mem_univ _, ?_⟩
    exact (drop_ix4 _ _ _ _).trans (eq_ix2 j).symm
  · intro i hi
    exact eq_ix4_of_drop i j (Finset.mem_filter.mp hi).2
  · intro p _; rfl
  · intro i hi
    exact congrArg x (eq_ix4_of_drop i j (Finset.mem_filter.mp hi).2).symm

theorem uitofp_cmpi_eq (x y : BitVec 32) :
    FloatOps.uitofp (F := Ideal) .f32 (IntOp.cmpi .eq x y) = if x = y then (1 : EReal) else 0 := by
  show (((IntOp.cmpi .eq x y).toNat : ℝ) : EReal) = _
  by_cases h : x = y
  · subst h; simp [IntOp.cmpi]
  · simp [IntOp.cmpi, h]

theorem onehot_apply (T : IVec S8x512x512 32) (b : Fin 8) (c : Fin 19) (h w : Fin 512) :
    Read.val_main_v0 (F := Ideal) T (ix4 b c h w) = Cert.MathSpec.ind T b c h w := by
  rw [Read.val_main_v0_apply, Read.val_main_call0_v4_apply, Read.val_main_call0_v2_apply,
    Read.val_main_call0_v0_apply, Read.val_main_call0_v3_apply, Read.val_main_call0_v1_apply, uitofp_cmpi_eq]
  have e : Read.idx_main_call0_v0 (Read.idx_main_call0_v2 (ix4 b c h w)) = ix3 b h w :=
    funext fun a => Fin.ext (by match a with | ⟨0, _⟩ => rfl | ⟨1, _⟩ => rfl | ⟨2, _⟩ => rfl)
  rw [e]
  rfl

theorem two_f32 : Ideal.ofBits .f32 0x40000000#32 = 2 := by
  rw [show (2 : EReal) = ((2 : ℝ) : EReal) by norm_cast]
  simp [Ideal.ofBits, Ideal.ieee, -EReal.coe_mul]; norm_num

theorem nineteen_f32 : Ideal.ofBits .f32 0x41980000#32 = 19 := by
  rw [show (19 : EReal) = ((19 : ℝ) : EReal) by norm_cast]
  simp [Ideal.ofBits, Ideal.ieee, -EReal.coe_mul]; norm_num

theorem nom_apply (P : FVec Ideal S8x19x512x512 .f32) (T : IVec S8x512x512 32) (j : S8x19.Idx) :
    Read.val_main_v2 (F := Ideal) P T j = Cert.MathSpec.nom P T (j 0) (j 1) := by
  unfold Read.val_main_v2
  rw [hostReduceAdd_apply, sum_places, Read.val_main_cst_apply]
  show Ideal.ofBits .f32 0x00000000#32 + _ = _
  rw [Ideal.ofBits_zero_f32, zero_add]
  unfold Cert.MathSpec.nom
  refine Finset.sum_congr rfl fun h _ => Finset.sum_congr rfl fun w _ => ?_
  rw [Read.val_main_v1_apply]
  exact congrArg (P (ix4 (j 0) (j 1) h w) * ·) (onehot_apply T (j 0) (j 1) h w)

theorem isum_apply (P : FVec Ideal S8x19x512x512 .f32) (j : S8x19.Idx) :
    Read.val_main_v7 (F := Ideal) P j = Cert.MathSpec.isum P (j 0) (j 1) := by
  unfold Read.val_main_v7
  rw [hostReduceAdd_apply, sum_places, Read.val_main_cst_2_apply]
  show Ideal.ofBits .f32 0x00000000#32 + _ = _
  rw [Ideal.ofBits_zero_f32, zero_add]
  rfl

theorem tsum_apply (T : IVec S8x512x512 32) (j : S8x19.Idx) :
    Read.val_main_v8 (F := Ideal) T j = Cert.MathSpec.tsum T (j 0) (j 1) := by
  unfold Read.val_main_v8
  rw [hostReduceAdd_apply, sum_places, Read.val_main_cst_3_apply]
  show Ideal.ofBits .f32 0x00000000#32 + _ = _
  rw [Ideal.ofBits_zero_f32, zero_add]
  unfold Cert.MathSpec.tsum
  exact Finset.sum_congr rfl fun h _ => Finset.sum_congr rfl fun w _ => onehot_apply T _ _ h w

theorem frac_apply (P : FVec Ideal S8x19x512x512 .f32) (T : IVec S8x512x512 32) (j : S8x19.Idx) :
    Read.val_main_v12 (F := Ideal) P T j = Cert.MathSpec.frac P T (j 0) (j 1) := by
  rw [Read.val_main_v12_apply, Read.val_main_v6_apply, Read.val_main_v4_apply, Read.val_main_v3_apply,
    Read.val_main_cst_0_apply, Read.val_main_v5_apply, Read.val_main_cst_1_apply, Read.val_main_v11_apply,
    Read.val_main_v9_apply, Read.val_main_v10_apply, Read.val_main_cst_4_apply, nom_apply, isum_apply, tsum_apply]
  show Ideal.div (Ideal.ofBits .f32 0x40000000#32 * _ + Ideal.ofBits .f32 0x3F800000#32)
    (_ + _ + Ideal.ofBits .f32 0x3F800000#32) = _
  rw [two_f32, Ideal.ofBits_one_f32]
  rfl

theorem ref_val (P : FVec Ideal S8x19x512x512 .f32) (T : IVec S8x512x512 32) :
    Host.negf (Host.divf (Host.reduceAdd (Host.divf (addf (mulf (broadcastInDim S8x19 ![] bcast_S_S8x19 (constant S_ .f32 0x40000000#32)) (Host.reduceAdd (mulf (P) (uitofp .f32 (cmpi .eq (broadcastInDim S8x19x512x512 ![0, 1, 2, 3] bcast_S8x1x512x512_S8x19x512x512_0_1_2_3 (broadcastInDim S8x1x512x512 ![0, 2, 3] bcast_S8x512x512_S8x1x512x512_0_2_3 (T))) (broadcastInDim S8x19x512x512 ![0, 1, 2, 3] bcast_S1x19x1x1_S8x19x512x512_0_1_2_3 (iotaInDim S1x19x1x1 32 1))))) (constant S_ .f32 0x00000000#32) reducesTo_S8x19x512x512_S8x19_d2_3 h_S_)) (broadcastInDim S8x19 ![] bcast_S_S8x19 (constant S_ .f32 0x3F800000#32))) (addf (addf (Host.reduceAdd (P) (constant S_ .f32 0x00000000#32) reducesTo_S8x19x512x512_S8x19_d2_3 h_S_) (Host.reduceAdd (uitofp .f32 (cmpi .eq (broadcastInDim S8x19x512x512 ![0, 1, 2, 3] bcast_S8x1x512x512_S8x19x512x512_0_1_2_3 (broadcastInDim S8x1x512x512 ![0, 2, 3] bcast_S8x512x512_S8x1x512x512_0_2_3 (T))) (broadcastInDim S8x19x512x512 ![0, 1, 2, 3] bcast_S1x19x1x1_S8x19x512x512_0_1_2_3 (iotaInDim S1x19x1x1 32 1)))) (constant S_ .f32 0x00000000#32) reducesTo_S8x19x512x512_S8x19_d2_3 h_S_)) (broadcastInDim S8x19 ![] bcast_S_S8x19 (constant S_ .f32 0x3F800000#32)))) (constant S_ .f32 0x00000000#32) reducesTo_S8x19_S8_d1 h_S_) (broadcastInDim S8 ![] bcast_S_S8 (constant S_ .f32 0x41980000#32)))
      = fun i : S8.Idx => Cert.MathSpec.loss P T (i 0) := by
  rw [Read.val_main_v16_eq]
  funext i
  rw [Read.val_main_v16_apply, Read.val_main_v15_apply, Read.val_main_v13_apply, Read.val_main_v14_apply,
    Read.val_main_cst_6_apply, Read.val_main_cst_5_apply]
  show -(Ideal.div (Ideal.ofBits .f32 0x00000000#32 + _) (Ideal.ofBits .f32 0x41980000#32)) = _
  rw [Ideal.ofBits_zero_f32, zero_add, nineteen_f32]
  unfold Cert.MathSpec.loss
  refine congrArg (fun s => -(Ideal.div s 19)) (Finset.sum_congr rfl fun k _ => ?_)
  exact frac_apply P T (Read.idx_main_v13 i k)

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
          = (fun i : S8.Idx => Cert.MathSpec.loss (m ((c.tc : Thread nD τ).loc main_arg0))
              (m ((c.tc : Thread nD τ).loc main_arg1)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (ref_val _ _), (h c).2⟩)
    (Cert.ReferenceIdeal.Value.run (F := Ideal) m ρ)

end Cert.ReferenceIdeal.RefSide

end
-- ==== Proof.AlgSCTail.lean ====
import proofs.«216000_g43989055045728_cont_8to1_b_1827_23_alg».proof.Proof.Tail
import proofs.«216000_g43989055045728_cont_8to1_b_1827_23_alg».proof.Proof.MathSpec
import proofs.«216000_g43989055045728_cont_8to1_b_1827_23_alg».proof.Proof.SpecSC
import Idealize.ShloMosaic.Lib.ValueIdx
import Idealize.ShloMosaic.Lib.IdealHost
import Idealize.ShloMosaic.Lib.Pipeline.Value
import Idealize.ShloMosaic.PureOps.Ideal.Laws

noncomputable section

namespace Cert.AlgSCTail

open Idealize.ShloMosaic Idealize.ShloMosaic.ValueIdx Cert.KernelIdeal Cert.KernelIdeal.Tail

variable [Cert.KernelIdeal.Facts]
open Cert.KernelIdeal.Facts₀ Cert.KernelIdeal.Facts

abbrev batchOf (i : Fin 2) : Fin 8 := ⟨6 + i.val, by have := i.isLt; omega⟩

abbrev slotOf (i : Fin 2) (c : Fin 19) : Fin 40 := ⟨19 * i.val + c.val, by have := i.isLt; have := c.isLt; omega⟩

theorem drop_ix4 (wid : Fin 32) (k : Fin 3) (s : Fin 40) (l : Fin 16) :
    reducesTo_S32x3x40x16_S3x40_d0_3.drop (ix4 wid k s l) = ix2 k s := by
  funext a
  match a with
  | ⟨0, _⟩ => exact Fin.ext (Shape.ReducesTo.drop_apply_val_of_eq reducesTo_S32x3x40x16_S3x40_d0_3 (ix4 wid k s l) 0 1)
  | ⟨1, _⟩ => exact Fin.ext (Shape.ReducesTo.drop_apply_val_of_eq reducesTo_S32x3x40x16_S3x40_d0_3 (ix4 wid k s l) 1 2)

theorem eq_ix4_of_drop (i : S32x3x40x16.Idx) (j : S3x40.Idx)
    (hd : reducesTo_S32x3x40x16_S3x40_d0_3.drop i = j) : ix4 (i 0) (j 0) (j 1) (i 3) = i := by
  subst hd
  funext a
  match a with
  | ⟨0, _⟩ => rfl
  | ⟨1, _⟩ => exact Fin.ext (Shape.ReducesTo.drop_apply_val_of_eq reducesTo_S32x3x40x16_S3x40_d0_3 i 0 1)
  | ⟨2, _⟩ => exact Fin.ext (Shape.ReducesTo.drop_apply_val_of_eq reducesTo_S32x3x40x16_S3x40_d0_3 i 1 2)
  | ⟨3, _⟩ => rfl

theorem sum_tiles_lanes (x : S32x3x40x16.Idx → EReal) (init : EReal) (j : S3x40.Idx) :
    Ideal.hostReduceAdd reducesTo_S32x3x40x16_S3x40_d0_3 x init j
      = init + ∑ wid : Fin 32, ∑ l : Fin 16, x (ix4 wid (j 0) (j 1) l) := by
  unfold Ideal.hostReduceAdd
  refine congrArg (init + ·) ?_
  rw [← Finset.sum_product']
  refine Finset.sum_bij' (fun i _ => ((i 0 : Fin 32), (i 3 : Fin 16))) (fun p _ => ix4 p.1 (j 0) (j 1) p.2)
    (fun _ _ => Finset.mem_product.mpr ⟨Finset.mem_univ _, Finset.mem_univ _⟩) ?_ ?_ ?_ ?_
  · intro p _
    refine Finset.mem_filter.mpr ⟨Finset.mem_univ _, ?_⟩
    exact (drop_ix4 _ _ _ _).trans (eq_ix2 j).symm
  · intro i hi
    exact eq_ix4_of_drop i j (Finset.mem_filter.mp hi).2
  · intro p _; rfl
  · intro i hi
    exact congrArg x (eq_ix4_of_drop i j (Finset.mem_filter.mp hi).2).symm

theorem reshape_apply (out0 : FVec Ideal S61440 .f32) (wid : Fin 32) (k : Nat) (hk : k < 3) (s : Fin 40) (l : Fin 16) :
    shapeCast S32x3x40x16 out0 shapeCasts_S61440_S32x3x40x16 (ix4 wid ⟨k, hk⟩ s l)
      = out0 (ix1 (Cert.SpecSC.fin61440 (wid.val * 1920 + (k * 40 + s.val) * 16 + l.val))) := by
  refine shapeCast_apply out0 _ _ _ ?_
  rw [Shape.rowMajor_val_one, Shape.rowMajor_val_four]
  show (wid.val * 1920 + (k * 40 + s.val) * 16 + l.val) % 61440 = ((wid.val * 3 + k) * 40 + s.val) * 16 + l.val
  have := wid.isLt; have := s.isLt; have := l.isLt
  omega

theorem scSums_apply (out0 : FVec Ideal S61440 .f32) (k : Nat) (hk : k < 3) (s : Fin 40) :
    scSums (F := Ideal) out0 (ix2 ⟨k, hk⟩ s)
      = ∑ wid : Fin 32, ∑ l : Fin 16, out0 (ix1 (Cert.SpecSC.fin61440 (wid.val * 1920 + (k * 40 + s.val) * 16 + l.val))) := by
  unfold scSums
  rw [hostReduceAdd_apply, sum_tiles_lanes]
  show Ideal.ofBits .f32 0x00000000#32 + _ = _
  rw [Ideal.ofBits_zero_f32, zero_add]
  exact Finset.sum_congr rfl fun wid _ => Finset.sum_congr rfl fun l _ => reshape_apply out0 wid k hk s l

theorem pick_apply (s : FVec Ideal S3x40 .f32) (k : Nat) (hk : k < 3) (hs : S3x40.Slices ![k, 0] S1x38)
    (i : Fin 2) (c : Fin 19) :
    shapeCast S2x19 (shapeCast S38 (extractStridedSlice S1x38 ![k, 0] s hs) shapeCasts_S1x38_S38)
        shapeCasts_S38_S2x19 (ix2 i c)
      = s (ix2 ⟨k, hk⟩ (slotOf i c)) := by
  have hi := i.isLt
  have hc := c.isLt
  have h38 : 19 * i.val + c.val < 38 := by omega
  refine (shapeCast_apply _ shapeCasts_S38_S2x19 (ix2 i c) (ix1 (⟨19 * i.val + c.val, h38⟩ : Fin 38)) ?_).trans ?_
  · rw [Shape.rowMajor_val_one, Shape.rowMajor_val_two]
    show 19 * i.val + c.val = i.val * 19 + c.val
    omega
  refine (shapeCast_apply _ shapeCasts_S1x38_S38 _ (ix2 (0 : Fin 1) (⟨19 * i.val + c.val, h38⟩ : Fin 38)) ?_).trans ?_
  · rw [Shape.rowMajor_val_one, Shape.rowMajor_val_two]
    show 0 * 38 + (19 * i.val + c.val) = 19 * i.val + c.val
    omega
  refine extractStridedSlice_apply _ s hs _ (ix2 ⟨k, hk⟩ (slotOf i c)) fun a => ?_
  match a with
  | ⟨0, _⟩ => show k = k + 0; omega
  | ⟨1, _⟩ => show 19 * i.val + c.val = 0 + (19 * i.val + c.val); omega

theorem two_f32 : Ideal.ofBits .f32 0x40000000#32 = 2 := by
  rw [show (2 : EReal) = ((2 : ℝ) : EReal) by norm_cast]
  simp [Ideal.ofBits, Ideal.ieee, -EReal.coe_mul]; norm_num

theorem nineteen_f32 : Ideal.ofBits .f32 0x41980000#32 = 19 := by
  rw [show (19 : EReal) = ((19 : ℝ) : EReal) by norm_cast]
  simp [Ideal.ofBits, Ideal.ieee, -EReal.coe_mul]; norm_num

theorem scFrac_apply (nom isum tsum : FVec Ideal S2x19 .f32) (j : S2x19.Idx) :
    scFrac (F := Ideal) nom isum tsum j = Ideal.div (2 * nom j + 1) (isum j + tsum j + 1) := by
  unfold scFrac
  rw [hostDivf_apply, addf_apply, mulf_apply, addf_apply, addf_apply, broadcastInDim_scalar_apply,
    broadcastInDim_scalar_apply, constant_apply, constant_apply, two_f32, Ideal.ofBits_one_f32]

theorem scMean_apply (frac : FVec Ideal S2x19 .f32) (i : Fin 2) :
    scMean (F := Ideal) frac (ix1 i) = -(Ideal.div (∑ c : Fin 19, frac (ix2 i c)) 19) := by
  unfold scMean
  show -(Ideal.div (Host.reduceAdd frac (constant (F := Ideal) S_ .f32 0x00000000#32) reducesTo_S2x19_S2_d1 h_S_ (ix1 i))
    (broadcastInDim S2 ![] bcast_S_S2 (constant (F := Ideal) S_ .f32 0x41980000#32) (ix1 i))) = _
  rw [hostReduceAdd_apply, Ideal.hostReduceAdd_single reducesTo_S2x19_S2_d1 (by decide), broadcastInDim_scalar_apply,
    constant_apply, constant_apply, Ideal.ofBits_zero_f32, zero_add, nineteen_f32]
  refine congrArg (fun s => -(Ideal.div s 19)) (Finset.sum_congr rfl fun c _ => congrArg frac ?_)
  funext a
  match a with
  | ⟨0, _⟩ => rfl
  | ⟨1, _⟩ => rfl

theorem scTail_of_sums (P : Cert.MathSpec.SP.Idx → EReal) (T : Cert.MathSpec.ST.Idx → BitVec 32)
    (out0 : FVec Ideal S61440 .f32)
    (hn : (∀ (i : Fin 2) (c : Fin 19),
      (∑ wid : Fin 32, ∑ l : Fin 16,
          out0 (ix1 (Cert.SpecSC.fin61440 (wid.val * 1920 + (0 * 40 + (19 * i.val + c.val)) * 16 + l.val))))
        = Cert.MathSpec.nom P T (batchOf i) c))
    (hi : (∀ (i : Fin 2) (c : Fin 19),
      (∑ wid : Fin 32, ∑ l : Fin 16,
          out0 (ix1 (Cert.SpecSC.fin61440 (wid.val * 1920 + (1 * 40 + (19 * i.val + c.val)) * 16 + l.val))))
        = Cert.MathSpec.isum P (batchOf i) c))
    (ht : (∀ (i : Fin 2) (c : Fin 19),
      (∑ wid : Fin 32, ∑ l : Fin 16,
          out0 (ix1 (Cert.SpecSC.fin61440 (wid.val * 1920 + (2 * 40 + (19 * i.val + c.val)) * 16 + l.val))))
        = Cert.MathSpec.tsum T (batchOf i) c))
    (i : Fin 2) :
    scTail (F := Ideal) out0 (ix1 i) = Cert.MathSpec.loss P T (batchOf i) := by
  unfold scTail
  rw [scMean_apply]
  unfold Cert.MathSpec.loss
  refine congrArg (fun s => -(Ideal.div s 19)) (Finset.sum_congr rfl fun c _ => ?_)
  have e0 : scNom (F := Ideal) (scSums out0) (ix2 i c) = Cert.MathSpec.nom P T (batchOf i) c :=
    (pick_apply _ 0 (by decide) slices_S3x40_S1x38_0_0 i c).trans ((scSums_apply out0 0 (by decide) _).trans (hn i c))
  have e1 : scIsum (F := Ideal) (scSums out0) (ix2 i c) = Cert.MathSpec.isum P (batchOf i) c :=
    (pick_apply _ 1 (by decide) slices_S3x40_S1x38_1_0 i c).trans ((scSums_apply out0 1 (by decide) _).trans (hi i c))
  have e2 : scTsum (F := Ideal) (scSums out0) (ix2 i c) = Cert.MathSpec.tsum T (batchOf i) c :=
    (pick_apply _ 2 (by decide) slices_S3x40_S1x38_2_0 i c).trans ((scSums_apply out0 2 (by decide) _).trans (ht i c))
  rw [scFrac_apply, e0, e1, e2]
  rfl

end Cert.AlgSCTail

end
-- ==== Proof.AlgSC.lean ====
import proofs.«216000_g43989055045728_cont_8to1_b_1827_23_alg».proof.Proof.SpecSC
import proofs.«216000_g43989055045728_cont_8to1_b_1827_23_alg».proof.Proof.MathSpec
import proofs.«216000_g43989055045728_cont_8to1_b_1827_23_alg».proof.Proof.Tail
import proofs.«216000_g43989055045728_cont_8to1_b_1827_23_alg».proof.Proof.AlgSCTail
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

namespace Cert.AlgSC

open Idealize.ShloMosaic Idealize.ShloMosaic.ValueIdx
open Cert.SpecSC (fin512 fin61440 zeroF oneF m01 accum pairB pairC cls pAt tAt gNom gIsum gTsum tileNom tileIsum tileTsum SpecSC)
open Cert.MathSpec (ind nom isum frac loss)

theorem zeroF_eq : (zeroF : Ideal .f32) = 0 := Ideal.ofBits_zero_f32
theorem oneF_eq : (oneF : Ideal .f32) = 1 := Ideal.ofBits_one_f32

theorem accum_eq_sum (g : Nat → Ideal .f32) (n : Nat) : accum g n = ∑ k ∈ Finset.range n, g k := by
  induction n with
  | zero => simp [accum, zeroF_eq]
  | succ n ih => rw [accum, ih, Finset.sum_range_succ]; rfl

theorem m01_eq (c : Fin 19) (t : BitVec 32) : (m01 (cls c) t : Ideal .f32) = if t = BitVec.ofNat 32 c.val then 1 else 0 := by
  show (if BitVec.ofBool (t == BitVec.ofNat 32 c.val) = 1#1 then (oneF : Ideal .f32) else zeroF) = _
  by_cases h : t = BitVec.ofNat 32 c.val
  · have hc : BitVec.ofBool (t == BitVec.ofNat 32 c.val) = 1#1 := by simp [h]
    rw [if_pos hc, if_pos h, oneF_eq]
  · have hb : (t == BitVec.ofNat 32 c.val) = false := beq_eq_false_iff_ne.mpr h
    have hc : ¬ BitVec.ofBool (t == BitVec.ofNat 32 c.val) = 1#1 := by rw [hb]; decide
    rw [if_neg hc, if_neg h, zeroF_eq]

section Reindex
variable {M : Type*} [AddCommMonoid M]

theorem sum_range_mul' (g : Nat → M) (m n : Nat) :
    ∑ i ∈ Finset.range (m * n), g i = ∑ x ∈ Finset.range m, ∑ y ∈ Finset.range n, g (n * x + y) := by
  induction m with
  | zero => simp
  | succ m ih =>
    rw [Nat.succ_mul, Finset.sum_range_add, ih, Finset.sum_range_succ, Nat.mul_comm m n]

theorem tiles_sum_eq (g : Nat → Nat → M) :
    ∑ wid ∈ Finset.range 32, ∑ l ∈ Finset.range 16,
        ((∑ v ∈ Finset.range 256, g (16 * wid + v / 16) (32 * (v % 16) + l))
          + ∑ v ∈ Finset.range 256, g (16 * wid + v / 16) (32 * (v % 16) + (l + 16)))
      = ∑ h ∈ Finset.range 512, ∑ w ∈ Finset.range 512, g h w := by
  have hv : ∀ (φ : Nat → Nat → M), ∑ v ∈ Finset.range 256, φ (v / 16) (v % 16)
      = ∑ r ∈ Finset.range 16, ∑ q ∈ Finset.range 16, φ r q := by
    intro φ
    rw [show (256 : Nat) = 16 * 16 from rfl, sum_range_mul']
    refine Finset.sum_congr rfl fun r _ => Finset.sum_congr rfl fun q hq => ?_
    have hq' : q < 16 := Finset.mem_range.mp hq
    rw [show (16 * r + q) / 16 = r by omega, show (16 * r + q) % 16 = q by omega]
  rw [show (512 : Nat) = 32 * 16 from rfl, sum_range_mul']
  refine Finset.sum_congr rfl fun wid _ => ?_
  have hw : ∀ h : Nat, ∑ w ∈ Finset.range (32 * 16), g h w
      = ∑ q ∈ Finset.range 16, ((∑ l ∈ Finset.range 16, g h (32 * q + l)) + ∑ l ∈ Finset.range 16, g h (32 * q + (l + 16))) := by
    intro h
    rw [show 32 * 16 = 16 * 32 from rfl, sum_range_mul']
    refine Finset.sum_congr rfl fun q _ => ?_
    rw [show (32 : Nat) = 16 + 16 from rfl, Finset.sum_range_add]
    refine congrArg _ (Finset.sum_congr rfl fun l _ => ?_)
    rw [Nat.add_comm 16 l]
  simp only [hw]
  rw [Finset.sum_congr rfl fun l _ => congrArg₂ (· + ·)
    (hv fun r q => g (16 * wid + r) (32 * q + l)) (hv fun r q => g (16 * wid + r) (32 * q + (l + 16)))]
  simp only [Finset.sum_add_distrib]
  congr 1
  · rw [Finset.sum_comm]
    refine Finset.sum_congr rfl fun r _ => ?_
    rw [Finset.sum_comm]
  · rw [Finset.sum_comm]
    refine Finset.sum_congr rfl fun r _ => ?_
    rw [Finset.sum_comm]

theorem tiles_sum_fin (f : Fin 512 → Fin 512 → M) :
    ∑ wid : Fin 32, ∑ l : Fin 16,
        ((∑ v ∈ Finset.range 256, f (fin512 (16 * wid.val + v / 16)) (fin512 (32 * (v % 16) + l.val)))
          + ∑ v ∈ Finset.range 256, f (fin512 (16 * wid.val + v / 16)) (fin512 (32 * (v % 16) + (l.val + 16))))
      = ∑ h : Fin 512, ∑ w : Fin 512, f h w := by
  have hfin : ∀ i : Fin 512, fin512 i.val = i := fun i => Fin.ext (Nat.mod_eq_of_lt i.isLt)
  have e := tiles_sum_eq fun h w => f (fin512 h) (fin512 w)
  rw [← Fin.sum_univ_eq_sum_range (fun wid => ∑ l ∈ Finset.range 16,
        ((∑ v ∈ Finset.range 256, f (fin512 (16 * wid + v / 16)) (fin512 (32 * (v % 16) + l)))
          + ∑ v ∈ Finset.range 256, f (fin512 (16 * wid + v / 16)) (fin512 (32 * (v % 16) + (l + 16))))) 32,
    ← Fin.sum_univ_eq_sum_range (fun h => ∑ w ∈ Finset.range 512, f (fin512 h) (fin512 w)) 512] at e
  refine Eq.trans (Finset.sum_congr rfl fun wid _ => ?_) (e.trans (Finset.sum_congr rfl fun h _ => ?_))
  · exact Fin.sum_univ_eq_sum_range (fun l => (∑ v ∈ Finset.range 256, f (fin512 (16 * wid.val + v / 16)) (fin512 (32 * (v % 16) + l)))
          + ∑ v ∈ Finset.range 256, f (fin512 (16 * wid.val + v / 16)) (fin512 (32 * (v % 16) + (l + 16)))) 16
  · rw [← Fin.sum_univ_eq_sum_range (fun w => f (fin512 h.val) (fin512 w)) 512]
    exact Finset.sum_congr rfl fun w _ => by rw [hfin, hfin]

end Reindex

variable (P : Cert.MathSpec.SP.Idx → EReal) (T : Cert.MathSpec.ST.Idx → BitVec 32)

theorem tileNom_sum (b : Fin 8) (c : Fin 19) :
    ∑ wid : Fin 32, ∑ l : Fin 16, tileNom (F := Ideal) P T b c wid.val l.val = nom P T b c := by
  unfold nom
  rw [← tiles_sum_fin fun h w => P (ix4 b c h w) * ind T b c h w]
  refine Finset.sum_congr rfl fun wid _ => Finset.sum_congr rfl fun l _ => ?_
  unfold tileNom
  rw [accum_eq_sum, accum_eq_sum]
  refine congrArg₂ (· + ·) (Finset.sum_congr rfl fun v _ => ?_) (Finset.sum_congr rfl fun v _ => ?_) <;>
  · unfold gNom pAt tAt ind
    rw [m01_eq]; rfl

theorem tileIsum_sum (b : Fin 8) (c : Fin 19) :
    ∑ wid : Fin 32, ∑ l : Fin 16, tileIsum (F := Ideal) P b c wid.val l.val = isum P b c := by
  unfold isum
  rw [← tiles_sum_fin fun h w => P (ix4 b c h w)]
  refine Finset.sum_congr rfl fun wid _ => Finset.sum_congr rfl fun l _ => ?_
  unfold tileIsum
  rw [accum_eq_sum, accum_eq_sum]
  rfl

theorem tileTsum_sum (b : Fin 8) (c : Fin 19) :
    ∑ wid : Fin 32, ∑ l : Fin 16, tileTsum (F := Ideal) T b c wid.val l.val = Cert.MathSpec.tsum T b c := by
  unfold Cert.MathSpec.tsum
  rw [← tiles_sum_fin fun h w => ind T b c h w]
  refine Finset.sum_congr rfl fun wid _ => Finset.sum_congr rfl fun l _ => ?_
  unfold tileTsum
  rw [accum_eq_sum, accum_eq_sum]
  refine congrArg₂ (· + ·) (Finset.sum_congr rfl fun v _ => ?_) (Finset.sum_congr rfl fun v _ => ?_) <;>
  · unfold gTsum tAt ind
    rw [m01_eq]

section Families
variable {P T} {out0 : Cert.SpecSC.SO.Idx → Ideal .f32}

theorem pair_of (i : Fin 2) (c : Fin 19) (hj : 19 * i.val + c.val < 38) :
    pairB ⟨19 * i.val + c.val, hj⟩ = ⟨6 + i.val, by omega⟩ ∧ pairC ⟨19 * i.val + c.val, hj⟩ = c := by
  constructor
  · apply Fin.ext; show 6 + (19 * i.val + c.val) / 19 = 6 + i.val; omega
  · apply Fin.ext; show (19 * i.val + c.val) % 19 = c.val; omega

theorem nom_family (h : SpecSC (F := Ideal) P T out0) (i : Fin 2) (c : Fin 19) :
    ∑ wid : Fin 32, ∑ l : Fin 16, out0 (ix1 (fin61440 (wid.val * 1920 + (0 * 40 + (19 * i.val + c.val)) * 16 + l.val)))
      = nom P T ⟨6 + i.val, by omega⟩ c := by
  have hj : 19 * i.val + c.val < 38 := by omega
  obtain ⟨hB, hC⟩ := pair_of i c hj
  rw [← tileNom_sum]
  refine Finset.sum_congr rfl fun wid _ => Finset.sum_congr rfl fun l _ => ?_
  have e := (h wid ⟨19 * i.val + c.val, hj⟩ l).1
  rw [hB, hC] at e
  exact e

theorem isum_family (h : SpecSC (F := Ideal) P T out0) (i : Fin 2) (c : Fin 19) :
    ∑ wid : Fin 32, ∑ l : Fin 16, out0 (ix1 (fin61440 (wid.val * 1920 + (1 * 40 + (19 * i.val + c.val)) * 16 + l.val)))
      = isum P ⟨6 + i.val, by omega⟩ c := by
  have hj : 19 * i.val + c.val < 38 := by omega
  obtain ⟨hB, hC⟩ := pair_of i c hj
  rw [← tileIsum_sum]
  refine Finset.sum_congr rfl fun wid _ => Finset.sum_congr rfl fun l _ => ?_
  have e := (h wid ⟨19 * i.val + c.val, hj⟩ l).2.1
  rw [hB, hC] at e
  exact e

theorem tsum_family (h : SpecSC (F := Ideal) P T out0) (i : Fin 2) (c : Fin 19) :
    ∑ wid : Fin 32, ∑ l : Fin 16, out0 (ix1 (fin61440 (wid.val * 1920 + (2 * 40 + (19 * i.val + c.val)) * 16 + l.val)))
      = Cert.MathSpec.tsum T ⟨6 + i.val, by omega⟩ c := by
  have hj : 19 * i.val + c.val < 38 := by omega
  obtain ⟨hB, hC⟩ := pair_of i c hj
  rw [← tileTsum_sum]
  refine Finset.sum_congr rfl fun wid _ => Finset.sum_congr rfl fun l _ => ?_
  have e := (h wid ⟨19 * i.val + c.val, hj⟩ l).2.2
  rw [hB, hC] at e
  exact e

end Families

section Tail
variable {P T} [Cert.KernelIdeal.Facts]
open Cert.KernelIdeal Cert.KernelIdeal.Facts₀ Cert.KernelIdeal.Tail

theorem scTail_eq {out0 : FVec Ideal S61440 .f32} (h : SpecSC (F := Ideal) P T out0) (i : Fin 2) :
    scTail (F := Ideal) out0 (ix1 i) = loss P T ⟨6 + i.val, by have := i.isLt; omega⟩ :=
  Cert.AlgSCTail.scTail_of_sums P T out0 (fun i c => nom_family h i c) (fun i c => isum_family h i c)
    (fun i c => tsum_family h i c) i

end Tail

end Cert.AlgSC

end
-- ==== Proof.AlgTC.lean ====
import proofs.«216000_g43989055045728_cont_8to1_b_1827_23_alg».proof.Proof.MathSpec
import proofs.«216000_g43989055045728_cont_8to1_b_1827_23_alg».proof.Proof.SpecTC
import proofs.«216000_g43989055045728_cont_8to1_b_1827_23_alg».proof.Proof.Tail
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.AlgTC

open Idealize.ShloMosaic Idealize.ShloMosaic.ValueIdx
open Cert.KernelIdeal Cert.KernelIdeal.SpecTC
open Cert.KernelIdeal.Facts₀ Cert.KernelIdeal.Facts
open scoped BigOperators

variable [Cert.KernelIdeal.Facts]

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_two : Ideal.ofBits .f32 0x40000000#32 = 2 := by
  have h : Ideal.ofBits .f32 0x40000000#32 = ((2 : ℝ) : EReal) := by
    simp [Ideal.ofBits, Ideal.ieee, -EReal.coe_mul]; norm_num
  rw [h]; norm_cast

theorem ofBits_nineteen : Ideal.ofBits .f32 0x41980000#32 = ((19 : ℝ) : EReal) := by
  simp [Ideal.ofBits, Ideal.ieee, -EReal.coe_mul]; norm_num

theorem coe_nineteen : ((19 : ℝ) : EReal) = 19 := by norm_cast

theorem zero_sub_div_nineteen (x : EReal) :
    Ideal.div (0 - x) ((19 : ℝ) : EReal) = -(Ideal.div x 19) := by
  rw [← coe_nineteen, Ideal.div_coe (by norm_num : (19 : ℝ) ≠ 0), Ideal.div_coe (by norm_num : (19 : ℝ) ≠ 0),
    zero_sub, EReal.neg_mul]

theorem select_cmpi_eq {α : Type} (t c : BitVec 32) (a b : α) :
    Scalar.select (IntOp.cmpi .eq t c) a b = if t = c then a else b := by
  show (if BitVec.ofBool (t == c) = 1#1 then a else b) = _
  by_cases h : t = c
  · subst h; simp
  · have hb : (t == c) = false := by simpa using h
    rw [if_neg h, hb]
    exact if_neg (by decide)

def slabRow (g : Fin 32) (r : Fin 8) : Fin 256 :=
  ⟨8 * g.val + r.val, by have := g.isLt; have := r.isLt; omega⟩

def rowOf (s : Fin 2) (g : Fin 32) (r : Fin 8) : Fin 512 :=
  ⟨256 * s.val + 8 * g.val + r.val, by have := s.isLt; have := g.isLt; have := r.isLt; omega⟩

def rowEquiv : Fin 2 × Fin 32 × Fin 8 ≃ Fin 512 where
  toFun x := rowOf x.1 x.2.1 x.2.2
  invFun h := (⟨h.val / 256, by have := h.isLt; omega⟩, ⟨h.val % 256 / 8, by have := h.isLt; omega⟩, ⟨h.val % 8, by omega⟩)
  left_inv x := by
    obtain ⟨s, g, r⟩ := x
    have := s.isLt; have := g.isLt; have := r.isLt
    refine Prod.ext (Fin.ext ?_) (Prod.ext (Fin.ext ?_) (Fin.ext ?_)) <;> simp only [rowOf] <;> omega
  right_inv h := by
    have := h.isLt
    refine Fin.ext ?_
    simp only [rowOf]
    omega

theorem sum_rows {M : Type*} [AddCommMonoid M] (G : Fin 512 → M) :
    ∑ h : Fin 512, G h = ∑ r : Fin 8, (∑ g : Fin 32, G (rowOf 0 g r) + ∑ g : Fin 32, G (rowOf 1 g r)) := by
  rw [← Equiv.sum_comp rowEquiv G, Fintype.sum_prod_type, Fin.sum_univ_two]
  simp only [Fintype.sum_prod_type]
  rw [Finset.sum_comm, Finset.sum_comm (f := fun (g : Fin 32) (r : Fin 8) => G (rowEquiv (1, g, r))), ← Finset.sum_add_distrib]
  rfl

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

theorem fold8_apply (x : FVec Ideal S256x512 .f32) (r : Fin 8) (w : Fin 512) :
    fold8 x (ix2 r w) = ∑ g : Fin 32, x (ix2 (slabRow g r) w) := by
  unfold fold8
  refine (Ideal.multiReduction_add_single _ _ reduces_S32x8x512_S8x512 _ _ (ix2 r w)).trans ?_
  refine Finset.sum_congr rfl fun g _ => ?_
  refine shapeCast_apply x shapeCasts_S256x512_S32x8x512 _ (ix2 (slabRow g r) w) ?_
  rw [Shape.rowMajor_val_two, Shape.rowMajor_val_three]
  show (8 * g.val + r.val) * 512 + w.val = (g.val * 8 + r.val) * 512 + w.val
  omega

theorem perClass_apply (acc : FVec Ideal S19x8x512 .f32) (c : Fin 19) :
    perClass acc (ix1 c) = ∑ r : Fin 8, ∑ w : Fin 512, acc (ix3 c r w) := by
  have hd : ∀ (c' : Fin 19) (r : Fin 8) (w : Fin 512),
      (reduces_S19x8x512_S19.drop (ix3 c' r w) ⟨0, by decide⟩).val = c'.val := fun c' r w =>
    Shape.Reduces.drop_apply_val_of_eq reduces_S19x8x512_S19 (ix3 c' r w) ⟨0, by decide⟩ ⟨0, by decide⟩
  show Ideal.reduceAdd reduces_S19x8x512_S19 acc (ix1 c) = _
  unfold Ideal.reduceAdd
  rw [Finset.sum_filter, sum_idx3, Finset.sum_eq_single c]
  · refine Finset.sum_congr rfl fun r _ => Finset.sum_congr rfl fun w _ => if_pos ?_
    funext a
    match a with
    | ⟨0, _⟩ => exact Fin.ext (hd c r w)
  · intro c' _ hne
    refine Finset.sum_eq_zero fun r _ => Finset.sum_eq_zero fun w _ => if_neg ?_
    intro he
    have h2 : (reduces_S19x8x512_S19.drop (ix3 c' r w) ⟨0, by decide⟩).val = (ix1 c (⟨0, by decide⟩ : Fin 1)).val := by
      rw [he]
    rw [hd] at h2
    exact hne (Fin.ext h2)
  · intro hc; exact absurd (Finset.mem_univ c) hc

theorem laneSum_eq (x : FVec Ideal S19 .f32) : laneSum x = ∑ c : Fin 19, x (ix1 c) := by
  unfold laneSum extractAt
  refine (shapeCast_apply _ shapeCasts_S1_S1x1 _ (ix1 (0 : Fin 1)) ?_).trans ?_
  · rw [Shape.rowMajor_val_one, Shape.rowMajor_val_two]; rfl
  refine (Ideal.multiReduction_add_single _ _ reduces_S1x19_S1 _ _ (ix1 (0 : Fin 1))).trans ?_
  refine Finset.sum_congr rfl fun k _ => ?_
  refine shapeCast_apply x shapeCasts_S19_S1x19 _ (ix1 k) ?_
  rw [Shape.rowMajor_val_one, Shape.rowMajor_val_two]
  show k.val = 0 * 19 + k.val
  omega

theorem acc1_apply (p0 p1 : Fin 19 → FVec Ideal S8x512 .f32) (c : Fin 19) (r : Fin 8) (w : Fin 512) :
    acc1 p0 p1 (ix3 c r w) = p0 c (ix2 r w) + p1 c (ix2 r w) := by
  show (Ideal.ofBits .f32 0x00000000#32 + p0 c (ix2 r w)) + p1 c (ix2 r w) = _
  rw [ofBits_zero, zero_add]

theorem perClass_acc1 (p0 p1 : Fin 19 → FVec Ideal S8x512 .f32) (c : Fin 19) (G : Fin 512 → Fin 512 → EReal)
    (h0 : ∀ (r : Fin 8) (w : Fin 512), p0 c (ix2 r w) = ∑ g : Fin 32, G (rowOf 0 g r) w)
    (h1 : ∀ (r : Fin 8) (w : Fin 512), p1 c (ix2 r w) = ∑ g : Fin 32, G (rowOf 1 g r) w) :
    perClass (acc1 p0 p1) (ix1 c) = ∑ h : Fin 512, ∑ w : Fin 512, G h w := by
  have hr : ∀ r : Fin 8, ∑ w : Fin 512, acc1 p0 p1 (ix3 c r w)
      = ∑ g : Fin 32, ∑ w : Fin 512, G (rowOf 0 g r) w + ∑ g : Fin 32, ∑ w : Fin 512, G (rowOf 1 g r) w := by
    intro r
    calc ∑ w : Fin 512, acc1 p0 p1 (ix3 c r w)
        = ∑ w : Fin 512, (∑ g : Fin 32, G (rowOf 0 g r) w + ∑ g : Fin 32, G (rowOf 1 g r) w) :=
          Finset.sum_congr rfl fun w _ => by rw [acc1_apply, h0, h1]
      _ = ∑ w : Fin 512, ∑ g : Fin 32, G (rowOf 0 g r) w + ∑ w : Fin 512, ∑ g : Fin 32, G (rowOf 1 g r) w :=
          Finset.sum_add_distrib
      _ = _ := by
          rw [Finset.sum_comm, Finset.sum_comm (f := fun (w : Fin 512) (g : Fin 32) => G (rowOf 1 g r) w)]
  rw [perClass_apply, sum_rows (fun h => ∑ w : Fin 512, G h w)]
  exact Finset.sum_congr rfl fun r _ => hr r

section Arrays

variable (P : FVec Ideal S8x19x512x512 .f32) (T : IVec S8x512x512 32)

theorem predBlock_apply (b : Fin 8) (s : Fin 2) (c : Fin 19) (g : Fin 32) (r : Fin 8) (w : Fin 512) :
    predBlock P b s c (ix2 (slabRow g r) w) = P (ix4 b c (rowOf s g r) w) :=
  congrArg (fun h => P (ix4 b c h w)) (Fin.ext (by
    show 256 * s.val + (8 * g.val + r.val) = 256 * s.val + 8 * g.val + r.val
    omega))

theorem tgtBlock_apply (b : Fin 8) (s : Fin 2) (g : Fin 32) (r : Fin 8) (w : Fin 512) :
    tgtBlock T b s (ix2 (slabRow g r) w) = T (ix3 b (rowOf s g r) w) :=
  congrArg (fun h => T (ix3 b h w)) (Fin.ext (by
    show 256 * s.val + (8 * g.val + r.val) = 256 * s.val + 8 * g.val + r.val
    omega))

theorem nomParts_apply (b : Fin 8) (s : Fin 2) (c : Fin 19) (r : Fin 8) (w : Fin 512) :
    nomParts (predBlock P b s) (tgtBlock T b s) c (ix2 r w)
      = ∑ g : Fin 32, P (ix4 b c (rowOf s g r) w) * Cert.MathSpec.ind T b c (rowOf s g r) w := by
  show fold8 _ (ix2 r w) = _
  rw [fold8_apply]
  refine Finset.sum_congr rfl fun g _ => ?_
  show Scalar.select (IntOp.cmpi .eq (tgtBlock T b s (ix2 (slabRow g r) w)) (cls c))
    (predBlock P b s c (ix2 (slabRow g r) w)) (Ideal.ofBits .f32 0x00000000#32) = _
  rw [select_cmpi_eq, predBlock_apply, tgtBlock_apply, ofBits_zero]
  unfold Cert.MathSpec.ind cls
  split_ifs
  · rw [mul_one]
  · rw [mul_zero]

theorem isumParts_apply (b : Fin 8) (s : Fin 2) (c : Fin 19) (r : Fin 8) (w : Fin 512) :
    isumParts (predBlock P b s) c (ix2 r w) = ∑ g : Fin 32, P (ix4 b c (rowOf s g r) w) := by
  show fold8 _ (ix2 r w) = _
  rw [fold8_apply]
  exact Finset.sum_congr rfl fun g _ => predBlock_apply P b s c g r w

theorem tsumParts_apply (b : Fin 8) (s : Fin 2) (c : Fin 19) (r : Fin 8) (w : Fin 512) :
    tsumParts (F := Ideal) (tgtBlock T b s) c (ix2 r w) = ∑ g : Fin 32, Cert.MathSpec.ind T b c (rowOf s g r) w := by
  show fold8 _ (ix2 r w) = _
  rw [fold8_apply]
  refine Finset.sum_congr rfl fun g _ => ?_
  show Scalar.select (IntOp.cmpi .eq (tgtBlock T b s (ix2 (slabRow g r) w)) (cls c))
    (Ideal.ofBits .f32 0x3F800000#32) (Ideal.ofBits .f32 0x00000000#32) = _
  rw [select_cmpi_eq, tgtBlock_apply, ofBits_zero, ofBits_one]
  rfl

theorem nom_eq (b : Fin 8) (c : Fin 19) : perClass (nomAcc P T b) (ix1 c) = Cert.MathSpec.nom P T b c :=
  perClass_acc1 _ _ c (fun h w => P (ix4 b c h w) * Cert.MathSpec.ind T b c h w)
    (nomParts_apply P T b 0 c) (nomParts_apply P T b 1 c)

theorem isum_eq (b : Fin 8) (c : Fin 19) : perClass (isumAcc P b) (ix1 c) = Cert.MathSpec.isum P b c :=
  perClass_acc1 _ _ c (fun h w => P (ix4 b c h w)) (isumParts_apply P b 0 c) (isumParts_apply P b 1 c)

theorem tsum_eq (b : Fin 8) (c : Fin 19) : perClass (tsumAcc (F := Ideal) T b) (ix1 c) = Cert.MathSpec.tsum T b c :=
  perClass_acc1 _ _ c (fun h w => Cert.MathSpec.ind T b c h w) (tsumParts_apply T b 0 c) (tsumParts_apply T b 1 c)

theorem frac_apply (nom isum tsum : FVec Ideal S19 .f32) (c : Fin 19) :
    SpecTC.frac nom isum tsum (ix1 c)
      = Ideal.div (2 * nom (ix1 c) + 1) (isum (ix1 c) + tsum (ix1 c) + 1) := by
  show Ideal.div (Ideal.ofBits .f32 0x40000000#32 * nom (ix1 c) + Ideal.ofBits .f32 0x3F800000#32)
    (isum (ix1 c) + tsum (ix1 c) + Ideal.ofBits .f32 0x3F800000#32) = _
  rw [ofBits_two, ofBits_one]

theorem loss_eq (b : Fin 8) : SpecTC.loss (F := Ideal) P T b = Cert.MathSpec.loss P T b := by
  show Ideal.div (Ideal.ofBits .f32 0x00000000#32
      - laneSum (SpecTC.frac (perClass (nomAcc P T b)) (perClass (isumAcc P b)) (perClass (tsumAcc (F := Ideal) T b))))
    (Ideal.ofBits .f32 0x41980000#32) = _
  rw [ofBits_zero, ofBits_nineteen, zero_sub_div_nineteen, laneSum_eq]
  unfold Cert.MathSpec.loss
  refine congrArg (fun s => -(Ideal.div s 19)) (Finset.sum_congr rfl fun c _ => ?_)
  rw [frac_apply, nom_eq, isum_eq, tsum_eq]
  rfl

theorem tc_eq {out1 : FVec Ideal S6x1x128 .f32} (h : SpecTC P T out1) (b : Fin 6) (lane : Fin 128) :
    out1 (ix3 b 0 lane) = Cert.MathSpec.loss P T ⟨b.val, by have := b.isLt; omega⟩ :=
  (h b lane).trans (loss_eq P T _)

end Arrays

theorem tcTail_apply (out1 : FVec Ideal S6x1x128 .f32) (b : Fin 6) :
    Tail.tcTail out1 (ix1 b) = out1 (ix3 b 0 0) := by
  unfold Tail.tcTail
  refine (shapeCast_apply _ shapeCasts_S6x1x1_S6 _ (ix3 b (0 : Fin 1) (0 : Fin 1)) ?_).trans ?_
  · rw [Shape.rowMajor_val_three, Shape.rowMajor_val_one]
    show (b.val * 1 + 0) * 1 + 0 = b.val
    omega
  refine extractStridedSlice_apply _ out1 slices_S6x1x128_S6x1x1_0_0_0 _ (ix3 b 0 0) fun a => ?_
  match a with
  | ⟨0, _⟩ => exact (Nat.zero_add _).symm
  | ⟨1, _⟩ => exact (Nat.zero_add _).symm
  | ⟨2, _⟩ => exact (Nat.zero_add _).symm

theorem tcTail_eq {P : FVec Ideal S8x19x512x512 .f32} {T : IVec S8x512x512 32} {out1 : FVec Ideal S6x1x128 .f32}
    (h : SpecTC P T out1) (b : Fin 6) :
    Tail.tcTail (F := Ideal) out1 (ix1 b) = Cert.MathSpec.loss P T ⟨b.val, by have := b.isLt; omega⟩ :=
  (tcTail_apply out1 b).trans (tc_eq P T h b 0)

end Cert.AlgTC

end
-- ==== Proof.Bridge.lean ====
import proofs.«216000_g43989055045728_cont_8to1_b_1827_23_alg».proof.Proof.Tail
import proofs.«216000_g43989055045728_cont_8to1_b_1827_23_alg».proof.Proof.MathSpec
import Idealize.ShloMosaic.PureOps.Ideal
import Idealize.ShloMosaic.Lib.ValueIdx
import Idealize.ShloMosaic.Lib.Pipeline.Value

noncomputable section

namespace Cert.Bridge

open Idealize.ShloMosaic Idealize.ShloMosaic.ValueIdx Cert.KernelIdeal

variable [Cert.KernelIdeal.Facts]
open Cert.KernelIdeal.Facts₀ Cert.KernelIdeal.Facts

theorem tailOf_eq (P : Cert.MathSpec.SP.Idx → EReal) (T : Cert.MathSpec.ST.Idx → BitVec 32)
    (out0 : FVec Ideal S61440 .f32) (out1 : FVec Ideal S6x1x128 .f32)
    (hsc : ∀ i : Fin 2, Tail.scTail (F := Ideal) out0 (ix1 i) = Cert.MathSpec.loss P T ⟨6 + i.val, by omega⟩)
    (htc : ∀ b : Fin 6, Tail.tcTail (F := Ideal) out1 (ix1 b) = Cert.MathSpec.loss P T ⟨b.val, by omega⟩) :
    Tail.tailOf (F := Ideal) out0 out1 = fun i : S8.Idx => Cert.MathSpec.loss P T (i 0) := by
  funext i
  obtain ⟨b, rfl⟩ : ∃ b : Fin 8, i = ix1 b := ⟨i 0, eq_ix1 i⟩
  unfold Tail.tailOf
  by_cases hb : b.val < 6
  · rw [concatenate_pair_apply_left (0 : Fin S8.rank) _ _ concatenates_S6_S2_S8_d0 (ix1 b) rfl (ix1 (⟨b.val, hb⟩ : Fin 6))
      (fun c => by match c with | ⟨0, _⟩ => rfl)]
    rw [htc ⟨b.val, hb⟩]
  · have hb2 : b.val - 6 < 2 := by omega
    rw [concatenate_pair_apply_right (0 : Fin S8.rank) _ _ concatenates_S6_S2_S8_d0 (ix1 b) rfl rfl (ix1 (⟨b.val - 6, hb2⟩ : Fin 2))
      (fun c hc => by match c with | ⟨0, _⟩ => exact absurd rfl hc)
      (by show (b.val - 6) + 6 = b.val; omega)]
    rw [hsc ⟨b.val - 6, hb2⟩]
    show Cert.MathSpec.loss P T ⟨6 + (b.val - 6), _⟩ = Cert.MathSpec.loss P T b
    congr 1
    apply Fin.ext
    show 6 + (b.val - 6) = b.val
    omega

end Cert.Bridge

end
-- ==== Proof.lean ====
import proofs.«216000_g43989055045728_cont_8to1_b_1827_23_alg».proof.Defs
import proofs.«216000_g43989055045728_cont_8to1_b_1827_23_alg».proof.Proof.Gen.Kernel
import proofs.«216000_g43989055045728_cont_8to1_b_1827_23_alg».proof.Proof.Gen.KernelIdeal
import proofs.«216000_g43989055045728_cont_8to1_b_1827_23_alg».proof.Proof.Gen.ReferenceIdeal
import proofs.«216000_g43989055045728_cont_8to1_b_1827_23_alg».proof.Proof.Gen.Pre_input_domain
import proofs.«216000_g43989055045728_cont_8to1_b_1827_23_alg».proof.Proof.Run
import proofs.«216000_g43989055045728_cont_8to1_b_1827_23_alg».proof.Proof.KW.Run
import proofs.«216000_g43989055045728_cont_8to1_b_1827_23_alg».proof.Proof.RefSide
import proofs.«216000_g43989055045728_cont_8to1_b_1827_23_alg».proof.Proof.AlgSC
import proofs.«216000_g43989055045728_cont_8to1_b_1827_23_alg».proof.Proof.AlgTC
import proofs.«216000_g43989055045728_cont_8to1_b_1827_23_alg».proof.Proof.Bridge

noncomputable section

namespace Cert.Proof

open Idealize.ShloMosaic Idealize.SL.Sem

theorem frame_k : Cert.frame_Kernel (hKernel := Cert.Kernel.Gen.facts) (hPre_input_domain := Cert.Pre_input_domain.Gen.facts) :=
  fun m ρ _ => (θ_run (Cert.Kernel.defs (F := Bits)) _ _).mono (fun _ h c => ⟨(h c).2.1, (h c).2.2⟩)
    (Cert.Kernel.Run.run (F := Bits) m ρ)

theorem frame_ki : Cert.frame_KernelIdeal (hKernelIdeal := Cert.KernelIdeal.Gen.facts) (hPre_input_domain := Cert.Pre_input_domain.Gen.facts) :=
  fun m ρ _ => (θ_run (Cert.KernelIdeal.defs (F := Ideal)) _ _).mono (fun _ h c => ⟨(h c).2.1, (h c).2.2⟩)
    (Cert.KernelIdeal.Run.run (F := Ideal) m ρ)

theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' _ hagree
  refine ⟨fun c => fun i => Cert.MathSpec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (i 0), ?_, ?_⟩
  · refine (θ_run (Cert.KernelIdeal.defs (F := Ideal)) _ _).mono (fun r h c => ?_) (Cert.KernelIdeal.Run.run (F := Ideal) m ρ)
    obtain ⟨⟨out0, out1, h0, h1, hv⟩, ha0, ha1⟩ := h c
    refine ⟨hv.trans ?_, ha0, ha1⟩
    exact Cert.Bridge.tailOf_eq _ _ out0 out1 (fun i => Cert.AlgSC.scTail_eq h0 i) (fun b => Cert.AlgTC.tcTail_eq h1 b)
  · refine (θ_run (Cert.ReferenceIdeal.defs (F := Ideal)) _ _).mono (fun r h c => ?_) (Cert.ReferenceIdeal.RefSide.ref_run m' ρ')
    obtain ⟨hv, ha0, ha1⟩ := h c
    refine ⟨hv.trans ?_, ha0, ha1⟩
    show (fun i : Cert.ReferenceIdeal.S8.Idx => Cert.MathSpec.loss
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) (i 0))
      = fun i => Cert.MathSpec.loss
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (i 0)
    rw [(hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, Cert.ReferenceIdeal.RefSide.ref_frame, trivial, algebraic⟩

end Cert.Proof

end
